-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S384x40 : Shape := ⟨2, ![384, 40]⟩
abbrev S40 : Shape := ⟨1, ![40]⟩
abbrev S_ : Shape := ⟨0, ![]⟩
abbrev S1x600000 : Shape := ⟨2, ![1, 600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x40 : S_.BroadcastsInDim S384x40 (![] : Fin 0 → Fin S384x40.rank)
  reducesTo_S384x40_S_d0_1 : S384x40.ReducesTo [0, 1] S_
  bcast_S_S40 : S_.BroadcastsInDim S40 (![] : Fin 0 → Fin S40.rank)
  reducesTo_S40_S_d0 : S40.ReducesTo [0] S_
  slices_S2x600000_S1x600000_1_0 : S2x600000.Slices ![1, 0] S1x600000
  shapeCasts_S1x600000_S600000 : S1x600000.ShapeCasts S600000

variable [Facts]

def fn_part4 {F : FTy → Type} [FloatOps F] (main_arg1 : IVec S2x600000 32) (main_v63 : IVec S_ 1) (main_v67 : IVec S600000 1) (main_c_25 : IVec S_ 1) : IVec S_ 1 :=
  let main_v68 : IVec S_ 1 := (fun x v => Host.reduce IntOp.andi x v reducesTo_S600000_S_d0 h_S_) main_v67 main_c_25
  let main_v69 : IVec S_ 1 := andi main_v63 main_v68
  let main_v70 : IVec S1x600000 32 := (extractStridedSlice S1x600000 ![1, 0] · slices_S2x600000_S1x600000_1_0) main_arg1
  let main_v71 : IVec S600000 32 := shapeCast S600000 main_v70 shapeCasts_S1x600000_S600000
  let main_c_26 : IVec S_ 32 := constantI S_ 32 50000#32
  let main_v72 : IVec S600000 32 := broadcastInDim S600000 ![] bcast_S_S600000 main_c_26
  let main_v73 : IVec S600000 1 := cmpi .slt main_v71 main_v72
  let main_c_27 : IVec S_ 1 := constantI S_ 1 1#1
  let main_v74 : IVec S_ 1 := (fun x v => Host.reduce IntOp.andi x v reducesTo_S600000_S_d0 h_S_) main_v73 main_c_27
  let main_v75 : IVec S_ 1 := andi main_v69 main_v74
  main_v75

def fn_part3 {F : FTy → Type} [FloatOps F] (main_arg1 : IVec S2x600000 32) (main_arg12 : FVec F S384x40 .f32) (main_arg13 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S384x40 .f32 := Host.absf main_arg12
  let main_cst_20 : FVec F S_ .f32 := constant S_ .f32 0x7F800000#32
  let main_v55 : FVec F S384x40 .f32 := broadcastInDim S384x40 ![] bcast_S_S384x40 main_cst_20
  let main_v56 : IVec S384x40 1 := cmpf .olt main_v54 main_v55
  let main_c_21 : IVec S_ 1 := constantI S_ 1 1#1
  let main_v57 : IVec S_ 1 := (fun x v => Host.reduce IntOp.andi x v reducesTo_S384x40_S_d0_1 h_S_) main_v56 main_c_21
  let main_v58 : IVec S_ 1 := andi main_v53 main_v57
  let main_v59 : FVec F S40 .f32 := Host.absf main_arg13
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  let main_v64 : IVec S1x600000 32 := (extractStridedSlice S1x600000 ![1, 0] · slices_S2x600000_S1x600000_1_0) main_arg1
  let main_v65 : IVec S600000 32 := shapeCast S600000 main_v64 shapeCasts_S1x600000_S600000
  let main_c_24 : IVec S_ 32 := constantI S_ 32 0#32
  let main_v66 : IVec S600000 32 := broadcastInDim S600000 ![] bcast_S_S600000 main_c_24
  let main_v67 : IVec S600000 1 := cmpi .sge main_v65 main_v66
  let main_c_25 : IVec S_ 1 := constantI S_ 1 1#1
  fn_part4 (F := F) main_arg1 main_v63 main_v67 main_c_25

def fn_part2 {F : FTy → Type} [FloatOps F] (main_arg1 : IVec S2x600000 32) (main_arg8 : FVec F S128 .f32) (main_arg9 : FVec F S128x128 .f32) (main_arg10 : FVec F S128x128 .f32) (main_arg11 : FVec F S128 .f32) (main_arg12 : FVec F S384x40 .f32) (main_arg13 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_v48 main_v49 main_v50

def fn_part1 {F : FTy → Type} [FloatOps F] (main_arg1 : IVec S2x600000 32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S384x40 .f32) (main_arg13 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S50000x128 .f32) (main_arg1 : IVec S2x600000 32) (main_arg2 : FVec F S600000 .f32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S384x40 .f32) (main_arg13 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_arg12 main_arg13 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S384x40 : Shape := ⟨2, ![384, 40]⟩
abbrev S40 : Shape := ⟨1, ![40]⟩
abbrev S1x600000 : Shape := ⟨2, ![1, 600000]⟩
abbrev S_ : Shape := ⟨0, ![]⟩
abbrev S2112 : Shape := ⟨1, ![2112]⟩
abbrev S602112 : Shape := ⟨1, ![602112]⟩
abbrev S602112x1 : Shape := ⟨2, ![602112, 1]⟩
abbrev S1x602112 : Shape := ⟨2, ![1, 602112]⟩
abbrev S50176x128 : Shape := ⟨2, ![50176, 128]⟩
abbrev S602112x128 : Shape := ⟨2, ![602112, 128]⟩
abbrev S4096x1 : Shape := ⟨2, ![4096, 1]⟩
abbrev S1024x128 : Shape := ⟨2, ![1024, 128]⟩
abbrev S4096x128 : Shape := ⟨2, ![4096, 128]⟩
abbrev S1x1024 : Shape := ⟨2, ![1, 1024]⟩
abbrev S4096x1024 : Shape := ⟨2, ![4096, 1024]⟩
abbrev S1x4096 : Shape := ⟨2, ![1, 4096]⟩
abbrev S1024x1 : Shape := ⟨2, ![1024, 1]⟩
abbrev S1024x4096 : Shape := ⟨2, ![1024, 4096]⟩
abbrev S1x128 : Shape := ⟨2, ![1, 128]⟩
abbrev S50000x384 : Shape := ⟨2, ![50000, 384]⟩
abbrev S50000x40 : Shape := ⟨2, ![50000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 80
  | .vmem => 75
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S384x40, .f32⟩
  | .hbm, ⟨13, _⟩ => ⟨S40, .f32⟩
  | .hbm, ⟨14, _⟩ => ⟨S1x600000, .i32⟩
  | .hbm, ⟨15, _⟩ => ⟨S600000, .i32⟩
  | .hbm, ⟨16, _⟩ => ⟨S1x600000, .i32⟩
  | .hbm, ⟨17, _⟩ => ⟨S600000, .i32⟩
  | .hbm, ⟨18, _⟩ => ⟨S_, .i32⟩
  | .hbm, ⟨19, _⟩ => ⟨S2112, .i32⟩
  | .hbm, ⟨20, _⟩ => ⟨S602112, .i32⟩
  | .hbm, ⟨21, _⟩ => ⟨S_, .i32⟩
  | .hbm, ⟨22, _⟩ => ⟨S2112, .i32⟩
  | .hbm, ⟨23, _⟩ => ⟨S602112, .i32⟩
  | .hbm, ⟨24, _⟩ => ⟨S_, .f32⟩
  | .hbm, ⟨25, _⟩ => ⟨S2112, .f32⟩
  | .hbm, ⟨26, _⟩ => ⟨S602112, .f32⟩
  | .hbm, ⟨27, _⟩ => ⟨S602112x1, .i32⟩
  | .hbm, ⟨28, _⟩ => ⟨S1x602112, .i32⟩
  | .hbm, ⟨29, _⟩ => ⟨S602112x1, .f32⟩
  | .hbm, ⟨30, _⟩ => ⟨S_, .i32⟩
  | .hbm, ⟨31, _⟩ => ⟨S_, .f32⟩
  | .hbm, ⟨32, _⟩ => ⟨S50176x128, .f32⟩
  | .hbm, ⟨33, _⟩ => ⟨S50176x128, .bf16⟩
  | .hbm, ⟨34, _⟩ => ⟨S602112x128, .bf16⟩
  | .hbm, ⟨35, _⟩ => ⟨S50176x128, .f32⟩
  | .hbm, ⟨36, _⟩ => ⟨S50176x128, .bf16⟩
  | .hbm, ⟨37, _⟩ => ⟨S128x128, .bf16⟩
  | .hbm, ⟨38, _⟩ => ⟨S128x128, .bf16⟩
  | .hbm, ⟨39, _⟩ => ⟨S1x128, .f32⟩
  | .hbm, ⟨40, _⟩ => ⟨S50176x128, .f32⟩
  | .hbm, ⟨41, _⟩ => ⟨S50176x128, .bf16⟩
  | .hbm, ⟨42, _⟩ => ⟨S602112x128, .bf16⟩
  | .hbm, ⟨43, _⟩ => ⟨S50176x128, .f32⟩
  | .hbm, ⟨44, _⟩ => ⟨S50176x128, .bf16⟩
  | .hbm, ⟨45, _⟩ => ⟨S128x128, .bf16⟩
  | .hbm, ⟨46, _⟩ => ⟨S128x128, .bf16⟩
  | .hbm, ⟨47, _⟩ => ⟨S1x128, .f32⟩
  | .hbm, ⟨48, _⟩ => ⟨S50176x128, .f32⟩
  | .hbm, ⟨49, _⟩ => ⟨S50176x128, .bf16⟩
  | .hbm, ⟨50, _⟩ => ⟨S602112x128, .bf16⟩
  | .hbm, ⟨51, _⟩ => ⟨S50176x128, .f32⟩
  | .hbm, ⟨52, _⟩ => ⟨S50176x128, .bf16⟩
  | .hbm, ⟨53, _⟩ => ⟨S128x128, .bf16⟩
  | .hbm, ⟨54, _⟩ => ⟨S128x128, .bf16⟩
  | .hbm, ⟨55, _⟩ => ⟨S1x128, .f32⟩
  | .hbm, ⟨56, _⟩ => ⟨S50176x128, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S50000x384, .f32⟩
  | .hbm, ⟨61, _⟩ => ⟨S50000x40, .f32⟩
  | .hbm, ⟨62, _⟩ => ⟨S1x40, .f32⟩
  | .hbm, ⟨63, _⟩ => ⟨S50000x40, .f32⟩
  | .hbm, ⟨64, _⟩ => ⟨S50000x40, .f32⟩
  | .hbm, ⟨65, _⟩ => ⟨S_, .f32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x40, .f32⟩
  | .hbm, ⟨72, _⟩ => ⟨S50000x40, .f32⟩
  | .hbm, ⟨73, _⟩ => ⟨S50000x40, .f32⟩
  | .hbm, ⟨74, _⟩ => ⟨S_, .f32⟩
  | .hbm, ⟨75, _⟩ => ⟨S50000, .f32⟩
  | .hbm, ⟨76, _⟩ => ⟨S50000x1, .f32⟩
  | .hbm, ⟨77, _⟩ => ⟨S50000x1, .f32⟩
  | .hbm, ⟨78, _⟩ => ⟨S50000x40, .f32⟩
  | .hbm, ⟨79, _⟩ => ⟨S50000x40, .f32⟩
  | .local _ .vmem, ⟨0, _⟩ => ⟨S4096x1, .i32⟩
  | .local _ .vmem, ⟨1, _⟩ => ⟨S4096x1, .i32⟩
  | .local _ .vmem, ⟨2, _⟩ => ⟨S4096x1, .f32⟩
  | .local _ .vmem, ⟨3, _⟩ => ⟨S4096x1, .f32⟩
  | .local _ .vmem, ⟨4, _⟩ => ⟨S1024x128, .bf16⟩
  | .local _ .vmem, ⟨5, _⟩ => ⟨S1024x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S1x4096, .i32⟩
  | .local _ .vmem, ⟨10, _⟩ => ⟨S1x4096, .i32⟩
  | .local _ .vmem, ⟨11, _⟩ => ⟨S4096x128, .bf16⟩
  | .local _ .vmem, ⟨12, _⟩ => ⟨S4096x128, .bf16⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S128x128, .bf16⟩
  | .local _ .vmem, ⟨21, _⟩ => ⟨S128x128, .bf16⟩
  | .local _ .vmem, ⟨22, _⟩ => ⟨S1x128, .f32⟩
  | .local _ .vmem, ⟨23, _⟩ => ⟨S1024x128, .f32⟩
  | .local _ .vmem, ⟨24, _⟩ => ⟨S1024x128, .f32⟩
  | .local _ .vmem, ⟨25, _⟩ => ⟨S4096x1, .i32⟩
  | .local _ .vmem, ⟨26, _⟩ => ⟨S4096x1, .i32⟩
  | .local _ .vmem, ⟨27, _⟩ => ⟨S4096x1, .f32⟩
  | .local _ .vmem, ⟨28, _⟩ => ⟨S4096x1, .f32⟩
  | .local _ .vmem, ⟨29, _⟩ => ⟨S1024x128, .bf16⟩
  | .local _ .vmem, ⟨30, _⟩ => ⟨S1024x128, .bf16⟩
  | .local _ .vmem, ⟨31, _⟩ => ⟨S4096x128, .bf16⟩
  | .local _ .vmem, ⟨32, _⟩ => ⟨S4096x128, .bf16⟩
  | .local _ .vmem, ⟨33, _⟩ => ⟨S4096x128, .f32⟩
  | .local _ .vmem, ⟨34, _⟩ => ⟨S1x4096, .i32⟩
  | .local _ .vmem, ⟨35, _⟩ => ⟨S1x4096, .i32⟩
  | .local _ .vmem, ⟨36, _⟩ => ⟨S4096x128, .bf16⟩
  | .local _ .vmem, ⟨37, _⟩ => ⟨S4096x128, .bf16⟩
  | .local _ .vmem, ⟨38, _⟩ => ⟨S1024x128, .f32⟩
  | .local _ .vmem, ⟨39, _⟩ => ⟨S1024x128, .f32⟩
  | .local _ .vmem, ⟨40, _⟩ => ⟨S1024x128, .f32⟩
  | .local _ .vmem, ⟨41, _⟩ => ⟨S1024x128, .bf16⟩
  | .local _ .vmem, ⟨42, _⟩ => ⟨S1024x128, .bf16⟩
  | .local _ .vmem, ⟨43, _⟩ => ⟨S1024x128, .bf16⟩
  | .local _ .vmem, ⟨44, _⟩ => ⟨S1024x128, .bf16⟩
  | .local _ .vmem, ⟨45, _⟩ => ⟨S128x128, .bf16⟩
  | .local _ .vmem, ⟨46, _⟩ => ⟨S128x128, .bf16⟩
  | .local _ .vmem, ⟨47, _⟩ => ⟨S1x128, .f32⟩
  | .local _ .vmem, ⟨48, _⟩ => ⟨S1024x128, .f32⟩
  | .local _ .vmem, ⟨49, _⟩ => ⟨S1024x128, .f32⟩
  | .local _ .vmem, ⟨50, _⟩ => ⟨S4096x1, .i32⟩
  | .local _ .vmem, ⟨51, _⟩ => ⟨S4096x1, .i32⟩
  | .local _ .vmem, ⟨52, _⟩ => ⟨S4096x1, .f32⟩
  | .local _ .vmem, ⟨53, _⟩ => ⟨S4096x1, .f32⟩
  | .local _ .vmem, ⟨54, _⟩ => ⟨S1024x128, .bf16⟩
  | .local _ .vmem, ⟨55, _⟩ => ⟨S1024x128, .bf16⟩
  | .local _ .vmem, ⟨56, _⟩ => ⟨S4096x128, .bf16⟩
  | .local _ .vmem, ⟨57, _⟩ => ⟨S4096x128, .bf16⟩
  | .local _ .vmem, ⟨58, _⟩ => ⟨S4096x128, .f32⟩
  | .local _ .vmem, ⟨59, _⟩ => ⟨S1x4096, .i32⟩
  | .local _ .vmem, ⟨60, _⟩ => ⟨S1x4096, .i32⟩
  | .local _ .vmem, ⟨61, _⟩ => ⟨S4096x128, .bf16⟩
  | .local _ .vmem, ⟨62, _⟩ => ⟨S4096x128, .bf16⟩
  | .local _ .vmem, ⟨63, _⟩ => ⟨S1024x128, .f32⟩
  | .local _ .vmem, ⟨64, _⟩ => ⟨S1024x128, .f32⟩
  | .local _ .vmem, ⟨65, _⟩ => ⟨S1024x128, .f32⟩
  | .local _ .vmem, ⟨66, _⟩ => ⟨S1024x128, .bf16⟩
  | .local _ .vmem, ⟨67, _⟩ => ⟨S1024x128, .bf16⟩
  | .local _ .vmem, ⟨68, _⟩ => ⟨S1024x128, .bf16⟩
  | .local _ .vmem, ⟨69, _⟩ => ⟨S1024x128, .bf16⟩
  | .local _ .vmem, ⟨70, _⟩ => ⟨S128x128, .bf16⟩
  | .local _ .vmem, ⟨71, _⟩ => ⟨S128x128, .bf16⟩
  | .local _ .vmem, ⟨72, _⟩ => ⟨S1x128, .f32⟩
  | .local _ .vmem, ⟨73, _⟩ => ⟨S1024x128, .f32⟩
  | .local _ .vmem, ⟨74, _⟩ => ⟨S1024x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_call0_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call1_cst : Ref sig .tc := ⟨.hbm, 65, rfl⟩
abbrev main_call1_v0 : Ref sig .tc := ⟨.hbm, 66, rfl⟩
abbrev main_call1_cst_0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_cst_1 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_v46 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc3_scratch0 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_scratch0 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg5_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg2_1 : Ref sig .tc := ⟨.vmem, 55, rfl⟩
abbrev cc6_stg3_0 : Ref sig .tc := ⟨.vmem, 56, rfl⟩
abbrev cc6_stg3_1 : Ref sig .tc := ⟨.vmem, 57, rfl⟩
abbrev cc6_scratch0 : Ref sig .tc := ⟨.vmem, 58, rfl⟩
abbrev cc7_stg0_0 : Ref sig .tc := ⟨.vmem, 59, rfl⟩
abbrev cc7_stg0_1 : Ref sig .tc := ⟨.vmem, 60, rfl⟩
abbrev cc7_stg1_0 : Ref sig .tc := ⟨.vmem, 61, rfl⟩
abbrev cc7_stg1_1 : Ref sig .tc := ⟨.vmem, 62, rfl⟩
abbrev cc7_stg2_0 : Ref sig .tc := ⟨.vmem, 63, rfl⟩
abbrev cc7_stg2_1 : Ref sig .tc := ⟨.vmem, 64, rfl⟩
abbrev cc7_scratch0 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg1_1 : Ref sig .tc := ⟨.vmem, 69, rfl⟩
abbrev cc8_stg2_0 : Ref sig .tc := ⟨.vmem, 70, rfl⟩
abbrev cc8_stg3_0 : Ref sig .tc := ⟨.vmem, 71, rfl⟩
abbrev cc8_stg4_0 : Ref sig .tc := ⟨.vmem, 72, rfl⟩
abbrev cc8_stg5_0 : Ref sig .tc := ⟨.vmem, 73, rfl⟩
abbrev cc8_stg5_1 : Ref sig .tc := ⟨.vmem, 74, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem3_0 : DmaSem sig := 42
abbrev cc5_sem4_0 : DmaSem sig := 43
abbrev cc5_sem5_0 : DmaSem sig := 44
abbrev cc5_sem5_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem2_1 : DmaSem sig := 51
abbrev cc6_sem3_0 : DmaSem sig := 52
abbrev cc6_sem3_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem2_1 : DmaSem sig := 59
abbrev cc8_sem0_0 : DmaSem sig := 60
abbrev cc8_sem0_1 : DmaSem sig := 61
abbrev cc8_sem1_0 : DmaSem sig := 62
abbrev cc8_sem1_1 : DmaSem sig := 63
abbrev cc8_sem2_0 : DmaSem sig := 64
abbrev cc8_sem3_0 : DmaSem sig := 65
abbrev cc8_sem4_0 : DmaSem sig := 66
abbrev cc8_sem5_0 : DmaSem sig := 67
abbrev cc8_sem5_1 : DmaSem sig := 68

abbrev nD : Nat := 1
abbrev τ : Topo := Topo.v7x

variable {F : FTy → Type} [FloatOps F]

abbrev grid0 : Pipeline.Grid := ⟨2, ![147, 49], ![false, false]⟩

def k0_cond2 (i : grid0.Coords) : BitVec 1 :=
  let arg1 : BitVec 32 := BitVec.ofNat 32 (i 1).val
  let c48_i32 : BitVec 32 := 48#32
  let v23 : BitVec 1 := Scalar.cmpi .eq arg1 c48_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![49, 147], ![false, false]⟩

def k1_cond2 (i : grid1.Coords) : BitVec 1 :=
  let arg1 : BitVec 32 := BitVec.ofNat 32 (i 1).val
  let c146_i32 : BitVec 32 := 146#32
  let v23 : BitVec 1 := Scalar.cmpi .eq arg1 c146_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![147, 49], ![false, false]⟩

def k3_cond2 (i : grid3.Coords) : BitVec 1 :=
  let arg1 : BitVec 32 := BitVec.ofNat 32 (i 1).val
  let c48_i32 : BitVec 32 := 48#32
  let v23 : BitVec 1 := Scalar.cmpi .eq arg1 c48_i32
  let v24 : BitVec 32 := Scalar.extui v23
  let c0_i32_8 : BitVec 32 := 0#32
  let v25 : BitVec 1 := Scalar.cmpi .ne v24 c0_i32_8
  v25

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S4096x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1024x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S4096x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![49, 147], ![false, false]⟩

def k4_cond2 (i : grid4.Coords) : BitVec 1 :=
  let arg1 : BitVec 32 := BitVec.ofNat 32 (i 1).val
  let c146_i32 : BitVec 32 := 146#32
  let v23 : BitVec 1 := Scalar.cmpi .eq arg1 c146_i32
  let v24 : BitVec 32 := Scalar.extui v23
  let c0_i32_8 : BitVec 32 := 0#32
  let v25 : BitVec 1 := Scalar.cmpi .ne v24 c0_i32_8
  v25

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1x4096 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S4096x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![49], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1024x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1024x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨2, ![147, 49], ![false, false]⟩

def k6_cond2 (i : grid6.Coords) : BitVec 1 :=
  let arg1 : BitVec 32 := BitVec.ofNat 32 (i 1).val
  let c48_i32 : BitVec 32 := 48#32
  let v23 : BitVec 1 := Scalar.cmpi .eq arg1 c48_i32
  let v24 : BitVec 32 := Scalar.extui v23
  let c0_i32_8 : BitVec 32 := 0#32
  let v25 : BitVec 1 := Scalar.cmpi .ne v24 c0_i32_8
  v25

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S4096x1 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S4096x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1024x128 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S4096x128 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev grid7 : Pipeline.Grid := ⟨2, ![49, 147], ![false, false]⟩

def k7_cond2 (i : grid7.Coords) : BitVec 1 :=
  let arg1 : BitVec 32 := BitVec.ofNat 32 (i 1).val
  let c146_i32 : BitVec 32 := 146#32
  let v23 : BitVec 1 := Scalar.cmpi .eq arg1 c146_i32
  let v24 : BitVec 32 := Scalar.extui v23
  let c0_i32_8 : BitVec 32 := 0#32
  let v25 : BitVec 1 := Scalar.cmpi .ne v24 c0_i32_8
  v25

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1x4096 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S4096x128 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev grid8 : Pipeline.Grid := ⟨1, ![49], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x128 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1024x128 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .bf16 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x128 .bf16 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S1024x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S2112 : S_.BroadcastsInDim S2112 (![] : Fin 0 → Fin S2112.rank)
  concatenates_S600000_S2112_S602112_d0 : Shape.Concatenates [S600000, S2112] S602112 0
  shapeCasts_S602112_S602112x1 : S602112.ShapeCasts S602112x1
  shapeCasts_S602112_S1x602112 : S602112.ShapeCasts S1x602112
  pads_S50000x128_S50176x128_01760_000 : S50000x128.Pads (![0, 0] : Fin 2 → Nat) ![176, 0] ![0, 0] S50176x128
  h_S_ : 0 < S_.numel
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S1x1024_d1_w32 : S1x1024.Iotas .tc 32 [1]
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x1024 : S4096x1.Broadcasts S4096x1024
  broadcasts_S1x1024_S4096x1024 : S1x1024.Broadcasts S4096x1024
  natLt_1_32 : 1 < 32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S4096x1_S4096x128 : S4096x1.Broadcasts S4096x128
  packedbf16_S4096x128_S4096x128_0_0 : (Rect.unit (s := S4096x128) ![0, 0] S4096x128.size inb_S4096x128_S4096x128_0_0).PackedRows (EltTy.packing .bf16)
  iota_S1024x1_d0_w32 : S1024x1.Iotas .tc 32 [0]
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S1024x4096 : S1x4096.Broadcasts S1024x4096
  broadcasts_S1024x1_S1024x4096 : S1024x1.Broadcasts S1024x4096
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S50176x128_S50000x128_0_0 : S50176x128.Slices ![0, 0] S50000x128
  concatenates_S50000x128_S50000x128_S50000x128_S50000x384_d1 : Shape.Concatenates [S50000x128, S50000x128, S50000x128] S50000x384 1
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S4096x1024_S1024x128_S4096x128_1_0_0_1_n_n_wf : DotDims.WF S4096x1024 S1024x128 S4096x128 [1] [0] [0] [1] [] []
  dot_S1024x4096_S4096x128_S1024x128_1_0_0_1_n_n_wf : DotDims.WF S1024x4096 S4096x128 S1024x128 [1] [0] [0] [1] [] []
  dot_S1024x128_S128x128_S1024x128_1_0_0_1_n_n_wf : DotDims.WF S1024x128 S128x128 S1024x128 [1] [0] [0] [1] [] []
  dot_S50000x384_S384x40_S50000x40_1_0_0_1_n_n_wf : DotDims.WF S50000x384 S384x40 S50000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S602112x1.size a
  hwx0_0 : ∀ i : grid0.Coords, EltTy.bits .i32 = 32 ∨ (Rect.block (s := S602112x1) S4096x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S602112x1.size a
  hwx0_1 : ∀ i : grid0.Coords, EltTy.bits .f32 = 32 ∨ (Rect.block (s := S602112x1) S4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S50176x128.size a
  hwx0_2 : ∀ i : grid0.Coords, EltTy.bits .bf16 = 32 ∨ (Rect.block (s := S50176x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S602112x128.size a
  hwx0_3 : ∀ i : grid0.Coords, EltTy.bits .bf16 = 32 ∨ (Rect.block (s := S602112x128) S4096x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x602112.size a
  hwx1_0 : ∀ i : grid1.Coords, EltTy.bits .i32 = 32 ∨ (Rect.block (s := S1x602112) S1x4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S602112x128.size a
  hwx1_1 : ∀ i : grid1.Coords, EltTy.bits .bf16 = 32 ∨ (Rect.block (s := S602112x128) S4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S50176x128.size a
  hwx1_2 : ∀ i : grid1.Coords, EltTy.bits .f32 = 32 ∨ (Rect.block (s := S50176x128) S1024x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S50176x128.size a
  hwx2_0 : ∀ i : grid2.Coords, EltTy.bits .bf16 = 32 ∨ (Rect.block (s := S50176x128) S1024x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S50176x128.size a
  hwx2_1 : ∀ i : grid2.Coords, EltTy.bits .bf16 = 32 ∨ (Rect.block (s := S50176x128) S1024x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x128.size a ≤ S50176x128.size a
  hwx2_5 : ∀ i : grid2.Coords, EltTy.bits .f32 = 32 ∨ (Rect.block (s := S50176x128) S1024x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x1.size a ≤ S602112x1.size a
  hwx3_0 : ∀ i : grid3.Coords, EltTy.bits .i32 = 32 ∨ (Rect.block (s := S602112x1) S4096x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x1.size a ≤ S602112x1.size a
  hwx3_1 : ∀ i : grid3.Coords, EltTy.bits .f32 = 32 ∨ (Rect.block (s := S602112x1) S4096x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x128.size a ≤ S50176x128.size a
  hwx3_2 : ∀ i : grid3.Coords, EltTy.bits .bf16 = 32 ∨ (Rect.block (s := S50176x128) S1024x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x128.size a ≤ S602112x128.size a
  hwx3_3 : ∀ i : grid3.Coords, EltTy.bits .bf16 = 32 ∨ (Rect.block (s := S602112x128) S4096x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x4096.size a ≤ S1x602112.size a
  hwx4_0 : ∀ i : grid4.Coords, EltTy.bits .i32 = 32 ∨ (Rect.block (s := S1x602112) S1x4096.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x128.size a ≤ S602112x128.size a
  hwx4_1 : ∀ i : grid4.Coords, EltTy.bits .bf16 = 32 ∨ (Rect.block (s := S602112x128) S4096x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x128.size a ≤ S50176x128.size a
  hwx4_2 : ∀ i : grid4.Coords, EltTy.bits .f32 = 32 ∨ (Rect.block (s := S50176x128) S1024x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x128.size a ≤ S50176x128.size a
  hwx5_0 : ∀ i : grid5.Coords, EltTy.bits .bf16 = 32 ∨ (Rect.block (s := S50176x128) S1024x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x128.size a ≤ S50176x128.size a
  hwx5_1 : ∀ i : grid5.Coords, EltTy.bits .bf16 = 32 ∨ (Rect.block (s := S50176x128) S1024x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .bf16 = 32 ∨ (Rect.block (s := S128x128) S128x128.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .bf16 = 32 ∨ (Rect.block (s := S128x128) S128x128.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1024x128.size a ≤ S50176x128.size a
  hwx5_5 : ∀ i : grid5.Coords, EltTy.bits .f32 = 32 ∨ (Rect.block (s := S50176x128) S1024x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x1.size a ≤ S602112x1.size a
  hwx6_0 : ∀ i : grid6.Coords, EltTy.bits .i32 = 32 ∨ (Rect.block (s := S602112x1) S4096x1.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096x1.size a ≤ S602112x1.size a
  hwx6_1 : ∀ i : grid6.Coords, EltTy.bits .f32 = 32 ∨ (Rect.block (s := S602112x1) S4096x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x128.size a ≤ S50176x128.size a
  hwx6_2 : ∀ i : grid6.Coords, EltTy.bits .bf16 = 32 ∨ (Rect.block (s := S50176x128) S1024x128.size (cc6_transform_2 i) (hinb6_2 i)).WholeWords (EltTy.packing .bf16)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4096x128.size a ≤ S602112x128.size a
  hwx6_3 : ∀ i : grid6.Coords, EltTy.bits .bf16 = 32 ∨ (Rect.block (s := S602112x128) S4096x128.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x4096.size a ≤ S1x602112.size a
  hwx7_0 : ∀ i : grid7.Coords, EltTy.bits .i32 = 32 ∨ (Rect.block (s := S1x602112) S1x4096.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4096x128.size a ≤ S602112x128.size a
  hwx7_1 : ∀ i : grid7.Coords, EltTy.bits .bf16 = 32 ∨ (Rect.block (s := S602112x128) S4096x128.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x128.size a ≤ S50176x128.size a
  hwx7_2 : ∀ i : grid7.Coords, EltTy.bits .f32 = 32 ∨ (Rect.block (s := S50176x128) S1024x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x128.size a ≤ S50176x128.size a
  hwx8_0 : ∀ i : grid8.Coords, EltTy.bits .bf16 = 32 ∨ (Rect.block (s := S50176x128) S1024x128.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1024x128.size a ≤ S50176x128.size a
  hwx8_1 : ∀ i : grid8.Coords, EltTy.bits .bf16 = 32 ∨ (Rect.block (s := S50176x128) S1024x128.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .bf16 = 32 ∨ (Rect.block (s := S128x128) S128x128.size (cc8_transform_2 i) (hinb8_2 i)).WholeWords (EltTy.packing .bf16)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .bf16 = 32 ∨ (Rect.block (s := S128x128) S128x128.size (cc8_transform_3 i) (hinb8_3 i)).WholeWords (EltTy.packing .bf16)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S1024x128.size a ≤ S50176x128.size a
  hwx8_5 : ∀ i : grid8.Coords, EltTy.bits .f32 = 32 ∨ (Rect.block (s := S50176x128) S1024x128.size (cc8_transform_5 i) (hinb8_5 i)).WholeWords (EltTy.packing .f32)

variable [Facts₀]

def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S50000x384_S384x40_S50000x40_1_0_0_1_n_n : DotDims S50000x384 S384x40 S50000x40 where
  lhsContracting := [1]
  rhsContracting := [0]
  lhsNonContracting := [0]
  rhsNonContracting := [1]
  lhsBatch := []
  rhsBatch := []
  wf := dot_S50000x384_S384x40_S50000x40_1_0_0_1_n_n_wf

abbrev win0_0 : Pipeline.Window sig grid0 :=
  Pipeline.Window.ofSpec (Memref.whole main_v10) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v11) S1x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v17) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S1024x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v10) S4096x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S4096x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v22) S1024x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v23) S4096x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v11) S1x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v23) S4096x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v24) S1024x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v25) S1024x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v22) S1024x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v26) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v27) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v28) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v29) S1024x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v10) S4096x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v12) S4096x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v30) S1024x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v31) S4096x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v11) S1x4096.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v31) S4096x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v32) S1024x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v33) S1024x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v30) S1024x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v34) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v35) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v36) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v37) S1024x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S384x40 : Shape := ⟨2, ![384, 40]⟩
abbrev S40 : Shape := ⟨1, ![40]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S50000x384 : Shape := ⟨2, ![50000, 384]⟩
abbrev S50000x40 : Shape := ⟨2, ![50000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S384x40, .f32⟩
  | .hbm, ⟨13, _⟩ => ⟨S40, .f32⟩
  | .hbm, ⟨14, _⟩ => ⟨S1x600000, .i32⟩
  | .hbm, ⟨15, _⟩ => ⟨S600000, .i32⟩
  | .hbm, ⟨16, _⟩ => ⟨S1x600000, .i32⟩
  | .hbm, ⟨17, _⟩ => ⟨S600000, .i32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x128, .f32⟩
  | .hbm, ⟨27, _⟩ => ⟨S600000x1, .f32⟩
  | .hbm, ⟨28, _⟩ => ⟨S600000x128, .f32⟩
  | .hbm, ⟨29, _⟩ => ⟨S600000x128, .f32⟩
  | .hbm, ⟨30, _⟩ => ⟨S_, .f32⟩
  | .hbm, ⟨31, _⟩ => ⟨S50000x128, .f32⟩
  | .hbm, ⟨32, _⟩ => ⟨S600000x1, .i32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S1x600000, .i32⟩
  | .hbm, ⟨44, _⟩ => ⟨S600000, .i32⟩
  | .hbm, ⟨45, _⟩ => ⟨S1x600000, .i32⟩
  | .hbm, ⟨46, _⟩ => ⟨S600000, .i32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x128, .f32⟩
  | .hbm, ⟨56, _⟩ => ⟨S600000x1, .f32⟩
  | .hbm, ⟨57, _⟩ => ⟨S600000x128, .f32⟩
  | .hbm, ⟨58, _⟩ => ⟨S600000x128, .f32⟩
  | .hbm, ⟨59, _⟩ => ⟨S_, .f32⟩
  | .hbm, ⟨60, _⟩ => ⟨S50000x128, .f32⟩
  | .hbm, ⟨61, _⟩ => ⟨S600000x1, .i32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S1x600000, .i32⟩
  | .hbm, ⟨73, _⟩ => ⟨S600000, .i32⟩
  | .hbm, ⟨74, _⟩ => ⟨S1x600000, .i32⟩
  | .hbm, ⟨75, _⟩ => ⟨S600000, .i32⟩
  | .hbm, ⟨76, _⟩ => ⟨S_, .i32⟩
  | .hbm, ⟨77, _⟩ => ⟨S600000, .i32⟩
  | .hbm, ⟨78, _⟩ => ⟨S600000, .i1⟩
  | .hbm, ⟨79, _⟩ => ⟨S_, .i32⟩
  | .hbm, ⟨80, _⟩ => ⟨S600000, .i32⟩
  | .hbm, ⟨81, _⟩ => ⟨S600000, .i32⟩
  | .hbm, ⟨82, _⟩ => ⟨S600000, .i32⟩
  | .hbm, ⟨83, _⟩ => ⟨S600000x1, .i32⟩
  | .hbm, ⟨84, _⟩ => ⟨S600000x128, .f32⟩
  | .hbm, ⟨85, _⟩ => ⟨S600000x1, .f32⟩
  | .hbm, ⟨86, _⟩ => ⟨S600000x128, .f32⟩
  | .hbm, ⟨87, _⟩ => ⟨S600000x128, .f32⟩
  | .hbm, ⟨88, _⟩ => ⟨S_, .f32⟩
  | .hbm, ⟨89, _⟩ => ⟨S50000x128, .f32⟩
  | .hbm, ⟨90, _⟩ => ⟨S600000x1, .i32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S50000x128, .f32⟩
  | .hbm, ⟨100, _⟩ => ⟨S50000x128, .f32⟩
  | .hbm, ⟨101, _⟩ => ⟨S50000x384, .f32⟩
  | .hbm, ⟨102, _⟩ => ⟨S50000x40, .f32⟩
  | .hbm, ⟨103, _⟩ => ⟨S1x40, .f32⟩
  | .hbm, ⟨104, _⟩ => ⟨S50000x40, .f32⟩
  | .hbm, ⟨105, _⟩ => ⟨S50000x40, .f32⟩
  | .hbm, ⟨106, _⟩ => ⟨S_, .f32⟩
  | .hbm, ⟨107, _⟩ => ⟨S50000, .f32⟩
  | .hbm, ⟨108, _⟩ => ⟨S_, .f32⟩
  | .hbm, ⟨109, _⟩ => ⟨S50000, .f32⟩
  | .hbm, ⟨110, _⟩ => ⟨S50000, .f32⟩
  | .hbm, ⟨111, _⟩ => ⟨S50000x1, .f32⟩
  | .hbm, ⟨112, _⟩ => ⟨S50000x40, .f32⟩
  | .hbm, ⟨113, _⟩ => ⟨S50000x40, .f32⟩
  | .hbm, ⟨114, _⟩ => ⟨S50000x40, .f32⟩
  | .hbm, ⟨115, _⟩ => ⟨S_, .f32⟩
  | .hbm, ⟨116, _⟩ => ⟨S50000, .f32⟩
  | .hbm, ⟨117, _⟩ => ⟨S50000x1, .f32⟩
  | .hbm, ⟨118, _⟩ => ⟨S50000x1, .f32⟩
  | .hbm, ⟨119, _⟩ => ⟨S50000x40, .f32⟩
  | .hbm, ⟨120, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_cst : Ref sig .tc := ⟨.hbm, 40, rfl⟩
abbrev main_call0_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_1 : Ref sig .tc := ⟨.hbm, 47, rfl⟩
abbrev main_v28 : Ref sig .tc := ⟨.hbm, 48, rfl⟩
abbrev main_v29 : Ref sig .tc := ⟨.hbm, 49, rfl⟩
abbrev main_c_2 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_3 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_4 : Ref sig .tc := ⟨.hbm, 76, rfl⟩
abbrev main_v52 : Ref sig .tc := ⟨.hbm, 77, rfl⟩
abbrev main_v53 : Ref sig .tc := ⟨.hbm, 78, rfl⟩
abbrev main_c_5 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_6 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call2_cst : Ref sig .tc := ⟨.hbm, 98, rfl⟩
abbrev main_call2_v0 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_call3_cst : Ref sig .tc := ⟨.hbm, 106, rfl⟩
abbrev main_call3_v0 : Ref sig .tc := ⟨.hbm, 107, rfl⟩
abbrev main_call3_cst_0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_v5 : Ref sig .tc := ⟨.hbm, 113, rfl⟩
abbrev main_call3_v6 : Ref sig .tc := ⟨.hbm, 114, rfl⟩
abbrev main_call3_cst_1 : Ref sig .tc := ⟨.hbm, 115, rfl⟩
abbrev main_call3_v7 : Ref sig .tc := ⟨.hbm, 116, rfl⟩
abbrev main_call3_v8 : Ref sig .tc := ⟨.hbm, 117, rfl⟩
abbrev main_call3_v9 : Ref sig .tc := ⟨.hbm, 118, rfl⟩
abbrev main_call3_v10 : Ref sig .tc := ⟨.hbm, 119, rfl⟩
abbrev main_v77 : Ref sig .tc := ⟨.hbm, 120, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x128_S50000x384_d1 : Shape.Concatenates [S50000x128, S50000x128, S50000x128] S50000x384 1
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x384_S384x40_S50000x40_1_0_0_1_n_n_wf : DotDims.WF S50000x384 S384x40 S50000x40 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x384_S384x40_S50000x40_1_0_0_1_n_n : DotDims S50000x384 S384x40 S50000x40 where
  lhsContracting := [1]
  rhsContracting := [0]
  lhsNonContracting := [0]
  rhsNonContracting := [1]
  lhsBatch := []
  rhsBatch := []
  wf := dot_S50000x384_S384x40_S50000x40_1_0_0_1_n_n_wf

class Facts : Prop extends Facts₀ where

variable [Facts]
-- ==== Proof.R0Defs.lean ====
import proofs.«425541_j70411693850858_1_alg».proof.Proof.Gen.KernelIdeal.Launch
import proofs.«425541_j70411693850858_1_alg».proof.Proof.Gen.KernelIdeal.Skeleton
import proofs.«425541_j70411693850858_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def acc0 (c : Dev nD) : (n : ℕ) → n < cfg0.N → Vec F S4096x128 .f32
  | 0, hn => k0_pay2 (grid0.coords ⟨0, hn⟩) (iblk0 V c 0 ⟨0, hn⟩) (k0_pay1 (F := F)) (iblk0 V c 2 ⟨0, hn⟩)
  | n + 1, hn =>
    if (n + 1) % 49 = 0 then
      k0_pay2 (grid0.coords ⟨n + 1, hn⟩) (iblk0 V c 0 ⟨n + 1, hn⟩) (k0_pay1 (F := F)) (iblk0 V c 2 ⟨n + 1, hn⟩)
    else
      k0_pay2 (grid0.coords ⟨n + 1, hn⟩) (iblk0 V c 0 ⟨n + 1, hn⟩) (acc0 c n (Nat.lt_of_succ_lt hn)) (iblk0 V c 2 ⟨n + 1, hn⟩)

theorem acc0_first (c : Dev nD) (t : Fin cfg0.N) (h : t.val % 49 = 0) :
    acc0 V c t.val t.isLt = k0_pay2 (grid0.coords t) (iblk0 V c 0 t) (k0_pay1 (F := F)) (iblk0 V c 2 t) := by
  obtain ⟨n, hn⟩ := t
  cases n with
  | zero => rfl
  | succ n => exact if_pos h

theorem acc0_next (c : Dev nD) (t : Fin cfg0.N) (h : ¬t.val % 49 = 0) :
    acc0 V c t.val t.isLt = k0_pay2 (grid0.coords t) (iblk0 V c 0 t)
      (acc0 V c (t.val - 1) (Nat.lt_of_le_of_lt (Nat.sub_le _ _) t.isLt)) (iblk0 V c 2 t) := by
  obtain ⟨n, hn⟩ := t
  cases n with
  | zero => exact absurd (Nat.zero_mod _) h
  | succ n => exact if_neg h

def out0 (c : Dev nD) (t : Fin cfg0.N) : Vec F S4096x128 .bf16 :=
  k0_pay3 (iblk0 V c 1 t) (acc0 V c t.val t.isLt)

abbrev scM0 : Memref sig .tc .vmem S4096x128 .f32 := Memref.whole cc0_scratch0

def PhiS0 (c : Dev nD) : (n : ℕ) → n ≤ cfg0.N → sProp 𝕄
  | 0, _ => Pipeline.ΦA spec0 c
  | n + 1, hn => iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

end Cert.KernelIdeal.Rg

end
-- ==== Proof.R1Defs.lean ====
import proofs.«425541_j70411693850858_1_alg».proof.Proof.Gen.KernelIdeal.Launch
import proofs.«425541_j70411693850858_1_alg».proof.Proof.Gen.KernelIdeal.Skeleton
import proofs.«425541_j70411693850858_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def acc1 (c : Dev nD) : (n : ℕ) → n < cfg1.N → Vec F S1024x128 .f32
  | 0, hn => k1_pay2 (grid1.coords ⟨0, hn⟩) (iblk1 V c 0 ⟨0, hn⟩) (k1_pay1 (F := F)) (iblk1 V c 1 ⟨0, hn⟩)
  | n + 1, hn =>
    if (n + 1) % 147 = 0 then
      k1_pay2 (grid1.coords ⟨n + 1, hn⟩) (iblk1 V c 0 ⟨n + 1, hn⟩) (k1_pay1 (F := F)) (iblk1 V c 1 ⟨n + 1, hn⟩)
    else
      k1_pay2 (grid1.coords ⟨n + 1, hn⟩) (iblk1 V c 0 ⟨n + 1, hn⟩) (acc1 c n (Nat.lt_of_succ_lt hn)) (iblk1 V c 1 ⟨n + 1, hn⟩)

theorem acc1_first (c : Dev nD) (t : Fin cfg1.N) (h : t.val % 147 = 0) :
    acc1 V c t.val t.isLt = k1_pay2 (grid1.coords t) (iblk1 V c 0 t) (k1_pay1 (F := F)) (iblk1 V c 1 t) := by
  obtain ⟨n, hn⟩ := t
  cases n with
  | zero => rfl
  | succ n => exact if_pos h

theorem acc1_next (c : Dev nD) (t : Fin cfg1.N) (h : ¬t.val % 147 = 0) :
    acc1 V c t.val t.isLt = k1_pay2 (grid1.coords t) (iblk1 V c 0 t)
      (acc1 V c (t.val - 1) (Nat.lt_of_le_of_lt (Nat.sub_le _ _) t.isLt)) (iblk1 V c 1 t) := by
  obtain ⟨n, hn⟩ := t
  cases n with
  | zero => exact absurd (Nat.zero_mod _) h
  | succ n => exact if_neg h

def out1 (c : Dev nD) (t : Fin cfg1.N) : Vec F S1024x128 .f32 := acc1 V c t.val t.isLt

abbrev scM1 : Memref sig .tc .vmem S1024x128 .f32 := Memref.whole cc1_scratch0

def PhiS1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Cert.KernelIdeal.Rg

end
-- ==== Proof.R2Defs.lean ====
import proofs.«425541_j70411693850858_1_alg».proof.Proof.Gen.KernelIdeal.Launch
import proofs.«425541_j70411693850858_1_alg».proof.Proof.Gen.KernelIdeal.Skeleton
import proofs.«425541_j70411693850858_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2 (c : Dev nD) (t : Fin cfg2.N) : Vec F S1024x128 .f32 :=
  k2_pay1 (iblk2 V c 0 t) (iblk2 V c 2 t) (iblk2 V c 1 t) (iblk2 V c 3 t) (iblk2 V c 4 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 V c t := by dsimp only [dat2]

end Cert.KernelIdeal.Rg

end
-- ==== Proof.R3Defs.lean ====
import proofs.«425541_j70411693850858_1_alg».proof.Proof.Gen.KernelIdeal.Launch
import proofs.«425541_j70411693850858_1_alg».proof.Proof.Gen.KernelIdeal.Skeleton
import proofs.«425541_j70411693850858_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (c : Dev nD) : (n : ℕ) → n < cfg3.N → Vec F S4096x128 .f32
  | 0, hn => k0_pay2 (grid3.coords ⟨0, hn⟩) (iblk3 V c 0 ⟨0, hn⟩) (k0_pay1 (F := F)) (iblk3 V c 2 ⟨0, hn⟩)
  | n + 1, hn =>
    if (n + 1) % 49 = 0 then
      k0_pay2 (grid3.coords ⟨n + 1, hn⟩) (iblk3 V c 0 ⟨n + 1, hn⟩) (k0_pay1 (F := F)) (iblk3 V c 2 ⟨n + 1, hn⟩)
    else
      k0_pay2 (grid3.coords ⟨n + 1, hn⟩) (iblk3 V c 0 ⟨n + 1, hn⟩) (acc3 c n (Nat.lt_of_succ_lt hn)) (iblk3 V c 2 ⟨n + 1, hn⟩)

theorem acc3_first (c : Dev nD) (t : Fin cfg3.N) (h : t.val % 49 = 0) :
    acc3 V c t.val t.isLt = k0_pay2 (grid3.coords t) (iblk3 V c 0 t) (k0_pay1 (F := F)) (iblk3 V c 2 t) := by
  obtain ⟨n, hn⟩ := t
  cases n with
  | zero => rfl
  | succ n => exact if_pos h

theorem acc3_next (c : Dev nD) (t : Fin cfg3.N) (h : ¬t.val % 49 = 0) :
    acc3 V c t.val t.isLt = k0_pay2 (grid3.coords t) (iblk3 V c 0 t)
      (acc3 V c (t.val - 1) (Nat.lt_of_le_of_lt (Nat.sub_le _ _) t.isLt)) (iblk3 V c 2 t) := by
  obtain ⟨n, hn⟩ := t
  cases n with
  | zero => exact absurd (Nat.zero_mod _) h
  | succ n => exact if_neg h

def out3 (c : Dev nD) (t : Fin cfg3.N) : Vec F S4096x128 .bf16 :=
  k0_pay3 (iblk3 V c 1 t) (acc3 V c t.val t.isLt)

abbrev scM3 : Memref sig .tc .vmem S4096x128 .f32 := Memref.whole cc3_scratch0

def PhiS3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3 V c t := by dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

end Cert.KernelIdeal.Rg

end
-- ==== Proof.R4Defs.lean ====
import proofs.«425541_j70411693850858_1_alg».proof.Proof.Gen.KernelIdeal.Launch
import proofs.«425541_j70411693850858_1_alg».proof.Proof.Gen.KernelIdeal.Skeleton
import proofs.«425541_j70411693850858_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : (n : ℕ) → n < cfg4.N → Vec F S1024x128 .f32
  | 0, hn => k1_pay2 (grid4.coords ⟨0, hn⟩) (iblk4 V c 0 ⟨0, hn⟩) (k1_pay1 (F := F)) (iblk4 V c 1 ⟨0, hn⟩)
  | n + 1, hn =>
    if (n + 1) % 147 = 0 then
      k1_pay2 (grid4.coords ⟨n + 1, hn⟩) (iblk4 V c 0 ⟨n + 1, hn⟩) (k1_pay1 (F := F)) (iblk4 V c 1 ⟨n + 1, hn⟩)
    else
      k1_pay2 (grid4.coords ⟨n + 1, hn⟩) (iblk4 V c 0 ⟨n + 1, hn⟩) (acc4 c n (Nat.lt_of_succ_lt hn)) (iblk4 V c 1 ⟨n + 1, hn⟩)

theorem acc4_first (c : Dev nD) (t : Fin cfg4.N) (h : t.val % 147 = 0) :
    acc4 V c t.val t.isLt = k1_pay2 (grid4.coords t) (iblk4 V c 0 t) (k1_pay1 (F := F)) (iblk4 V c 1 t) := by
  obtain ⟨n, hn⟩ := t
  cases n with
  | zero => rfl
  | succ n => exact if_pos h

theorem acc4_next (c : Dev nD) (t : Fin cfg4.N) (h : ¬t.val % 147 = 0) :
    acc4 V c t.val t.isLt = k1_pay2 (grid4.coords t) (iblk4 V c 0 t)
      (acc4 V c (t.val - 1) (Nat.lt_of_le_of_lt (Nat.sub_le _ _) t.isLt)) (iblk4 V c 1 t) := by
  obtain ⟨n, hn⟩ := t
  cases n with
  | zero => exact absurd (Nat.zero_mod _) h
  | succ n => exact if_neg h

def out4 (c : Dev nD) (t : Fin cfg4.N) : Vec F S1024x128 .f32 := acc4 V c t.val t.isLt

abbrev scM4 : Memref sig .tc .vmem S1024x128 .f32 := Memref.whole cc4_scratch0

def PhiS4 (c : Dev nD) : (n : ℕ) → n ≤ cfg4.N → sProp 𝕄
  | 0, _ => Pipeline.ΦA spec4 c
  | n + 1, hn => iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4 V c t := by dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

end Cert.KernelIdeal.Rg

end
-- ==== Proof.R5Defs.lean ====
import proofs.«425541_j70411693850858_1_alg».proof.Proof.Gen.KernelIdeal.Launch
import proofs.«425541_j70411693850858_1_alg».proof.Proof.Gen.KernelIdeal.Skeleton
import proofs.«425541_j70411693850858_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5 (c : Dev nD) (t : Fin cfg5.N) : Vec F S1024x128 .f32 :=
  k2_pay1 (iblk5 V c 0 t) (iblk5 V c 2 t) (iblk5 V c 1 t) (iblk5 V c 3 t) (iblk5 V c 4 t)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5 V c t
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5 V c t := by dsimp only [dat5]

end Cert.KernelIdeal.Rg

end
-- ==== Proof.R6Defs.lean ====
import proofs.«425541_j70411693850858_1_alg».proof.Proof.Gen.KernelIdeal.Launch
import proofs.«425541_j70411693850858_1_alg».proof.Proof.Gen.KernelIdeal.Skeleton
import proofs.«425541_j70411693850858_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def acc6 (c : Dev nD) : (n : ℕ) → n < cfg6.N → Vec F S4096x128 .f32
  | 0, hn => k0_pay2 (grid6.coords ⟨0, hn⟩) (iblk6 V c 0 ⟨0, hn⟩) (k0_pay1 (F := F)) (iblk6 V c 2 ⟨0, hn⟩)
  | n + 1, hn =>
    if (n + 1) % 49 = 0 then
      k0_pay2 (grid6.coords ⟨n + 1, hn⟩) (iblk6 V c 0 ⟨n + 1, hn⟩) (k0_pay1 (F := F)) (iblk6 V c 2 ⟨n + 1, hn⟩)
    else
      k0_pay2 (grid6.coords ⟨n + 1, hn⟩) (iblk6 V c 0 ⟨n + 1, hn⟩) (acc6 c n (Nat.lt_of_succ_lt hn)) (iblk6 V c 2 ⟨n + 1, hn⟩)

theorem acc6_first (c : Dev nD) (t : Fin cfg6.N) (h : t.val % 49 = 0) :
    acc6 V c t.val t.isLt = k0_pay2 (grid6.coords t) (iblk6 V c 0 t) (k0_pay1 (F := F)) (iblk6 V c 2 t) := by
  obtain ⟨n, hn⟩ := t
  cases n with
  | zero => rfl
  | succ n => exact if_pos h

theorem acc6_next (c : Dev nD) (t : Fin cfg6.N) (h : ¬t.val % 49 = 0) :
    acc6 V c t.val t.isLt = k0_pay2 (grid6.coords t) (iblk6 V c 0 t)
      (acc6 V c (t.val - 1) (Nat.lt_of_le_of_lt (Nat.sub_le _ _) t.isLt)) (iblk6 V c 2 t) := by
  obtain ⟨n, hn⟩ := t
  cases n with
  | zero => exact absurd (Nat.zero_mod _) h
  | succ n => exact if_neg h

def out6 (c : Dev nD) (t : Fin cfg6.N) : Vec F S4096x128 .bf16 :=
  k0_pay3 (iblk6 V c 1 t) (acc6 V c t.val t.isLt)

abbrev scM6 : Memref sig .tc .vmem S4096x128 .f32 := Memref.whole cc6_scratch0

def PhiS6 (c : Dev nD) : (n : ℕ) → n ≤ cfg6.N → sProp 𝕄
  | 0, _ => Pipeline.ΦA spec6 c
  | n + 1, hn => iprop(iprop(owns (c : Thread nD τ) scM6 fullShare (acc6 V c n hn)
      ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6 fullShare (acc6 V c n hn)
      ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6 fullShare (acc6 V c (n - 1) (by omega))
      ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 V c t
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6 V c t := by dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

end Cert.KernelIdeal.Rg

end
-- ==== Proof.R7Defs.lean ====
import proofs.«425541_j70411693850858_1_alg».proof.Proof.Gen.KernelIdeal.Launch
import proofs.«425541_j70411693850858_1_alg».proof.Proof.Gen.KernelIdeal.Skeleton
import proofs.«425541_j70411693850858_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def acc7 (c : Dev nD) : (n : ℕ) → n < cfg7.N → Vec F S1024x128 .f32
  | 0, hn => k1_pay2 (grid7.coords ⟨0, hn⟩) (iblk7 V c 0 ⟨0, hn⟩) (k1_pay1 (F := F)) (iblk7 V c 1 ⟨0, hn⟩)
  | n + 1, hn =>
    if (n + 1) % 147 = 0 then
      k1_pay2 (grid7.coords ⟨n + 1, hn⟩) (iblk7 V c 0 ⟨n + 1, hn⟩) (k1_pay1 (F := F)) (iblk7 V c 1 ⟨n + 1, hn⟩)
    else
      k1_pay2 (grid7.coords ⟨n + 1, hn⟩) (iblk7 V c 0 ⟨n + 1, hn⟩) (acc7 c n (Nat.lt_of_succ_lt hn)) (iblk7 V c 1 ⟨n + 1, hn⟩)

theorem acc7_first (c : Dev nD) (t : Fin cfg7.N) (h : t.val % 147 = 0) :
    acc7 V c t.val t.isLt = k1_pay2 (grid7.coords t) (iblk7 V c 0 t) (k1_pay1 (F := F)) (iblk7 V c 1 t) := by
  obtain ⟨n, hn⟩ := t
  cases n with
  | zero => rfl
  | succ n => exact if_pos h

theorem acc7_next (c : Dev nD) (t : Fin cfg7.N) (h : ¬t.val % 147 = 0) :
    acc7 V c t.val t.isLt = k1_pay2 (grid7.coords t) (iblk7 V c 0 t)
      (acc7 V c (t.val - 1) (Nat.lt_of_le_of_lt (Nat.sub_le _ _) t.isLt)) (iblk7 V c 1 t) := by
  obtain ⟨n, hn⟩ := t
  cases n with
  | zero => exact absurd (Nat.zero_mod _) h
  | succ n => exact if_neg h

def out7 (c : Dev nD) (t : Fin cfg7.N) : Vec F S1024x128 .f32 := acc7 V c t.val t.isLt

abbrev scM7 : Memref sig .tc .vmem S1024x128 .f32 := Memref.whole cc7_scratch0

def PhiS7 (c : Dev nD) : (n : ℕ) → n ≤ cfg7.N → sProp 𝕄
  | 0, _ => Pipeline.ΦA spec7 c
  | n + 1, hn => iprop(iprop(owns (c : Thread nD τ) scM7 fullShare (acc7 V c n hn)
      ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7 fullShare (acc7 V c n hn)
      ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(owns (c : Thread nD τ) scM7 fullShare (acc7 V c (n - 1) (by omega))
      ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7 V c t
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7 V c t := by dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

end Cert.KernelIdeal.Rg

end
-- ==== Proof.R8Defs.lean ====
import proofs.«425541_j70411693850858_1_alg».proof.Proof.Gen.KernelIdeal.Launch
import proofs.«425541_j70411693850858_1_alg».proof.Proof.Gen.KernelIdeal.Skeleton
import proofs.«425541_j70411693850858_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def out8 (c : Dev nD) (t : Fin cfg8.N) : Vec F S1024x128 .f32 :=
  k2_pay1 (iblk8 V c 0 t) (iblk8 V c 2 t) (iblk8 V c 1 t) (iblk8 V c 3 t) (iblk8 V c 4 t)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8 V c t
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8 V c t := by dsimp only [dat8]

end Cert.KernelIdeal.Rg

end
-- ==== Proof.Chain.lean ====
import proofs.«425541_j70411693850858_1_alg».proof.Proof.R0Defs
import proofs.«425541_j70411693850858_1_alg».proof.Proof.R1Defs
import proofs.«425541_j70411693850858_1_alg».proof.Proof.R2Defs
import proofs.«425541_j70411693850858_1_alg».proof.Proof.R3Defs
import proofs.«425541_j70411693850858_1_alg».proof.Proof.R4Defs
import proofs.«425541_j70411693850858_1_alg».proof.Proof.R5Defs
import proofs.«425541_j70411693850858_1_alg».proof.Proof.R6Defs
import proofs.«425541_j70411693850858_1_alg».proof.Proof.R7Defs
import proofs.«425541_j70411693850858_1_alg».proof.Proof.R8Defs

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev W2 : Dev nD → Valuation τ sig (Elt F) := fun c => StableHlo.after hostOps0_1 (W1 m c)

abbrev W3 : Dev nD → Valuation τ sig (Elt F) := fun c => StableHlo.after hostOps0_2 (W2 m c)

abbrev V3 : (c : Dev nD) → (b : Ref sig .tc) → Buf (Elt F) ((c : Thread nD τ).loc b) := fun c b => W3 m c b

def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb

abbrev X4 : (c : Dev nD) → (b : Ref sig .tc) → Buf (Elt F) ((c : Thread nD τ).loc b) := fun c b => W4 m c b
theorem hF0 (c : Dev nD) (w : Fin cfg0.W) : (dat0 (V3 m) c).arrAt w cfg0.N = X4 m c (Pipeline.arrRef spec0 w) :=
  (W4_arr m c w).symm
theorem hrest0 (c : Dev nD) : ∀ b, b ∉ Finset.univ.image (Pipeline.arrRef spec0) → X4 m c b = V3 m c b :=
  fun b hb => W4_of_ne m c b fun w e => hb (Finset.mem_image.mpr ⟨w, Finset.mem_univ _, e⟩)

abbrev V4 : (c : Dev nD) → (b : Ref sig .tc) → Buf (Elt F) ((c : Thread nD τ).loc b) := fun c b => W4 m c b

def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb

abbrev X5 : (c : Dev nD) → (b : Ref sig .tc) → Buf (Elt F) ((c : Thread nD τ).loc b) := fun c b => W5 m c b
theorem hF1 (c : Dev nD) (w : Fin cfg1.W) : (dat1 (V4 m) c).arrAt w cfg1.N = X5 m c (Pipeline.arrRef spec1 w) :=
  (W5_arr m c w).symm
theorem hrest1 (c : Dev nD) : ∀ b, b ∉ Finset.univ.image (Pipeline.arrRef spec1) → X5 m c b = V4 m c b :=
  fun b hb => W5_of_ne m c b fun w e => hb (Finset.mem_image.mpr ⟨w, Finset.mem_univ _, e⟩)

abbrev W6 : Dev nD → Valuation τ sig (Elt F) := fun c => StableHlo.after hostOps2 (W5 m c)

abbrev V6 : (c : Dev nD) → (b : Ref sig .tc) → Buf (Elt F) ((c : Thread nD τ).loc b) := fun c b => W6 m c b

def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb

abbrev X7 : (c : Dev nD) → (b : Ref sig .tc) → Buf (Elt F) ((c : Thread nD τ).loc b) := fun c b => W7 m c b
theorem hF2 (c : Dev nD) (w : Fin cfg2.W) : (dat2 (V6 m) c).arrAt w cfg2.N = X7 m c (Pipeline.arrRef spec2 w) :=
  (W7_arr m c w).symm
theorem hrest2 (c : Dev nD) : ∀ b, b ∉ Finset.univ.image (Pipeline.arrRef spec2) → X7 m c b = V6 m c b :=
  fun b hb => W7_of_ne m c b fun w e => hb (Finset.mem_image.mpr ⟨w, Finset.mem_univ _, e⟩)

abbrev W8 : Dev nD → Valuation τ sig (Elt F) := fun c => StableHlo.after hostOps3 (W7 m c)

abbrev V8 : (c : Dev nD) → (b : Ref sig .tc) → Buf (Elt F) ((c : Thread nD τ).loc b) := fun c b => W8 m c b

def W9 (c : Dev nD) : Valuation τ sig (Elt F) :=
  Pipeline.withArrays spec3 c (W8 m c) fun w => (dat3 (V8 m) c).arrAt w cfg3.N
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb

abbrev X9 : (c : Dev nD) → (b : Ref sig .tc) → Buf (Elt F) ((c : Thread nD τ).loc b) := fun c b => W9 m c b
theorem hF3 (c : Dev nD) (w : Fin cfg3.W) : (dat3 (V8 m) c).arrAt w cfg3.N = X9 m c (Pipeline.arrRef spec3 w) :=
  (W9_arr m c w).symm
theorem hrest3 (c : Dev nD) : ∀ b, b ∉ Finset.univ.image (Pipeline.arrRef spec3) → X9 m c b = V8 m c b :=
  fun b hb => W9_of_ne m c b fun w e => hb (Finset.mem_image.mpr ⟨w, Finset.mem_univ _, e⟩)

abbrev V9 : (c : Dev nD) → (b : Ref sig .tc) → Buf (Elt F) ((c : Thread nD τ).loc b) := fun c b => W9 m c b

def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb

abbrev X10 : (c : Dev nD) → (b : Ref sig .tc) → Buf (Elt F) ((c : Thread nD τ).loc b) := fun c b => W10 m c b
theorem hF4 (c : Dev nD) (w : Fin cfg4.W) : (dat4 (V9 m) c).arrAt w cfg4.N = X10 m c (Pipeline.arrRef spec4 w) :=
  (W10_arr m c w).symm
theorem hrest4 (c : Dev nD) : ∀ b, b ∉ Finset.univ.image (Pipeline.arrRef spec4) → X10 m c b = V9 m c b :=
  fun b hb => W10_of_ne m c b fun w e => hb (Finset.mem_image.mpr ⟨w, Finset.mem_univ _, e⟩)

abbrev W11 : Dev nD → Valuation τ sig (Elt F) := fun c => StableHlo.after hostOps5 (W10 m c)

abbrev V11 : (c : Dev nD) → (b : Ref sig .tc) → Buf (Elt F) ((c : Thread nD τ).loc b) := fun c b => W11 m c b

def W12 (c : Dev nD) : Valuation τ sig (Elt F) :=
  Pipeline.withArrays spec5 c (W11 m c) fun w => (dat5 (V11 m) c).arrAt w cfg5.N
theorem W12_arr (c : Dev nD) (w : Fin cfg5.W) :
    W12 m c (Proc.devRef .tc (Pipeline.arrRef spec5 w)) = (dat5 (V11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb

abbrev X12 : (c : Dev nD) → (b : Ref sig .tc) → Buf (Elt F) ((c : Thread nD τ).loc b) := fun c b => W12 m c b
theorem hF5 (c : Dev nD) (w : Fin cfg5.W) : (dat5 (V11 m) c).arrAt w cfg5.N = X12 m c (Pipeline.arrRef spec5 w) :=
  (W12_arr m c w).symm
theorem hrest5 (c : Dev nD) : ∀ b, b ∉ Finset.univ.image (Pipeline.arrRef spec5) → X12 m c b = V11 m c b :=
  fun b hb => W12_of_ne m c b fun w e => hb (Finset.mem_image.mpr ⟨w, Finset.mem_univ _, e⟩)

abbrev W13 : Dev nD → Valuation τ sig (Elt F) := fun c => StableHlo.after hostOps6 (W12 m c)

abbrev V13 : (c : Dev nD) → (b : Ref sig .tc) → Buf (Elt F) ((c : Thread nD τ).loc b) := fun c b => W13 m c b

def W14 (c : Dev nD) : Valuation τ sig (Elt F) :=
  Pipeline.withArrays spec6 c (W13 m c) fun w => (dat6 (V13 m) c).arrAt w cfg6.N
theorem W14_arr (c : Dev nD) (w : Fin cfg6.W) :
    W14 m c (Proc.devRef .tc (Pipeline.arrRef spec6 w)) = (dat6 (V13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb

abbrev X14 : (c : Dev nD) → (b : Ref sig .tc) → Buf (Elt F) ((c : Thread nD τ).loc b) := fun c b => W14 m c b
theorem hF6 (c : Dev nD) (w : Fin cfg6.W) : (dat6 (V13 m) c).arrAt w cfg6.N = X14 m c (Pipeline.arrRef spec6 w) :=
  (W14_arr m c w).symm
theorem hrest6 (c : Dev nD) : ∀ b, b ∉ Finset.univ.image (Pipeline.arrRef spec6) → X14 m c b = V13 m c b :=
  fun b hb => W14_of_ne m c b fun w e => hb (Finset.mem_image.mpr ⟨w, Finset.mem_univ _, e⟩)

abbrev V14 : (c : Dev nD) → (b : Ref sig .tc) → Buf (Elt F) ((c : Thread nD τ).loc b) := fun c b => W14 m c b

def W15 (c : Dev nD) : Valuation τ sig (Elt F) :=
  Pipeline.withArrays spec7 c (W14 m c) fun w => (dat7 (V14 m) c).arrAt w cfg7.N
theorem W15_arr (c : Dev nD) (w : Fin cfg7.W) :
    W15 m c (Proc.devRef .tc (Pipeline.arrRef spec7 w)) = (dat7 (V14 m) c).arrAt w cfg7.N := by
  unfold W15; exact Pipeline.withArrays_arr spec7 launch7.win.arr_inj c _ _ w
theorem W15_of_ne (c : Dev nD) (b : Ref sig .tc) (hb : ∀ w, Pipeline.arrRef spec7 w ≠ b) :
    W15 m c (Proc.devRef .tc b) = W14 m c (Proc.devRef .tc b) := by
  unfold W15; exact Pipeline.withArrays_of_ne spec7 c _ _ b hb

abbrev X15 : (c : Dev nD) → (b : Ref sig .tc) → Buf (Elt F) ((c : Thread nD τ).loc b) := fun c b => W15 m c b
theorem hF7 (c : Dev nD) (w : Fin cfg7.W) : (dat7 (V14 m) c).arrAt w cfg7.N = X15 m c (Pipeline.arrRef spec7 w) :=
  (W15_arr m c w).symm
theorem hrest7 (c : Dev nD) : ∀ b, b ∉ Finset.univ.image (Pipeline.arrRef spec7) → X15 m c b = V14 m c b :=
  fun b hb => W15_of_ne m c b fun w e => hb (Finset.mem_image.mpr ⟨w, Finset.mem_univ _, e⟩)

abbrev W16 : Dev nD → Valuation τ sig (Elt F) := fun c => StableHlo.after hostOps8 (W15 m c)

abbrev V16 : (c : Dev nD) → (b : Ref sig .tc) → Buf (Elt F) ((c : Thread nD τ).loc b) := fun c b => W16 m c b

def W17 (c : Dev nD) : Valuation τ sig (Elt F) :=
  Pipeline.withArrays spec8 c (W16 m c) fun w => (dat8 (V16 m) c).arrAt w cfg8.N
theorem W17_arr (c : Dev nD) (w : Fin cfg8.W) :
    W17 m c (Proc.devRef .tc (Pipeline.arrRef spec8 w)) = (dat8 (V16 m) c).arrAt w cfg8.N := by
  unfold W17; exact Pipeline.withArrays_arr spec8 launch8.win.arr_inj c _ _ w
theorem W17_of_ne (c : Dev nD) (b : Ref sig .tc) (hb : ∀ w, Pipeline.arrRef spec8 w ≠ b) :
    W17 m c (Proc.devRef .tc b) = W16 m c (Proc.devRef .tc b) := by
  unfold W17; exact Pipeline.withArrays_of_ne spec8 c _ _ b hb

abbrev X17 : (c : Dev nD) → (b : Ref sig .tc) → Buf (Elt F) ((c : Thread nD τ).loc b) := fun c b => W17 m c b
theorem hF8 (c : Dev nD) (w : Fin cfg8.W) : (dat8 (V16 m) c).arrAt w cfg8.N = X17 m c (Pipeline.arrRef spec8 w) :=
  (W17_arr m c w).symm
theorem hrest8 (c : Dev nD) : ∀ b, b ∉ Finset.univ.image (Pipeline.arrRef spec8) → X17 m c b = V16 m c b :=
  fun b hb => W17_of_ne m c b fun w e => hb (Finset.mem_image.mpr ⟨w, Finset.mem_univ _, e⟩)

abbrev W18 : Dev nD → Valuation τ sig (Elt F) := fun c => StableHlo.after hostOps9 (W17 m c)

abbrev W19 : Dev nD → Valuation τ sig (Elt F) := fun c => StableHlo.after hostOps9_1 (W18 m c)

abbrev adm : (p : Fin 9) → (pcfgs (F := F) p).Adm := fun p => (cfgs p).toPCfg_adm

def pdats : (p : Fin 9) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 m) c
  | ⟨2, _⟩ => fun c => dat2 (V6 m) c
  | ⟨3, _⟩ => fun c => dat3 (V8 m) c
  | ⟨4, _⟩ => fun c => dat4 (V9 m) c
  | ⟨5, _⟩ => fun c => dat5 (V11 m) c
  | ⟨6, _⟩ => fun c => dat6 (V13 m) c
  | ⟨7, _⟩ => fun c => dat7 (V14 m) c
  | ⟨8, _⟩ => fun c => dat8 (V16 m) c

end Cert.KernelIdeal.Rg

end
-- ==== Proof.Main.lean ====
import proofs.«425541_j70411693850858_1_alg».proof.Proof.Chain
import Idealize.ShloMosaic.Lib.Pipeline.Regions

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor
theorem hostOps6_fresh : (hostOps6 : List (HloOp τ sig (Elt F))).Forall fun op => op.fresh = ∅ := by
  simp only [List.Forall]; repeat' constructor
theorem hostOps8_fresh : (hostOps8 : List (HloOp τ sig (Elt F))).Forall fun op => op.fresh = ∅ := by
  simp only [List.Forall]; repeat' constructor
theorem hostOps9_fresh : (hostOps9 : List (HloOp τ sig (Elt F))).Forall fun op => op.fresh = ∅ := by
  simp only [List.Forall]; repeat' constructor
theorem hostOps9_1_fresh : (hostOps9_1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Reg0
variable (hb0 : ∀ c : Dev nD, BodyObligation (dat0 (F := F) (V3 m) c) (defs₀ (F := F)) Variants.none () Set.univ)
  (ho0 : ∀ c : Dev nD, (dat0 (F := F) (V3 m) c).Φ (Fin.last cfg0.N) ⊢ Pipeline.ΦA spec0 c)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from ho0 c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (X4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg0

section Reg1
variable (hb1 : ∀ c : Dev nD, BodyObligation (dat1 (F := F) (V4 m) c) (defs₀ (F := F)) Variants.none () Set.univ)
  (ho1 : ∀ c : Dev nD, (dat1 (F := F) (V4 m) c).Φ (Fin.last cfg1.N) ⊢ Pipeline.ΦA spec1 c)

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from ho1 c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (X5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg1

section Reg2
variable (hb2 : ∀ c : Dev nD, BodyObligation (dat2 (F := F) (V6 m) c) (defs₀ (F := F)) Variants.none () Set.univ)
  (ho2 : ∀ c : Dev nD, (dat2 (F := F) (V6 m) c).Φ (Fin.last cfg2.N) ⊢ Pipeline.ΦA spec2 c)

set_option backward.isDefEq.respectTransparency.types false in

def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (hb2 c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from ho2 c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (X7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg2

section Reg3
variable (hb3 : ∀ c : Dev nD, BodyObligation (dat3 (F := F) (V8 m) c) (defs₀ (F := F)) Variants.none () Set.univ)
  (ho3 : ∀ c : Dev nD, (dat3 (F := F) (V8 m) c).Φ (Fin.last cfg3.N) ⊢ Pipeline.ΦA spec3 c)

set_option backward.isDefEq.respectTransparency.types false in

def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (hb3 c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (V8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from ho3 c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V8 m c) (X9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg3

section Reg4
variable (hb4 : ∀ c : Dev nD, BodyObligation (dat4 (F := F) (V9 m) c) (defs₀ (F := F)) Variants.none () Set.univ)
  (ho4 : ∀ c : Dev nD, (dat4 (F := F) (V9 m) c).Φ (Fin.last cfg4.N) ⊢ Pipeline.ΦA spec4 c)

set_option backward.isDefEq.respectTransparency.types false in

def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (hb4 c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (show (pdats m 4 c).Φ (Fin.last _) ⊢ Pipeline.ΦA spec4 c from ho4 c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (X10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg4

section Reg5
variable (hb5 : ∀ c : Dev nD, BodyObligation (dat5 (F := F) (V11 m) c) (defs₀ (F := F)) Variants.none () Set.univ)
  (ho5 : ∀ c : Dev nD, (dat5 (F := F) (V11 m) c).Φ (Fin.last cfg5.N) ⊢ Pipeline.ΦA spec5 c)

set_option backward.isDefEq.respectTransparency.types false in

def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (hb5 c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (V11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none]
    refine (show (pdats m 5 c).Φ (Fin.last _) ⊢ Pipeline.ΦA spec5 c from ho5 c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V11 m c) (X12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg5

section Reg6
variable (hb6 : ∀ c : Dev nD, BodyObligation (dat6 (F := F) (V13 m) c) (defs₀ (F := F)) Variants.none () Set.univ)
  (ho6 : ∀ c : Dev nD, (dat6 (F := F) (V13 m) c).Φ (Fin.last cfg6.N) ⊢ Pipeline.ΦA spec6 c)

set_option backward.isDefEq.respectTransparency.types false in

def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (hb6 c).loose
  hwaits := Pipeline.hwaits_of_owed_zero _ _ _ _ L lv 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (V13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (V13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none]
    refine (show (pdats m 6 c).Φ (Fin.last _) ⊢ Pipeline.ΦA spec6 c from ho6 c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (V13 m c) (X14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg6

section Reg7
variable (hb7 : ∀ c : Dev nD, BodyObligation (dat7 (F := F) (V14 m) c) (defs₀ (F := F)) Variants.none () Set.univ)
  (ho7 : ∀ c : Dev nD, (dat7 (F := F) (V14 m) c).Φ (Fin.last cfg7.N) ⊢ Pipeline.ΦA spec7 c)

set_option backward.isDefEq.respectTransparency.types false in

def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (hb7 c).loose
  hwaits := Pipeline.hwaits_of_owed_zero _ _ _ _ L lv 7 fun _ _ => rfl
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := UR sig nD τ) (Lvl := ℕ) spec7 c (V14 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (V14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none]
    refine (show (pdats m 7 c).Φ (Fin.last _) ⊢ Pipeline.ΦA spec7 c from ho7 c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (V14 m c) (X15 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg7

section Reg8
variable (hb8 : ∀ c : Dev nD, BodyObligation (dat8 (F := F) (V16 m) c) (defs₀ (F := F)) Variants.none () Set.univ)
  (ho8 : ∀ c : Dev nD, (dat8 (F := F) (V16 m) c).Φ (Fin.last cfg8.N) ⊢ Pipeline.ΦA spec8 c)

set_option backward.isDefEq.respectTransparency.types false in

def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (hb8 c).loose
  hwaits := Pipeline.hwaits_of_owed_zero _ _ _ _ L lv 8 fun _ _ => rfl
  pre c := iprop(StableHlo.held (c : Thread nD τ) (Pipeline.ucRefs τ sig) (W16 m c) ∗ R c)
  post c := iprop(StableHlo.held (c : Thread nD τ) (Pipeline.ucRefs τ sig) (W17 m c) ∗ R c)
  X c := iprop(∃ r, prngReg c r)
  Y c := iprop(∃ r, prngReg c r)
  Z c := Pipeline.unscopedRest (Ix := Unit) (Name := ℕ) (U := UR sig nD τ) (Lvl := ℕ) spec8 c (V16 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (V16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none]
    refine (show (pdats m 8 c).Φ (Fin.last _) ⊢ Pipeline.ΦA spec8 c from ho8 c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (V16 m c) (X17 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg8

section Run
variable (hb0 : ∀ c : Dev nD, BodyObligation (dat0 (F := F) (V3 m) c) (defs₀ (F := F)) Variants.none () Set.univ)
    (hb1 : ∀ c : Dev nD, BodyObligation (dat1 (F := F) (V4 m) c) (defs₀ (F := F)) Variants.none () Set.univ)
    (hb2 : ∀ c : Dev nD, BodyObligation (dat2 (F := F) (V6 m) c) (defs₀ (F := F)) Variants.none () Set.univ)
    (hb3 : ∀ c : Dev nD, BodyObligation (dat3 (F := F) (V8 m) c) (defs₀ (F := F)) Variants.none () Set.univ)
    (hb4 : ∀ c : Dev nD, BodyObligation (dat4 (F := F) (V9 m) c) (defs₀ (F := F)) Variants.none () Set.univ)
    (hb5 : ∀ c : Dev nD, BodyObligation (dat5 (F := F) (V11 m) c) (defs₀ (F := F)) Variants.none () Set.univ)
    (hb6 : ∀ c : Dev nD, BodyObligation (dat6 (F := F) (V13 m) c) (defs₀ (F := F)) Variants.none () Set.univ)
    (hb7 : ∀ c : Dev nD, BodyObligation (dat7 (F := F) (V14 m) c) (defs₀ (F := F)) Variants.none () Set.univ)
    (hb8 : ∀ c : Dev nD, BodyObligation (dat8 (F := F) (V16 m) c) (defs₀ (F := F)) Variants.none () Set.univ)
    (ho0 : ∀ c : Dev nD, (dat0 (F := F) (V3 m) c).Φ (Fin.last cfg0.N) ⊢ Pipeline.ΦA spec0 c)
    (ho1 : ∀ c : Dev nD, (dat1 (F := F) (V4 m) c).Φ (Fin.last cfg1.N) ⊢ Pipeline.ΦA spec1 c)
    (ho2 : ∀ c : Dev nD, (dat2 (F := F) (V6 m) c).Φ (Fin.last cfg2.N) ⊢ Pipeline.ΦA spec2 c)
    (ho3 : ∀ c : Dev nD, (dat3 (F := F) (V8 m) c).Φ (Fin.last cfg3.N) ⊢ Pipeline.ΦA spec3 c)
    (ho4 : ∀ c : Dev nD, (dat4 (F := F) (V9 m) c).Φ (Fin.last cfg4.N) ⊢ Pipeline.ΦA spec4 c)
    (ho5 : ∀ c : Dev nD, (dat5 (F := F) (V11 m) c).Φ (Fin.last cfg5.N) ⊢ Pipeline.ΦA spec5 c)
    (ho6 : ∀ c : Dev nD, (dat6 (F := F) (V13 m) c).Φ (Fin.last cfg6.N) ⊢ Pipeline.ΦA spec6 c)
    (ho7 : ∀ c : Dev nD, (dat7 (F := F) (V14 m) c).Φ (Fin.last cfg7.N) ⊢ Pipeline.ΦA spec7 c)
    (ho8 : ∀ c : Dev nD, (dat8 (F := F) (V16 m) c).Φ (Fin.last cfg8.N) ⊢ Pipeline.ΦA spec8 c)

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m hb0 ho0),
    .region (reg1 m hb1 ho1),
    .host (hseg hostOps2 hostOps2_sub hostOps2_fresh (W5 m)),
    .region (reg2 m hb2 ho2),
    .host (hseg hostOps3 hostOps3_sub hostOps3_fresh (W7 m)),
    .region (reg3 m hb3 ho3),
    .region (reg4 m hb4 ho4),
    .host (hseg hostOps5 hostOps5_sub hostOps5_fresh (W10 m)),
    .region (reg5 m hb5 ho5),
    .host (hseg hostOps6 hostOps6_sub hostOps6_fresh (W12 m)),
    .region (reg6 m hb6 ho6),
    .region (reg7 m hb7 ho7),
    .host (hseg hostOps8 hostOps8_sub hostOps8_fresh (W15 m)),
    .region (reg8 m hb8 ho8),
    .host (hseg hostOps9 hostOps9_sub hostOps9_fresh (W17 m)),
    .host (hseg hostOps9_1 hostOps9_1_sub hostOps9_1_fresh (W18 m)) ]

include hb0 hb1 hb2 hb3 hb4 hb5 hb6 hb7 hb8 ho0 ho1 ho2 ho3 ho4 ho5 ho6 ho7 ho8 in
set_option maxRecDepth 65536 in

theorem main_run (c : Dev nD) : main (F := F) c = Pipeline.Seg.run (segs m hb0 hb1 hb2 hb3 hb4 hb5 hb6 hb7 hb8 ho0 ho1 ho2 ho3 ho4 ho5 ho6 ho7 ho8) := (main_chain c).trans (by chain_rfl)

include hb0 hb1 hb2 hb3 hb4 hb5 hb6 hb7 hb8 ho0 ho1 ho2 ho3 ho4 ho5 ho6 ho7 ho8 in
set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m c b) :=
  Pipeline.θ_run_regions_kit (pcfgs (F := F)) adm (pdats m) () cellOf_inj emb₁ defs₀ 𝒱₀ L lv m ρ main (segs m hb0 hb1 hb2 hb3 hb4 hb5 hb6 hb7 hb8 ho0 ho1 ho2 ho3 ho4 ho5 ho6 ho7 ho8)
    (fun c Q => by rw [main_run m hb0 hb1 hb2 hb3 hb4 hb5 hb6 hb7 hb8 ho0 ho1 ho2 ho3 ho4 ho5 ho6 ho7 ho8 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W19 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => show (iprop(StableHlo.held (c : Thread nD τ) (Pipeline.ucRefs τ sig) (W19 m c) ∗ R c) : sProp 𝕄)
        ⊢ iprop(iprop(StableHlo.held (c : Thread nD τ) (Pipeline.ucRefs τ sig) (W19 m c) ∗ ∃ r, prngReg c r) ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m c b)
    (hfin := fun c s' => by
      iintro ⟨⟨Hh, -⟩, HSI⟩
      unfold StableHlo.held
      imodintro
      iapply (pointsTo_read_all (Pipeline.ucRefs τ sig) (fun b => (((c : Thread nD τ)).1, b)) (W19 m c) s')
      isplitl [Hh] <;> iassumption)
    (hQ := fun s h c => h c)

end Run

end Cert.KernelIdeal.Rg

end
-- ==== Proof.Args.lean ====
import proofs.«425541_j70411693850858_1_alg».proof.Proof.Chain
import proofs.«425541_j70411693850858_1_alg».proof.Proof.Gen.KernelIdeal.Regions

set_option maxRecDepth 16384

noncomputable section

namespace Cert.KernelIdeal.Rg

open Cert.KernelIdeal
open Idealize.ShloMosaic Idealize.ShloMosaic.TcCoe
open Idealize.SL Idealize.SL.Sem

variable {F : FTy → Type} [FloatOps F]
variable (m : (ℓ : Loc nD τ sig) → Buf (Elt F) ℓ)

theorem step0 (c : Dev nD) (r : Ref sig .tc) (h : r ∉ Gen.hostOps0_W) : W1 m c r = W0 m c r :=
  StableHlo.after_of_writes_sub Gen.hostOps0 _ Gen.hostOps0_writes h
theorem step1 (c : Dev nD) (r : Ref sig .tc) (h : r ∉ Gen.hostOps0_1_W) : W2 m c r = W1 m c r :=
  StableHlo.after_of_writes_sub Gen.hostOps0_1 _ Gen.hostOps0_1_writes h
theorem step2 (c : Dev nD) (r : Ref sig .tc) (h : r ∉ Gen.hostOps0_2_W) : W3 m c r = W2 m c r :=
  StableHlo.after_of_writes_sub Gen.hostOps0_2 _ Gen.hostOps0_2_writes h
theorem step5 (c : Dev nD) (r : Ref sig .tc) (h : r ∉ Gen.hostOps2_W) : W6 m c r = W5 m c r :=
  StableHlo.after_of_writes_sub Gen.hostOps2 _ Gen.hostOps2_writes h
theorem step7 (c : Dev nD) (r : Ref sig .tc) (h : r ∉ Gen.hostOps3_W) : W8 m c r = W7 m c r :=
  StableHlo.after_of_writes_sub Gen.hostOps3 _ Gen.hostOps3_writes h
theorem step10 (c : Dev nD) (r : Ref sig .tc) (h : r ∉ Gen.hostOps5_W) : W11 m c r = W10 m c r :=
  StableHlo.after_of_writes_sub Gen.hostOps5 _ Gen.hostOps5_writes h
theorem step12 (c : Dev nD) (r : Ref sig .tc) (h : r ∉ Gen.hostOps6_W) : W13 m c r = W12 m c r :=
  StableHlo.after_of_writes_sub Gen.hostOps6 _ Gen.hostOps6_writes h
theorem step15 (c : Dev nD) (r : Ref sig .tc) (h : r ∉ Gen.hostOps8_W) : W16 m c r = W15 m c r :=
  StableHlo.after_of_writes_sub Gen.hostOps8 _ Gen.hostOps8_writes h
theorem step17 (c : Dev nD) (r : Ref sig .tc) (h : r ∉ Gen.hostOps9_W) : W18 m c r = W17 m c r :=
  StableHlo.after_of_writes_sub Gen.hostOps9 _ Gen.hostOps9_writes h
theorem step18 (c : Dev nD) (r : Ref sig .tc) (h : r ∉ Gen.hostOps9_1_W) : W19 m c r = W18 m c r :=
  StableHlo.after_of_writes_sub Gen.hostOps9_1 _ Gen.hostOps9_1_writes h

theorem W19_main_arg0 (c : Dev nD) : W19 m c (Proc.devRef .tc main_arg0) = m ((c : Thread nD τ).loc main_arg0) :=
  (step18 m c main_arg0 (by decide)).trans <| (step17 m c main_arg0 (by decide)).trans <| (W17_of_ne m c main_arg0 (by decide)).trans <| (step15 m c main_arg0 (by decide)).trans <| (W15_of_ne m c main_arg0 (by decide)).trans <| (W14_of_ne m c main_arg0 (by decide)).trans <| (step12 m c main_arg0 (by decide)).trans <| (W12_of_ne m c main_arg0 (by decide)).trans <| (step10 m c main_arg0 (by decide)).trans <| (W10_of_ne m c main_arg0 (by decide)).trans <| (W9_of_ne m c main_arg0 (by decide)).trans <| (step7 m c main_arg0 (by decide)).trans <| (W7_of_ne m c main_arg0 (by decide)).trans <| (step5 m c main_arg0 (by decide)).trans <| (W5_of_ne m c main_arg0 (by decide)).trans <| (W4_of_ne m c main_arg0 (by decide)).trans <| (step2 m c main_arg0 (by decide)).trans <| (step1 m c main_arg0 (by decide)).trans <| (step0 m c main_arg0 (by decide))

theorem W19_main_arg1 (c : Dev nD) : W19 m c (Proc.devRef .tc main_arg1) = m ((c : Thread nD τ).loc main_arg1) :=
  (step18 m c main_arg1 (by decide)).trans <| (step17 m c main_arg1 (by decide)).trans <| (W17_of_ne m c main_arg1 (by decide)).trans <| (step15 m c main_arg1 (by decide)).trans <| (W15_of_ne m c main_arg1 (by decide)).trans <| (W14_of_ne m c main_arg1 (by decide)).trans <| (step12 m c main_arg1 (by decide)).trans <| (W12_of_ne m c main_arg1 (by decide)).trans <| (step10 m c main_arg1 (by decide)).trans <| (W10_of_ne m c main_arg1 (by decide)).trans <| (W9_of_ne m c main_arg1 (by decide)).trans <| (step7 m c main_arg1 (by decide)).trans <| (W7_of_ne m c main_arg1 (by decide)).trans <| (step5 m c main_arg1 (by decide)).trans <| (W5_of_ne m c main_arg1 (by decide)).trans <| (W4_of_ne m c main_arg1 (by decide)).trans <| (step2 m c main_arg1 (by decide)).trans <| (step1 m c main_arg1 (by decide)).trans <| (step0 m c main_arg1 (by decide))

theorem W19_main_arg2 (c : Dev nD) : W19 m c (Proc.devRef .tc main_arg2) = m ((c : Thread nD τ).loc main_arg2) :=
  (step18 m c main_arg2 (by decide)).trans <| (step17 m c main_arg2 (by decide)).trans <| (W17_of_ne m c main_arg2 (by decide)).trans <| (step15 m c main_arg2 (by decide)).trans <| (W15_of_ne m c main_arg2 (by decide)).trans <| (W14_of_ne m c main_arg2 (by decide)).trans <| (step12 m c main_arg2 (by decide)).trans <| (W12_of_ne m c main_arg2 (by decide)).trans <| (step10 m c main_arg2 (by decide)).trans <| (W10_of_ne m c main_arg2 (by decide)).trans <| (W9_of_ne m c main_arg2 (by decide)).trans <| (step7 m c main_arg2 (by decide)).trans <| (W7_of_ne m c main_arg2 (by decide)).trans <| (step5 m c main_arg2 (by decide)).trans <| (W5_of_ne m c main_arg2 (by decide)).trans <| (W4_of_ne m c main_arg2 (by decide)).trans <| (step2 m c main_arg2 (by decide)).trans <| (step1 m c main_arg2 (by decide)).trans <| (step0 m c main_arg2 (by decide))

theorem W19_main_arg3 (c : Dev nD) : W19 m c (Proc.devRef .tc main_arg3) = m ((c : Thread nD τ).loc main_arg3) :=
  (step18 m c main_arg3 (by decide)).trans <| (step17 m c main_arg3 (by decide)).trans <| (W17_of_ne m c main_arg3 (by decide)).trans <| (step15 m c main_arg3 (by decide)).trans <| (W15_of_ne m c main_arg3 (by decide)).trans <| (W14_of_ne m c main_arg3 (by decide)).trans <| (step12 m c main_arg3 (by decide)).trans <| (W12_of_ne m c main_arg3 (by decide)).trans <| (step10 m c main_arg3 (by decide)).trans <| (W10_of_ne m c main_arg3 (by decide)).trans <| (W9_of_ne m c main_arg3 (by decide)).trans <| (step7 m c main_arg3 (by decide)).trans <| (W7_of_ne m c main_arg3 (by decide)).trans <| (step5 m c main_arg3 (by decide)).trans <| (W5_of_ne m c main_arg3 (by decide)).trans <| (W4_of_ne m c main_arg3 (by decide)).trans <| (step2 m c main_arg3 (by decide)).trans <| (step1 m c main_arg3 (by decide)).trans <| (step0 m c main_arg3 (by decide))

theorem W19_main_arg4 (c : Dev nD) : W19 m c (Proc.devRef .tc main_arg4) = m ((c : Thread nD τ).loc main_arg4) :=
  (step18 m c main_arg4 (by decide)).trans <| (step17 m c main_arg4 (by decide)).trans <| (W17_of_ne m c main_arg4 (by decide)).trans <| (step15 m c main_arg4 (by decide)).trans <| (W15_of_ne m c main_arg4 (by decide)).trans <| (W14_of_ne m c main_arg4 (by decide)).trans <| (step12 m c main_arg4 (by decide)).trans <| (W12_of_ne m c main_arg4 (by decide)).trans <| (step10 m c main_arg4 (by decide)).trans <| (W10_of_ne m c main_arg4 (by decide)).trans <| (W9_of_ne m c main_arg4 (by decide)).trans <| (step7 m c main_arg4 (by decide)).trans <| (W7_of_ne m c main_arg4 (by decide)).trans <| (step5 m c main_arg4 (by decide)).trans <| (W5_of_ne m c main_arg4 (by decide)).trans <| (W4_of_ne m c main_arg4 (by decide)).trans <| (step2 m c main_arg4 (by decide)).trans <| (step1 m c main_arg4 (by decide)).trans <| (step0 m c main_arg4 (by decide))

theorem W19_main_arg5 (c : Dev nD) : W19 m c (Proc.devRef .tc main_arg5) = m ((c : Thread nD τ).loc main_arg5) :=
  (step18 m c main_arg5 (by decide)).trans <| (step17 m c main_arg5 (by decide)).trans <| (W17_of_ne m c main_arg5 (by decide)).trans <| (step15 m c main_arg5 (by decide)).trans <| (W15_of_ne m c main_arg5 (by decide)).trans <| (W14_of_ne m c main_arg5 (by decide)).trans <| (step12 m c main_arg5 (by decide)).trans <| (W12_of_ne m c main_arg5 (by decide)).trans <| (step10 m c main_arg5 (by decide)).trans <| (W10_of_ne m c main_arg5 (by decide)).trans <| (W9_of_ne m c main_arg5 (by decide)).trans <| (step7 m c main_arg5 (by decide)).trans <| (W7_of_ne m c main_arg5 (by decide)).trans <| (step5 m c main_arg5 (by decide)).trans <| (W5_of_ne m c main_arg5 (by decide)).trans <| (W4_of_ne m c main_arg5 (by decide)).trans <| (step2 m c main_arg5 (by decide)).trans <| (step1 m c main_arg5 (by decide)).trans <| (step0 m c main_arg5 (by decide))

theorem W19_main_arg6 (c : Dev nD) : W19 m c (Proc.devRef .tc main_arg6) = m ((c : Thread nD τ).loc main_arg6) :=
  (step18 m c main_arg6 (by decide)).trans <| (step17 m c main_arg6 (by decide)).trans <| (W17_of_ne m c main_arg6 (by decide)).trans <| (step15 m c main_arg6 (by decide)).trans <| (W15_of_ne m c main_arg6 (by decide)).trans <| (W14_of_ne m c main_arg6 (by decide)).trans <| (step12 m c main_arg6 (by decide)).trans <| (W12_of_ne m c main_arg6 (by decide)).trans <| (step10 m c main_arg6 (by decide)).trans <| (W10_of_ne m c main_arg6 (by decide)).trans <| (W9_of_ne m c main_arg6 (by decide)).trans <| (step7 m c main_arg6 (by decide)).trans <| (W7_of_ne m c main_arg6 (by decide)).trans <| (step5 m c main_arg6 (by decide)).trans <| (W5_of_ne m c main_arg6 (by decide)).trans <| (W4_of_ne m c main_arg6 (by decide)).trans <| (step2 m c main_arg6 (by decide)).trans <| (step1 m c main_arg6 (by decide)).trans <| (step0 m c main_arg6 (by decide))

theorem W19_main_arg7 (c : Dev nD) : W19 m c (Proc.devRef .tc main_arg7) = m ((c : Thread nD τ).loc main_arg7) :=
  (step18 m c main_arg7 (by decide)).trans <| (step17 m c main_arg7 (by decide)).trans <| (W17_of_ne m c main_arg7 (by decide)).trans <| (step15 m c main_arg7 (by decide)).trans <| (W15_of_ne m c main_arg7 (by decide)).trans <| (W14_of_ne m c main_arg7 (by decide)).trans <| (step12 m c main_arg7 (by decide)).trans <| (W12_of_ne m c main_arg7 (by decide)).trans <| (step10 m c main_arg7 (by decide)).trans <| (W10_of_ne m c main_arg7 (by decide)).trans <| (W9_of_ne m c main_arg7 (by decide)).trans <| (step7 m c main_arg7 (by decide)).trans <| (W7_of_ne m c main_arg7 (by decide)).trans <| (step5 m c main_arg7 (by decide)).trans <| (W5_of_ne m c main_arg7 (by decide)).trans <| (W4_of_ne m c main_arg7 (by decide)).trans <| (step2 m c main_arg7 (by decide)).trans <| (step1 m c main_arg7 (by decide)).trans <| (step0 m c main_arg7 (by decide))

theorem W19_main_arg8 (c : Dev nD) : W19 m c (Proc.devRef .tc main_arg8) = m ((c : Thread nD τ).loc main_arg8) :=
  (step18 m c main_arg8 (by decide)).trans <| (step17 m c main_arg8 (by decide)).trans <| (W17_of_ne m c main_arg8 (by decide)).trans <| (step15 m c main_arg8 (by decide)).trans <| (W15_of_ne m c main_arg8 (by decide)).trans <| (W14_of_ne m c main_arg8 (by decide)).trans <| (step12 m c main_arg8 (by decide)).trans <| (W12_of_ne m c main_arg8 (by decide)).trans <| (step10 m c main_arg8 (by decide)).trans <| (W10_of_ne m c main_arg8 (by decide)).trans <| (W9_of_ne m c main_arg8 (by decide)).trans <| (step7 m c main_arg8 (by decide)).trans <| (W7_of_ne m c main_arg8 (by decide)).trans <| (step5 m c main_arg8 (by decide)).trans <| (W5_of_ne m c main_arg8 (by decide)).trans <| (W4_of_ne m c main_arg8 (by decide)).trans <| (step2 m c main_arg8 (by decide)).trans <| (step1 m c main_arg8 (by decide)).trans <| (step0 m c main_arg8 (by decide))

theorem W19_main_arg9 (c : Dev nD) : W19 m c (Proc.devRef .tc main_arg9) = m ((c : Thread nD τ).loc main_arg9) :=
  (step18 m c main_arg9 (by decide)).trans <| (step17 m c main_arg9 (by decide)).trans <| (W17_of_ne m c main_arg9 (by decide)).trans <| (step15 m c main_arg9 (by decide)).trans <| (W15_of_ne m c main_arg9 (by decide)).trans <| (W14_of_ne m c main_arg9 (by decide)).trans <| (step12 m c main_arg9 (by decide)).trans <| (W12_of_ne m c main_arg9 (by decide)).trans <| (step10 m c main_arg9 (by decide)).trans <| (W10_of_ne m c main_arg9 (by decide)).trans <| (W9_of_ne m c main_arg9 (by decide)).trans <| (step7 m c main_arg9 (by decide)).trans <| (W7_of_ne m c main_arg9 (by decide)).trans <| (step5 m c main_arg9 (by decide)).trans <| (W5_of_ne m c main_arg9 (by decide)).trans <| (W4_of_ne m c main_arg9 (by decide)).trans <| (step2 m c main_arg9 (by decide)).trans <| (step1 m c main_arg9 (by decide)).trans <| (step0 m c main_arg9 (by decide))

theorem W19_main_arg10 (c : Dev nD) : W19 m c (Proc.devRef .tc main_arg10) = m ((c : Thread nD τ).loc main_arg10) :=
  (step18 m c main_arg10 (by decide)).trans <| (step17 m c main_arg10 (by decide)).trans <| (W17_of_ne m c main_arg10 (by decide)).trans <| (step15 m c main_arg10 (by decide)).trans <| (W15_of_ne m c main_arg10 (by decide)).trans <| (W14_of_ne m c main_arg10 (by decide)).trans <| (step12 m c main_arg10 (by decide)).trans <| (W12_of_ne m c main_arg10 (by decide)).trans <| (step10 m c main_arg10 (by decide)).trans <| (W10_of_ne m c main_arg10 (by decide)).trans <| (W9_of_ne m c main_arg10 (by decide)).trans <| (step7 m c main_arg10 (by decide)).trans <| (W7_of_ne m c main_arg10 (by decide)).trans <| (step5 m c main_arg10 (by decide)).trans <| (W5_of_ne m c main_arg10 (by decide)).trans <| (W4_of_ne m c main_arg10 (by decide)).trans <| (step2 m c main_arg10 (by decide)).trans <| (step1 m c main_arg10 (by decide)).trans <| (step0 m c main_arg10 (by decide))

theorem W19_main_arg11 (c : Dev nD) : W19 m c (Proc.devRef .tc main_arg11) = m ((c : Thread nD τ).loc main_arg11) :=
  (step18 m c main_arg11 (by decide)).trans <| (step17 m c main_arg11 (by decide)).trans <| (W17_of_ne m c main_arg11 (by decide)).trans <| (step15 m c main_arg11 (by decide)).trans <| (W15_of_ne m c main_arg11 (by decide)).trans <| (W14_of_ne m c main_arg11 (by decide)).trans <| (step12 m c main_arg11 (by decide)).trans <| (W12_of_ne m c main_arg11 (by decide)).trans <| (step10 m c main_arg11 (by decide)).trans <| (W10_of_ne m c main_arg11 (by decide)).trans <| (W9_of_ne m c main_arg11 (by decide)).trans <| (step7 m c main_arg11 (by decide)).trans <| (W7_of_ne m c main_arg11 (by decide)).trans <| (step5 m c main_arg11 (by decide)).trans <| (W5_of_ne m c main_arg11 (by decide)).trans <| (W4_of_ne m c main_arg11 (by decide)).trans <| (step2 m c main_arg11 (by decide)).trans <| (step1 m c main_arg11 (by decide)).trans <| (step0 m c main_arg11 (by decide))

theorem W19_main_arg12 (c : Dev nD) : W19 m c (Proc.devRef .tc main_arg12) = m ((c : Thread nD τ).loc main_arg12) :=
  (step18 m c main_arg12 (by decide)).trans <| (step17 m c main_arg12 (by decide)).trans <| (W17_of_ne m c main_arg12 (by decide)).trans <| (step15 m c main_arg12 (by decide)).trans <| (W15_of_ne m c main_arg12 (by decide)).trans <| (W14_of_ne m c main_arg12 (by decide)).trans <| (step12 m c main_arg12 (by decide)).trans <| (W12_of_ne m c main_arg12 (by decide)).trans <| (step10 m c main_arg12 (by decide)).trans <| (W10_of_ne m c main_arg12 (by decide)).trans <| (W9_of_ne m c main_arg12 (by decide)).trans <| (step7 m c main_arg12 (by decide)).trans <| (W7_of_ne m c main_arg12 (by decide)).trans <| (step5 m c main_arg12 (by decide)).trans <| (W5_of_ne m c main_arg12 (by decide)).trans <| (W4_of_ne m c main_arg12 (by decide)).trans <| (step2 m c main_arg12 (by decide)).trans <| (step1 m c main_arg12 (by decide)).trans <| (step0 m c main_arg12 (by decide))

theorem W19_main_arg13 (c : Dev nD) : W19 m c (Proc.devRef .tc main_arg13) = m ((c : Thread nD τ).loc main_arg13) :=
  (step18 m c main_arg13 (by decide)).trans <| (step17 m c main_arg13 (by decide)).trans <| (W17_of_ne m c main_arg13 (by decide)).trans <| (step15 m c main_arg13 (by decide)).trans <| (W15_of_ne m c main_arg13 (by decide)).trans <| (W14_of_ne m c main_arg13 (by decide)).trans <| (step12 m c main_arg13 (by decide)).trans <| (W12_of_ne m c main_arg13 (by decide)).trans <| (step10 m c main_arg13 (by decide)).trans <| (W10_of_ne m c main_arg13 (by decide)).trans <| (W9_of_ne m c main_arg13 (by decide)).trans <| (step7 m c main_arg13 (by decide)).trans <| (W7_of_ne m c main_arg13 (by decide)).trans <| (step5 m c main_arg13 (by decide)).trans <| (W5_of_ne m c main_arg13 (by decide)).trans <| (W4_of_ne m c main_arg13 (by decide)).trans <| (step2 m c main_arg13 (by decide)).trans <| (step1 m c main_arg13 (by decide)).trans <| (step0 m c main_arg13 (by decide))

end Cert.KernelIdeal.Rg

end
-- ==== Proof.R0Run.lean ====
import proofs.«425541_j70411693850858_1_alg».proof.Proof.R0Defs

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 49 = 0 :=
  (by decide +kernel : ∀ t : Fin grid0.N, cond0_0 (grid0.coords t) ↔ t.val % 49 = 0)

abbrev cond0_1 (i : grid0.Coords) : Prop := k0_cond2 i = 1#1

theorem hcond0_1 : ∀ t : Fin cfg0.N, cond0_1 (grid0.coords t) ↔ t.val % 49 = 48 :=
  (by decide +kernel : ∀ t : Fin grid0.N, cond0_1 (grid0.coords t) ↔ t.val % 49 = 48)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

theorem idleAt0_3 : ∀ t : Fin cfg0.N, ¬cond0_1 (grid0.coords t) → cfg0.idle 3 (grid0.coords t) = true := by
  intro t h
  show (!(k0_cond2 (grid0.coords t) == 1#1)) = true
  rw [Bool.not_eq_true', beq_eq_false_iff_ne]; exact h

theorem noFlush0_3 : ∀ t : Fin cfg0.N, ¬cond0_1 (grid0.coords t) → (cfg0.win 3).flush t = false := by
  intro t h
  rw [Bool.eq_false_iff]; intro hf
  exact h ((hcond0_1 t).mpr ((flush0_3 t).mp hf))

theorem liveAt0_3 : ∀ t : Fin cfg0.N, cond0_1 (grid0.coords t) → cfg0.idle 3 (grid0.coords t) = false := by
  intro t h
  show (!(k0_cond2 (grid0.coords t) == 1#1)) = false
  rw [Bool.not_eq_false', beq_iff_eq]; exact h

abbrev ms0_0 (t : Fin cfg0.N) : Memref sig .tc .vmem S4096x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .bf16 := win0_3.stage (cfg0.slots t 3)
abbrev hs0_3 (t : Fin cfg0.N) : (ms0_3 t).IsWhole := hstage0_3 ((cfg0.slots t 3).cast nbuf0_3)

theorem PhiA0_eq (c : Dev nD) :
    (Pipeline.ΦA spec0 c : sProp 𝕄)
      = iprop(iprop(iprop(∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- Every layer's gather region runs one kernel function: the later layers' printed bodies are this one's text. -/
theorem bodyAt0_eq (t : Fin cfg0.N) : bodyAt0 (F := F) t = cc0__phaseA_kernel (grid0.coords t) (ms0_0 t) (hs0_0 t) (ms0_1 t) (hs0_1 t) (ms0_2 t) (hs0_2 t) (ms0_3 t) (hs0_3 t) scM0 (Memref.isWhole_whole _) := rfl

end Cert.KernelIdeal.Rg

end
-- ==== Proof.R0RunA.lean ====
import proofs.«425541_j70411693850858_1_alg».proof.Proof.R0Run

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def gatherRun_A (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (hca : cond0_0 i) (hcb : ¬cond0_1 i)
    (xa : Vec F S4096x1 .i32) (xb : Vec F S4096x1 .f32) (xc : Vec F S1024x128 .bf16) :
    { LS : List (View.Piece (Elt F) S4096x128 .f32) //
      ∀ (xi : Vec F S4096x128 .bf16) (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xi ∗ (∃ d, owns (c : Thread nD τ) arg6 fullShare d)
            ∗ (iprop(owns (c : Thread nD τ) arg2 fullShare xa ∗ owns (c : Thread nD τ) arg3 fullShare xb ∗ owns (c : Thread nD τ) arg4 fullShare xc ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__phaseA_kernel i arg2 harg2 arg3 harg3 arg4 harg4 arg5 harg5 arg6 harg6) K } := by
  refine ⟨?_, fun xi E K => ?run⟩
  case run =>
    simp only [cc0__phaseA_kernel_eq_skeleton]; unfold cc0__phaseA_kernel_skel
    unfold owns
    iintro ⟨⟨%fa, %hfa, Ha⟩, ⟨%fb, %hfb, Hb⟩, ⟨%fc, %hfc, Hc⟩, ⟨%fd, %hfd, Hd⟩, ⟨%ds, %fs, -, HS⟩, Hk⟩
    obtain rfl := harg2.eq_unread hfa; obtain rfl := harg3.eq_unread hfb; obtain rfl := harg4.eq_unread hfc; obtain rfl := harg5.eq_unread hfd
    sl_exec (disch := first | exact hca | exact hcb)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    iexists _; iexact HS

end Cert.KernelIdeal.Rg

end
-- ==== Proof.R0RunB.lean ====
import proofs.«425541_j70411693850858_1_alg».proof.Proof.R0RunA

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def gatherRun_B (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (hca : ¬cond0_0 i) (hcb : ¬cond0_1 i)
    (xa : Vec F S4096x1 .i32) (xb : Vec F S4096x1 .f32) (xc : Vec F S1024x128 .bf16) (xs : Vec F S4096x128 .f32) :
    { LS : List (View.Piece (Elt F) S4096x128 .f32) //
      ∀ (xi : Vec F S4096x128 .bf16) (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xi ∗ owns (c : Thread nD τ) arg6 fullShare xs
            ∗ (iprop(owns (c : Thread nD τ) arg2 fullShare xa ∗ owns (c : Thread nD τ) arg3 fullShare xb ∗ owns (c : Thread nD τ) arg4 fullShare xc ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__phaseA_kernel i arg2 harg2 arg3 harg3 arg4 harg4 arg5 harg5 arg6 harg6) K } := by
  refine ⟨?_, fun xi E K => ?run⟩
  case run =>
    simp only [cc0__phaseA_kernel_eq_skeleton]; unfold cc0__phaseA_kernel_skel
    unfold owns
    iintro ⟨⟨%fa, %hfa, Ha⟩, ⟨%fb, %hfb, Hb⟩, ⟨%fc, %hfc, Hc⟩, ⟨%fd, %hfd, Hd⟩, ⟨%fs, %hfs, HS⟩, Hk⟩
    obtain rfl := harg2.eq_unread hfa; obtain rfl := harg3.eq_unread hfb; obtain rfl := harg4.eq_unread hfc; obtain rfl := harg5.eq_unread hfd; obtain rfl := harg6.eq_unread hfs
    sl_exec (disch := first | exact hca | exact hcb)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    iexists _; iexact HS

end Cert.KernelIdeal.Rg

end
-- ==== Proof.R0RunC.lean ====
import proofs.«425541_j70411693850858_1_alg».proof.Proof.R0RunB

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def gatherRun_C (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (hca : ¬cond0_0 i) (hcb : cond0_1 i)
    (xa : Vec F S4096x1 .i32) (xb : Vec F S4096x1 .f32) (xc : Vec F S1024x128 .bf16) (xs : Vec F S4096x128 .f32) :
    Σ' (LO : List (View.Piece (Elt F) S4096x128 .bf16)), { LS : List (View.Piece (Elt F) S4096x128 .f32) //
      ∀ (E : Set ℕ) (K : PUnit → sProp 𝕄),
        iprop(owns (c : Thread nD τ) arg2 fullShare xa ∗ owns (c : Thread nD τ) arg3 fullShare xb ∗ owns (c : Thread nD τ) arg4 fullShare xc ∗ (∃ d, owns (c : Thread nD τ) arg5 fullShare d) ∗ owns (c : Thread nD τ) arg6 fullShare xs
            ∗ (iprop(owns (c : Thread nD τ) arg2 fullShare xa ∗ owns (c : Thread nD τ) arg3 fullShare xb ∗ owns (c : Thread nD τ) arg4 fullShare xc ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__phaseA_kernel i arg2 harg2 arg3 harg3 arg4 harg4 arg5 harg5 arg6 harg6) K } := by
  refine ⟨?_, ?_, fun E K => ?run⟩
  case run =>
    simp only [cc0__phaseA_kernel_eq_skeleton]; unfold cc0__phaseA_kernel_skel
    unfold owns
    iintro ⟨⟨%fa, %hfa, Ha⟩, ⟨%fb, %hfb, Hb⟩, ⟨%fc, %hfc, Hc⟩, ⟨%dd, %fd, -, Hd⟩, ⟨%fs, %hfs, HS⟩, Hk⟩
    obtain rfl := harg2.eq_unread hfa; obtain rfl := harg3.eq_unread hfb; obtain rfl := harg4.eq_unread hfc; obtain rfl := harg6.eq_unread hfs
    sl_exec (disch := first | exact hca | exact hcb)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]; · iexists _; iexact Hd
    iexists _; iexact HS

end Cert.KernelIdeal.Rg

end
-- ==== Proof.R0Pcs.lean ====
import proofs.«425541_j70411693850858_1_alg».proof.Proof.R0RunC
import Idealize.ShloMosaic.Lib.Pipeline.Value

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz0 : (![0, 0] : Fin 2 → Nat) = fun _ => 0 := funext fun a => by fin_cases a <;> rfl

theorem gatherAccCover_A (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (hca : cond0_0 i) (hcb : ¬cond0_1 i)
    (xa : Vec F S4096x1 .i32) (xb : Vec F S4096x1 .f32) (xc : Vec F S1024x128 .bf16) (y : S4096x128.Idx) :
    ∃ pc ∈ (gatherRun_A c i arg2 harg2 arg3 harg3 arg4 harg4 arg5 harg5 arg6 harg6 hca hcb xa xb xc).1, y ∈ pc.1.set :=
  View.cover_of_tiledL (gatherRun_A c i arg2 harg2 arg3 harg3 arg4 harg4 arg5 harg5 arg6 harg6 hca hcb xa xb xc).1 S4096x128.size (by sl_kernel_rfl) y

theorem gatherAccCover_B (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (hca : ¬cond0_0 i) (hcb : ¬cond0_1 i)
    (xa : Vec F S4096x1 .i32) (xb : Vec F S4096x1 .f32) (xc : Vec F S1024x128 .bf16) (xs : Vec F S4096x128 .f32) (y : S4096x128.Idx) :
    ∃ pc ∈ (gatherRun_B c i arg2 harg2 arg3 harg3 arg4 harg4 arg5 harg5 arg6 harg6 hca hcb xa xb xc xs).1, y ∈ pc.1.set :=
  View.cover_of_tiledL (gatherRun_B c i arg2 harg2 arg3 harg3 arg4 harg4 arg5 harg5 arg6 harg6 hca hcb xa xb xc xs).1 S4096x128.size (by sl_kernel_rfl) y

theorem gatherAccCover_C (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (hca : ¬cond0_0 i) (hcb : cond0_1 i)
    (xa : Vec F S4096x1 .i32) (xb : Vec F S4096x1 .f32) (xc : Vec F S1024x128 .bf16) (xs : Vec F S4096x128 .f32) (y : S4096x128.Idx) :
    ∃ pc ∈ (gatherRun_C c i arg2 harg2 arg3 harg3 arg4 harg4 arg5 harg5 arg6 harg6 hca hcb xa xb xc xs).2.1, y ∈ pc.1.set :=
  View.cover_of_tiledL (gatherRun_C c i arg2 harg2 arg3 harg3 arg4 harg4 arg5 harg5 arg6 harg6 hca hcb xa xb xc xs).2.1 S4096x128.size (by sl_kernel_rfl) y

theorem gatherOutCover_C (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (hca : ¬cond0_0 i) (hcb : cond0_1 i)
    (xa : Vec F S4096x1 .i32) (xb : Vec F S4096x1 .f32) (xc : Vec F S1024x128 .bf16) (xs : Vec F S4096x128 .f32) (y : S4096x128.Idx) :
    ∃ pc ∈ (gatherRun_C c i arg2 harg2 arg3 harg3 arg4 harg4 arg5 harg5 arg6 harg6 hca hcb xa xb xc xs).1, y ∈ pc.1.set :=
  View.cover_of_tiledL (gatherRun_C c i arg2 harg2 arg3 harg3 arg4 harg4 arg5 harg5 arg6 harg6 hca hcb xa xb xc xs).1 S4096x128.size (by sl_kernel_rfl) y

theorem gatherAcc_A (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (hca : cond0_0 i) (hcb : ¬cond0_1 i)
    (xa : Vec F S4096x1 .i32) (xb : Vec F S4096x1 .f32) (xc : Vec F S1024x128 .bf16) :
    View.canon (gatherRun_A c i arg2 harg2 arg3 harg3 arg4 harg4 arg5 harg5 arg6 harg6 hca hcb xa xb xc).1 = k0_pay2 i xa (k0_pay1 (F := F)) xc := by
  unfold gatherRun_A
  dsimp only
  sl_unfold_words
  rw [View.canon_cons_unit_zero (S := S4096x128) hz0]
  simp only [View.readAt_eq_ld, harg2.read_unread, harg4.read_unread, View.ld_unit_zero (S := S4096x1) hz0,
    View.ld_unit_zero (S := S1024x128) hz0, View.readCov_unit_zero (S := S4096x128) _ hz0]

theorem gatherAcc_B (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (hca : ¬cond0_0 i) (hcb : ¬cond0_1 i)
    (xa : Vec F S4096x1 .i32) (xb : Vec F S4096x1 .f32) (xc : Vec F S1024x128 .bf16) (xs : Vec F S4096x128 .f32) :
    View.canon (gatherRun_B c i arg2 harg2 arg3 harg3 arg4 harg4 arg5 harg5 arg6 harg6 hca hcb xa xb xc xs).1 = k0_pay2 i xa xs xc := by
  unfold gatherRun_B
  dsimp only
  sl_unfold_words
  rw [View.canon_unit_zero (S := S4096x128) hz0]
  simp only [View.readAt_eq_ld, harg2.read_unread, harg4.read_unread, harg6.read_unread, View.ld_unit_zero (S := S4096x1) hz0,
    View.ld_unit_zero (S := S1024x128) hz0, View.ld_unit_zero (S := S4096x128) hz0]

theorem gatherAcc_C (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (hca : ¬cond0_0 i) (hcb : cond0_1 i)
    (xa : Vec F S4096x1 .i32) (xb : Vec F S4096x1 .f32) (xc : Vec F S1024x128 .bf16) (xs : Vec F S4096x128 .f32) :
    View.canon (gatherRun_C c i arg2 harg2 arg3 harg3 arg4 harg4 arg5 harg5 arg6 harg6 hca hcb xa xb xc xs).2.1 = k0_pay2 i xa xs xc := by
  unfold gatherRun_C
  dsimp only
  sl_unfold_words
  rw [View.canon_unit_zero (S := S4096x128) hz0]
  simp only [View.readAt_eq_ld, harg2.read_unread, harg4.read_unread, harg6.read_unread, View.ld_unit_zero (S := S4096x1) hz0,
    View.ld_unit_zero (S := S1024x128) hz0, View.ld_unit_zero (S := S4096x128) hz0]

theorem gatherOut_C (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (hca : ¬cond0_0 i) (hcb : cond0_1 i)
    (xa : Vec F S4096x1 .i32) (xb : Vec F S4096x1 .f32) (xc : Vec F S1024x128 .bf16) (xs : Vec F S4096x128 .f32) :
    View.canon (gatherRun_C c i arg2 harg2 arg3 harg3 arg4 harg4 arg5 harg5 arg6 harg6 hca hcb xa xb xc xs).1 = k0_pay3 xb (k0_pay2 i xa xs xc) := by
  unfold gatherRun_C
  dsimp only
  sl_unfold_words
  rw [View.canon_unit_zero (S := S4096x128) hz0]
  simp only [View.readAt_eq_ld, harg2.read_unread, harg3.read_unread, harg4.read_unread, harg6.read_unread, View.ld_unit_zero (S := S4096x1) hz0,
    View.ld_unit_zero (S := S1024x128) hz0, View.ld_unit_zero (S := S4096x128) hz0, View.readCov_unit_zero (S := S4096x128) _ hz0]

end Cert.KernelIdeal.Rg

end
-- ==== Proof.R0Body.lean ====
import proofs.«425541_j70411693850858_1_alg».proof.Proof.R0Run
import proofs.«425541_j70411693850858_1_alg».proof.Proof.R0Pcs

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 1600000 in

theorem sound_body0_A (c : Dev nD) (t : Fin cfg0.N) (hm : t.val % 49 = 0) :
    bodyPre0 V c t ⊢ wp frame (wpE (defs₀ (F := F)) Variants.none c none) Set.univ (bodyAt0 t) (fun _ => bodyPost0 V c t) := by
  unfold bodyPre0 bodyPost0
  rw [bodyAt0_eq]
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hca : cond0_0 (grid0.coords t) := (hcond0_0 t).mpr hm
  have hcb : ¬cond0_1 (grid0.coords t) := fun h => absurd ((hcond0_1 t).mp h) (by omega)
  rw [Dat.leavesExact_idle (dat0 V c) 3 t (idleAt0_3 t hcb) (noFlush0_3 t hcb)]
  by_cases hz : t.val = 0
  · rw [PhiS0_castSucc V c t, PhiS0_zero V c _ _ hz, PhiA0_eq]
    iintro ⟨⟨⟨HS, HR⟩, Hg⟩, Ho, ⟨%da, Ha⟩, ⟨%db, Hb⟩, ⟨%dc, Hc⟩, ⟨%dd, Hd⟩⟩
    iapply ((gatherRun_A c (grid0.coords t) _ _ _ _ _ _ _ _ _ _ hca hcb (iblk0 V c 0 t) (iblk0 V c 1 t) (iblk0 V c 2 t)).2 _ Set.univ _)
    isplitl [Ha]; · iexact Ha
    isplitl [Hb]; · iexact Hb
    isplitl [Hc]; · iexact Hc
    isplitl [Hd]; · iexact Hd
    isplitl [HS]; · iexact HS
    iintro ⟨Ha, Hb, Hc, Hd, ⟨%es, HS⟩⟩
    isplitl [HS HR Hg]
    · isplitl [HS HR]
      · isplitl [HS]
        · unfold owns; iexists _; isplitr
          swap; · iexact HS
          ipureintro
          rw [acc0_first V c t hm]
          exact (View.read_writes_eq_canon _ _ _ (gatherAccCover_A c (grid0.coords t) _ _ _ _ _ _ _ _ _ _ hca hcb (iblk0 V c 0 t) (iblk0 V c 1 t) (iblk0 V c 2 t))).trans (gatherAcc_A c (grid0.coords t) _ _ _ _ _ _ _ _ _ _ hca hcb (iblk0 V c 0 t) (iblk0 V c 1 t) (iblk0 V c 2 t))
        iexact HR
      iexact Hg
    isplitl [Ho]; · iexact Ho
    isplitl [Ha]; · iexact Ha
    isplitl [Hb]; · iexact Hb
    isplitl [Hc]; · iexact Hc
    iexists _; iexact Hd
  · rw [PhiS0_castSucc V c t, PhiS0_pos V c _ _ hz]
    iintro ⟨⟨⟨HS, HR⟩, Hg⟩, Ho, ⟨%da, Ha⟩, ⟨%db, Hb⟩, ⟨%dc, Hc⟩, ⟨%dd, Hd⟩⟩
    iapply ((gatherRun_A c (grid0.coords t) _ _ _ _ _ _ _ _ _ _ hca hcb (iblk0 V c 0 t) (iblk0 V c 1 t) (iblk0 V c 2 t)).2 _ Set.univ _)
    isplitl [Ha]; · iexact Ha
    isplitl [Hb]; · iexact Hb
    isplitl [Hc]; · iexact Hc
    isplitl [Hd]; · iexact Hd
    isplitl [HS]; · iexists _; iexact HS
    iintro ⟨Ha, Hb, Hc, Hd, ⟨%es, HS⟩⟩
    isplitl [HS HR Hg]
    · isplitl [HS HR]
      · isplitl [HS]
        · unfold owns; iexists _; isplitr
          swap; · iexact HS
          ipureintro
          rw [acc0_first V c t hm]
          exact (View.read_writes_eq_canon _ _ _ (gatherAccCover_A c (grid0.coords t) _ _ _ _ _ _ _ _ _ _ hca hcb (iblk0 V c 0 t) (iblk0 V c 1 t) (iblk0 V c 2 t))).trans (gatherAcc_A c (grid0.coords t) _ _ _ _ _ _ _ _ _ _ hca hcb (iblk0 V c 0 t) (iblk0 V c 1 t) (iblk0 V c 2 t))
        iexact HR
      iexact Hg
    isplitl [Ho]; · iexact Ho
    isplitl [Ha]; · iexact Ha
    isplitl [Hb]; · iexact Hb
    isplitl [Hc]; · iexact Hc
    iexists _; iexact Hd

set_option maxHeartbeats 1600000 in

theorem sound_body0_B (c : Dev nD) (t : Fin cfg0.N) (hm : ¬t.val % 49 = 0) (hl : ¬t.val % 49 = 48) :
    bodyPre0 V c t ⊢ wp frame (wpE (defs₀ (F := F)) Variants.none c none) Set.univ (bodyAt0 t) (fun _ => bodyPost0 V c t) := by
  unfold bodyPre0 bodyPost0
  rw [bodyAt0_eq]
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hca : ¬cond0_0 (grid0.coords t) := fun h => hm ((hcond0_0 t).mp h)
  have hcb : ¬cond0_1 (grid0.coords t) := fun h => hl ((hcond0_1 t).mp h)
  have hz : t.val ≠ 0 := fun e => hm (by rw [e])
  have hlt : t.val - 1 < cfg0.N := Nat.lt_of_le_of_lt (Nat.sub_le _ _) t.isLt
  rw [Dat.leavesExact_idle (dat0 V c) 3 t (idleAt0_3 t hcb) (noFlush0_3 t hcb)]
  · rw [PhiS0_castSucc V c t, PhiS0_pos V c _ _ hz]
    iintro ⟨⟨⟨HS, HR⟩, Hg⟩, Ho, ⟨%da, Ha⟩, ⟨%db, Hb⟩, ⟨%dc, Hc⟩, ⟨%dd, Hd⟩⟩
    iapply ((gatherRun_B c (grid0.coords t) _ _ _ _ _ _ _ _ _ _ hca hcb (iblk0 V c 0 t) (iblk0 V c 1 t) (iblk0 V c 2 t) (acc0 V c (t.val - 1) hlt)).2 _ Set.univ _)
    isplitl [Ha]; · iexact Ha
    isplitl [Hb]; · iexact Hb
    isplitl [Hc]; · iexact Hc
    isplitl [Hd]; · iexact Hd
    isplitl [HS]; · iexact HS
    iintro ⟨Ha, Hb, Hc, Hd, ⟨%es, HS⟩⟩
    isplitl [HS HR Hg]
    · isplitl [HS HR]
      · isplitl [HS]
        · unfold owns; iexists _; isplitr
          swap; · iexact HS
          ipureintro
          rw [acc0_next V c t hm]
          exact (View.read_writes_eq_canon _ _ _ (gatherAccCover_B c (grid0.coords t) _ _ _ _ _ _ _ _ _ _ hca hcb (iblk0 V c 0 t) (iblk0 V c 1 t) (iblk0 V c 2 t) (acc0 V c (t.val - 1) hlt))).trans (gatherAcc_B c (grid0.coords t) _ _ _ _ _ _ _ _ _ _ hca hcb (iblk0 V c 0 t) (iblk0 V c 1 t) (iblk0 V c 2 t) (acc0 V c (t.val - 1) hlt))
        iexact HR
      iexact Hg
    isplitl [Ho]; · iexact Ho
    isplitl [Ha]; · iexact Ha
    isplitl [Hb]; · iexact Hb
    isplitl [Hc]; · iexact Hc
    iexists _; iexact Hd

set_option maxHeartbeats 1600000 in

theorem sound_body0_C (c : Dev nD) (t : Fin cfg0.N) (hl : t.val % 49 = 48) :
    bodyPre0 V c t ⊢ wp frame (wpE (defs₀ (F := F)) Variants.none c none) Set.univ (bodyAt0 t) (fun _ => bodyPost0 V c t) := by
  unfold bodyPre0 bodyPost0
  rw [bodyAt0_eq]
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hm : ¬t.val % 49 = 0 := by omega
  have hca : ¬cond0_0 (grid0.coords t) := fun h => hm ((hcond0_0 t).mp h)
  have hcb : cond0_1 (grid0.coords t) := (hcond0_1 t).mpr hl
  have hz : t.val ≠ 0 := fun e => hm (by rw [e])
  have hlt : t.val - 1 < cfg0.N := Nat.lt_of_le_of_lt (Nat.sub_le _ _) t.isLt
  rw [show (dat0 V c).leavesExact 3 t = owns (c : Thread nD τ) (ms0_3 t) fullShare ((dat0 V c).after 3 t) from by
    unfold Dat.leavesExact; rw [liveAt0_3 t hcb], after0_3]
  · rw [PhiS0_castSucc V c t, PhiS0_pos V c _ _ hz]
    iintro ⟨⟨⟨HS, HR⟩, Hg⟩, Ho, ⟨%da, Ha⟩, ⟨%db, Hb⟩, ⟨%dc, Hc⟩, ⟨%dd, Hd⟩⟩
    iapply ((gatherRun_C c (grid0.coords t) _ _ _ _ _ _ _ _ _ _ hca hcb (iblk0 V c 0 t) (iblk0 V c 1 t) (iblk0 V c 2 t) (acc0 V c (t.val - 1) hlt)).2.2 Set.univ _)
    isplitl [Ha]; · iexact Ha
    isplitl [Hb]; · iexact Hb
    isplitl [Hc]; · iexact Hc
    isplitl [Hd]; · iexists _; iexact Hd
    isplitl [HS]; · iexact HS
    iintro ⟨Ha, Hb, Hc, ⟨%eo, Hd⟩, ⟨%es, HS⟩⟩
    isplitl [HS HR Hg]
    · isplitl [HS HR]
      · isplitl [HS]
        · unfold owns; iexists _; isplitr
          swap; · iexact HS
          ipureintro
          rw [acc0_next V c t hm]
          exact (View.read_writes_eq_canon _ _ _ (gatherAccCover_C c (grid0.coords t) _ _ _ _ _ _ _ _ _ _ hca hcb (iblk0 V c 0 t) (iblk0 V c 1 t) (iblk0 V c 2 t) (acc0 V c (t.val - 1) hlt))).trans
            (gatherAcc_C c (grid0.coords t) _ _ _ _ _ _ _ _ _ _ hca hcb (iblk0 V c 0 t) (iblk0 V c 1 t) (iblk0 V c 2 t) (acc0 V c (t.val - 1) hlt))
        iexact HR
      iexact Hg
    isplitl [Ho]; · iexact Ho
    isplitl [Ha]; · iexact Ha
    isplitl [Hb]; · iexact Hb
    isplitl [Hc]; · iexact Hc
    unfold owns; iexists _; isplitr
    swap; · iexact Hd
    ipureintro
    unfold out0; rw [acc0_next V c t hm]
    exact (View.read_writes_eq_canon _ _ _ (gatherOutCover_C c (grid0.coords t) _ _ _ _ _ _ _ _ _ _ hca hcb (iblk0 V c 0 t) (iblk0 V c 1 t) (iblk0 V c 2 t) (acc0 V c (t.val - 1) hlt))).trans
      (gatherOut_C c (grid0.coords t) _ _ _ _ _ _ _ _ _ _ hca hcb (iblk0 V c 0 t) (iblk0 V c 1 t) (iblk0 V c 2 t) (acc0 V c (t.val - 1) hlt))

theorem sound_body0 (c : Dev nD) (t : Fin cfg0.N) :
    bodyPre0 V c t ⊢ wp frame (wpE (defs₀ (F := F)) Variants.none c none) Set.univ (bodyAt0 t) (fun _ => bodyPost0 V c t) := by
  by_cases hm : t.val % 49 = 0
  · exact sound_body0_A V c t hm
  · by_cases hl : t.val % 49 = 48
    · exact sound_body0_C V c t hl
    · exact sound_body0_B V c t hm hl

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

theorem hout0 (c : Dev nD) : (dat0 V c).Φ (Fin.last cfg0.N) ⊢ Pipeline.ΦA spec0 c :=
  Phi_out0 V c _ (by rw [Fin.val_last]; have : cfg0.N = 7203 := N_0; omega)

end Cert.KernelIdeal.Rg

end
-- ==== Proof.R1Run.lean ====
import proofs.«425541_j70411693850858_1_alg».proof.Proof.R1Defs

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 147 = 0 :=
  (by decide +kernel : ∀ t : Fin grid1.N, cond1_0 (grid1.coords t) ↔ t.val % 147 = 0)

abbrev cond1_1 (i : grid1.Coords) : Prop := k1_cond2 i = 1#1

theorem hcond1_1 : ∀ t : Fin cfg1.N, cond1_1 (grid1.coords t) ↔ t.val % 147 = 146 :=
  (by decide +kernel : ∀ t : Fin grid1.N, cond1_1 (grid1.coords t) ↔ t.val % 147 = 146)

theorem liveAt1_0 (t : Fin cfg1.N) : cfg1.idle 0 (grid1.coords t) = false := rfl
theorem liveAt1_1 (t : Fin cfg1.N) : cfg1.idle 1 (grid1.coords t) = false := rfl

theorem idleAt1_2 (i : grid1.Coords) (h : ¬cond1_1 i) : cfg1.idle 2 i = true := by
  have e : (k1_cond2 i == 1#1) = false := beq_eq_false_iff_ne.mpr h
  show (!(k1_cond2 i == 1#1)) = true
  rw [e]; rfl

theorem liveAt1_2 (i : grid1.Coords) (h : cond1_1 i) : cfg1.idle 2 i = false := by
  have e : (k1_cond2 i == 1#1) = true := beq_iff_eq.mpr h
  show (!(k1_cond2 i == 1#1)) = false
  rw [e]; rfl

theorem noFlush1_2 (t : Fin cfg1.N) (h : ¬t.val % 147 = 146) : (cfg1.win 2).flush t = false :=
  Bool.eq_false_iff.mpr fun hf => h ((flush1_2 t).mp hf)

abbrev ms1_0 (t : Fin cfg1.N) : Memref sig .tc .vmem S1x4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)

theorem hz1 : (![0, 0] : Fin 2 → Nat) = fun _ => 0 := funext fun a => by fin_cases a <;> rfl

theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- Every layer's scatter region runs one kernel function: the later layers' printed bodies are this one's text. -/
theorem bodyAt1_eq (t : Fin cfg1.N) : bodyAt1 (F := F) t = cc1__phaseB_kernel (grid1.coords t) (ms1_0 t) (hs1_0 t) (ms1_1 t) (hs1_1 t) (ms1_2 t) (hs1_2 t) scM1 (Memref.isWhole_whole _) := rfl

end Cert.KernelIdeal.Rg

end
-- ==== Proof.R1RunA.lean ====
import proofs.«425541_j70411693850858_1_alg».proof.Proof.R1Run

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def scatterRun_A (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : cond1_0 i) (hc1 : ¬cond1_1 i)
    (x0 : Vec F S1x4096 .i32) (x1 : Vec F S4096x128 .bf16) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__phaseB_kernel i arg2 harg2 arg3 harg3 arg4 harg4 arg5 harg5) K } := by
  refine ⟨[], ?_, fun xi2 E K => ?run⟩
  case run =>
    simp only [cc1__phaseB_kernel_eq_skeleton]; unfold cc1__phaseB_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Rg

end
-- ==== Proof.R1RunB.lean ====
import proofs.«425541_j70411693850858_1_alg».proof.Proof.R1RunA

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def scatterRun_B (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : ¬cond1_1 i)
    (x0 : Vec F S1x4096 .i32) (x1 : Vec F S4096x128 .bf16) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__phaseB_kernel i arg2 harg2 arg3 harg3 arg4 harg4 arg5 harg5) K } := by
  refine ⟨[], ?_, fun xi2 E K => ?run⟩
  case run =>
    simp only [cc1__phaseB_kernel_eq_skeleton]; unfold cc1__phaseB_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Rg

end
-- ==== Proof.R1RunC.lean ====
import proofs.«425541_j70411693850858_1_alg».proof.Proof.R1RunB

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def scatterRun_C (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : cond1_1 i)
    (x0 : Vec F S1x4096 .i32) (x1 : Vec F S4096x128 .bf16) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__phaseB_kernel i arg2 harg2 arg3 harg3 arg4 harg4 arg5 harg5) K } := by
  refine ⟨?_, ?_, fun E K => ?run⟩
  case run =>
    simp only [cc1__phaseB_kernel_eq_skeleton]; unfold cc1__phaseB_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Rg

end
-- ==== Proof.R1Pcs.lean ====
import proofs.«425541_j70411693850858_1_alg».proof.Proof.R1RunC
import Idealize.ShloMosaic.Lib.Pipeline.Value

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem scatterAccCover_A (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : cond1_0 i) (hc1 : ¬cond1_1 i) (x0 : Vec F S1x4096 .i32) (x1 : Vec F S4096x128 .bf16) (y : S1024x128.Idx) :
    ∃ pc ∈ (scatterRun_A c i arg2 harg2 arg3 harg3 arg4 harg4 arg5 harg5 hc0 hc1 x0 x1).2.1, y ∈ pc.1.set :=
  View.cover_of_tiledL (scatterRun_A c i arg2 harg2 arg3 harg3 arg4 harg4 arg5 harg5 hc0 hc1 x0 x1).2.1 S1024x128.size (by sl_kernel_rfl) y

theorem scatterAccCover_B (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : ¬cond1_1 i) (x0 : Vec F S1x4096 .i32) (x1 : Vec F S4096x128 .bf16) (xs0 : Vec F S1024x128 .f32) (y : S1024x128.Idx) :
    ∃ pc ∈ (scatterRun_B c i arg2 harg2 arg3 harg3 arg4 harg4 arg5 harg5 hc0 hc1 x0 x1 xs0).2.1, y ∈ pc.1.set :=
  View.cover_of_tiledL (scatterRun_B c i arg2 harg2 arg3 harg3 arg4 harg4 arg5 harg5 hc0 hc1 x0 x1 xs0).2.1 S1024x128.size (by sl_kernel_rfl) y

theorem scatterAccCover_C (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : cond1_1 i) (x0 : Vec F S1x4096 .i32) (x1 : Vec F S4096x128 .bf16) (xs0 : Vec F S1024x128 .f32) (y : S1024x128.Idx) :
    ∃ pc ∈ (scatterRun_C c i arg2 harg2 arg3 harg3 arg4 harg4 arg5 harg5 hc0 hc1 x0 x1 xs0).2.1, y ∈ pc.1.set :=
  View.cover_of_tiledL (scatterRun_C c i arg2 harg2 arg3 harg3 arg4 harg4 arg5 harg5 hc0 hc1 x0 x1 xs0).2.1 S1024x128.size (by sl_kernel_rfl) y

theorem scatterOutCover_C (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : cond1_1 i) (x0 : Vec F S1x4096 .i32) (x1 : Vec F S4096x128 .bf16) (xs0 : Vec F S1024x128 .f32) (y : S1024x128.Idx) :
    ∃ pc ∈ (scatterRun_C c i arg2 harg2 arg3 harg3 arg4 harg4 arg5 harg5 hc0 hc1 x0 x1 xs0).1, y ∈ pc.1.set :=
  View.cover_of_tiledL (scatterRun_C c i arg2 harg2 arg3 harg3 arg4 harg4 arg5 harg5 hc0 hc1 x0 x1 xs0).1 S1024x128.size (by sl_kernel_rfl) y

theorem scatterAcc_A (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : cond1_0 i) (hc1 : ¬cond1_1 i) (x0 : Vec F S1x4096 .i32) (x1 : Vec F S4096x128 .bf16) :
    View.canon (scatterRun_A c i arg2 harg2 arg3 harg3 arg4 harg4 arg5 harg5 hc0 hc1 x0 x1).2.1 = k1_pay2 i x0 (k1_pay1 (F := F)) x1 := by
  unfold scatterRun_A; dsimp only; sl_unfold_words
  rw [View.canon_cons_unit_zero (S := S1024x128) hz1]
  simp only [View.readAt_eq_ld, harg2.read_unread, harg3.read_unread, View.ld_unit_zero (S := S1x4096) hz1,
    View.ld_unit_zero (S := S4096x128) hz1, View.readCov_unit_zero (S := S1024x128) _ hz1]

theorem scatterAcc_B (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : ¬cond1_1 i) (x0 : Vec F S1x4096 .i32) (x1 : Vec F S4096x128 .bf16) (xs0 : Vec F S1024x128 .f32) :
    View.canon (scatterRun_B c i arg2 harg2 arg3 harg3 arg4 harg4 arg5 harg5 hc0 hc1 x0 x1 xs0).2.1 = k1_pay2 i x0 xs0 x1 := by
  unfold scatterRun_B; dsimp only; sl_unfold_words
  rw [View.canon_unit_zero (S := S1024x128) hz1]
  simp only [View.readAt_eq_ld, harg2.read_unread, harg3.read_unread, harg5.read_unread, View.ld_unit_zero (S := S1x4096) hz1,
    View.ld_unit_zero (S := S4096x128) hz1, View.ld_unit_zero (S := S1024x128) hz1]

theorem scatterAcc_C (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : cond1_1 i) (x0 : Vec F S1x4096 .i32) (x1 : Vec F S4096x128 .bf16) (xs0 : Vec F S1024x128 .f32) :
    View.canon (scatterRun_C c i arg2 harg2 arg3 harg3 arg4 harg4 arg5 harg5 hc0 hc1 x0 x1 xs0).2.1 = k1_pay2 i x0 xs0 x1 := by
  unfold scatterRun_C; dsimp only; sl_unfold_words
  rw [View.canon_unit_zero (S := S1024x128) hz1]
  simp only [View.readAt_eq_ld, harg2.read_unread, harg3.read_unread, harg5.read_unread, View.ld_unit_zero (S := S1x4096) hz1,
    View.ld_unit_zero (S := S4096x128) hz1, View.ld_unit_zero (S := S1024x128) hz1]

theorem scatterOut_C (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : cond1_1 i) (x0 : Vec F S1x4096 .i32) (x1 : Vec F S4096x128 .bf16) (xs0 : Vec F S1024x128 .f32) :
    View.canon (scatterRun_C c i arg2 harg2 arg3 harg3 arg4 harg4 arg5 harg5 hc0 hc1 x0 x1 xs0).1 = k1_pay2 i x0 xs0 x1 := by
  unfold scatterRun_C; dsimp only; sl_unfold_words
  rw [View.canon_unit_zero (S := S1024x128) hz1]
  simp only [View.readAt_eq_ld, harg2.read_unread, harg3.read_unread, harg5.read_unread, View.ld_unit_zero (S := S1x4096) hz1,
    View.ld_unit_zero (S := S4096x128) hz1, View.ld_unit_zero (S := S1024x128) hz1, View.readCov_unit_zero (S := S1024x128) _ hz1]

theorem scatterKernel_A (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : cond1_0 i) (hc1 : ¬cond1_1 i) (x0 : Vec F S1x4096 .i32) (x1 : Vec F S4096x128 .bf16)
    (xi2 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (k1_pay2 i x0 (k1_pay1 (F := F)) x1)) -∗ K ⟨⟩))
      ⊢ wp frame (wpE (defs₀ (F := F)) Variants.none c none) E (cc1__phaseB_kernel i arg2 harg2 arg3 harg3 arg4 harg4 arg5 harg5) K := by
  iintro ⟨H0, H1, H2, HS, Hk⟩
  iapply ((scatterRun_A c i arg2 harg2 arg3 harg3 arg4 harg4 arg5 harg5 hc0 hc1 x0 x1).2.2 xi2 E K)
  isplitl [H0]; · iexact H0
  isplitl [H1]; · iexact H1
  isplitl [H2]; · iexact H2
  isplitl [HS]; · iexact HS
  iintro ⟨H0, H1, H2, ⟨%es0, HS0⟩⟩
  iapply Hk
  isplitl [H0]; · iexact H0
  isplitl [H1]; · iexact H1
  isplitl [H2]; · iexact H2
  unfold owns; iexists _; isplitr
  swap; · iexact HS0
  ipureintro
  exact (View.read_writes_eq_canon _ _ _ (scatterAccCover_A c i arg2 harg2 arg3 harg3 arg4 harg4 arg5 harg5 hc0 hc1 x0 x1)).trans (scatterAcc_A c i arg2 harg2 arg3 harg3 arg4 harg4 arg5 harg5 hc0 hc1 x0 x1)

theorem scatterKernel_B (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : ¬cond1_1 i) (x0 : Vec F S1x4096 .i32) (x1 : Vec F S4096x128 .bf16) (xs0 : Vec F S1024x128 .f32)
    (xi2 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2
            ∗ owns (c : Thread nD τ) arg5 fullShare (k1_pay2 i x0 xs0 x1)) -∗ K ⟨⟩))
      ⊢ wp frame (wpE (defs₀ (F := F)) Variants.none c none) E (cc1__phaseB_kernel i arg2 harg2 arg3 harg3 arg4 harg4 arg5 harg5) K := by
  iintro ⟨H0, H1, H2, HS, Hk⟩
  iapply ((scatterRun_B c i arg2 harg2 arg3 harg3 arg4 harg4 arg5 harg5 hc0 hc1 x0 x1 xs0).2.2 xi2 E K)
  isplitl [H0]; · iexact H0
  isplitl [H1]; · iexact H1
  isplitl [H2]; · iexact H2
  isplitl [HS]; · iexact HS
  iintro ⟨H0, H1, H2, ⟨%es0, HS0⟩⟩
  iapply Hk
  isplitl [H0]; · iexact H0
  isplitl [H1]; · iexact H1
  isplitl [H2]; · iexact H2
  unfold owns; iexists _; isplitr
  swap; · iexact HS0
  ipureintro
  exact (View.read_writes_eq_canon _ _ _ (scatterAccCover_B c i arg2 harg2 arg3 harg3 arg4 harg4 arg5 harg5 hc0 hc1 x0 x1 xs0)).trans (scatterAcc_B c i arg2 harg2 arg3 harg3 arg4 harg4 arg5 harg5 hc0 hc1 x0 x1 xs0)

theorem scatterKernel_C (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : cond1_1 i) (x0 : Vec F S1x4096 .i32) (x1 : Vec F S4096x128 .bf16) (xs0 : Vec F S1024x128 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs0
        ∗ (iprop(owns (c : Thread nD τ) arg2 fullShare x0 ∗ owns (c : Thread nD τ) arg3 fullShare x1 ∗ owns (c : Thread nD τ) arg4 fullShare (k1_pay2 i x0 xs0 x1)
            ∗ owns (c : Thread nD τ) arg5 fullShare (k1_pay2 i x0 xs0 x1)) -∗ K ⟨⟩))
      ⊢ wp frame (wpE (defs₀ (F := F)) Variants.none c none) E (cc1__phaseB_kernel i arg2 harg2 arg3 harg3 arg4 harg4 arg5 harg5) K := by
  iintro ⟨H0, H1, H2, HS, Hk⟩
  iapply ((scatterRun_C c i arg2 harg2 arg3 harg3 arg4 harg4 arg5 harg5 hc0 hc1 x0 x1 xs0).2.2 E K)
  isplitl [H0]; · iexact H0
  isplitl [H1]; · iexact H1
  isplitl [H2]; · iexact H2
  isplitl [HS]; · iexact HS
  iintro ⟨H0, H1, ⟨%e2, H2⟩, ⟨%es0, HS0⟩⟩
  iapply Hk
  isplitl [H0]; · iexact H0
  isplitl [H1]; · iexact H1
  isplitl [H2]
  · unfold owns; iexists _; isplitr
    swap; · iexact H2
    ipureintro
    exact (View.read_writes_eq_canon _ _ _ (scatterOutCover_C c i arg2 harg2 arg3 harg3 arg4 harg4 arg5 harg5 hc0 hc1 x0 x1 xs0)).trans (scatterOut_C c i arg2 harg2 arg3 harg3 arg4 harg4 arg5 harg5 hc0 hc1 x0 x1 xs0)
  unfold owns; iexists _; isplitr
  swap; · iexact HS0
  ipureintro
  exact (View.read_writes_eq_canon _ _ _ (scatterAccCover_C c i arg2 harg2 arg3 harg3 arg4 harg4 arg5 harg5 hc0 hc1 x0 x1 xs0)).trans (scatterAcc_C c i arg2 harg2 arg3 harg3 arg4 harg4 arg5 harg5 hc0 hc1 x0 x1 xs0)

end Cert.KernelIdeal.Rg

end
-- ==== Proof.R1Body.lean ====
import proofs.«425541_j70411693850858_1_alg».proof.Proof.R1Run
import proofs.«425541_j70411693850858_1_alg».proof.Proof.R1Pcs

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  rw [bodyAt1_eq]
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 147 = 0
  · have h1 : ¬t.val % 147 = 146 := by omega
    rw [Dat.leavesExact_idle (dat1 V c) 2 t (idleAt1_2 _ (fun h => h1 ((hcond1_1 t).mp h))) (noFlush1_2 t h1)]
    rw [acc1_first V c t h0]
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩⟩
      iapply (scatterKernel_A c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hr⟩, Hg⟩, Ho, ⟨%d0, H0⟩, ⟨%d1, H1⟩, ⟨%d2, H2⟩⟩
      iapply (scatterKernel_A c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS0]; · iexists _; iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
  · have hz : t.val ≠ 0 := by omega
    rw [acc1_next V c t h0, PhiS1_castSucc V c t, PhiS1_pos V c _ _ hz]
    by_cases h1 : t.val % 147 = 146
    · rw [show (dat1 V c).leavesExact 2 t = owns (c : Thread nD τ) (ms1_2 t) fullShare ((dat1 V c).after 2 t) from by
        unfold Dat.leavesExact; rw [liveAt1_2 _ ((hcond1_1 t).mpr h1)], after1_2]
      unfold out1
      rw [acc1_next V c t h0]
      iintro ⟨⟨⟨HS0, Hr⟩, Hg⟩, Ho, ⟨%d0, H0⟩, ⟨%d1, H1⟩, ⟨%d2, H2⟩⟩
      iapply (scatterKernel_C c (grid1.coords t) _ _ _ _ _ _ _ _ (fun h => h0 ((hcond1_0 t).mp h)) ((hcond1_1 t).mpr h1) (iblk1 V c 0 t) (iblk1 V c 1 t) _ Set.univ _)
      isplitl [H0]; · iexact H0
      isplitl [H1]; · iexact H1
      isplitl [H2]; · iexists _; iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexact H2
    · rw [Dat.leavesExact_idle (dat1 V c) 2 t (idleAt1_2 _ (fun h => h1 ((hcond1_1 t).mp h))) (noFlush1_2 t h1)]
      iintro ⟨⟨⟨HS0, Hr⟩, Hg⟩, Ho, ⟨%d0, H0⟩, ⟨%d1, H1⟩, ⟨%d2, H2⟩⟩
      iapply (scatterKernel_B c (grid1.coords t) _ _ _ _ _ _ _ _ (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

theorem hout1 (c : Dev nD) : (dat1 V c).Φ (Fin.last cfg1.N) ⊢ Pipeline.ΦA spec1 c :=
  Phi_out1 V c _ (by rw [Fin.val_last]; have : cfg1.N = 7203 := N_1; omega)

end Cert.KernelIdeal.Rg

end
-- ==== Proof.Dense.lean ====
import proofs.«425541_j70411693850858_1_alg».proof.Proof.R2Defs
import Idealize.ShloMosaic.Lib.Pipeline.Value

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → ℕ) = fun _ => 0 := funext fun a => by fin_cases a <;> rfl

theorem denseCover (p0 : Vec F S1024x128 .f32) (y : S1024x128.Idx) :
    ∃ pc ∈ ([⟨(Rect.unit (s := S1024x128) ![0, 0] S1024x128.size inb_S1024x128_S1024x128_0_0), p0⟩] : List (View.Piece (Elt F) S1024x128 .f32)), y ∈ pc.1.set :=
  ⟨_, List.mem_singleton_self _, View.mem_set_unit_zero hz2 inb_S1024x128_S1024x128_0_0 y⟩

set_option maxHeartbeats 1000000 in

theorem denseKernel (c : Dev nD) (E : Set ℕ) (i : grid2.Coords)
    (arg1 : Memref sig .tc .vmem S1024x128 .bf16) (harg1 : arg1.IsWhole) (arg2 : Memref sig .tc .vmem S1024x128 .bf16) (harg2 : arg2.IsWhole)
    (arg3 : Memref sig .tc .vmem S128x128 .bf16) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S1024x128 .f32) (harg6 : arg6.IsWhole)
    (x0 : Vec F S1024x128 .bf16) (x1 : Vec F S1024x128 .bf16) (x2 : Vec F S128x128 .bf16) (x3 : Vec F S128x128 .bf16) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k2_pay1 x0 x2 x1 x3 x4)) -∗ K ⟨⟩))
      ⊢ wp frame (wpE (defs₀ (F := F)) Variants.none c none) E (cc2__affine_kernel i arg1 harg1 arg2 harg2 arg3 harg3 arg4 harg4 arg5 harg5 arg6 harg6) K := by
  simp only [cc2__affine_kernel_eq_skeleton]; unfold cc2__affine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (denseCover _), View.canon_unit_zero hz2]
  simp only [View.readAt_eq_ld, View.ld_unit_zero (S := S1024x128) hz2, View.ld_unit_zero (S := S128x128) hz2, View.ld_unit_zero (S := S1x128) hz2]

end Cert.KernelIdeal.Rg

end
-- ==== Proof.R2Body.lean ====
import proofs.«425541_j70411693850858_1_alg».proof.Proof.R2Defs
import proofs.«425541_j70411693850858_1_alg».proof.Proof.Dense
import Idealize.ShloMosaic.Lib.Pipeline.Value

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- Every layer's dense region runs one kernel function: the later layers' printed bodies are this one's text. -/
theorem bodyAt2_eq (t : Fin cfg2.N) : bodyAt2 (F := F) t = cc2__affine_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) := rfl

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2
  rw [bodyAt2_eq]
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  unfold out2
  iintro ⟨HΦ, Ho, ⟨%d0, H0⟩, ⟨%d1, H1⟩, ⟨%d2, H2⟩, ⟨%d3, H3⟩, ⟨%d4, H4⟩, ⟨%d5, H5⟩⟩
  iapply (denseKernel c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Rg

end
-- ==== Proof.R3Run.lean ====
import proofs.«425541_j70411693850858_1_alg».proof.Proof.R3Defs

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 1).val) 0#32)) 0#32) = 1#1

theorem hcond3_0 : ∀ t : Fin cfg3.N, cond3_0 (grid3.coords t) ↔ t.val % 49 = 0 :=
  (by decide +kernel : ∀ t : Fin grid3.N, cond3_0 (grid3.coords t) ↔ t.val % 49 = 0)

abbrev cond3_1 (i : grid3.Coords) : Prop := k0_cond2 i = 1#1

theorem hcond3_1 : ∀ t : Fin cfg3.N, cond3_1 (grid3.coords t) ↔ t.val % 49 = 48 :=
  (by decide +kernel : ∀ t : Fin grid3.N, cond3_1 (grid3.coords t) ↔ t.val % 49 = 48)

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl

theorem idleAt3_3 : ∀ t : Fin cfg3.N, ¬cond3_1 (grid3.coords t) → cfg3.idle 3 (grid3.coords t) = true := by
  intro t h
  show (!(k0_cond2 (grid3.coords t) == 1#1)) = true
  rw [Bool.not_eq_true', beq_eq_false_iff_ne]; exact h

theorem noFlush3_3 : ∀ t : Fin cfg3.N, ¬cond3_1 (grid3.coords t) → (cfg3.win 3).flush t = false := by
  intro t h
  rw [Bool.eq_false_iff]; intro hf
  exact h ((hcond3_1 t).mpr ((flush3_3 t).mp hf))

theorem liveAt3_3 : ∀ t : Fin cfg3.N, cond3_1 (grid3.coords t) → cfg3.idle 3 (grid3.coords t) = false := by
  intro t h
  show (!(k0_cond2 (grid3.coords t) == 1#1)) = false
  rw [Bool.not_eq_false', beq_iff_eq]; exact h

abbrev ms3_0 (t : Fin cfg3.N) : Memref sig .tc .vmem S4096x1 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S4096x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x128 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S4096x128 .bf16 := win3_3.stage (cfg3.slots t 3)
abbrev hs3_3 (t : Fin cfg3.N) : (ms3_3 t).IsWhole := hstage3_3 ((cfg3.slots t 3).cast nbuf3_3)

theorem PhiA3_eq (c : Dev nD) :
    (Pipeline.ΦA spec3 c : sProp 𝕄)
      = iprop(iprop(iprop(∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- Every layer's gather region runs one kernel function: the later layers' printed bodies are this one's text. -/
theorem bodyAt3_eq (t : Fin cfg3.N) : bodyAt3 (F := F) t = cc0__phaseA_kernel (grid3.coords t) (ms3_0 t) (hs3_0 t) (ms3_1 t) (hs3_1 t) (ms3_2 t) (hs3_2 t) (ms3_3 t) (hs3_3 t) scM3 (Memref.isWhole_whole _) := rfl

end Cert.KernelIdeal.Rg

end
-- ==== Proof.R3Body.lean ====
import proofs.«425541_j70411693850858_1_alg».proof.Proof.R3Run
import proofs.«425541_j70411693850858_1_alg».proof.Proof.R0Pcs

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 1600000 in

theorem sound_body3_A (c : Dev nD) (t : Fin cfg3.N) (hm : t.val % 49 = 0) :
    bodyPre3 V c t ⊢ wp frame (wpE (defs₀ (F := F)) Variants.none c none) Set.univ (bodyAt3 t) (fun _ => bodyPost3 V c t) := by
  unfold bodyPre3 bodyPost3
  rw [bodyAt3_eq]
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hca : cond3_0 (grid3.coords t) := (hcond3_0 t).mpr hm
  have hcb : ¬cond3_1 (grid3.coords t) := fun h => absurd ((hcond3_1 t).mp h) (by omega)
  rw [Dat.leavesExact_idle (dat3 V c) 3 t (idleAt3_3 t hcb) (noFlush3_3 t hcb)]
  by_cases hz : t.val = 0
  · rw [PhiS3_castSucc V c t, PhiS3_zero V c _ _ hz, PhiA3_eq]
    iintro ⟨⟨⟨HS, HR⟩, Hg⟩, Ho, ⟨%da, Ha⟩, ⟨%db, Hb⟩, ⟨%dc, Hc⟩, ⟨%dd, Hd⟩⟩
    iapply ((gatherRun_A c (grid3.coords t) _ _ _ _ _ _ _ _ _ _ hca hcb (iblk3 V c 0 t) (iblk3 V c 1 t) (iblk3 V c 2 t)).2 _ Set.univ _)
    isplitl [Ha]; · iexact Ha
    isplitl [Hb]; · iexact Hb
    isplitl [Hc]; · iexact Hc
    isplitl [Hd]; · iexact Hd
    isplitl [HS]; · iexact HS
    iintro ⟨Ha, Hb, Hc, Hd, ⟨%es, HS⟩⟩
    isplitl [HS HR Hg]
    · isplitl [HS HR]
      · isplitl [HS]
        · unfold owns; iexists _; isplitr
          swap; · iexact HS
          ipureintro
          rw [acc3_first V c t hm]
          exact (View.read_writes_eq_canon _ _ _ (gatherAccCover_A c (grid3.coords t) _ _ _ _ _ _ _ _ _ _ hca hcb (iblk3 V c 0 t) (iblk3 V c 1 t) (iblk3 V c 2 t))).trans (gatherAcc_A c (grid3.coords t) _ _ _ _ _ _ _ _ _ _ hca hcb (iblk3 V c 0 t) (iblk3 V c 1 t) (iblk3 V c 2 t))
        iexact HR
      iexact Hg
    isplitl [Ho]; · iexact Ho
    isplitl [Ha]; · iexact Ha
    isplitl [Hb]; · iexact Hb
    isplitl [Hc]; · iexact Hc
    iexists _; iexact Hd
  · rw [PhiS3_castSucc V c t, PhiS3_pos V c _ _ hz]
    iintro ⟨⟨⟨HS, HR⟩, Hg⟩, Ho, ⟨%da, Ha⟩, ⟨%db, Hb⟩, ⟨%dc, Hc⟩, ⟨%dd, Hd⟩⟩
    iapply ((gatherRun_A c (grid3.coords t) _ _ _ _ _ _ _ _ _ _ hca hcb (iblk3 V c 0 t) (iblk3 V c 1 t) (iblk3 V c 2 t)).2 _ Set.univ _)
    isplitl [Ha]; · iexact Ha
    isplitl [Hb]; · iexact Hb
    isplitl [Hc]; · iexact Hc
    isplitl [Hd]; · iexact Hd
    isplitl [HS]; · iexists _; iexact HS
    iintro ⟨Ha, Hb, Hc, Hd, ⟨%es, HS⟩⟩
    isplitl [HS HR Hg]
    · isplitl [HS HR]
      · isplitl [HS]
        · unfold owns; iexists _; isplitr
          swap; · iexact HS
          ipureintro
          rw [acc3_first V c t hm]
          exact (View.read_writes_eq_canon _ _ _ (gatherAccCover_A c (grid3.coords t) _ _ _ _ _ _ _ _ _ _ hca hcb (iblk3 V c 0 t) (iblk3 V c 1 t) (iblk3 V c 2 t))).trans (gatherAcc_A c (grid3.coords t) _ _ _ _ _ _ _ _ _ _ hca hcb (iblk3 V c 0 t) (iblk3 V c 1 t) (iblk3 V c 2 t))
        iexact HR
      iexact Hg
    isplitl [Ho]; · iexact Ho
    isplitl [Ha]; · iexact Ha
    isplitl [Hb]; · iexact Hb
    isplitl [Hc]; · iexact Hc
    iexists _; iexact Hd

set_option maxHeartbeats 1600000 in

theorem sound_body3_B (c : Dev nD) (t : Fin cfg3.N) (hm : ¬t.val % 49 = 0) (hl : ¬t.val % 49 = 48) :
    bodyPre3 V c t ⊢ wp frame (wpE (defs₀ (F := F)) Variants.none c none) Set.univ (bodyAt3 t) (fun _ => bodyPost3 V c t) := by
  unfold bodyPre3 bodyPost3
  rw [bodyAt3_eq]
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hca : ¬cond3_0 (grid3.coords t) := fun h => hm ((hcond3_0 t).mp h)
  have hcb : ¬cond3_1 (grid3.coords t) := fun h => hl ((hcond3_1 t).mp h)
  have hz : t.val ≠ 0 := fun e => hm (by rw [e])
  have hlt : t.val - 1 < cfg3.N := Nat.lt_of_le_of_lt (Nat.sub_le _ _) t.isLt
  rw [Dat.leavesExact_idle (dat3 V c) 3 t (idleAt3_3 t hcb) (noFlush3_3 t hcb)]
  · rw [PhiS3_castSucc V c t, PhiS3_pos V c _ _ hz]
    iintro ⟨⟨⟨HS, HR⟩, Hg⟩, Ho, ⟨%da, Ha⟩, ⟨%db, Hb⟩, ⟨%dc, Hc⟩, ⟨%dd, Hd⟩⟩
    iapply ((gatherRun_B c (grid3.coords t) _ _ _ _ _ _ _ _ _ _ hca hcb (iblk3 V c 0 t) (iblk3 V c 1 t) (iblk3 V c 2 t) (acc3 V c (t.val - 1) hlt)).2 _ Set.univ _)
    isplitl [Ha]; · iexact Ha
    isplitl [Hb]; · iexact Hb
    isplitl [Hc]; · iexact Hc
    isplitl [Hd]; · iexact Hd
    isplitl [HS]; · iexact HS
    iintro ⟨Ha, Hb, Hc, Hd, ⟨%es, HS⟩⟩
    isplitl [HS HR Hg]
    · isplitl [HS HR]
      · isplitl [HS]
        · unfold owns; iexists _; isplitr
          swap; · iexact HS
          ipureintro
          rw [acc3_next V c t hm]
          exact (View.read_writes_eq_canon _ _ _ (gatherAccCover_B c (grid3.coords t) _ _ _ _ _ _ _ _ _ _ hca hcb (iblk3 V c 0 t) (iblk3 V c 1 t) (iblk3 V c 2 t) (acc3 V c (t.val - 1) hlt))).trans (gatherAcc_B c (grid3.coords t) _ _ _ _ _ _ _ _ _ _ hca hcb (iblk3 V c 0 t) (iblk3 V c 1 t) (iblk3 V c 2 t) (acc3 V c (t.val - 1) hlt))
        iexact HR
      iexact Hg
    isplitl [Ho]; · iexact Ho
    isplitl [Ha]; · iexact Ha
    isplitl [Hb]; · iexact Hb
    isplitl [Hc]; · iexact Hc
    iexists _; iexact Hd

set_option maxHeartbeats 1600000 in

theorem sound_body3_C (c : Dev nD) (t : Fin cfg3.N) (hl : t.val % 49 = 48) :
    bodyPre3 V c t ⊢ wp frame (wpE (defs₀ (F := F)) Variants.none c none) Set.univ (bodyAt3 t) (fun _ => bodyPost3 V c t) := by
  unfold bodyPre3 bodyPost3
  rw [bodyAt3_eq]
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hm : ¬t.val % 49 = 0 := by omega
  have hca : ¬cond3_0 (grid3.coords t) := fun h => hm ((hcond3_0 t).mp h)
  have hcb : cond3_1 (grid3.coords t) := (hcond3_1 t).mpr hl
  have hz : t.val ≠ 0 := fun e => hm (by rw [e])
  have hlt : t.val - 1 < cfg3.N := Nat.lt_of_le_of_lt (Nat.sub_le _ _) t.isLt
  rw [show (dat3 V c).leavesExact 3 t = owns (c : Thread nD τ) (ms3_3 t) fullShare ((dat3 V c).after 3 t) from by
    unfold Dat.leavesExact; rw [liveAt3_3 t hcb], after3_3]
  · rw [PhiS3_castSucc V c t, PhiS3_pos V c _ _ hz]
    iintro ⟨⟨⟨HS, HR⟩, Hg⟩, Ho, ⟨%da, Ha⟩, ⟨%db, Hb⟩, ⟨%dc, Hc⟩, ⟨%dd, Hd⟩⟩
    iapply ((gatherRun_C c (grid3.coords t) _ _ _ _ _ _ _ _ _ _ hca hcb (iblk3 V c 0 t) (iblk3 V c 1 t) (iblk3 V c 2 t) (acc3 V c (t.val - 1) hlt)).2.2 Set.univ _)
    isplitl [Ha]; · iexact Ha
    isplitl [Hb]; · iexact Hb
    isplitl [Hc]; · iexact Hc
    isplitl [Hd]; · iexists _; iexact Hd
    isplitl [HS]; · iexact HS
    iintro ⟨Ha, Hb, Hc, ⟨%eo, Hd⟩, ⟨%es, HS⟩⟩
    isplitl [HS HR Hg]
    · isplitl [HS HR]
      · isplitl [HS]
        · unfold owns; iexists _; isplitr
          swap; · iexact HS
          ipureintro
          rw [acc3_next V c t hm]
          exact (View.read_writes_eq_canon _ _ _ (gatherAccCover_C c (grid3.coords t) _ _ _ _ _ _ _ _ _ _ hca hcb (iblk3 V c 0 t) (iblk3 V c 1 t) (iblk3 V c 2 t) (acc3 V c (t.val - 1) hlt))).trans
            (gatherAcc_C c (grid3.coords t) _ _ _ _ _ _ _ _ _ _ hca hcb (iblk3 V c 0 t) (iblk3 V c 1 t) (iblk3 V c 2 t) (acc3 V c (t.val - 1) hlt))
        iexact HR
      iexact Hg
    isplitl [Ho]; · iexact Ho
    isplitl [Ha]; · iexact Ha
    isplitl [Hb]; · iexact Hb
    isplitl [Hc]; · iexact Hc
    unfold owns; iexists _; isplitr
    swap; · iexact Hd
    ipureintro
    unfold out3; rw [acc3_next V c t hm]
    exact (View.read_writes_eq_canon _ _ _ (gatherOutCover_C c (grid3.coords t) _ _ _ _ _ _ _ _ _ _ hca hcb (iblk3 V c 0 t) (iblk3 V c 1 t) (iblk3 V c 2 t) (acc3 V c (t.val - 1) hlt))).trans
      (gatherOut_C c (grid3.coords t) _ _ _ _ _ _ _ _ _ _ hca hcb (iblk3 V c 0 t) (iblk3 V c 1 t) (iblk3 V c 2 t) (acc3 V c (t.val - 1) hlt))

theorem sound_body3 (c : Dev nD) (t : Fin cfg3.N) :
    bodyPre3 V c t ⊢ wp frame (wpE (defs₀ (F := F)) Variants.none c none) Set.univ (bodyAt3 t) (fun _ => bodyPost3 V c t) := by
  by_cases hm : t.val % 49 = 0
  · exact sound_body3_A V c t hm
  · by_cases hl : t.val % 49 = 48
    · exact sound_body3_C V c t hl
    · exact sound_body3_B V c t hm hl

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg

theorem hout3 (c : Dev nD) : (dat3 V c).Φ (Fin.last cfg3.N) ⊢ Pipeline.ΦA spec3 c :=
  Phi_out3 V c _ (by rw [Fin.val_last]; have : cfg3.N = 7203 := N_3; omega)

end Cert.KernelIdeal.Rg

end
-- ==== Proof.R4Run.lean ====
import proofs.«425541_j70411693850858_1_alg».proof.Proof.R4Defs

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d

theorem before4_1 (c : Dev nD) (t : Fin cfg4.N) (d) : (dat4 V c).before 1 t d = iblk4 V c 1 t :=
  before4_1_of V (dat4 V c) (A_eq4 V c 1) (after4_1 V c) t d

abbrev cond4_0 (i : grid4.Coords) : Prop := (Scalar.cmpi .ne (Scalar.extui (Scalar.cmpi .eq (BitVec.ofNat 32 (i 1).val) 0#32)) 0#32) = 1#1

theorem hcond4_0 : ∀ t : Fin cfg4.N, cond4_0 (grid4.coords t) ↔ t.val % 147 = 0 :=
  (by decide +kernel : ∀ t : Fin grid4.N, cond4_0 (grid4.coords t) ↔ t.val % 147 = 0)

abbrev cond4_1 (i : grid4.Coords) : Prop := k1_cond2 i = 1#1

theorem hcond4_1 : ∀ t : Fin cfg4.N, cond4_1 (grid4.coords t) ↔ t.val % 147 = 146 :=
  (by decide +kernel : ∀ t : Fin grid4.N, cond4_1 (grid4.coords t) ↔ t.val % 147 = 146)

theorem liveAt4_0 (t : Fin cfg4.N) : cfg4.idle 0 (grid4.coords t) = false := rfl
theorem liveAt4_1 (t : Fin cfg4.N) : cfg4.idle 1 (grid4.coords t) = false := rfl

theorem idleAt4_2 (i : grid4.Coords) (h : ¬cond4_1 i) : cfg4.idle 2 i = true := by
  have e : (k1_cond2 i == 1#1) = false := beq_eq_false_iff_ne.mpr h
  show (!(k1_cond2 i == 1#1)) = true
  rw [e]; rfl

theorem liveAt4_2 (i : grid4.Coords) (h : cond4_1 i) : cfg4.idle 2 i = false := by
  have e : (k1_cond2 i == 1#1) = true := beq_iff_eq.mpr h
  show (!(k1_cond2 i == 1#1)) = false
  rw [e]; rfl

theorem noFlush4_2 (t : Fin cfg4.N) (h : ¬t.val % 147 = 146) : (cfg4.win 2).flush t = false :=
  Bool.eq_false_iff.mpr fun hf => h ((flush4_2 t).mp hf)

abbrev ms4_0 (t : Fin cfg4.N) : Memref sig .tc .vmem S1x4096 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S4096x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x128 .f32 := win4_2.stage (cfg4.slots t 2)
abbrev hs4_2 (t : Fin cfg4.N) : (ms4_2 t).IsWhole := hstage4_2 ((cfg4.slots t 2).cast nbuf4_2)

theorem hz4 : (![0, 0] : Fin 2 → Nat) = fun _ => 0 := funext fun a => by fin_cases a <;> rfl

theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-- Every layer's scatter region runs one kernel function: the later layers' printed bodies are this one's text. -/
theorem bodyAt4_eq (t : Fin cfg4.N) : bodyAt4 (F := F) t = cc1__phaseB_kernel (grid4.coords t) (ms4_0 t) (hs4_0 t) (ms4_1 t) (hs4_1 t) (ms4_2 t) (hs4_2 t) scM4 (Memref.isWhole_whole _) := rfl

end Cert.KernelIdeal.Rg

end
-- ==== Proof.R4Body.lean ====
import proofs.«425541_j70411693850858_1_alg».proof.Proof.R4Run
import proofs.«425541_j70411693850858_1_alg».proof.Proof.R1Pcs

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4
  rw [bodyAt4_eq]
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 147 = 0
  · have h1 : ¬t.val % 147 = 146 := by omega
    rw [Dat.leavesExact_idle (dat4 V c) 2 t (idleAt4_2 _ (fun h => h1 ((hcond4_1 t).mp h))) (noFlush4_2 t h1)]
    rw [acc4_first V c t h0]
    by_cases hz : t.val = 0
    · rw [PhiS4_castSucc V c t, PhiS4_zero V c _ _ hz, PhiA4_eq]
      iintro ⟨⟨⟨HS0, Hr⟩, Hg⟩, Ho, ⟨%d0, H0⟩, ⟨%d1, H1⟩, ⟨%d2, H2⟩⟩
      iapply (scatterKernel_A c (grid4.coords t) _ _ _ _ _ _ _ _ ((hcond4_0 t).mpr h0) (fun h => h1 ((hcond4_1 t).mp h)) (iblk4 V c 0 t) (iblk4 V c 1 t) _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
    · rw [PhiS4_castSucc V c t, PhiS4_pos V c _ _ hz]
      iintro ⟨⟨⟨HS0, Hr⟩, Hg⟩, Ho, ⟨%d0, H0⟩, ⟨%d1, H1⟩, ⟨%d2, H2⟩⟩
      iapply (scatterKernel_A c (grid4.coords t) _ _ _ _ _ _ _ _ ((hcond4_0 t).mpr h0) (fun h => h1 ((hcond4_1 t).mp h)) (iblk4 V c 0 t) (iblk4 V c 1 t) _ Set.univ _)
      isplitl [H0]; · iexact H0
      isplitl [H1]; · iexact H1
      isplitl [H2]; · iexact H2
      isplitl [HS0]; · iexists _; iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
  · have hz : t.val ≠ 0 := by omega
    rw [acc4_next V c t h0, PhiS4_castSucc V c t, PhiS4_pos V c _ _ hz]
    by_cases h1 : t.val % 147 = 146
    · rw [show (dat4 V c).leavesExact 2 t = owns (c : Thread nD τ) (ms4_2 t) fullShare ((dat4 V c).after 2 t) from by
        unfold Dat.leavesExact; rw [liveAt4_2 _ ((hcond4_1 t).mpr h1)], after4_2]
      unfold out4
      rw [acc4_next V c t h0]
      iintro ⟨⟨⟨HS0, Hr⟩, Hg⟩, Ho, ⟨%d0, H0⟩, ⟨%d1, H1⟩, ⟨%d2, H2⟩⟩
      iapply (scatterKernel_C c (grid4.coords t) _ _ _ _ _ _ _ _ (fun h => h0 ((hcond4_0 t).mp h)) ((hcond4_1 t).mpr h1) (iblk4 V c 0 t) (iblk4 V c 1 t) _ Set.univ _)
      isplitl [H0]; · iexact H0
      isplitl [H1]; · iexact H1
      isplitl [H2]; · iexists _; iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexact H2
    · rw [Dat.leavesExact_idle (dat4 V c) 2 t (idleAt4_2 _ (fun h => h1 ((hcond4_1 t).mp h))) (noFlush4_2 t h1)]
      iintro ⟨⟨⟨HS0, Hr⟩, Hg⟩, Ho, ⟨%d0, H0⟩, ⟨%d1, H1⟩, ⟨%d2, H2⟩⟩
      iapply (scatterKernel_B c (grid4.coords t) _ _ _ _ _ _ _ _ (fun h => h0 ((hcond4_0 t).mp h)) (fun h => h1 ((hcond4_1 t).mp h)) (iblk4 V c 0 t) (iblk4 V c 1 t) _ _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

theorem hout4 (c : Dev nD) : (dat4 V c).Φ (Fin.last cfg4.N) ⊢ Pipeline.ΦA spec4 c :=
  Phi_out4 V c _ (by rw [Fin.val_last]; have : cfg4.N = 7203 := N_4; omega)

end Cert.KernelIdeal.Rg

end
-- ==== Proof.R5Body.lean ====
import proofs.«425541_j70411693850858_1_alg».proof.Proof.R5Defs
import proofs.«425541_j70411693850858_1_alg».proof.Proof.Dense
import Idealize.ShloMosaic.Lib.Pipeline.Value

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- Every layer's dense region runs one kernel function: the later layers' printed bodies are this one's text. -/
theorem bodyAt5_eq (t : Fin cfg5.N) : bodyAt5 (F := F) t = cc2__affine_kernel (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (win5_4.stage (cfg5.slots t 4)) (hstage5_4 ((cfg5.slots t 4).cast nbuf5_4)) (win5_5.stage (cfg5.slots t 5)) (hstage5_5 ((cfg5.slots t 5).cast nbuf5_5)) := rfl

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5
  rw [bodyAt5_eq]
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  unfold out5
  iintro ⟨HΦ, Ho, ⟨%d0, H0⟩, ⟨%d1, H1⟩, ⟨%d2, H2⟩, ⟨%d3, H3⟩, ⟨%d4, H4⟩, ⟨%d5, H5⟩⟩
  iapply (denseKernel c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.KernelIdeal.Rg

end
-- ==== Proof.R6Run.lean ====
import proofs.«425541_j70411693850858_1_alg».proof.Proof.R6Defs

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev cond6_0 (i : grid6.Coords) : Prop := (Scalar.cmpi .ne (Scalar.extui (Scalar.cmpi .eq (BitVec.ofNat 32 (i 1).val) 0#32)) 0#32) = 1#1

theorem hcond6_0 : ∀ t : Fin cfg6.N, cond6_0 (grid6.coords t) ↔ t.val % 49 = 0 :=
  (by decide +kernel : ∀ t : Fin grid6.N, cond6_0 (grid6.coords t) ↔ t.val % 49 = 0)

abbrev cond6_1 (i : grid6.Coords) : Prop := k0_cond2 i = 1#1

theorem hcond6_1 : ∀ t : Fin cfg6.N, cond6_1 (grid6.coords t) ↔ t.val % 49 = 48 :=
  (by decide +kernel : ∀ t : Fin grid6.N, cond6_1 (grid6.coords t) ↔ t.val % 49 = 48)

theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl

theorem idleAt6_3 : ∀ t : Fin cfg6.N, ¬cond6_1 (grid6.coords t) → cfg6.idle 3 (grid6.coords t) = true := by
  intro t h
  show (!(k0_cond2 (grid6.coords t) == 1#1)) = true
  rw [Bool.not_eq_true', beq_eq_false_iff_ne]; exact h

theorem noFlush6_3 : ∀ t : Fin cfg6.N, ¬cond6_1 (grid6.coords t) → (cfg6.win 3).flush t = false := by
  intro t h
  rw [Bool.eq_false_iff]; intro hf
  exact h ((hcond6_1 t).mpr ((flush6_3 t).mp hf))

theorem liveAt6_3 : ∀ t : Fin cfg6.N, cond6_1 (grid6.coords t) → cfg6.idle 3 (grid6.coords t) = false := by
  intro t h
  show (!(k0_cond2 (grid6.coords t) == 1#1)) = false
  rw [Bool.not_eq_false', beq_iff_eq]; exact h

abbrev ms6_0 (t : Fin cfg6.N) : Memref sig .tc .vmem S4096x1 .i32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S4096x1 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x128 .bf16 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S4096x128 .bf16 := win6_3.stage (cfg6.slots t 3)
abbrev hs6_3 (t : Fin cfg6.N) : (ms6_3 t).IsWhole := hstage6_3 ((cfg6.slots t 3).cast nbuf6_3)

theorem PhiA6_eq (c : Dev nD) :
    (Pipeline.ΦA spec6 c : sProp 𝕄)
      = iprop(iprop(iprop(∃ d, owns (c : Thread nD τ) scM6 fullShare d)
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl

/-- Every layer's gather region runs one kernel function: the later layers' printed bodies are this one's text. -/
theorem bodyAt6_eq (t : Fin cfg6.N) : bodyAt6 (F := F) t = cc0__phaseA_kernel (grid6.coords t) (ms6_0 t) (hs6_0 t) (ms6_1 t) (hs6_1 t) (ms6_2 t) (hs6_2 t) (ms6_3 t) (hs6_3 t) scM6 (Memref.isWhole_whole _) := rfl

end Cert.KernelIdeal.Rg

end
-- ==== Proof.R6Body.lean ====
import proofs.«425541_j70411693850858_1_alg».proof.Proof.R6Run
import proofs.«425541_j70411693850858_1_alg».proof.Proof.R0Pcs

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 1600000 in

theorem sound_body6_A (c : Dev nD) (t : Fin cfg6.N) (hm : t.val % 49 = 0) :
    bodyPre6 V c t ⊢ wp frame (wpE (defs₀ (F := F)) Variants.none c none) Set.univ (bodyAt6 t) (fun _ => bodyPost6 V c t) := by
  unfold bodyPre6 bodyPost6
  rw [bodyAt6_eq]
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  have hca : cond6_0 (grid6.coords t) := (hcond6_0 t).mpr hm
  have hcb : ¬cond6_1 (grid6.coords t) := fun h => absurd ((hcond6_1 t).mp h) (by omega)
  rw [Dat.leavesExact_idle (dat6 V c) 3 t (idleAt6_3 t hcb) (noFlush6_3 t hcb)]
  by_cases hz : t.val = 0
  · rw [PhiS6_castSucc V c t, PhiS6_zero V c _ _ hz, PhiA6_eq]
    iintro ⟨⟨⟨HS, HR⟩, Hg⟩, Ho, ⟨%da, Ha⟩, ⟨%db, Hb⟩, ⟨%dc, Hc⟩, ⟨%dd, Hd⟩⟩
    iapply ((gatherRun_A c (grid6.coords t) _ _ _ _ _ _ _ _ _ _ hca hcb (iblk6 V c 0 t) (iblk6 V c 1 t) (iblk6 V c 2 t)).2 _ Set.univ _)
    isplitl [Ha]; · iexact Ha
    isplitl [Hb]; · iexact Hb
    isplitl [Hc]; · iexact Hc
    isplitl [Hd]; · iexact Hd
    isplitl [HS]; · iexact HS
    iintro ⟨Ha, Hb, Hc, Hd, ⟨%es, HS⟩⟩
    isplitl [HS HR Hg]
    · isplitl [HS HR]
      · isplitl [HS]
        · unfold owns; iexists _; isplitr
          swap; · iexact HS
          ipureintro
          rw [acc6_first V c t hm]
          exact (View.read_writes_eq_canon _ _ _ (gatherAccCover_A c (grid6.coords t) _ _ _ _ _ _ _ _ _ _ hca hcb (iblk6 V c 0 t) (iblk6 V c 1 t) (iblk6 V c 2 t))).trans (gatherAcc_A c (grid6.coords t) _ _ _ _ _ _ _ _ _ _ hca hcb (iblk6 V c 0 t) (iblk6 V c 1 t) (iblk6 V c 2 t))
        iexact HR
      iexact Hg
    isplitl [Ho]; · iexact Ho
    isplitl [Ha]; · iexact Ha
    isplitl [Hb]; · iexact Hb
    isplitl [Hc]; · iexact Hc
    iexists _; iexact Hd
  · rw [PhiS6_castSucc V c t, PhiS6_pos V c _ _ hz]
    iintro ⟨⟨⟨HS, HR⟩, Hg⟩, Ho, ⟨%da, Ha⟩, ⟨%db, Hb⟩, ⟨%dc, Hc⟩, ⟨%dd, Hd⟩⟩
    iapply ((gatherRun_A c (grid6.coords t) _ _ _ _ _ _ _ _ _ _ hca hcb (iblk6 V c 0 t) (iblk6 V c 1 t) (iblk6 V c 2 t)).2 _ Set.univ _)
    isplitl [Ha]; · iexact Ha
    isplitl [Hb]; · iexact Hb
    isplitl [Hc]; · iexact Hc
    isplitl [Hd]; · iexact Hd
    isplitl [HS]; · iexists _; iexact HS
    iintro ⟨Ha, Hb, Hc, Hd, ⟨%es, HS⟩⟩
    isplitl [HS HR Hg]
    · isplitl [HS HR]
      · isplitl [HS]
        · unfold owns; iexists _; isplitr
          swap; · iexact HS
          ipureintro
          rw [acc6_first V c t hm]
          exact (View.read_writes_eq_canon _ _ _ (gatherAccCover_A c (grid6.coords t) _ _ _ _ _ _ _ _ _ _ hca hcb (iblk6 V c 0 t) (iblk6 V c 1 t) (iblk6 V c 2 t))).trans (gatherAcc_A c (grid6.coords t) _ _ _ _ _ _ _ _ _ _ hca hcb (iblk6 V c 0 t) (iblk6 V c 1 t) (iblk6 V c 2 t))
        iexact HR
      iexact Hg
    isplitl [Ho]; · iexact Ho
    isplitl [Ha]; · iexact Ha
    isplitl [Hb]; · iexact Hb
    isplitl [Hc]; · iexact Hc
    iexists _; iexact Hd

set_option maxHeartbeats 1600000 in

theorem sound_body6_B (c : Dev nD) (t : Fin cfg6.N) (hm : ¬t.val % 49 = 0) (hl : ¬t.val % 49 = 48) :
    bodyPre6 V c t ⊢ wp frame (wpE (defs₀ (F := F)) Variants.none c none) Set.univ (bodyAt6 t) (fun _ => bodyPost6 V c t) := by
  unfold bodyPre6 bodyPost6
  rw [bodyAt6_eq]
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  have hca : ¬cond6_0 (grid6.coords t) := fun h => hm ((hcond6_0 t).mp h)
  have hcb : ¬cond6_1 (grid6.coords t) := fun h => hl ((hcond6_1 t).mp h)
  have hz : t.val ≠ 0 := fun e => hm (by rw [e])
  have hlt : t.val - 1 < cfg6.N := Nat.lt_of_le_of_lt (Nat.sub_le _ _) t.isLt
  rw [Dat.leavesExact_idle (dat6 V c) 3 t (idleAt6_3 t hcb) (noFlush6_3 t hcb)]
  · rw [PhiS6_castSucc V c t, PhiS6_pos V c _ _ hz]
    iintro ⟨⟨⟨HS, HR⟩, Hg⟩, Ho, ⟨%da, Ha⟩, ⟨%db, Hb⟩, ⟨%dc, Hc⟩, ⟨%dd, Hd⟩⟩
    iapply ((gatherRun_B c (grid6.coords t) _ _ _ _ _ _ _ _ _ _ hca hcb (iblk6 V c 0 t) (iblk6 V c 1 t) (iblk6 V c 2 t) (acc6 V c (t.val - 1) hlt)).2 _ Set.univ _)
    isplitl [Ha]; · iexact Ha
    isplitl [Hb]; · iexact Hb
    isplitl [Hc]; · iexact Hc
    isplitl [Hd]; · iexact Hd
    isplitl [HS]; · iexact HS
    iintro ⟨Ha, Hb, Hc, Hd, ⟨%es, HS⟩⟩
    isplitl [HS HR Hg]
    · isplitl [HS HR]
      · isplitl [HS]
        · unfold owns; iexists _; isplitr
          swap; · iexact HS
          ipureintro
          rw [acc6_next V c t hm]
          exact (View.read_writes_eq_canon _ _ _ (gatherAccCover_B c (grid6.coords t) _ _ _ _ _ _ _ _ _ _ hca hcb (iblk6 V c 0 t) (iblk6 V c 1 t) (iblk6 V c 2 t) (acc6 V c (t.val - 1) hlt))).trans (gatherAcc_B c (grid6.coords t) _ _ _ _ _ _ _ _ _ _ hca hcb (iblk6 V c 0 t) (iblk6 V c 1 t) (iblk6 V c 2 t) (acc6 V c (t.val - 1) hlt))
        iexact HR
      iexact Hg
    isplitl [Ho]; · iexact Ho
    isplitl [Ha]; · iexact Ha
    isplitl [Hb]; · iexact Hb
    isplitl [Hc]; · iexact Hc
    iexists _; iexact Hd

set_option maxHeartbeats 1600000 in

theorem sound_body6_C (c : Dev nD) (t : Fin cfg6.N) (hl : t.val % 49 = 48) :
    bodyPre6 V c t ⊢ wp frame (wpE (defs₀ (F := F)) Variants.none c none) Set.univ (bodyAt6 t) (fun _ => bodyPost6 V c t) := by
  unfold bodyPre6 bodyPost6
  rw [bodyAt6_eq]
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  have hm : ¬t.val % 49 = 0 := by omega
  have hca : ¬cond6_0 (grid6.coords t) := fun h => hm ((hcond6_0 t).mp h)
  have hcb : cond6_1 (grid6.coords t) := (hcond6_1 t).mpr hl
  have hz : t.val ≠ 0 := fun e => hm (by rw [e])
  have hlt : t.val - 1 < cfg6.N := Nat.lt_of_le_of_lt (Nat.sub_le _ _) t.isLt
  rw [show (dat6 V c).leavesExact 3 t = owns (c : Thread nD τ) (ms6_3 t) fullShare ((dat6 V c).after 3 t) from by
    unfold Dat.leavesExact; rw [liveAt6_3 t hcb], after6_3]
  · rw [PhiS6_castSucc V c t, PhiS6_pos V c _ _ hz]
    iintro ⟨⟨⟨HS, HR⟩, Hg⟩, Ho, ⟨%da, Ha⟩, ⟨%db, Hb⟩, ⟨%dc, Hc⟩, ⟨%dd, Hd⟩⟩
    iapply ((gatherRun_C c (grid6.coords t) _ _ _ _ _ _ _ _ _ _ hca hcb (iblk6 V c 0 t) (iblk6 V c 1 t) (iblk6 V c 2 t) (acc6 V c (t.val - 1) hlt)).2.2 Set.univ _)
    isplitl [Ha]; · iexact Ha
    isplitl [Hb]; · iexact Hb
    isplitl [Hc]; · iexact Hc
    isplitl [Hd]; · iexists _; iexact Hd
    isplitl [HS]; · iexact HS
    iintro ⟨Ha, Hb, Hc, ⟨%eo, Hd⟩, ⟨%es, HS⟩⟩
    isplitl [HS HR Hg]
    · isplitl [HS HR]
      · isplitl [HS]
        · unfold owns; iexists _; isplitr
          swap; · iexact HS
          ipureintro
          rw [acc6_next V c t hm]
          exact (View.read_writes_eq_canon _ _ _ (gatherAccCover_C c (grid6.coords t) _ _ _ _ _ _ _ _ _ _ hca hcb (iblk6 V c 0 t) (iblk6 V c 1 t) (iblk6 V c 2 t) (acc6 V c (t.val - 1) hlt))).trans
            (gatherAcc_C c (grid6.coords t) _ _ _ _ _ _ _ _ _ _ hca hcb (iblk6 V c 0 t) (iblk6 V c 1 t) (iblk6 V c 2 t) (acc6 V c (t.val - 1) hlt))
        iexact HR
      iexact Hg
    isplitl [Ho]; · iexact Ho
    isplitl [Ha]; · iexact Ha
    isplitl [Hb]; · iexact Hb
    isplitl [Hc]; · iexact Hc
    unfold owns; iexists _; isplitr
    swap; · iexact Hd
    ipureintro
    unfold out6; rw [acc6_next V c t hm]
    exact (View.read_writes_eq_canon _ _ _ (gatherOutCover_C c (grid6.coords t) _ _ _ _ _ _ _ _ _ _ hca hcb (iblk6 V c 0 t) (iblk6 V c 1 t) (iblk6 V c 2 t) (acc6 V c (t.val - 1) hlt))).trans
      (gatherOut_C c (grid6.coords t) _ _ _ _ _ _ _ _ _ _ hca hcb (iblk6 V c 0 t) (iblk6 V c 1 t) (iblk6 V c 2 t) (acc6 V c (t.val - 1) hlt))

theorem sound_body6 (c : Dev nD) (t : Fin cfg6.N) :
    bodyPre6 V c t ⊢ wp frame (wpE (defs₀ (F := F)) Variants.none c none) Set.univ (bodyAt6 t) (fun _ => bodyPost6 V c t) := by
  by_cases hm : t.val % 49 = 0
  · exact sound_body6_A V c t hm
  · by_cases hl : t.val % 49 = 48
    · exact sound_body6_C V c t hl
    · exact sound_body6_B V c t hm hl

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS, HR⟩, Hg⟩
  isplitl [HS HR]
  · isplitl [HS]
    · iexists _; iexact HS
    iexact HR
  iexact Hg

theorem hout6 (c : Dev nD) : (dat6 V c).Φ (Fin.last cfg6.N) ⊢ Pipeline.ΦA spec6 c :=
  Phi_out6 V c _ (by rw [Fin.val_last]; have : cfg6.N = 7203 := N_6; omega)

end Cert.KernelIdeal.Rg

end
-- ==== Proof.R7Run.lean ====
import proofs.«425541_j70411693850858_1_alg».proof.Proof.R7Defs

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_0 (c : Dev nD) (t : Fin cfg7.N) (d) : (dat7 V c).before 0 t d = iblk7 V c 0 t :=
  before7_0_of V (dat7 V c) (A_eq7 V c 0) (after7_0 V c) t d

theorem before7_1 (c : Dev nD) (t : Fin cfg7.N) (d) : (dat7 V c).before 1 t d = iblk7 V c 1 t :=
  before7_1_of V (dat7 V c) (A_eq7 V c 1) (after7_1 V c) t d

abbrev cond7_0 (i : grid7.Coords) : Prop := (Scalar.cmpi .ne (Scalar.extui (Scalar.cmpi .eq (BitVec.ofNat 32 (i 1).val) 0#32)) 0#32) = 1#1

theorem hcond7_0 : ∀ t : Fin cfg7.N, cond7_0 (grid7.coords t) ↔ t.val % 147 = 0 :=
  (by decide +kernel : ∀ t : Fin grid7.N, cond7_0 (grid7.coords t) ↔ t.val % 147 = 0)

abbrev cond7_1 (i : grid7.Coords) : Prop := k1_cond2 i = 1#1

theorem hcond7_1 : ∀ t : Fin cfg7.N, cond7_1 (grid7.coords t) ↔ t.val % 147 = 146 :=
  (by decide +kernel : ∀ t : Fin grid7.N, cond7_1 (grid7.coords t) ↔ t.val % 147 = 146)

theorem liveAt7_0 (t : Fin cfg7.N) : cfg7.idle 0 (grid7.coords t) = false := rfl
theorem liveAt7_1 (t : Fin cfg7.N) : cfg7.idle 1 (grid7.coords t) = false := rfl

theorem idleAt7_2 (i : grid7.Coords) (h : ¬cond7_1 i) : cfg7.idle 2 i = true := by
  have e : (k1_cond2 i == 1#1) = false := beq_eq_false_iff_ne.mpr h
  show (!(k1_cond2 i == 1#1)) = true
  rw [e]; rfl

theorem liveAt7_2 (i : grid7.Coords) (h : cond7_1 i) : cfg7.idle 2 i = false := by
  have e : (k1_cond2 i == 1#1) = true := beq_iff_eq.mpr h
  show (!(k1_cond2 i == 1#1)) = false
  rw [e]; rfl

theorem noFlush7_2 (t : Fin cfg7.N) (h : ¬t.val % 147 = 146) : (cfg7.win 2).flush t = false :=
  Bool.eq_false_iff.mpr fun hf => h ((flush7_2 t).mp hf)

abbrev ms7_0 (t : Fin cfg7.N) : Memref sig .tc .vmem S1x4096 .i32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S4096x128 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1024x128 .f32 := win7_2.stage (cfg7.slots t 2)
abbrev hs7_2 (t : Fin cfg7.N) : (ms7_2 t).IsWhole := hstage7_2 ((cfg7.slots t 2).cast nbuf7_2)

theorem hz7 : (![0, 0] : Fin 2 → Nat) = fun _ => 0 := funext fun a => by fin_cases a <;> rfl

theorem PhiA7_eq (c : Dev nD) :
    (Pipeline.ΦA spec7 c : sProp 𝕄)
      = iprop(iprop((∃ d, owns (c : Thread nD τ) scM7 fullShare d)
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7, owns_whole]; try rfl

/-- Every layer's scatter region runs one kernel function: the later layers' printed bodies are this one's text. -/
theorem bodyAt7_eq (t : Fin cfg7.N) : bodyAt7 (F := F) t = cc1__phaseB_kernel (grid7.coords t) (ms7_0 t) (hs7_0 t) (ms7_1 t) (hs7_1 t) (ms7_2 t) (hs7_2 t) scM7 (Memref.isWhole_whole _) := rfl

end Cert.KernelIdeal.Rg

end
-- ==== Proof.R7Body.lean ====
import proofs.«425541_j70411693850858_1_alg».proof.Proof.R7Run
import proofs.«425541_j70411693850858_1_alg».proof.Proof.R1Pcs

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7
  rw [bodyAt7_eq]
  simp only [before7_0, before7_1]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  by_cases h0 : t.val % 147 = 0
  · have h1 : ¬t.val % 147 = 146 := by omega
    rw [Dat.leavesExact_idle (dat7 V c) 2 t (idleAt7_2 _ (fun h => h1 ((hcond7_1 t).mp h))) (noFlush7_2 t h1)]
    rw [acc7_first V c t h0]
    by_cases hz : t.val = 0
    · rw [PhiS7_castSucc V c t, PhiS7_zero V c _ _ hz, PhiA7_eq]
      iintro ⟨⟨⟨HS0, Hr⟩, Hg⟩, Ho, ⟨%d0, H0⟩, ⟨%d1, H1⟩, ⟨%d2, H2⟩⟩
      iapply (scatterKernel_A c (grid7.coords t) _ _ _ _ _ _ _ _ ((hcond7_0 t).mpr h0) (fun h => h1 ((hcond7_1 t).mp h)) (iblk7 V c 0 t) (iblk7 V c 1 t) _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
    · rw [PhiS7_castSucc V c t, PhiS7_pos V c _ _ hz]
      iintro ⟨⟨⟨HS0, Hr⟩, Hg⟩, Ho, ⟨%d0, H0⟩, ⟨%d1, H1⟩, ⟨%d2, H2⟩⟩
      iapply (scatterKernel_A c (grid7.coords t) _ _ _ _ _ _ _ _ ((hcond7_0 t).mpr h0) (fun h => h1 ((hcond7_1 t).mp h)) (iblk7 V c 0 t) (iblk7 V c 1 t) _ Set.univ _)
      isplitl [H0]; · iexact H0
      isplitl [H1]; · iexact H1
      isplitl [H2]; · iexact H2
      isplitl [HS0]; · iexists _; iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
  · have hz : t.val ≠ 0 := by omega
    rw [acc7_next V c t h0, PhiS7_castSucc V c t, PhiS7_pos V c _ _ hz]
    by_cases h1 : t.val % 147 = 146
    · rw [show (dat7 V c).leavesExact 2 t = owns (c : Thread nD τ) (ms7_2 t) fullShare ((dat7 V c).after 2 t) from by
        unfold Dat.leavesExact; rw [liveAt7_2 _ ((hcond7_1 t).mpr h1)], after7_2]
      unfold out7
      rw [acc7_next V c t h0]
      iintro ⟨⟨⟨HS0, Hr⟩, Hg⟩, Ho, ⟨%d0, H0⟩, ⟨%d1, H1⟩, ⟨%d2, H2⟩⟩
      iapply (scatterKernel_C c (grid7.coords t) _ _ _ _ _ _ _ _ (fun h => h0 ((hcond7_0 t).mp h)) ((hcond7_1 t).mpr h1) (iblk7 V c 0 t) (iblk7 V c 1 t) _ Set.univ _)
      isplitl [H0]; · iexact H0
      isplitl [H1]; · iexact H1
      isplitl [H2]; · iexists _; iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexact H2
    · rw [Dat.leavesExact_idle (dat7 V c) 2 t (idleAt7_2 _ (fun h => h1 ((hcond7_1 t).mp h))) (noFlush7_2 t h1)]
      iintro ⟨⟨⟨HS0, Hr⟩, Hg⟩, Ho, ⟨%d0, H0⟩, ⟨%d1, H1⟩, ⟨%d2, H2⟩⟩
      iapply (scatterKernel_B c (grid7.coords t) _ _ _ _ _ _ _ _ (fun h => h0 ((hcond7_0 t).mp h)) (fun h => h1 ((hcond7_1 t).mp h)) (iblk7 V c 0 t) (iblk7 V c 1 t) _ _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS0, Hr⟩, Hg⟩
  isplitl [HS0 Hr]
  · isplitl [HS0]
    · iexists _; iexact HS0
    iexact Hr
  iexact Hg

theorem hout7 (c : Dev nD) : (dat7 V c).Φ (Fin.last cfg7.N) ⊢ Pipeline.ΦA spec7 c :=
  Phi_out7 V c _ (by rw [Fin.val_last]; have : cfg7.N = 7203 := N_7; omega)

end Cert.KernelIdeal.Rg

end
-- ==== Proof.R8Body.lean ====
import proofs.«425541_j70411693850858_1_alg».proof.Proof.R8Defs
import proofs.«425541_j70411693850858_1_alg».proof.Proof.Dense
import Idealize.ShloMosaic.Lib.Pipeline.Value

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- Every layer's dense region runs one kernel function: the later layers' printed bodies are this one's text. -/
theorem bodyAt8_eq (t : Fin cfg8.N) : bodyAt8 (F := F) t = cc2__affine_kernel (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (win8_3.stage (cfg8.slots t 3)) (hstage8_3 ((cfg8.slots t 3).cast nbuf8_3)) (win8_4.stage (cfg8.slots t 4)) (hstage8_4 ((cfg8.slots t 4).cast nbuf8_4)) (win8_5.stage (cfg8.slots t 5)) (hstage8_5 ((cfg8.slots t 5).cast nbuf8_5)) := rfl

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8
  rw [bodyAt8_eq]
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  unfold out8
  iintro ⟨HΦ, Ho, ⟨%d0, H0⟩, ⟨%d1, H1⟩, ⟨%d2, H2⟩, ⟨%d3, H3⟩, ⟨%d4, H4⟩, ⟨%d5, H5⟩⟩
  iapply (denseKernel c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation8 (c : Dev nD) : BodyObligation (dat8 (F := F) V c) (defs₀ (F := F)) Variants.none () Set.univ := fun t => by
  rw [bigSep_W8, bigSep_W8]
  exact sound_body8 V c t

end Cert.KernelIdeal.Rg

end
-- ==== Proof.KR0Defs.lean ====
import proofs.«425541_j70411693850858_1_alg».proof.Proof.Gen.Kernel.Launch
import proofs.«425541_j70411693850858_1_alg».proof.Proof.Gen.Kernel.Skeleton
import proofs.«425541_j70411693850858_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def acc0 (c : Dev nD) : (n : ℕ) → n < cfg0.N → Vec F S4096x128 .f32
  | 0, hn => k0_pay2 (grid0.coords ⟨0, hn⟩) (iblk0 V c 0 ⟨0, hn⟩) (k0_pay1 (F := F)) (iblk0 V c 2 ⟨0, hn⟩)
  | n + 1, hn =>
    if (n + 1) % 49 = 0 then
      k0_pay2 (grid0.coords ⟨n + 1, hn⟩) (iblk0 V c 0 ⟨n + 1, hn⟩) (k0_pay1 (F := F)) (iblk0 V c 2 ⟨n + 1, hn⟩)
    else
      k0_pay2 (grid0.coords ⟨n + 1, hn⟩) (iblk0 V c 0 ⟨n + 1, hn⟩) (acc0 c n (Nat.lt_of_succ_lt hn)) (iblk0 V c 2 ⟨n + 1, hn⟩)

theorem acc0_first (c : Dev nD) (t : Fin cfg0.N) (h : t.val % 49 = 0) :
    acc0 V c t.val t.isLt = k0_pay2 (grid0.coords t) (iblk0 V c 0 t) (k0_pay1 (F := F)) (iblk0 V c 2 t) := by
  obtain ⟨n, hn⟩ := t
  cases n with
  | zero => rfl
  | succ n => exact if_pos h

theorem acc0_next (c : Dev nD) (t : Fin cfg0.N) (h : ¬t.val % 49 = 0) :
    acc0 V c t.val t.isLt = k0_pay2 (grid0.coords t) (iblk0 V c 0 t)
      (acc0 V c (t.val - 1) (Nat.lt_of_le_of_lt (Nat.sub_le _ _) t.isLt)) (iblk0 V c 2 t) := by
  obtain ⟨n, hn⟩ := t
  cases n with
  | zero => exact absurd (Nat.zero_mod _) h
  | succ n => exact if_neg h

def out0 (c : Dev nD) (t : Fin cfg0.N) : Vec F S4096x128 .bf16 :=
  k0_pay3 (iblk0 V c 1 t) (acc0 V c t.val t.isLt)

abbrev scM0 : Memref sig .tc .vmem S4096x128 .f32 := Memref.whole cc0_scratch0

def PhiS0 (c : Dev nD) : (n : ℕ) → n ≤ cfg0.N → sProp 𝕄
  | 0, _ => Pipeline.ΦA spec0 c
  | n + 1, hn => iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

end Cert.Kernel.Rg

end
-- ==== Proof.KR1Defs.lean ====
import proofs.«425541_j70411693850858_1_alg».proof.Proof.Gen.Kernel.Launch
import proofs.«425541_j70411693850858_1_alg».proof.Proof.Gen.Kernel.Skeleton
import proofs.«425541_j70411693850858_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def acc1 (c : Dev nD) : (n : ℕ) → n < cfg1.N → Vec F S1024x128 .f32
  | 0, hn => k1_pay2 (grid1.coords ⟨0, hn⟩) (iblk1 V c 0 ⟨0, hn⟩) (k1_pay1 (F := F)) (iblk1 V c 1 ⟨0, hn⟩)
  | n + 1, hn =>
    if (n + 1) % 147 = 0 then
      k1_pay2 (grid1.coords ⟨n + 1, hn⟩) (iblk1 V c 0 ⟨n + 1, hn⟩) (k1_pay1 (F := F)) (iblk1 V c 1 ⟨n + 1, hn⟩)
    else
      k1_pay2 (grid1.coords ⟨n + 1, hn⟩) (iblk1 V c 0 ⟨n + 1, hn⟩) (acc1 c n (Nat.lt_of_succ_lt hn)) (iblk1 V c 1 ⟨n + 1, hn⟩)

theorem acc1_first (c : Dev nD) (t : Fin cfg1.N) (h : t.val % 147 = 0) :
    acc1 V c t.val t.isLt = k1_pay2 (grid1.coords t) (iblk1 V c 0 t) (k1_pay1 (F := F)) (iblk1 V c 1 t) := by
  obtain ⟨n, hn⟩ := t
  cases n with
  | zero => rfl
  | succ n => exact if_pos h

theorem acc1_next (c : Dev nD) (t : Fin cfg1.N) (h : ¬t.val % 147 = 0) :
    acc1 V c t.val t.isLt = k1_pay2 (grid1.coords t) (iblk1 V c 0 t)
      (acc1 V c (t.val - 1) (Nat.lt_of_le_of_lt (Nat.sub_le _ _) t.isLt)) (iblk1 V c 1 t) := by
  obtain ⟨n, hn⟩ := t
  cases n with
  | zero => exact absurd (Nat.zero_mod _) h
  | succ n => exact if_neg h

def out1 (c : Dev nD) (t : Fin cfg1.N) : Vec F S1024x128 .f32 := acc1 V c t.val t.isLt

abbrev scM1 : Memref sig .tc .vmem S1024x128 .f32 := Memref.whole cc1_scratch0

def PhiS1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Cert.Kernel.Rg

end
-- ==== Proof.KR2Defs.lean ====
import proofs.«425541_j70411693850858_1_alg».proof.Proof.Gen.Kernel.Launch
import proofs.«425541_j70411693850858_1_alg».proof.Proof.Gen.Kernel.Skeleton
import proofs.«425541_j70411693850858_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2 (c : Dev nD) (t : Fin cfg2.N) : Vec F S1024x128 .f32 :=
  k2_pay1 (iblk2 V c 0 t) (iblk2 V c 2 t) (iblk2 V c 1 t) (iblk2 V c 3 t) (iblk2 V c 4 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 V c t := by dsimp only [dat2]

end Cert.Kernel.Rg

end
-- ==== Proof.KR3Defs.lean ====
import proofs.«425541_j70411693850858_1_alg».proof.Proof.Gen.Kernel.Launch
import proofs.«425541_j70411693850858_1_alg».proof.Proof.Gen.Kernel.Skeleton
import proofs.«425541_j70411693850858_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (c : Dev nD) : (n : ℕ) → n < cfg3.N → Vec F S4096x128 .f32
  | 0, hn => k0_pay2 (grid3.coords ⟨0, hn⟩) (iblk3 V c 0 ⟨0, hn⟩) (k0_pay1 (F := F)) (iblk3 V c 2 ⟨0, hn⟩)
  | n + 1, hn =>
    if (n + 1) % 49 = 0 then
      k0_pay2 (grid3.coords ⟨n + 1, hn⟩) (iblk3 V c 0 ⟨n + 1, hn⟩) (k0_pay1 (F := F)) (iblk3 V c 2 ⟨n + 1, hn⟩)
    else
      k0_pay2 (grid3.coords ⟨n + 1, hn⟩) (iblk3 V c 0 ⟨n + 1, hn⟩) (acc3 c n (Nat.lt_of_succ_lt hn)) (iblk3 V c 2 ⟨n + 1, hn⟩)

theorem acc3_first (c : Dev nD) (t : Fin cfg3.N) (h : t.val % 49 = 0) :
    acc3 V c t.val t.isLt = k0_pay2 (grid3.coords t) (iblk3 V c 0 t) (k0_pay1 (F := F)) (iblk3 V c 2 t) := by
  obtain ⟨n, hn⟩ := t
  cases n with
  | zero => rfl
  | succ n => exact if_pos h

theorem acc3_next (c : Dev nD) (t : Fin cfg3.N) (h : ¬t.val % 49 = 0) :
    acc3 V c t.val t.isLt = k0_pay2 (grid3.coords t) (iblk3 V c 0 t)
      (acc3 V c (t.val - 1) (Nat.lt_of_le_of_lt (Nat.sub_le _ _) t.isLt)) (iblk3 V c 2 t) := by
  obtain ⟨n, hn⟩ := t
  cases n with
  | zero => exact absurd (Nat.zero_mod _) h
  | succ n => exact if_neg h

def out3 (c : Dev nD) (t : Fin cfg3.N) : Vec F S4096x128 .bf16 :=
  k0_pay3 (iblk3 V c 1 t) (acc3 V c t.val t.isLt)

abbrev scM3 : Memref sig .tc .vmem S4096x128 .f32 := Memref.whole cc3_scratch0

def PhiS3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3 V c t := by dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

end Cert.Kernel.Rg

end
-- ==== Proof.KR4Defs.lean ====
import proofs.«425541_j70411693850858_1_alg».proof.Proof.Gen.Kernel.Launch
import proofs.«425541_j70411693850858_1_alg».proof.Proof.Gen.Kernel.Skeleton
import proofs.«425541_j70411693850858_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : (n : ℕ) → n < cfg4.N → Vec F S1024x128 .f32
  | 0, hn => k1_pay2 (grid4.coords ⟨0, hn⟩) (iblk4 V c 0 ⟨0, hn⟩) (k1_pay1 (F := F)) (iblk4 V c 1 ⟨0, hn⟩)
  | n + 1, hn =>
    if (n + 1) % 147 = 0 then
      k1_pay2 (grid4.coords ⟨n + 1, hn⟩) (iblk4 V c 0 ⟨n + 1, hn⟩) (k1_pay1 (F := F)) (iblk4 V c 1 ⟨n + 1, hn⟩)
    else
      k1_pay2 (grid4.coords ⟨n + 1, hn⟩) (iblk4 V c 0 ⟨n + 1, hn⟩) (acc4 c n (Nat.lt_of_succ_lt hn)) (iblk4 V c 1 ⟨n + 1, hn⟩)

theorem acc4_first (c : Dev nD) (t : Fin cfg4.N) (h : t.val % 147 = 0) :
    acc4 V c t.val t.isLt = k1_pay2 (grid4.coords t) (iblk4 V c 0 t) (k1_pay1 (F := F)) (iblk4 V c 1 t) := by
  obtain ⟨n, hn⟩ := t
  cases n with
  | zero => rfl
  | succ n => exact if_pos h

theorem acc4_next (c : Dev nD) (t : Fin cfg4.N) (h : ¬t.val % 147 = 0) :
    acc4 V c t.val t.isLt = k1_pay2 (grid4.coords t) (iblk4 V c 0 t)
      (acc4 V c (t.val - 1) (Nat.lt_of_le_of_lt (Nat.sub_le _ _) t.isLt)) (iblk4 V c 1 t) := by
  obtain ⟨n, hn⟩ := t
  cases n with
  | zero => exact absurd (Nat.zero_mod _) h
  | succ n => exact if_neg h

def out4 (c : Dev nD) (t : Fin cfg4.N) : Vec F S1024x128 .f32 := acc4 V c t.val t.isLt

abbrev scM4 : Memref sig .tc .vmem S1024x128 .f32 := Memref.whole cc4_scratch0

def PhiS4 (c : Dev nD) : (n : ℕ) → n ≤ cfg4.N → sProp 𝕄
  | 0, _ => Pipeline.ΦA spec4 c
  | n + 1, hn => iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4 V c t := by dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

end Cert.Kernel.Rg

end
-- ==== Proof.KR5Defs.lean ====
import proofs.«425541_j70411693850858_1_alg».proof.Proof.Gen.Kernel.Launch
import proofs.«425541_j70411693850858_1_alg».proof.Proof.Gen.Kernel.Skeleton
import proofs.«425541_j70411693850858_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5 (c : Dev nD) (t : Fin cfg5.N) : Vec F S1024x128 .f32 :=
  k2_pay1 (iblk5 V c 0 t) (iblk5 V c 2 t) (iblk5 V c 1 t) (iblk5 V c 3 t) (iblk5 V c 4 t)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5 V c t
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5 V c t := by dsimp only [dat5]

end Cert.Kernel.Rg

end
-- ==== Proof.KR6Defs.lean ====
import proofs.«425541_j70411693850858_1_alg».proof.Proof.Gen.Kernel.Launch
import proofs.«425541_j70411693850858_1_alg».proof.Proof.Gen.Kernel.Skeleton
import proofs.«425541_j70411693850858_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def acc6 (c : Dev nD) : (n : ℕ) → n < cfg6.N → Vec F S4096x128 .f32
  | 0, hn => k0_pay2 (grid6.coords ⟨0, hn⟩) (iblk6 V c 0 ⟨0, hn⟩) (k0_pay1 (F := F)) (iblk6 V c 2 ⟨0, hn⟩)
  | n + 1, hn =>
    if (n + 1) % 49 = 0 then
      k0_pay2 (grid6.coords ⟨n + 1, hn⟩) (iblk6 V c 0 ⟨n + 1, hn⟩) (k0_pay1 (F := F)) (iblk6 V c 2 ⟨n + 1, hn⟩)
    else
      k0_pay2 (grid6.coords ⟨n + 1, hn⟩) (iblk6 V c 0 ⟨n + 1, hn⟩) (acc6 c n (Nat.lt_of_succ_lt hn)) (iblk6 V c 2 ⟨n + 1, hn⟩)

theorem acc6_first (c : Dev nD) (t : Fin cfg6.N) (h : t.val % 49 = 0) :
    acc6 V c t.val t.isLt = k0_pay2 (grid6.coords t) (iblk6 V c 0 t) (k0_pay1 (F := F)) (iblk6 V c 2 t) := by
  obtain ⟨n, hn⟩ := t
  cases n with
  | zero => rfl
  | succ n => exact if_pos h

theorem acc6_next (c : Dev nD) (t : Fin cfg6.N) (h : ¬t.val % 49 = 0) :
    acc6 V c t.val t.isLt = k0_pay2 (grid6.coords t) (iblk6 V c 0 t)
      (acc6 V c (t.val - 1) (Nat.lt_of_le_of_lt (Nat.sub_le _ _) t.isLt)) (iblk6 V c 2 t) := by
  obtain ⟨n, hn⟩ := t
  cases n with
  | zero => exact absurd (Nat.zero_mod _) h
  | succ n => exact if_neg h

def out6 (c : Dev nD) (t : Fin cfg6.N) : Vec F S4096x128 .bf16 :=
  k0_pay3 (iblk6 V c 1 t) (acc6 V c t.val t.isLt)

abbrev scM6 : Memref sig .tc .vmem S4096x128 .f32 := Memref.whole cc6_scratch0

def PhiS6 (c : Dev nD) : (n : ℕ) → n ≤ cfg6.N → sProp 𝕄
  | 0, _ => Pipeline.ΦA spec6 c
  | n + 1, hn => iprop(iprop(owns (c : Thread nD τ) scM6 fullShare (acc6 V c n hn)
      ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6 fullShare (acc6 V c n hn)
      ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6 fullShare (acc6 V c (n - 1) (by omega))
      ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 V c t
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6 V c t := by dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

end Cert.Kernel.Rg

end
-- ==== Proof.KR7Defs.lean ====
import proofs.«425541_j70411693850858_1_alg».proof.Proof.Gen.Kernel.Launch
import proofs.«425541_j70411693850858_1_alg».proof.Proof.Gen.Kernel.Skeleton
import proofs.«425541_j70411693850858_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def acc7 (c : Dev nD) : (n : ℕ) → n < cfg7.N → Vec F S1024x128 .f32
  | 0, hn => k1_pay2 (grid7.coords ⟨0, hn⟩) (iblk7 V c 0 ⟨0, hn⟩) (k1_pay1 (F := F)) (iblk7 V c 1 ⟨0, hn⟩)
  | n + 1, hn =>
    if (n + 1) % 147 = 0 then
      k1_pay2 (grid7.coords ⟨n + 1, hn⟩) (iblk7 V c 0 ⟨n + 1, hn⟩) (k1_pay1 (F := F)) (iblk7 V c 1 ⟨n + 1, hn⟩)
    else
      k1_pay2 (grid7.coords ⟨n + 1, hn⟩) (iblk7 V c 0 ⟨n + 1, hn⟩) (acc7 c n (Nat.lt_of_succ_lt hn)) (iblk7 V c 1 ⟨n + 1, hn⟩)

theorem acc7_first (c : Dev nD) (t : Fin cfg7.N) (h : t.val % 147 = 0) :
    acc7 V c t.val t.isLt = k1_pay2 (grid7.coords t) (iblk7 V c 0 t) (k1_pay1 (F := F)) (iblk7 V c 1 t) := by
  obtain ⟨n, hn⟩ := t
  cases n with
  | zero => rfl
  | succ n => exact if_pos h

theorem acc7_next (c : Dev nD) (t : Fin cfg7.N) (h : ¬t.val % 147 = 0) :
    acc7 V c t.val t.isLt = k1_pay2 (grid7.coords t) (iblk7 V c 0 t)
      (acc7 V c (t.val - 1) (Nat.lt_of_le_of_lt (Nat.sub_le _ _) t.isLt)) (iblk7 V c 1 t) := by
  obtain ⟨n, hn⟩ := t
  cases n with
  | zero => exact absurd (Nat.zero_mod _) h
  | succ n => exact if_neg h

def out7 (c : Dev nD) (t : Fin cfg7.N) : Vec F S1024x128 .f32 := acc7 V c t.val t.isLt

abbrev scM7 : Memref sig .tc .vmem S1024x128 .f32 := Memref.whole cc7_scratch0

def PhiS7 (c : Dev nD) : (n : ℕ) → n ≤ cfg7.N → sProp 𝕄
  | 0, _ => Pipeline.ΦA spec7 c
  | n + 1, hn => iprop(iprop(owns (c : Thread nD τ) scM7 fullShare (acc7 V c n hn)
      ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7 fullShare (acc7 V c n hn)
      ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(owns (c : Thread nD τ) scM7 fullShare (acc7 V c (n - 1) (by omega))
      ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7 V c t
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7 V c t := by dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

end Cert.Kernel.Rg

end
-- ==== Proof.KR8Defs.lean ====
import proofs.«425541_j70411693850858_1_alg».proof.Proof.Gen.Kernel.Launch
import proofs.«425541_j70411693850858_1_alg».proof.Proof.Gen.Kernel.Skeleton
import proofs.«425541_j70411693850858_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def out8 (c : Dev nD) (t : Fin cfg8.N) : Vec F S1024x128 .f32 :=
  k2_pay1 (iblk8 V c 0 t) (iblk8 V c 2 t) (iblk8 V c 1 t) (iblk8 V c 3 t) (iblk8 V c 4 t)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8 V c t
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8 V c t := by dsimp only [dat8]

end Cert.Kernel.Rg

end
-- ==== Proof.KChain.lean ====
import proofs.«425541_j70411693850858_1_alg».proof.Proof.KR0Defs
import proofs.«425541_j70411693850858_1_alg».proof.Proof.KR1Defs
import proofs.«425541_j70411693850858_1_alg».proof.Proof.KR2Defs
import proofs.«425541_j70411693850858_1_alg».proof.Proof.KR3Defs
import proofs.«425541_j70411693850858_1_alg».proof.Proof.KR4Defs
import proofs.«425541_j70411693850858_1_alg».proof.Proof.KR5Defs
import proofs.«425541_j70411693850858_1_alg».proof.Proof.KR6Defs
import proofs.«425541_j70411693850858_1_alg».proof.Proof.KR7Defs
import proofs.«425541_j70411693850858_1_alg».proof.Proof.KR8Defs

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev W2 : Dev nD → Valuation τ sig (Elt F) := fun c => StableHlo.after hostOps0_1 (W1 m c)

abbrev W3 : Dev nD → Valuation τ sig (Elt F) := fun c => StableHlo.after hostOps0_2 (W2 m c)

abbrev V3 : (c : Dev nD) → (b : Ref sig .tc) → Buf (Elt F) ((c : Thread nD τ).loc b) := fun c b => W3 m c b

def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb

abbrev X4 : (c : Dev nD) → (b : Ref sig .tc) → Buf (Elt F) ((c : Thread nD τ).loc b) := fun c b => W4 m c b
theorem hF0 (c : Dev nD) (w : Fin cfg0.W) : (dat0 (V3 m) c).arrAt w cfg0.N = X4 m c (Pipeline.arrRef spec0 w) :=
  (W4_arr m c w).symm
theorem hrest0 (c : Dev nD) : ∀ b, b ∉ Finset.univ.image (Pipeline.arrRef spec0) → X4 m c b = V3 m c b :=
  fun b hb => W4_of_ne m c b fun w e => hb (Finset.mem_image.mpr ⟨w, Finset.mem_univ _, e⟩)

abbrev V4 : (c : Dev nD) → (b : Ref sig .tc) → Buf (Elt F) ((c : Thread nD τ).loc b) := fun c b => W4 m c b

def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb

abbrev X5 : (c : Dev nD) → (b : Ref sig .tc) → Buf (Elt F) ((c : Thread nD τ).loc b) := fun c b => W5 m c b
theorem hF1 (c : Dev nD) (w : Fin cfg1.W) : (dat1 (V4 m) c).arrAt w cfg1.N = X5 m c (Pipeline.arrRef spec1 w) :=
  (W5_arr m c w).symm
theorem hrest1 (c : Dev nD) : ∀ b, b ∉ Finset.univ.image (Pipeline.arrRef spec1) → X5 m c b = V4 m c b :=
  fun b hb => W5_of_ne m c b fun w e => hb (Finset.mem_image.mpr ⟨w, Finset.mem_univ _, e⟩)

abbrev W6 : Dev nD → Valuation τ sig (Elt F) := fun c => StableHlo.after hostOps2 (W5 m c)

abbrev V6 : (c : Dev nD) → (b : Ref sig .tc) → Buf (Elt F) ((c : Thread nD τ).loc b) := fun c b => W6 m c b

def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb

abbrev X7 : (c : Dev nD) → (b : Ref sig .tc) → Buf (Elt F) ((c : Thread nD τ).loc b) := fun c b => W7 m c b
theorem hF2 (c : Dev nD) (w : Fin cfg2.W) : (dat2 (V6 m) c).arrAt w cfg2.N = X7 m c (Pipeline.arrRef spec2 w) :=
  (W7_arr m c w).symm
theorem hrest2 (c : Dev nD) : ∀ b, b ∉ Finset.univ.image (Pipeline.arrRef spec2) → X7 m c b = V6 m c b :=
  fun b hb => W7_of_ne m c b fun w e => hb (Finset.mem_image.mpr ⟨w, Finset.mem_univ _, e⟩)

abbrev W8 : Dev nD → Valuation τ sig (Elt F) := fun c => StableHlo.after hostOps3 (W7 m c)

abbrev V8 : (c : Dev nD) → (b : Ref sig .tc) → Buf (Elt F) ((c : Thread nD τ).loc b) := fun c b => W8 m c b

def W9 (c : Dev nD) : Valuation τ sig (Elt F) :=
  Pipeline.withArrays spec3 c (W8 m c) fun w => (dat3 (V8 m) c).arrAt w cfg3.N
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb

abbrev X9 : (c : Dev nD) → (b : Ref sig .tc) → Buf (Elt F) ((c : Thread nD τ).loc b) := fun c b => W9 m c b
theorem hF3 (c : Dev nD) (w : Fin cfg3.W) : (dat3 (V8 m) c).arrAt w cfg3.N = X9 m c (Pipeline.arrRef spec3 w) :=
  (W9_arr m c w).symm
theorem hrest3 (c : Dev nD) : ∀ b, b ∉ Finset.univ.image (Pipeline.arrRef spec3) → X9 m c b = V8 m c b :=
  fun b hb => W9_of_ne m c b fun w e => hb (Finset.mem_image.mpr ⟨w, Finset.mem_univ _, e⟩)

abbrev V9 : (c : Dev nD) → (b : Ref sig .tc) → Buf (Elt F) ((c : Thread nD τ).loc b) := fun c b => W9 m c b

def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb

abbrev X10 : (c : Dev nD) → (b : Ref sig .tc) → Buf (Elt F) ((c : Thread nD τ).loc b) := fun c b => W10 m c b
theorem hF4 (c : Dev nD) (w : Fin cfg4.W) : (dat4 (V9 m) c).arrAt w cfg4.N = X10 m c (Pipeline.arrRef spec4 w) :=
  (W10_arr m c w).symm
theorem hrest4 (c : Dev nD) : ∀ b, b ∉ Finset.univ.image (Pipeline.arrRef spec4) → X10 m c b = V9 m c b :=
  fun b hb => W10_of_ne m c b fun w e => hb (Finset.mem_image.mpr ⟨w, Finset.mem_univ _, e⟩)

abbrev W11 : Dev nD → Valuation τ sig (Elt F) := fun c => StableHlo.after hostOps5 (W10 m c)

abbrev V11 : (c : Dev nD) → (b : Ref sig .tc) → Buf (Elt F) ((c : Thread nD τ).loc b) := fun c b => W11 m c b

def W12 (c : Dev nD) : Valuation τ sig (Elt F) :=
  Pipeline.withArrays spec5 c (W11 m c) fun w => (dat5 (V11 m) c).arrAt w cfg5.N
theorem W12_arr (c : Dev nD) (w : Fin cfg5.W) :
    W12 m c (Proc.devRef .tc (Pipeline.arrRef spec5 w)) = (dat5 (V11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb

abbrev X12 : (c : Dev nD) → (b : Ref sig .tc) → Buf (Elt F) ((c : Thread nD τ).loc b) := fun c b => W12 m c b
theorem hF5 (c : Dev nD) (w : Fin cfg5.W) : (dat5 (V11 m) c).arrAt w cfg5.N = X12 m c (Pipeline.arrRef spec5 w) :=
  (W12_arr m c w).symm
theorem hrest5 (c : Dev nD) : ∀ b, b ∉ Finset.univ.image (Pipeline.arrRef spec5) → X12 m c b = V11 m c b :=
  fun b hb => W12_of_ne m c b fun w e => hb (Finset.mem_image.mpr ⟨w, Finset.mem_univ _, e⟩)

abbrev W13 : Dev nD → Valuation τ sig (Elt F) := fun c => StableHlo.after hostOps6 (W12 m c)

abbrev V13 : (c : Dev nD) → (b : Ref sig .tc) → Buf (Elt F) ((c : Thread nD τ).loc b) := fun c b => W13 m c b

def W14 (c : Dev nD) : Valuation τ sig (Elt F) :=
  Pipeline.withArrays spec6 c (W13 m c) fun w => (dat6 (V13 m) c).arrAt w cfg6.N
theorem W14_arr (c : Dev nD) (w : Fin cfg6.W) :
    W14 m c (Proc.devRef .tc (Pipeline.arrRef spec6 w)) = (dat6 (V13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb

abbrev X14 : (c : Dev nD) → (b : Ref sig .tc) → Buf (Elt F) ((c : Thread nD τ).loc b) := fun c b => W14 m c b
theorem hF6 (c : Dev nD) (w : Fin cfg6.W) : (dat6 (V13 m) c).arrAt w cfg6.N = X14 m c (Pipeline.arrRef spec6 w) :=
  (W14_arr m c w).symm
theorem hrest6 (c : Dev nD) : ∀ b, b ∉ Finset.univ.image (Pipeline.arrRef spec6) → X14 m c b = V13 m c b :=
  fun b hb => W14_of_ne m c b fun w e => hb (Finset.mem_image.mpr ⟨w, Finset.mem_univ _, e⟩)

abbrev V14 : (c : Dev nD) → (b : Ref sig .tc) → Buf (Elt F) ((c : Thread nD τ).loc b) := fun c b => W14 m c b

def W15 (c : Dev nD) : Valuation τ sig (Elt F) :=
  Pipeline.withArrays spec7 c (W14 m c) fun w => (dat7 (V14 m) c).arrAt w cfg7.N
theorem W15_arr (c : Dev nD) (w : Fin cfg7.W) :
    W15 m c (Proc.devRef .tc (Pipeline.arrRef spec7 w)) = (dat7 (V14 m) c).arrAt w cfg7.N := by
  unfold W15; exact Pipeline.withArrays_arr spec7 launch7.win.arr_inj c _ _ w
theorem W15_of_ne (c : Dev nD) (b : Ref sig .tc) (hb : ∀ w, Pipeline.arrRef spec7 w ≠ b) :
    W15 m c (Proc.devRef .tc b) = W14 m c (Proc.devRef .tc b) := by
  unfold W15; exact Pipeline.withArrays_of_ne spec7 c _ _ b hb

abbrev X15 : (c : Dev nD) → (b : Ref sig .tc) → Buf (Elt F) ((c : Thread nD τ).loc b) := fun c b => W15 m c b
theorem hF7 (c : Dev nD) (w : Fin cfg7.W) : (dat7 (V14 m) c).arrAt w cfg7.N = X15 m c (Pipeline.arrRef spec7 w) :=
  (W15_arr m c w).symm
theorem hrest7 (c : Dev nD) : ∀ b, b ∉ Finset.univ.image (Pipeline.arrRef spec7) → X15 m c b = V14 m c b :=
  fun b hb => W15_of_ne m c b fun w e => hb (Finset.mem_image.mpr ⟨w, Finset.mem_univ _, e⟩)

abbrev W16 : Dev nD → Valuation τ sig (Elt F) := fun c => StableHlo.after hostOps8 (W15 m c)

abbrev V16 : (c : Dev nD) → (b : Ref sig .tc) → Buf (Elt F) ((c : Thread nD τ).loc b) := fun c b => W16 m c b

def W17 (c : Dev nD) : Valuation τ sig (Elt F) :=
  Pipeline.withArrays spec8 c (W16 m c) fun w => (dat8 (V16 m) c).arrAt w cfg8.N
theorem W17_arr (c : Dev nD) (w : Fin cfg8.W) :
    W17 m c (Proc.devRef .tc (Pipeline.arrRef spec8 w)) = (dat8 (V16 m) c).arrAt w cfg8.N := by
  unfold W17; exact Pipeline.withArrays_arr spec8 launch8.win.arr_inj c _ _ w
theorem W17_of_ne (c : Dev nD) (b : Ref sig .tc) (hb : ∀ w, Pipeline.arrRef spec8 w ≠ b) :
    W17 m c (Proc.devRef .tc b) = W16 m c (Proc.devRef .tc b) := by
  unfold W17; exact Pipeline.withArrays_of_ne spec8 c _ _ b hb

abbrev X17 : (c : Dev nD) → (b : Ref sig .tc) → Buf (Elt F) ((c : Thread nD τ).loc b) := fun c b => W17 m c b
theorem hF8 (c : Dev nD) (w : Fin cfg8.W) : (dat8 (V16 m) c).arrAt w cfg8.N = X17 m c (Pipeline.arrRef spec8 w) :=
  (W17_arr m c w).symm
theorem hrest8 (c : Dev nD) : ∀ b, b ∉ Finset.univ.image (Pipeline.arrRef spec8) → X17 m c b = V16 m c b :=
  fun b hb => W17_of_ne m c b fun w e => hb (Finset.mem_image.mpr ⟨w, Finset.mem_univ _, e⟩)

abbrev W18 : Dev nD → Valuation τ sig (Elt F) := fun c => StableHlo.after hostOps9 (W17 m c)

abbrev W19 : Dev nD → Valuation τ sig (Elt F) := fun c => StableHlo.after hostOps9_1 (W18 m c)

abbrev adm : (p : Fin 9) → (pcfgs (F := F) p).Adm := fun p => (cfgs p).toPCfg_adm

def pdats : (p : Fin 9) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 m) c
  | ⟨2, _⟩ => fun c => dat2 (V6 m) c
  | ⟨3, _⟩ => fun c => dat3 (V8 m) c
  | ⟨4, _⟩ => fun c => dat4 (V9 m) c
  | ⟨5, _⟩ => fun c => dat5 (V11 m) c
  | ⟨6, _⟩ => fun c => dat6 (V13 m) c
  | ⟨7, _⟩ => fun c => dat7 (V14 m) c
  | ⟨8, _⟩ => fun c => dat8 (V16 m) c

end Cert.Kernel.Rg

end
-- ==== Proof.KMain.lean ====
import proofs.«425541_j70411693850858_1_alg».proof.Proof.KChain
import Idealize.ShloMosaic.Lib.Pipeline.Regions

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor
theorem hostOps6_fresh : (hostOps6 : List (HloOp τ sig (Elt F))).Forall fun op => op.fresh = ∅ := by
  simp only [List.Forall]; repeat' constructor
theorem hostOps8_fresh : (hostOps8 : List (HloOp τ sig (Elt F))).Forall fun op => op.fresh = ∅ := by
  simp only [List.Forall]; repeat' constructor
theorem hostOps9_fresh : (hostOps9 : List (HloOp τ sig (Elt F))).Forall fun op => op.fresh = ∅ := by
  simp only [List.Forall]; repeat' constructor
theorem hostOps9_1_fresh : (hostOps9_1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Reg0
variable (hb0 : ∀ c : Dev nD, BodyObligation (dat0 (F := F) (V3 m) c) (defs₀ (F := F)) Variants.none () Set.univ)
  (ho0 : ∀ c : Dev nD, (dat0 (F := F) (V3 m) c).Φ (Fin.last cfg0.N) ⊢ Pipeline.ΦA spec0 c)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from ho0 c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (X4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg0

section Reg1
variable (hb1 : ∀ c : Dev nD, BodyObligation (dat1 (F := F) (V4 m) c) (defs₀ (F := F)) Variants.none () Set.univ)
  (ho1 : ∀ c : Dev nD, (dat1 (F := F) (V4 m) c).Φ (Fin.last cfg1.N) ⊢ Pipeline.ΦA spec1 c)

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from ho1 c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (X5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg1

section Reg2
variable (hb2 : ∀ c : Dev nD, BodyObligation (dat2 (F := F) (V6 m) c) (defs₀ (F := F)) Variants.none () Set.univ)
  (ho2 : ∀ c : Dev nD, (dat2 (F := F) (V6 m) c).Φ (Fin.last cfg2.N) ⊢ Pipeline.ΦA spec2 c)

set_option backward.isDefEq.respectTransparency.types false in

def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (hb2 c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from ho2 c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (X7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg2

section Reg3
variable (hb3 : ∀ c : Dev nD, BodyObligation (dat3 (F := F) (V8 m) c) (defs₀ (F := F)) Variants.none () Set.univ)
  (ho3 : ∀ c : Dev nD, (dat3 (F := F) (V8 m) c).Φ (Fin.last cfg3.N) ⊢ Pipeline.ΦA spec3 c)

set_option backward.isDefEq.respectTransparency.types false in

def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (hb3 c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (V8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from ho3 c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V8 m c) (X9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg3

section Reg4
variable (hb4 : ∀ c : Dev nD, BodyObligation (dat4 (F := F) (V9 m) c) (defs₀ (F := F)) Variants.none () Set.univ)
  (ho4 : ∀ c : Dev nD, (dat4 (F := F) (V9 m) c).Φ (Fin.last cfg4.N) ⊢ Pipeline.ΦA spec4 c)

set_option backward.isDefEq.respectTransparency.types false in

def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (hb4 c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (show (pdats m 4 c).Φ (Fin.last _) ⊢ Pipeline.ΦA spec4 c from ho4 c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (X10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg4

section Reg5
variable (hb5 : ∀ c : Dev nD, BodyObligation (dat5 (F := F) (V11 m) c) (defs₀ (F := F)) Variants.none () Set.univ)
  (ho5 : ∀ c : Dev nD, (dat5 (F := F) (V11 m) c).Φ (Fin.last cfg5.N) ⊢ Pipeline.ΦA spec5 c)

set_option backward.isDefEq.respectTransparency.types false in

def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (hb5 c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (V11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none]
    refine (show (pdats m 5 c).Φ (Fin.last _) ⊢ Pipeline.ΦA spec5 c from ho5 c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V11 m c) (X12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg5

section Reg6
variable (hb6 : ∀ c : Dev nD, BodyObligation (dat6 (F := F) (V13 m) c) (defs₀ (F := F)) Variants.none () Set.univ)
  (ho6 : ∀ c : Dev nD, (dat6 (F := F) (V13 m) c).Φ (Fin.last cfg6.N) ⊢ Pipeline.ΦA spec6 c)

set_option backward.isDefEq.respectTransparency.types false in

def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (hb6 c).loose
  hwaits := Pipeline.hwaits_of_owed_zero _ _ _ _ L lv 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (V13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (V13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none]
    refine (show (pdats m 6 c).Φ (Fin.last _) ⊢ Pipeline.ΦA spec6 c from ho6 c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (V13 m c) (X14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg6

section Reg7
variable (hb7 : ∀ c : Dev nD, BodyObligation (dat7 (F := F) (V14 m) c) (defs₀ (F := F)) Variants.none () Set.univ)
  (ho7 : ∀ c : Dev nD, (dat7 (F := F) (V14 m) c).Φ (Fin.last cfg7.N) ⊢ Pipeline.ΦA spec7 c)

set_option backward.isDefEq.respectTransparency.types false in

def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (hb7 c).loose
  hwaits := Pipeline.hwaits_of_owed_zero _ _ _ _ L lv 7 fun _ _ => rfl
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := UR sig nD τ) (Lvl := ℕ) spec7 c (V14 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (V14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none]
    refine (show (pdats m 7 c).Φ (Fin.last _) ⊢ Pipeline.ΦA spec7 c from ho7 c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (V14 m c) (X15 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg7

section Reg8
variable (hb8 : ∀ c : Dev nD, BodyObligation (dat8 (F := F) (V16 m) c) (defs₀ (F := F)) Variants.none () Set.univ)
  (ho8 : ∀ c : Dev nD, (dat8 (F := F) (V16 m) c).Φ (Fin.last cfg8.N) ⊢ Pipeline.ΦA spec8 c)

set_option backward.isDefEq.respectTransparency.types false in

def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (hb8 c).loose
  hwaits := Pipeline.hwaits_of_owed_zero _ _ _ _ L lv 8 fun _ _ => rfl
  pre c := iprop(StableHlo.held (c : Thread nD τ) (Pipeline.ucRefs τ sig) (W16 m c) ∗ R c)
  post c := iprop(StableHlo.held (c : Thread nD τ) (Pipeline.ucRefs τ sig) (W17 m c) ∗ R c)
  X c := iprop(∃ r, prngReg c r)
  Y c := iprop(∃ r, prngReg c r)
  Z c := Pipeline.unscopedRest (Ix := Unit) (Name := ℕ) (U := UR sig nD τ) (Lvl := ℕ) spec8 c (V16 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (V16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none]
    refine (show (pdats m 8 c).Φ (Fin.last _) ⊢ Pipeline.ΦA spec8 c from ho8 c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (V16 m c) (X17 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg8

section Run
variable (hb0 : ∀ c : Dev nD, BodyObligation (dat0 (F := F) (V3 m) c) (defs₀ (F := F)) Variants.none () Set.univ)
    (hb1 : ∀ c : Dev nD, BodyObligation (dat1 (F := F) (V4 m) c) (defs₀ (F := F)) Variants.none () Set.univ)
    (hb2 : ∀ c : Dev nD, BodyObligation (dat2 (F := F) (V6 m) c) (defs₀ (F := F)) Variants.none () Set.univ)
    (hb3 : ∀ c : Dev nD, BodyObligation (dat3 (F := F) (V8 m) c) (defs₀ (F := F)) Variants.none () Set.univ)
    (hb4 : ∀ c : Dev nD, BodyObligation (dat4 (F := F) (V9 m) c) (defs₀ (F := F)) Variants.none () Set.univ)
    (hb5 : ∀ c : Dev nD, BodyObligation (dat5 (F := F) (V11 m) c) (defs₀ (F := F)) Variants.none () Set.univ)
    (hb6 : ∀ c : Dev nD, BodyObligation (dat6 (F := F) (V13 m) c) (defs₀ (F := F)) Variants.none () Set.univ)
    (hb7 : ∀ c : Dev nD, BodyObligation (dat7 (F := F) (V14 m) c) (defs₀ (F := F)) Variants.none () Set.univ)
    (hb8 : ∀ c : Dev nD, BodyObligation (dat8 (F := F) (V16 m) c) (defs₀ (F := F)) Variants.none () Set.univ)
    (ho0 : ∀ c : Dev nD, (dat0 (F := F) (V3 m) c).Φ (Fin.last cfg0.N) ⊢ Pipeline.ΦA spec0 c)
    (ho1 : ∀ c : Dev nD, (dat1 (F := F) (V4 m) c).Φ (Fin.last cfg1.N) ⊢ Pipeline.ΦA spec1 c)
    (ho2 : ∀ c : Dev nD, (dat2 (F := F) (V6 m) c).Φ (Fin.last cfg2.N) ⊢ Pipeline.ΦA spec2 c)
    (ho3 : ∀ c : Dev nD, (dat3 (F := F) (V8 m) c).Φ (Fin.last cfg3.N) ⊢ Pipeline.ΦA spec3 c)
    (ho4 : ∀ c : Dev nD, (dat4 (F := F) (V9 m) c).Φ (Fin.last cfg4.N) ⊢ Pipeline.ΦA spec4 c)
    (ho5 : ∀ c : Dev nD, (dat5 (F := F) (V11 m) c).Φ (Fin.last cfg5.N) ⊢ Pipeline.ΦA spec5 c)
    (ho6 : ∀ c : Dev nD, (dat6 (F := F) (V13 m) c).Φ (Fin.last cfg6.N) ⊢ Pipeline.ΦA spec6 c)
    (ho7 : ∀ c : Dev nD, (dat7 (F := F) (V14 m) c).Φ (Fin.last cfg7.N) ⊢ Pipeline.ΦA spec7 c)
    (ho8 : ∀ c : Dev nD, (dat8 (F := F) (V16 m) c).Φ (Fin.last cfg8.N) ⊢ Pipeline.ΦA spec8 c)

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m hb0 ho0),
    .region (reg1 m hb1 ho1),
    .host (hseg hostOps2 hostOps2_sub hostOps2_fresh (W5 m)),
    .region (reg2 m hb2 ho2),
    .host (hseg hostOps3 hostOps3_sub hostOps3_fresh (W7 m)),
    .region (reg3 m hb3 ho3),
    .region (reg4 m hb4 ho4),
    .host (hseg hostOps5 hostOps5_sub hostOps5_fresh (W10 m)),
    .region (reg5 m hb5 ho5),
    .host (hseg hostOps6 hostOps6_sub hostOps6_fresh (W12 m)),
    .region (reg6 m hb6 ho6),
    .region (reg7 m hb7 ho7),
    .host (hseg hostOps8 hostOps8_sub hostOps8_fresh (W15 m)),
    .region (reg8 m hb8 ho8),
    .host (hseg hostOps9 hostOps9_sub hostOps9_fresh (W17 m)),
    .host (hseg hostOps9_1 hostOps9_1_sub hostOps9_1_fresh (W18 m)) ]

include hb0 hb1 hb2 hb3 hb4 hb5 hb6 hb7 hb8 ho0 ho1 ho2 ho3 ho4 ho5 ho6 ho7 ho8 in
set_option maxRecDepth 65536 in

theorem main_run (c : Dev nD) : main (F := F) c = Pipeline.Seg.run (segs m hb0 hb1 hb2 hb3 hb4 hb5 hb6 hb7 hb8 ho0 ho1 ho2 ho3 ho4 ho5 ho6 ho7 ho8) := (main_chain c).trans (by chain_rfl)

include hb0 hb1 hb2 hb3 hb4 hb5 hb6 hb7 hb8 ho0 ho1 ho2 ho3 ho4 ho5 ho6 ho7 ho8 in
set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m c b) :=
  Pipeline.θ_run_regions_kit (pcfgs (F := F)) adm (pdats m) () cellOf_inj emb₁ defs₀ 𝒱₀ L lv m ρ main (segs m hb0 hb1 hb2 hb3 hb4 hb5 hb6 hb7 hb8 ho0 ho1 ho2 ho3 ho4 ho5 ho6 ho7 ho8)
    (fun c Q => by rw [main_run m hb0 hb1 hb2 hb3 hb4 hb5 hb6 hb7 hb8 ho0 ho1 ho2 ho3 ho4 ho5 ho6 ho7 ho8 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W19 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => show (iprop(StableHlo.held (c : Thread nD τ) (Pipeline.ucRefs τ sig) (W19 m c) ∗ R c) : sProp 𝕄)
        ⊢ iprop(iprop(StableHlo.held (c : Thread nD τ) (Pipeline.ucRefs τ sig) (W19 m c) ∗ ∃ r, prngReg c r) ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m c b)
    (hfin := fun c s' => by
      iintro ⟨⟨Hh, -⟩, HSI⟩
      unfold StableHlo.held
      imodintro
      iapply (pointsTo_read_all (Pipeline.ucRefs τ sig) (fun b => (((c : Thread nD τ)).1, b)) (W19 m c) s')
      isplitl [Hh] <;> iassumption)
    (hQ := fun s h c => h c)

end Run

end Cert.Kernel.Rg

end
-- ==== Proof.KArgs.lean ====
import proofs.«425541_j70411693850858_1_alg».proof.Proof.KChain
import proofs.«425541_j70411693850858_1_alg».proof.Proof.Gen.Kernel.Regions

set_option maxRecDepth 16384

noncomputable section

namespace Cert.Kernel.Rg

open Cert.Kernel
open Idealize.ShloMosaic Idealize.ShloMosaic.TcCoe
open Idealize.SL Idealize.SL.Sem

variable {F : FTy → Type} [FloatOps F]
variable (m : (ℓ : Loc nD τ sig) → Buf (Elt F) ℓ)

theorem step0 (c : Dev nD) (r : Ref sig .tc) (h : r ∉ Gen.hostOps0_W) : W1 m c r = W0 m c r :=
  StableHlo.after_of_writes_sub Gen.hostOps0 _ Gen.hostOps0_writes h
theorem step1 (c : Dev nD) (r : Ref sig .tc) (h : r ∉ Gen.hostOps0_1_W) : W2 m c r = W1 m c r :=
  StableHlo.after_of_writes_sub Gen.hostOps0_1 _ Gen.hostOps0_1_writes h
theorem step2 (c : Dev nD) (r : Ref sig .tc) (h : r ∉ Gen.hostOps0_2_W) : W3 m c r = W2 m c r :=
  StableHlo.after_of_writes_sub Gen.hostOps0_2 _ Gen.hostOps0_2_writes h
theorem step5 (c : Dev nD) (r : Ref sig .tc) (h : r ∉ Gen.hostOps2_W) : W6 m c r = W5 m c r :=
  StableHlo.after_of_writes_sub Gen.hostOps2 _ Gen.hostOps2_writes h
theorem step7 (c : Dev nD) (r : Ref sig .tc) (h : r ∉ Gen.hostOps3_W) : W8 m c r = W7 m c r :=
  StableHlo.after_of_writes_sub Gen.hostOps3 _ Gen.hostOps3_writes h
theorem step10 (c : Dev nD) (r : Ref sig .tc) (h : r ∉ Gen.hostOps5_W) : W11 m c r = W10 m c r :=
  StableHlo.after_of_writes_sub Gen.hostOps5 _ Gen.hostOps5_writes h
theorem step12 (c : Dev nD) (r : Ref sig .tc) (h : r ∉ Gen.hostOps6_W) : W13 m c r = W12 m c r :=
  StableHlo.after_of_writes_sub Gen.hostOps6 _ Gen.hostOps6_writes h
theorem step15 (c : Dev nD) (r : Ref sig .tc) (h : r ∉ Gen.hostOps8_W) : W16 m c r = W15 m c r :=
  StableHlo.after_of_writes_sub Gen.hostOps8 _ Gen.hostOps8_writes h
theorem step17 (c : Dev nD) (r : Ref sig .tc) (h : r ∉ Gen.hostOps9_W) : W18 m c r = W17 m c r :=
  StableHlo.after_of_writes_sub Gen.hostOps9 _ Gen.hostOps9_writes h
theorem step18 (c : Dev nD) (r : Ref sig .tc) (h : r ∉ Gen.hostOps9_1_W) : W19 m c r = W18 m c r :=
  StableHlo.after_of_writes_sub Gen.hostOps9_1 _ Gen.hostOps9_1_writes h

theorem W19_main_arg0 (c : Dev nD) : W19 m c (Proc.devRef .tc main_arg0) = m ((c : Thread nD τ).loc main_arg0) :=
  (step18 m c main_arg0 (by decide)).trans <| (step17 m c main_arg0 (by decide)).trans <| (W17_of_ne m c main_arg0 (by decide)).trans <| (step15 m c main_arg0 (by decide)).trans <| (W15_of_ne m c main_arg0 (by decide)).trans <| (W14_of_ne m c main_arg0 (by decide)).trans <| (step12 m c main_arg0 (by decide)).trans <| (W12_of_ne m c main_arg0 (by decide)).trans <| (step10 m c main_arg0 (by decide)).trans <| (W10_of_ne m c main_arg0 (by decide)).trans <| (W9_of_ne m c main_arg0 (by decide)).trans <| (step7 m c main_arg0 (by decide)).trans <| (W7_of_ne m c main_arg0 (by decide)).trans <| (step5 m c main_arg0 (by decide)).trans <| (W5_of_ne m c main_arg0 (by decide)).trans <| (W4_of_ne m c main_arg0 (by decide)).trans <| (step2 m c main_arg0 (by decide)).trans <| (step1 m c main_arg0 (by decide)).trans <| (step0 m c main_arg0 (by decide))

theorem W19_main_arg1 (c : Dev nD) : W19 m c (Proc.devRef .tc main_arg1) = m ((c : Thread nD τ).loc main_arg1) :=
  (step18 m c main_arg1 (by decide)).trans <| (step17 m c main_arg1 (by decide)).trans <| (W17_of_ne m c main_arg1 (by decide)).trans <| (step15 m c main_arg1 (by decide)).trans <| (W15_of_ne m c main_arg1 (by decide)).trans <| (W14_of_ne m c main_arg1 (by decide)).trans <| (step12 m c main_arg1 (by decide)).trans <| (W12_of_ne m c main_arg1 (by decide)).trans <| (step10 m c main_arg1 (by decide)).trans <| (W10_of_ne m c main_arg1 (by decide)).trans <| (W9_of_ne m c main_arg1 (by decide)).trans <| (step7 m c main_arg1 (by decide)).trans <| (W7_of_ne m c main_arg1 (by decide)).trans <| (step5 m c main_arg1 (by decide)).trans <| (W5_of_ne m c main_arg1 (by decide)).trans <| (W4_of_ne m c main_arg1 (by decide)).trans <| (step2 m c main_arg1 (by decide)).trans <| (step1 m c main_arg1 (by decide)).trans <| (step0 m c main_arg1 (by decide))

theorem W19_main_arg2 (c : Dev nD) : W19 m c (Proc.devRef .tc main_arg2) = m ((c : Thread nD τ).loc main_arg2) :=
  (step18 m c main_arg2 (by decide)).trans <| (step17 m c main_arg2 (by decide)).trans <| (W17_of_ne m c main_arg2 (by decide)).trans <| (step15 m c main_arg2 (by decide)).trans <| (W15_of_ne m c main_arg2 (by decide)).trans <| (W14_of_ne m c main_arg2 (by decide)).trans <| (step12 m c main_arg2 (by decide)).trans <| (W12_of_ne m c main_arg2 (by decide)).trans <| (step10 m c main_arg2 (by decide)).trans <| (W10_of_ne m c main_arg2 (by decide)).trans <| (W9_of_ne m c main_arg2 (by decide)).trans <| (step7 m c main_arg2 (by decide)).trans <| (W7_of_ne m c main_arg2 (by decide)).trans <| (step5 m c main_arg2 (by decide)).trans <| (W5_of_ne m c main_arg2 (by decide)).trans <| (W4_of_ne m c main_arg2 (by decide)).trans <| (step2 m c main_arg2 (by decide)).trans <| (step1 m c main_arg2 (by decide)).trans <| (step0 m c main_arg2 (by decide))

theorem W19_main_arg3 (c : Dev nD) : W19 m c (Proc.devRef .tc main_arg3) = m ((c : Thread nD τ).loc main_arg3) :=
  (step18 m c main_arg3 (by decide)).trans <| (step17 m c main_arg3 (by decide)).trans <| (W17_of_ne m c main_arg3 (by decide)).trans <| (step15 m c main_arg3 (by decide)).trans <| (W15_of_ne m c main_arg3 (by decide)).trans <| (W14_of_ne m c main_arg3 (by decide)).trans <| (step12 m c main_arg3 (by decide)).trans <| (W12_of_ne m c main_arg3 (by decide)).trans <| (step10 m c main_arg3 (by decide)).trans <| (W10_of_ne m c main_arg3 (by decide)).trans <| (W9_of_ne m c main_arg3 (by decide)).trans <| (step7 m c main_arg3 (by decide)).trans <| (W7_of_ne m c main_arg3 (by decide)).trans <| (step5 m c main_arg3 (by decide)).trans <| (W5_of_ne m c main_arg3 (by decide)).trans <| (W4_of_ne m c main_arg3 (by decide)).trans <| (step2 m c main_arg3 (by decide)).trans <| (step1 m c main_arg3 (by decide)).trans <| (step0 m c main_arg3 (by decide))

theorem W19_main_arg4 (c : Dev nD) : W19 m c (Proc.devRef .tc main_arg4) = m ((c : Thread nD τ).loc main_arg4) :=
  (step18 m c main_arg4 (by decide)).trans <| (step17 m c main_arg4 (by decide)).trans <| (W17_of_ne m c main_arg4 (by decide)).trans <| (step15 m c main_arg4 (by decide)).trans <| (W15_of_ne m c main_arg4 (by decide)).trans <| (W14_of_ne m c main_arg4 (by decide)).trans <| (step12 m c main_arg4 (by decide)).trans <| (W12_of_ne m c main_arg4 (by decide)).trans <| (step10 m c main_arg4 (by decide)).trans <| (W10_of_ne m c main_arg4 (by decide)).trans <| (W9_of_ne m c main_arg4 (by decide)).trans <| (step7 m c main_arg4 (by decide)).trans <| (W7_of_ne m c main_arg4 (by decide)).trans <| (step5 m c main_arg4 (by decide)).trans <| (W5_of_ne m c main_arg4 (by decide)).trans <| (W4_of_ne m c main_arg4 (by decide)).trans <| (step2 m c main_arg4 (by decide)).trans <| (step1 m c main_arg4 (by decide)).trans <| (step0 m c main_arg4 (by decide))

theorem W19_main_arg5 (c : Dev nD) : W19 m c (Proc.devRef .tc main_arg5) = m ((c : Thread nD τ).loc main_arg5) :=
  (step18 m c main_arg5 (by decide)).trans <| (step17 m c main_arg5 (by decide)).trans <| (W17_of_ne m c main_arg5 (by decide)).trans <| (step15 m c main_arg5 (by decide)).trans <| (W15_of_ne m c main_arg5 (by decide)).trans <| (W14_of_ne m c main_arg5 (by decide)).trans <| (step12 m c main_arg5 (by decide)).trans <| (W12_of_ne m c main_arg5 (by decide)).trans <| (step10 m c main_arg5 (by decide)).trans <| (W10_of_ne m c main_arg5 (by decide)).trans <| (W9_of_ne m c main_arg5 (by decide)).trans <| (step7 m c main_arg5 (by decide)).trans <| (W7_of_ne m c main_arg5 (by decide)).trans <| (step5 m c main_arg5 (by decide)).trans <| (W5_of_ne m c main_arg5 (by decide)).trans <| (W4_of_ne m c main_arg5 (by decide)).trans <| (step2 m c main_arg5 (by decide)).trans <| (step1 m c main_arg5 (by decide)).trans <| (step0 m c main_arg5 (by decide))

theorem W19_main_arg6 (c : Dev nD) : W19 m c (Proc.devRef .tc main_arg6) = m ((c : Thread nD τ).loc main_arg6) :=
  (step18 m c main_arg6 (by decide)).trans <| (step17 m c main_arg6 (by decide)).trans <| (W17_of_ne m c main_arg6 (by decide)).trans <| (step15 m c main_arg6 (by decide)).trans <| (W15_of_ne m c main_arg6 (by decide)).trans <| (W14_of_ne m c main_arg6 (by decide)).trans <| (step12 m c main_arg6 (by decide)).trans <| (W12_of_ne m c main_arg6 (by decide)).trans <| (step10 m c main_arg6 (by decide)).trans <| (W10_of_ne m c main_arg6 (by decide)).trans <| (W9_of_ne m c main_arg6 (by decide)).trans <| (step7 m c main_arg6 (by decide)).trans <| (W7_of_ne m c main_arg6 (by decide)).trans <| (step5 m c main_arg6 (by decide)).trans <| (W5_of_ne m c main_arg6 (by decide)).trans <| (W4_of_ne m c main_arg6 (by decide)).trans <| (step2 m c main_arg6 (by decide)).trans <| (step1 m c main_arg6 (by decide)).trans <| (step0 m c main_arg6 (by decide))

theorem W19_main_arg7 (c : Dev nD) : W19 m c (Proc.devRef .tc main_arg7) = m ((c : Thread nD τ).loc main_arg7) :=
  (step18 m c main_arg7 (by decide)).trans <| (step17 m c main_arg7 (by decide)).trans <| (W17_of_ne m c main_arg7 (by decide)).trans <| (step15 m c main_arg7 (by decide)).trans <| (W15_of_ne m c main_arg7 (by decide)).trans <| (W14_of_ne m c main_arg7 (by decide)).trans <| (step12 m c main_arg7 (by decide)).trans <| (W12_of_ne m c main_arg7 (by decide)).trans <| (step10 m c main_arg7 (by decide)).trans <| (W10_of_ne m c main_arg7 (by decide)).trans <| (W9_of_ne m c main_arg7 (by decide)).trans <| (step7 m c main_arg7 (by decide)).trans <| (W7_of_ne m c main_arg7 (by decide)).trans <| (step5 m c main_arg7 (by decide)).trans <| (W5_of_ne m c main_arg7 (by decide)).trans <| (W4_of_ne m c main_arg7 (by decide)).trans <| (step2 m c main_arg7 (by decide)).trans <| (step1 m c main_arg7 (by decide)).trans <| (step0 m c main_arg7 (by decide))

theorem W19_main_arg8 (c : Dev nD) : W19 m c (Proc.devRef .tc main_arg8) = m ((c : Thread nD τ).loc main_arg8) :=
  (step18 m c main_arg8 (by decide)).trans <| (step17 m c main_arg8 (by decide)).trans <| (W17_of_ne m c main_arg8 (by decide)).trans <| (step15 m c main_arg8 (by decide)).trans <| (W15_of_ne m c main_arg8 (by decide)).trans <| (W14_of_ne m c main_arg8 (by decide)).trans <| (step12 m c main_arg8 (by decide)).trans <| (W12_of_ne m c main_arg8 (by decide)).trans <| (step10 m c main_arg8 (by decide)).trans <| (W10_of_ne m c main_arg8 (by decide)).trans <| (W9_of_ne m c main_arg8 (by decide)).trans <| (step7 m c main_arg8 (by decide)).trans <| (W7_of_ne m c main_arg8 (by decide)).trans <| (step5 m c main_arg8 (by decide)).trans <| (W5_of_ne m c main_arg8 (by decide)).trans <| (W4_of_ne m c main_arg8 (by decide)).trans <| (step2 m c main_arg8 (by decide)).trans <| (step1 m c main_arg8 (by decide)).trans <| (step0 m c main_arg8 (by decide))

theorem W19_main_arg9 (c : Dev nD) : W19 m c (Proc.devRef .tc main_arg9) = m ((c : Thread nD τ).loc main_arg9) :=
  (step18 m c main_arg9 (by decide)).trans <| (step17 m c main_arg9 (by decide)).trans <| (W17_of_ne m c main_arg9 (by decide)).trans <| (step15 m c main_arg9 (by decide)).trans <| (W15_of_ne m c main_arg9 (by decide)).trans <| (W14_of_ne m c main_arg9 (by decide)).trans <| (step12 m c main_arg9 (by decide)).trans <| (W12_of_ne m c main_arg9 (by decide)).trans <| (step10 m c main_arg9 (by decide)).trans <| (W10_of_ne m c main_arg9 (by decide)).trans <| (W9_of_ne m c main_arg9 (by decide)).trans <| (step7 m c main_arg9 (by decide)).trans <| (W7_of_ne m c main_arg9 (by decide)).trans <| (step5 m c main_arg9 (by decide)).trans <| (W5_of_ne m c main_arg9 (by decide)).trans <| (W4_of_ne m c main_arg9 (by decide)).trans <| (step2 m c main_arg9 (by decide)).trans <| (step1 m c main_arg9 (by decide)).trans <| (step0 m c main_arg9 (by decide))

theorem W19_main_arg10 (c : Dev nD) : W19 m c (Proc.devRef .tc main_arg10) = m ((c : Thread nD τ).loc main_arg10) :=
  (step18 m c main_arg10 (by decide)).trans <| (step17 m c main_arg10 (by decide)).trans <| (W17_of_ne m c main_arg10 (by decide)).trans <| (step15 m c main_arg10 (by decide)).trans <| (W15_of_ne m c main_arg10 (by decide)).trans <| (W14_of_ne m c main_arg10 (by decide)).trans <| (step12 m c main_arg10 (by decide)).trans <| (W12_of_ne m c main_arg10 (by decide)).trans <| (step10 m c main_arg10 (by decide)).trans <| (W10_of_ne m c main_arg10 (by decide)).trans <| (W9_of_ne m c main_arg10 (by decide)).trans <| (step7 m c main_arg10 (by decide)).trans <| (W7_of_ne m c main_arg10 (by decide)).trans <| (step5 m c main_arg10 (by decide)).trans <| (W5_of_ne m c main_arg10 (by decide)).trans <| (W4_of_ne m c main_arg10 (by decide)).trans <| (step2 m c main_arg10 (by decide)).trans <| (step1 m c main_arg10 (by decide)).trans <| (step0 m c main_arg10 (by decide))

theorem W19_main_arg11 (c : Dev nD) : W19 m c (Proc.devRef .tc main_arg11) = m ((c : Thread nD τ).loc main_arg11) :=
  (step18 m c main_arg11 (by decide)).trans <| (step17 m c main_arg11 (by decide)).trans <| (W17_of_ne m c main_arg11 (by decide)).trans <| (step15 m c main_arg11 (by decide)).trans <| (W15_of_ne m c main_arg11 (by decide)).trans <| (W14_of_ne m c main_arg11 (by decide)).trans <| (step12 m c main_arg11 (by decide)).trans <| (W12_of_ne m c main_arg11 (by decide)).trans <| (step10 m c main_arg11 (by decide)).trans <| (W10_of_ne m c main_arg11 (by decide)).trans <| (W9_of_ne m c main_arg11 (by decide)).trans <| (step7 m c main_arg11 (by decide)).trans <| (W7_of_ne m c main_arg11 (by decide)).trans <| (step5 m c main_arg11 (by decide)).trans <| (W5_of_ne m c main_arg11 (by decide)).trans <| (W4_of_ne m c main_arg11 (by decide)).trans <| (step2 m c main_arg11 (by decide)).trans <| (step1 m c main_arg11 (by decide)).trans <| (step0 m c main_arg11 (by decide))

theorem W19_main_arg12 (c : Dev nD) : W19 m c (Proc.devRef .tc main_arg12) = m ((c : Thread nD τ).loc main_arg12) :=
  (step18 m c main_arg12 (by decide)).trans <| (step17 m c main_arg12 (by decide)).trans <| (W17_of_ne m c main_arg12 (by decide)).trans <| (step15 m c main_arg12 (by decide)).trans <| (W15_of_ne m c main_arg12 (by decide)).trans <| (W14_of_ne m c main_arg12 (by decide)).trans <| (step12 m c main_arg12 (by decide)).trans <| (W12_of_ne m c main_arg12 (by decide)).trans <| (step10 m c main_arg12 (by decide)).trans <| (W10_of_ne m c main_arg12 (by decide)).trans <| (W9_of_ne m c main_arg12 (by decide)).trans <| (step7 m c main_arg12 (by decide)).trans <| (W7_of_ne m c main_arg12 (by decide)).trans <| (step5 m c main_arg12 (by decide)).trans <| (W5_of_ne m c main_arg12 (by decide)).trans <| (W4_of_ne m c main_arg12 (by decide)).trans <| (step2 m c main_arg12 (by decide)).trans <| (step1 m c main_arg12 (by decide)).trans <| (step0 m c main_arg12 (by decide))

theorem W19_main_arg13 (c : Dev nD) : W19 m c (Proc.devRef .tc main_arg13) = m ((c : Thread nD τ).loc main_arg13) :=
  (step18 m c main_arg13 (by decide)).trans <| (step17 m c main_arg13 (by decide)).trans <| (W17_of_ne m c main_arg13 (by decide)).trans <| (step15 m c main_arg13 (by decide)).trans <| (W15_of_ne m c main_arg13 (by decide)).trans <| (W14_of_ne m c main_arg13 (by decide)).trans <| (step12 m c main_arg13 (by decide)).trans <| (W12_of_ne m c main_arg13 (by decide)).trans <| (step10 m c main_arg13 (by decide)).trans <| (W10_of_ne m c main_arg13 (by decide)).trans <| (W9_of_ne m c main_arg13 (by decide)).trans <| (step7 m c main_arg13 (by decide)).trans <| (W7_of_ne m c main_arg13 (by decide)).trans <| (step5 m c main_arg13 (by decide)).trans <| (W5_of_ne m c main_arg13 (by decide)).trans <| (W4_of_ne m c main_arg13 (by decide)).trans <| (step2 m c main_arg13 (by decide)).trans <| (step1 m c main_arg13 (by decide)).trans <| (step0 m c main_arg13 (by decide))

end Cert.Kernel.Rg

end
-- ==== Proof.KR0Run.lean ====
import proofs.«425541_j70411693850858_1_alg».proof.Proof.KR0Defs

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 49 = 0 :=
  (by decide +kernel : ∀ t : Fin grid0.N, cond0_0 (grid0.coords t) ↔ t.val % 49 = 0)

abbrev cond0_1 (i : grid0.Coords) : Prop := k0_cond2 i = 1#1

theorem hcond0_1 : ∀ t : Fin cfg0.N, cond0_1 (grid0.coords t) ↔ t.val % 49 = 48 :=
  (by decide +kernel : ∀ t : Fin grid0.N, cond0_1 (grid0.coords t) ↔ t.val % 49 = 48)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

theorem idleAt0_3 : ∀ t : Fin cfg0.N, ¬cond0_1 (grid0.coords t) → cfg0.idle 3 (grid0.coords t) = true := by
  intro t h
  show (!(k0_cond2 (grid0.coords t) == 1#1)) = true
  rw [Bool.not_eq_true', beq_eq_false_iff_ne]; exact h

theorem noFlush0_3 : ∀ t : Fin cfg0.N, ¬cond0_1 (grid0.coords t) → (cfg0.win 3).flush t = false := by
  intro t h
  rw [Bool.eq_false_iff]; intro hf
  exact h ((hcond0_1 t).mpr ((flush0_3 t).mp hf))

theorem liveAt0_3 : ∀ t : Fin cfg0.N, cond0_1 (grid0.coords t) → cfg0.idle 3 (grid0.coords t) = false := by
  intro t h
  show (!(k0_cond2 (grid0.coords t) == 1#1)) = false
  rw [Bool.not_eq_false', beq_iff_eq]; exact h

abbrev ms0_0 (t : Fin cfg0.N) : Memref sig .tc .vmem S4096x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .bf16 := win0_3.stage (cfg0.slots t 3)
abbrev hs0_3 (t : Fin cfg0.N) : (ms0_3 t).IsWhole := hstage0_3 ((cfg0.slots t 3).cast nbuf0_3)

theorem PhiA0_eq (c : Dev nD) :
    (Pipeline.ΦA spec0 c : sProp 𝕄)
      = iprop(iprop(iprop(∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- Every layer's gather region runs one kernel function: the later layers' printed bodies are this one's text. -/
theorem bodyAt0_eq (t : Fin cfg0.N) : bodyAt0 (F := F) t = cc0__phaseA_kernel (grid0.coords t) (ms0_0 t) (hs0_0 t) (ms0_1 t) (hs0_1 t) (ms0_2 t) (hs0_2 t) (ms0_3 t) (hs0_3 t) scM0 (Memref.isWhole_whole _) := rfl

end Cert.Kernel.Rg

end
-- ==== Proof.KR0RunA.lean ====
import proofs.«425541_j70411693850858_1_alg».proof.Proof.KR0Run

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def gatherRun_A (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (hca : cond0_0 i) (hcb : ¬cond0_1 i)
    (xa : Vec F S4096x1 .i32) (xb : Vec F S4096x1 .f32) (xc : Vec F S1024x128 .bf16) :
    { LS : List (View.Piece (Elt F) S4096x128 .f32) //
      ∀ (xi : Vec F S4096x128 .bf16) (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xi ∗ (∃ d, owns (c : Thread nD τ) arg6 fullShare d)
            ∗ (iprop(owns (c : Thread nD τ) arg2 fullShare xa ∗ owns (c : Thread nD τ) arg3 fullShare xb ∗ owns (c : Thread nD τ) arg4 fullShare xc ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__phaseA_kernel i arg2 harg2 arg3 harg3 arg4 harg4 arg5 harg5 arg6 harg6) K } := by
  refine ⟨?_, fun xi E K => ?run⟩
  case run =>
    simp only [cc0__phaseA_kernel_eq_skeleton]; unfold cc0__phaseA_kernel_skel
    unfold owns
    iintro ⟨⟨%fa, %hfa, Ha⟩, ⟨%fb, %hfb, Hb⟩, ⟨%fc, %hfc, Hc⟩, ⟨%fd, %hfd, Hd⟩, ⟨%ds, %fs, -, HS⟩, Hk⟩
    obtain rfl := harg2.eq_unread hfa; obtain rfl := harg3.eq_unread hfb; obtain rfl := harg4.eq_unread hfc; obtain rfl := harg5.eq_unread hfd
    sl_exec (disch := first | exact hca | exact hcb)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    iexists _; iexact HS

end Cert.Kernel.Rg

end
-- ==== Proof.KR0RunB.lean ====
import proofs.«425541_j70411693850858_1_alg».proof.Proof.KR0RunA

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def gatherRun_B (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (hca : ¬cond0_0 i) (hcb : ¬cond0_1 i)
    (xa : Vec F S4096x1 .i32) (xb : Vec F S4096x1 .f32) (xc : Vec F S1024x128 .bf16) (xs : Vec F S4096x128 .f32) :
    { LS : List (View.Piece (Elt F) S4096x128 .f32) //
      ∀ (xi : Vec F S4096x128 .bf16) (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xi ∗ owns (c : Thread nD τ) arg6 fullShare xs
            ∗ (iprop(owns (c : Thread nD τ) arg2 fullShare xa ∗ owns (c : Thread nD τ) arg3 fullShare xb ∗ owns (c : Thread nD τ) arg4 fullShare xc ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__phaseA_kernel i arg2 harg2 arg3 harg3 arg4 harg4 arg5 harg5 arg6 harg6) K } := by
  refine ⟨?_, fun xi E K => ?run⟩
  case run =>
    simp only [cc0__phaseA_kernel_eq_skeleton]; unfold cc0__phaseA_kernel_skel
    unfold owns
    iintro ⟨⟨%fa, %hfa, Ha⟩, ⟨%fb, %hfb, Hb⟩, ⟨%fc, %hfc, Hc⟩, ⟨%fd, %hfd, Hd⟩, ⟨%fs, %hfs, HS⟩, Hk⟩
    obtain rfl := harg2.eq_unread hfa; obtain rfl := harg3.eq_unread hfb; obtain rfl := harg4.eq_unread hfc; obtain rfl := harg5.eq_unread hfd; obtain rfl := harg6.eq_unread hfs
    sl_exec (disch := first | exact hca | exact hcb)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    iexists _; iexact HS

end Cert.Kernel.Rg

end
-- ==== Proof.KR0RunC.lean ====
import proofs.«425541_j70411693850858_1_alg».proof.Proof.KR0RunB

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def gatherRun_C (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (hca : ¬cond0_0 i) (hcb : cond0_1 i)
    (xa : Vec F S4096x1 .i32) (xb : Vec F S4096x1 .f32) (xc : Vec F S1024x128 .bf16) (xs : Vec F S4096x128 .f32) :
    Σ' (LO : List (View.Piece (Elt F) S4096x128 .bf16)), { LS : List (View.Piece (Elt F) S4096x128 .f32) //
      ∀ (E : Set ℕ) (K : PUnit → sProp 𝕄),
        iprop(owns (c : Thread nD τ) arg2 fullShare xa ∗ owns (c : Thread nD τ) arg3 fullShare xb ∗ owns (c : Thread nD τ) arg4 fullShare xc ∗ (∃ d, owns (c : Thread nD τ) arg5 fullShare d) ∗ owns (c : Thread nD τ) arg6 fullShare xs
            ∗ (iprop(owns (c : Thread nD τ) arg2 fullShare xa ∗ owns (c : Thread nD τ) arg3 fullShare xb ∗ owns (c : Thread nD τ) arg4 fullShare xc ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__phaseA_kernel i arg2 harg2 arg3 harg3 arg4 harg4 arg5 harg5 arg6 harg6) K } := by
  refine ⟨?_, ?_, fun E K => ?run⟩
  case run =>
    simp only [cc0__phaseA_kernel_eq_skeleton]; unfold cc0__phaseA_kernel_skel
    unfold owns
    iintro ⟨⟨%fa, %hfa, Ha⟩, ⟨%fb, %hfb, Hb⟩, ⟨%fc, %hfc, Hc⟩, ⟨%dd, %fd, -, Hd⟩, ⟨%fs, %hfs, HS⟩, Hk⟩
    obtain rfl := harg2.eq_unread hfa; obtain rfl := harg3.eq_unread hfb; obtain rfl := harg4.eq_unread hfc; obtain rfl := harg6.eq_unread hfs
    sl_exec (disch := first | exact hca | exact hcb)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]; · iexists _; iexact Hd
    iexists _; iexact HS

end Cert.Kernel.Rg

end
-- ==== Proof.KR0Pcs.lean ====
import proofs.«425541_j70411693850858_1_alg».proof.Proof.KR0RunC
import Idealize.ShloMosaic.Lib.Pipeline.Value

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz0 : (![0, 0] : Fin 2 → Nat) = fun _ => 0 := funext fun a => by fin_cases a <;> rfl

theorem gatherAccCover_A (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (hca : cond0_0 i) (hcb : ¬cond0_1 i)
    (xa : Vec F S4096x1 .i32) (xb : Vec F S4096x1 .f32) (xc : Vec F S1024x128 .bf16) (y : S4096x128.Idx) :
    ∃ pc ∈ (gatherRun_A c i arg2 harg2 arg3 harg3 arg4 harg4 arg5 harg5 arg6 harg6 hca hcb xa xb xc).1, y ∈ pc.1.set :=
  View.cover_of_tiledL (gatherRun_A c i arg2 harg2 arg3 harg3 arg4 harg4 arg5 harg5 arg6 harg6 hca hcb xa xb xc).1 S4096x128.size (by sl_kernel_rfl) y

theorem gatherAccCover_B (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (hca : ¬cond0_0 i) (hcb : ¬cond0_1 i)
    (xa : Vec F S4096x1 .i32) (xb : Vec F S4096x1 .f32) (xc : Vec F S1024x128 .bf16) (xs : Vec F S4096x128 .f32) (y : S4096x128.Idx) :
    ∃ pc ∈ (gatherRun_B c i arg2 harg2 arg3 harg3 arg4 harg4 arg5 harg5 arg6 harg6 hca hcb xa xb xc xs).1, y ∈ pc.1.set :=
  View.cover_of_tiledL (gatherRun_B c i arg2 harg2 arg3 harg3 arg4 harg4 arg5 harg5 arg6 harg6 hca hcb xa xb xc xs).1 S4096x128.size (by sl_kernel_rfl) y

theorem gatherAccCover_C (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (hca : ¬cond0_0 i) (hcb : cond0_1 i)
    (xa : Vec F S4096x1 .i32) (xb : Vec F S4096x1 .f32) (xc : Vec F S1024x128 .bf16) (xs : Vec F S4096x128 .f32) (y : S4096x128.Idx) :
    ∃ pc ∈ (gatherRun_C c i arg2 harg2 arg3 harg3 arg4 harg4 arg5 harg5 arg6 harg6 hca hcb xa xb xc xs).2.1, y ∈ pc.1.set :=
  View.cover_of_tiledL (gatherRun_C c i arg2 harg2 arg3 harg3 arg4 harg4 arg5 harg5 arg6 harg6 hca hcb xa xb xc xs).2.1 S4096x128.size (by sl_kernel_rfl) y

theorem gatherOutCover_C (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (hca : ¬cond0_0 i) (hcb : cond0_1 i)
    (xa : Vec F S4096x1 .i32) (xb : Vec F S4096x1 .f32) (xc : Vec F S1024x128 .bf16) (xs : Vec F S4096x128 .f32) (y : S4096x128.Idx) :
    ∃ pc ∈ (gatherRun_C c i arg2 harg2 arg3 harg3 arg4 harg4 arg5 harg5 arg6 harg6 hca hcb xa xb xc xs).1, y ∈ pc.1.set :=
  View.cover_of_tiledL (gatherRun_C c i arg2 harg2 arg3 harg3 arg4 harg4 arg5 harg5 arg6 harg6 hca hcb xa xb xc xs).1 S4096x128.size (by sl_kernel_rfl) y

theorem gatherAcc_A (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (hca : cond0_0 i) (hcb : ¬cond0_1 i)
    (xa : Vec F S4096x1 .i32) (xb : Vec F S4096x1 .f32) (xc : Vec F S1024x128 .bf16) :
    View.canon (gatherRun_A c i arg2 harg2 arg3 harg3 arg4 harg4 arg5 harg5 arg6 harg6 hca hcb xa xb xc).1 = k0_pay2 i xa (k0_pay1 (F := F)) xc := by
  unfold gatherRun_A
  dsimp only
  sl_unfold_words
  rw [View.canon_cons_unit_zero (S := S4096x128) hz0]
  simp only [View.readAt_eq_ld, harg2.read_unread, harg4.read_unread, View.ld_unit_zero (S := S4096x1) hz0,
    View.ld_unit_zero (S := S1024x128) hz0, View.readCov_unit_zero (S := S4096x128) _ hz0]

theorem gatherAcc_B (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (hca : ¬cond0_0 i) (hcb : ¬cond0_1 i)
    (xa : Vec F S4096x1 .i32) (xb : Vec F S4096x1 .f32) (xc : Vec F S1024x128 .bf16) (xs : Vec F S4096x128 .f32) :
    View.canon (gatherRun_B c i arg2 harg2 arg3 harg3 arg4 harg4 arg5 harg5 arg6 harg6 hca hcb xa xb xc xs).1 = k0_pay2 i xa xs xc := by
  unfold gatherRun_B
  dsimp only
  sl_unfold_words
  rw [View.canon_unit_zero (S := S4096x128) hz0]
  simp only [View.readAt_eq_ld, harg2.read_unread, harg4.read_unread, harg6.read_unread, View.ld_unit_zero (S := S4096x1) hz0,
    View.ld_unit_zero (S := S1024x128) hz0, View.ld_unit_zero (S := S4096x128) hz0]

theorem gatherAcc_C (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (hca : ¬cond0_0 i) (hcb : cond0_1 i)
    (xa : Vec F S4096x1 .i32) (xb : Vec F S4096x1 .f32) (xc : Vec F S1024x128 .bf16) (xs : Vec F S4096x128 .f32) :
    View.canon (gatherRun_C c i arg2 harg2 arg3 harg3 arg4 harg4 arg5 harg5 arg6 harg6 hca hcb xa xb xc xs).2.1 = k0_pay2 i xa xs xc := by
  unfold gatherRun_C
  dsimp only
  sl_unfold_words
  rw [View.canon_unit_zero (S := S4096x128) hz0]
  simp only [View.readAt_eq_ld, harg2.read_unread, harg4.read_unread, harg6.read_unread, View.ld_unit_zero (S := S4096x1) hz0,
    View.ld_unit_zero (S := S1024x128) hz0, View.ld_unit_zero (S := S4096x128) hz0]

theorem gatherOut_C (c : Dev nD) (i : grid0.Coords) (arg2 : Memref sig .tc .vmem S4096x1 .i32) (harg2 : arg2.IsWhole) (arg3 : Memref sig .tc .vmem S4096x1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (hca : ¬cond0_0 i) (hcb : cond0_1 i)
    (xa : Vec F S4096x1 .i32) (xb : Vec F S4096x1 .f32) (xc : Vec F S1024x128 .bf16) (xs : Vec F S4096x128 .f32) :
    View.canon (gatherRun_C c i arg2 harg2 arg3 harg3 arg4 harg4 arg5 harg5 arg6 harg6 hca hcb xa xb xc xs).1 = k0_pay3 xb (k0_pay2 i xa xs xc) := by
  unfold gatherRun_C
  dsimp only
  sl_unfold_words
  rw [View.canon_unit_zero (S := S4096x128) hz0]
  simp only [View.readAt_eq_ld, harg2.read_unread, harg3.read_unread, harg4.read_unread, harg6.read_unread, View.ld_unit_zero (S := S4096x1) hz0,
    View.ld_unit_zero (S := S1024x128) hz0, View.ld_unit_zero (S := S4096x128) hz0, View.readCov_unit_zero (S := S4096x128) _ hz0]

end Cert.Kernel.Rg

end
-- ==== Proof.KR0Body.lean ====
import proofs.«425541_j70411693850858_1_alg».proof.Proof.KR0Run
import proofs.«425541_j70411693850858_1_alg».proof.Proof.KR0Pcs

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 1600000 in

theorem sound_body0_A (c : Dev nD) (t : Fin cfg0.N) (hm : t.val % 49 = 0) :
    bodyPre0 V c t ⊢ wp frame (wpE (defs₀ (F := F)) Variants.none c none) Set.univ (bodyAt0 t) (fun _ => bodyPost0 V c t) := by
  unfold bodyPre0 bodyPost0
  rw [bodyAt0_eq]
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hca : cond0_0 (grid0.coords t) := (hcond0_0 t).mpr hm
  have hcb : ¬cond0_1 (grid0.coords t) := fun h => absurd ((hcond0_1 t).mp h) (by omega)
  rw [Dat.leavesExact_idle (dat0 V c) 3 t (idleAt0_3 t hcb) (noFlush0_3 t hcb)]
  by_cases hz : t.val = 0
  · rw [PhiS0_castSucc V c t, PhiS0_zero V c _ _ hz, PhiA0_eq]
    iintro ⟨⟨⟨HS, HR⟩, Hg⟩, Ho, ⟨%da, Ha⟩, ⟨%db, Hb⟩, ⟨%dc, Hc⟩, ⟨%dd, Hd⟩⟩
    iapply ((gatherRun_A c (grid0.coords t) _ _ _ _ _ _ _ _ _ _ hca hcb (iblk0 V c 0 t) (iblk0 V c 1 t) (iblk0 V c 2 t)).2 _ Set.univ _)
    isplitl [Ha]; · iexact Ha
    isplitl [Hb]; · iexact Hb
    isplitl [Hc]; · iexact Hc
    isplitl [Hd]; · iexact Hd
    isplitl [HS]; · iexact HS
    iintro ⟨Ha, Hb, Hc, Hd, ⟨%es, HS⟩⟩
    isplitl [HS HR Hg]
    · isplitl [HS HR]
      · isplitl [HS]
        · unfold owns; iexists _; isplitr
          swap; · iexact HS
          ipureintro
          rw [acc0_first V c t hm]
          exact (View.read_writes_eq_canon _ _ _ (gatherAccCover_A c (grid0.coords t) _ _ _ _ _ _ _ _ _ _ hca hcb (iblk0 V c 0 t) (iblk0 V c 1 t) (iblk0 V c 2 t))).trans (gatherAcc_A c (grid0.coords t) _ _ _ _ _ _ _ _ _ _ hca hcb (iblk0 V c 0 t) (iblk0 V c 1 t) (iblk0 V c 2 t))
        iexact HR
      iexact Hg
    isplitl [Ho]; · iexact Ho
    isplitl [Ha]; · iexact Ha
    isplitl [Hb]; · iexact Hb
    isplitl [Hc]; · iexact Hc
    iexists _; iexact Hd
  · rw [PhiS0_castSucc V c t, PhiS0_pos V c _ _ hz]
    iintro ⟨⟨⟨HS, HR⟩, Hg⟩, Ho, ⟨%da, Ha⟩, ⟨%db, Hb⟩, ⟨%dc, Hc⟩, ⟨%dd, Hd⟩⟩
    iapply ((gatherRun_A c (grid0.coords t) _ _ _ _ _ _ _ _ _ _ hca hcb (iblk0 V c 0 t) (iblk0 V c 1 t) (iblk0 V c 2 t)).2 _ Set.univ _)
    isplitl [Ha]; · iexact Ha
    isplitl [Hb]; · iexact Hb
    isplitl [Hc]; · iexact Hc
    isplitl [Hd]; · iexact Hd
    isplitl [HS]; · iexists _; iexact HS
    iintro ⟨Ha, Hb, Hc, Hd, ⟨%es, HS⟩⟩
    isplitl [HS HR Hg]
    · isplitl [HS HR]
      · isplitl [HS]
        · unfold owns; iexists _; isplitr
          swap; · iexact HS
          ipureintro
          rw [acc0_first V c t hm]
          exact (View.read_writes_eq_canon _ _ _ (gatherAccCover_A c (grid0.coords t) _ _ _ _ _ _ _ _ _ _ hca hcb (iblk0 V c 0 t) (iblk0 V c 1 t) (iblk0 V c 2 t))).trans (gatherAcc_A c (grid0.coords t) _ _ _ _ _ _ _ _ _ _ hca hcb (iblk0 V c 0 t) (iblk0 V c 1 t) (iblk0 V c 2 t))
        iexact HR
      iexact Hg
    isplitl [Ho]; · iexact Ho
    isplitl [Ha]; · iexact Ha
    isplitl [Hb]; · iexact Hb
    isplitl [Hc]; · iexact Hc
    iexists _; iexact Hd

set_option maxHeartbeats 1600000 in

theorem sound_body0_B (c : Dev nD) (t : Fin cfg0.N) (hm : ¬t.val % 49 = 0) (hl : ¬t.val % 49 = 48) :
    bodyPre0 V c t ⊢ wp frame (wpE (defs₀ (F := F)) Variants.none c none) Set.univ (bodyAt0 t) (fun _ => bodyPost0 V c t) := by
  unfold bodyPre0 bodyPost0
  rw [bodyAt0_eq]
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hca : ¬cond0_0 (grid0.coords t) := fun h => hm ((hcond0_0 t).mp h)
  have hcb : ¬cond0_1 (grid0.coords t) := fun h => hl ((hcond0_1 t).mp h)
  have hz : t.val ≠ 0 := fun e => hm (by rw [e])
  have hlt : t.val - 1 < cfg0.N := Nat.lt_of_le_of_lt (Nat.sub_le _ _) t.isLt
  rw [Dat.leavesExact_idle (dat0 V c) 3 t (idleAt0_3 t hcb) (noFlush0_3 t hcb)]
  · rw [PhiS0_castSucc V c t, PhiS0_pos V c _ _ hz]
    iintro ⟨⟨⟨HS, HR⟩, Hg⟩, Ho, ⟨%da, Ha⟩, ⟨%db, Hb⟩, ⟨%dc, Hc⟩, ⟨%dd, Hd⟩⟩
    iapply ((gatherRun_B c (grid0.coords t) _ _ _ _ _ _ _ _ _ _ hca hcb (iblk0 V c 0 t) (iblk0 V c 1 t) (iblk0 V c 2 t) (acc0 V c (t.val - 1) hlt)).2 _ Set.univ _)
    isplitl [Ha]; · iexact Ha
    isplitl [Hb]; · iexact Hb
    isplitl [Hc]; · iexact Hc
    isplitl [Hd]; · iexact Hd
    isplitl [HS]; · iexact HS
    iintro ⟨Ha, Hb, Hc, Hd, ⟨%es, HS⟩⟩
    isplitl [HS HR Hg]
    · isplitl [HS HR]
      · isplitl [HS]
        · unfold owns; iexists _; isplitr
          swap; · iexact HS
          ipureintro
          rw [acc0_next V c t hm]
          exact (View.read_writes_eq_canon _ _ _ (gatherAccCover_B c (grid0.coords t) _ _ _ _ _ _ _ _ _ _ hca hcb (iblk0 V c 0 t) (iblk0 V c 1 t) (iblk0 V c 2 t) (acc0 V c (t.val - 1) hlt))).trans (gatherAcc_B c (grid0.coords t) _ _ _ _ _ _ _ _ _ _ hca hcb (iblk0 V c 0 t) (iblk0 V c 1 t) (iblk0 V c 2 t) (acc0 V c (t.val - 1) hlt))
        iexact HR
      iexact Hg
    isplitl [Ho]; · iexact Ho
    isplitl [Ha]; · iexact Ha
    isplitl [Hb]; · iexact Hb
    isplitl [Hc]; · iexact Hc
    iexists _; iexact Hd

set_option maxHeartbeats 1600000 in

theorem sound_body0_C (c : Dev nD) (t : Fin cfg0.N) (hl : t.val % 49 = 48) :
    bodyPre0 V c t ⊢ wp frame (wpE (defs₀ (F := F)) Variants.none c none) Set.univ (bodyAt0 t) (fun _ => bodyPost0 V c t) := by
  unfold bodyPre0 bodyPost0
  rw [bodyAt0_eq]
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hm : ¬t.val % 49 = 0 := by omega
  have hca : ¬cond0_0 (grid0.coords t) := fun h => hm ((hcond0_0 t).mp h)
  have hcb : cond0_1 (grid0.coords t) := (hcond0_1 t).mpr hl
  have hz : t.val ≠ 0 := fun e => hm (by rw [e])
  have hlt : t.val - 1 < cfg0.N := Nat.lt_of_le_of_lt (Nat.sub_le _ _) t.isLt
  rw [show (dat0 V c).leavesExact 3 t = owns (c : Thread nD τ) (ms0_3 t) fullShare ((dat0 V c).after 3 t) from by
    unfold Dat.leavesExact; rw [liveAt0_3 t hcb], after0_3]
  · rw [PhiS0_castSucc V c t, PhiS0_pos V c _ _ hz]
    iintro ⟨⟨⟨HS, HR⟩, Hg⟩, Ho, ⟨%da, Ha⟩, ⟨%db, Hb⟩, ⟨%dc, Hc⟩, ⟨%dd, Hd⟩⟩
    iapply ((gatherRun_C c (grid0.coords t) _ _ _ _ _ _ _ _ _ _ hca hcb (iblk0 V c 0 t) (iblk0 V c 1 t) (iblk0 V c 2 t) (acc0 V c (t.val - 1) hlt)).2.2 Set.univ _)
    isplitl [Ha]; · iexact Ha
    isplitl [Hb]; · iexact Hb
    isplitl [Hc]; · iexact Hc
    isplitl [Hd]; · iexists _; iexact Hd
    isplitl [HS]; · iexact HS
    iintro ⟨Ha, Hb, Hc, ⟨%eo, Hd⟩, ⟨%es, HS⟩⟩
    isplitl [HS HR Hg]
    · isplitl [HS HR]
      · isplitl [HS]
        · unfold owns; iexists _; isplitr
          swap; · iexact HS
          ipureintro
          rw [acc0_next V c t hm]
          exact (View.read_writes_eq_canon _ _ _ (gatherAccCover_C c (grid0.coords t) _ _ _ _ _ _ _ _ _ _ hca hcb (iblk0 V c 0 t) (iblk0 V c 1 t) (iblk0 V c 2 t) (acc0 V c (t.val - 1) hlt))).trans
            (gatherAcc_C c (grid0.coords t) _ _ _ _ _ _ _ _ _ _ hca hcb (iblk0 V c 0 t) (iblk0 V c 1 t) (iblk0 V c 2 t) (acc0 V c (t.val - 1) hlt))
        iexact HR
      iexact Hg
    isplitl [Ho]; · iexact Ho
    isplitl [Ha]; · iexact Ha
    isplitl [Hb]; · iexact Hb
    isplitl [Hc]; · iexact Hc
    unfold owns; iexists _; isplitr
    swap; · iexact Hd
    ipureintro
    unfold out0; rw [acc0_next V c t hm]
    exact (View.read_writes_eq_canon _ _ _ (gatherOutCover_C c (grid0.coords t) _ _ _ _ _ _ _ _ _ _ hca hcb (iblk0 V c 0 t) (iblk0 V c 1 t) (iblk0 V c 2 t) (acc0 V c (t.val - 1) hlt))).trans
      (gatherOut_C c (grid0.coords t) _ _ _ _ _ _ _ _ _ _ hca hcb (iblk0 V c 0 t) (iblk0 V c 1 t) (iblk0 V c 2 t) (acc0 V c (t.val - 1) hlt))

theorem sound_body0 (c : Dev nD) (t : Fin cfg0.N) :
    bodyPre0 V c t ⊢ wp frame (wpE (defs₀ (F := F)) Variants.none c none) Set.univ (bodyAt0 t) (fun _ => bodyPost0 V c t) := by
  by_cases hm : t.val % 49 = 0
  · exact sound_body0_A V c t hm
  · by_cases hl : t.val % 49 = 48
    · exact sound_body0_C V c t hl
    · exact sound_body0_B V c t hm hl

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

theorem hout0 (c : Dev nD) : (dat0 V c).Φ (Fin.last cfg0.N) ⊢ Pipeline.ΦA spec0 c :=
  Phi_out0 V c _ (by rw [Fin.val_last]; have : cfg0.N = 7203 := N_0; omega)

end Cert.Kernel.Rg

end
-- ==== Proof.KR1Run.lean ====
import proofs.«425541_j70411693850858_1_alg».proof.Proof.KR1Defs

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 147 = 0 :=
  (by decide +kernel : ∀ t : Fin grid1.N, cond1_0 (grid1.coords t) ↔ t.val % 147 = 0)

abbrev cond1_1 (i : grid1.Coords) : Prop := k1_cond2 i = 1#1

theorem hcond1_1 : ∀ t : Fin cfg1.N, cond1_1 (grid1.coords t) ↔ t.val % 147 = 146 :=
  (by decide +kernel : ∀ t : Fin grid1.N, cond1_1 (grid1.coords t) ↔ t.val % 147 = 146)

theorem liveAt1_0 (t : Fin cfg1.N) : cfg1.idle 0 (grid1.coords t) = false := rfl
theorem liveAt1_1 (t : Fin cfg1.N) : cfg1.idle 1 (grid1.coords t) = false := rfl

theorem idleAt1_2 (i : grid1.Coords) (h : ¬cond1_1 i) : cfg1.idle 2 i = true := by
  have e : (k1_cond2 i == 1#1) = false := beq_eq_false_iff_ne.mpr h
  show (!(k1_cond2 i == 1#1)) = true
  rw [e]; rfl

theorem liveAt1_2 (i : grid1.Coords) (h : cond1_1 i) : cfg1.idle 2 i = false := by
  have e : (k1_cond2 i == 1#1) = true := beq_iff_eq.mpr h
  show (!(k1_cond2 i == 1#1)) = false
  rw [e]; rfl

theorem noFlush1_2 (t : Fin cfg1.N) (h : ¬t.val % 147 = 146) : (cfg1.win 2).flush t = false :=
  Bool.eq_false_iff.mpr fun hf => h ((flush1_2 t).mp hf)

abbrev ms1_0 (t : Fin cfg1.N) : Memref sig .tc .vmem S1x4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)

theorem hz1 : (![0, 0] : Fin 2 → Nat) = fun _ => 0 := funext fun a => by fin_cases a <;> rfl

theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- Every layer's scatter region runs one kernel function: the later layers' printed bodies are this one's text. -/
theorem bodyAt1_eq (t : Fin cfg1.N) : bodyAt1 (F := F) t = cc1__phaseB_kernel (grid1.coords t) (ms1_0 t) (hs1_0 t) (ms1_1 t) (hs1_1 t) (ms1_2 t) (hs1_2 t) scM1 (Memref.isWhole_whole _) := rfl

end Cert.Kernel.Rg

end
-- ==== Proof.KR1RunA.lean ====
import proofs.«425541_j70411693850858_1_alg».proof.Proof.KR1Run

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def scatterRun_A (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : cond1_0 i) (hc1 : ¬cond1_1 i)
    (x0 : Vec F S1x4096 .i32) (x1 : Vec F S4096x128 .bf16) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__phaseB_kernel i arg2 harg2 arg3 harg3 arg4 harg4 arg5 harg5) K } := by
  refine ⟨[], ?_, fun xi2 E K => ?run⟩
  case run =>
    simp only [cc1__phaseB_kernel_eq_skeleton]; unfold cc1__phaseB_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Rg

end
-- ==== Proof.KR1RunB.lean ====
import proofs.«425541_j70411693850858_1_alg».proof.Proof.KR1RunA

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def scatterRun_B (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : ¬cond1_1 i)
    (x0 : Vec F S1x4096 .i32) (x1 : Vec F S4096x128 .bf16) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__phaseB_kernel i arg2 harg2 arg3 harg3 arg4 harg4 arg5 harg5) K } := by
  refine ⟨[], ?_, fun xi2 E K => ?run⟩
  case run =>
    simp only [cc1__phaseB_kernel_eq_skeleton]; unfold cc1__phaseB_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Rg

end
-- ==== Proof.KR1RunC.lean ====
import proofs.«425541_j70411693850858_1_alg».proof.Proof.KR1RunB

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def scatterRun_C (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : cond1_1 i)
    (x0 : Vec F S1x4096 .i32) (x1 : Vec F S4096x128 .bf16) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__phaseB_kernel i arg2 harg2 arg3 harg3 arg4 harg4 arg5 harg5) K } := by
  refine ⟨?_, ?_, fun E K => ?run⟩
  case run =>
    simp only [cc1__phaseB_kernel_eq_skeleton]; unfold cc1__phaseB_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Rg

end
-- ==== Proof.KR1Pcs.lean ====
import proofs.«425541_j70411693850858_1_alg».proof.Proof.KR1RunC
import Idealize.ShloMosaic.Lib.Pipeline.Value

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem scatterAccCover_A (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : cond1_0 i) (hc1 : ¬cond1_1 i) (x0 : Vec F S1x4096 .i32) (x1 : Vec F S4096x128 .bf16) (y : S1024x128.Idx) :
    ∃ pc ∈ (scatterRun_A c i arg2 harg2 arg3 harg3 arg4 harg4 arg5 harg5 hc0 hc1 x0 x1).2.1, y ∈ pc.1.set :=
  View.cover_of_tiledL (scatterRun_A c i arg2 harg2 arg3 harg3 arg4 harg4 arg5 harg5 hc0 hc1 x0 x1).2.1 S1024x128.size (by sl_kernel_rfl) y

theorem scatterAccCover_B (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : ¬cond1_1 i) (x0 : Vec F S1x4096 .i32) (x1 : Vec F S4096x128 .bf16) (xs0 : Vec F S1024x128 .f32) (y : S1024x128.Idx) :
    ∃ pc ∈ (scatterRun_B c i arg2 harg2 arg3 harg3 arg4 harg4 arg5 harg5 hc0 hc1 x0 x1 xs0).2.1, y ∈ pc.1.set :=
  View.cover_of_tiledL (scatterRun_B c i arg2 harg2 arg3 harg3 arg4 harg4 arg5 harg5 hc0 hc1 x0 x1 xs0).2.1 S1024x128.size (by sl_kernel_rfl) y

theorem scatterAccCover_C (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : cond1_1 i) (x0 : Vec F S1x4096 .i32) (x1 : Vec F S4096x128 .bf16) (xs0 : Vec F S1024x128 .f32) (y : S1024x128.Idx) :
    ∃ pc ∈ (scatterRun_C c i arg2 harg2 arg3 harg3 arg4 harg4 arg5 harg5 hc0 hc1 x0 x1 xs0).2.1, y ∈ pc.1.set :=
  View.cover_of_tiledL (scatterRun_C c i arg2 harg2 arg3 harg3 arg4 harg4 arg5 harg5 hc0 hc1 x0 x1 xs0).2.1 S1024x128.size (by sl_kernel_rfl) y

theorem scatterOutCover_C (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : cond1_1 i) (x0 : Vec F S1x4096 .i32) (x1 : Vec F S4096x128 .bf16) (xs0 : Vec F S1024x128 .f32) (y : S1024x128.Idx) :
    ∃ pc ∈ (scatterRun_C c i arg2 harg2 arg3 harg3 arg4 harg4 arg5 harg5 hc0 hc1 x0 x1 xs0).1, y ∈ pc.1.set :=
  View.cover_of_tiledL (scatterRun_C c i arg2 harg2 arg3 harg3 arg4 harg4 arg5 harg5 hc0 hc1 x0 x1 xs0).1 S1024x128.size (by sl_kernel_rfl) y

theorem scatterAcc_A (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : cond1_0 i) (hc1 : ¬cond1_1 i) (x0 : Vec F S1x4096 .i32) (x1 : Vec F S4096x128 .bf16) :
    View.canon (scatterRun_A c i arg2 harg2 arg3 harg3 arg4 harg4 arg5 harg5 hc0 hc1 x0 x1).2.1 = k1_pay2 i x0 (k1_pay1 (F := F)) x1 := by
  unfold scatterRun_A; dsimp only; sl_unfold_words
  rw [View.canon_cons_unit_zero (S := S1024x128) hz1]
  simp only [View.readAt_eq_ld, harg2.read_unread, harg3.read_unread, View.ld_unit_zero (S := S1x4096) hz1,
    View.ld_unit_zero (S := S4096x128) hz1, View.readCov_unit_zero (S := S1024x128) _ hz1]

theorem scatterAcc_B (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : ¬cond1_1 i) (x0 : Vec F S1x4096 .i32) (x1 : Vec F S4096x128 .bf16) (xs0 : Vec F S1024x128 .f32) :
    View.canon (scatterRun_B c i arg2 harg2 arg3 harg3 arg4 harg4 arg5 harg5 hc0 hc1 x0 x1 xs0).2.1 = k1_pay2 i x0 xs0 x1 := by
  unfold scatterRun_B; dsimp only; sl_unfold_words
  rw [View.canon_unit_zero (S := S1024x128) hz1]
  simp only [View.readAt_eq_ld, harg2.read_unread, harg3.read_unread, harg5.read_unread, View.ld_unit_zero (S := S1x4096) hz1,
    View.ld_unit_zero (S := S4096x128) hz1, View.ld_unit_zero (S := S1024x128) hz1]

theorem scatterAcc_C (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : cond1_1 i) (x0 : Vec F S1x4096 .i32) (x1 : Vec F S4096x128 .bf16) (xs0 : Vec F S1024x128 .f32) :
    View.canon (scatterRun_C c i arg2 harg2 arg3 harg3 arg4 harg4 arg5 harg5 hc0 hc1 x0 x1 xs0).2.1 = k1_pay2 i x0 xs0 x1 := by
  unfold scatterRun_C; dsimp only; sl_unfold_words
  rw [View.canon_unit_zero (S := S1024x128) hz1]
  simp only [View.readAt_eq_ld, harg2.read_unread, harg3.read_unread, harg5.read_unread, View.ld_unit_zero (S := S1x4096) hz1,
    View.ld_unit_zero (S := S4096x128) hz1, View.ld_unit_zero (S := S1024x128) hz1]

theorem scatterOut_C (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : cond1_1 i) (x0 : Vec F S1x4096 .i32) (x1 : Vec F S4096x128 .bf16) (xs0 : Vec F S1024x128 .f32) :
    View.canon (scatterRun_C c i arg2 harg2 arg3 harg3 arg4 harg4 arg5 harg5 hc0 hc1 x0 x1 xs0).1 = k1_pay2 i x0 xs0 x1 := by
  unfold scatterRun_C; dsimp only; sl_unfold_words
  rw [View.canon_unit_zero (S := S1024x128) hz1]
  simp only [View.readAt_eq_ld, harg2.read_unread, harg3.read_unread, harg5.read_unread, View.ld_unit_zero (S := S1x4096) hz1,
    View.ld_unit_zero (S := S4096x128) hz1, View.ld_unit_zero (S := S1024x128) hz1, View.readCov_unit_zero (S := S1024x128) _ hz1]

theorem scatterKernel_A (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : cond1_0 i) (hc1 : ¬cond1_1 i) (x0 : Vec F S1x4096 .i32) (x1 : Vec F S4096x128 .bf16)
    (xi2 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (k1_pay2 i x0 (k1_pay1 (F := F)) x1)) -∗ K ⟨⟩))
      ⊢ wp frame (wpE (defs₀ (F := F)) Variants.none c none) E (cc1__phaseB_kernel i arg2 harg2 arg3 harg3 arg4 harg4 arg5 harg5) K := by
  iintro ⟨H0, H1, H2, HS, Hk⟩
  iapply ((scatterRun_A c i arg2 harg2 arg3 harg3 arg4 harg4 arg5 harg5 hc0 hc1 x0 x1).2.2 xi2 E K)
  isplitl [H0]; · iexact H0
  isplitl [H1]; · iexact H1
  isplitl [H2]; · iexact H2
  isplitl [HS]; · iexact HS
  iintro ⟨H0, H1, H2, ⟨%es0, HS0⟩⟩
  iapply Hk
  isplitl [H0]; · iexact H0
  isplitl [H1]; · iexact H1
  isplitl [H2]; · iexact H2
  unfold owns; iexists _; isplitr
  swap; · iexact HS0
  ipureintro
  exact (View.read_writes_eq_canon _ _ _ (scatterAccCover_A c i arg2 harg2 arg3 harg3 arg4 harg4 arg5 harg5 hc0 hc1 x0 x1)).trans (scatterAcc_A c i arg2 harg2 arg3 harg3 arg4 harg4 arg5 harg5 hc0 hc1 x0 x1)

theorem scatterKernel_B (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : ¬cond1_1 i) (x0 : Vec F S1x4096 .i32) (x1 : Vec F S4096x128 .bf16) (xs0 : Vec F S1024x128 .f32)
    (xi2 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2
            ∗ owns (c : Thread nD τ) arg5 fullShare (k1_pay2 i x0 xs0 x1)) -∗ K ⟨⟩))
      ⊢ wp frame (wpE (defs₀ (F := F)) Variants.none c none) E (cc1__phaseB_kernel i arg2 harg2 arg3 harg3 arg4 harg4 arg5 harg5) K := by
  iintro ⟨H0, H1, H2, HS, Hk⟩
  iapply ((scatterRun_B c i arg2 harg2 arg3 harg3 arg4 harg4 arg5 harg5 hc0 hc1 x0 x1 xs0).2.2 xi2 E K)
  isplitl [H0]; · iexact H0
  isplitl [H1]; · iexact H1
  isplitl [H2]; · iexact H2
  isplitl [HS]; · iexact HS
  iintro ⟨H0, H1, H2, ⟨%es0, HS0⟩⟩
  iapply Hk
  isplitl [H0]; · iexact H0
  isplitl [H1]; · iexact H1
  isplitl [H2]; · iexact H2
  unfold owns; iexists _; isplitr
  swap; · iexact HS0
  ipureintro
  exact (View.read_writes_eq_canon _ _ _ (scatterAccCover_B c i arg2 harg2 arg3 harg3 arg4 harg4 arg5 harg5 hc0 hc1 x0 x1 xs0)).trans (scatterAcc_B c i arg2 harg2 arg3 harg3 arg4 harg4 arg5 harg5 hc0 hc1 x0 x1 xs0)

theorem scatterKernel_C (c : Dev nD) (i : grid1.Coords)
    (arg2 : Memref sig .tc .vmem S1x4096 .i32) (harg2 : arg2.IsWhole)
    (arg3 : Memref sig .tc .vmem S4096x128 .bf16) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : cond1_1 i) (x0 : Vec F S1x4096 .i32) (x1 : Vec F S4096x128 .bf16) (xs0 : Vec F S1024x128 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs0
        ∗ (iprop(owns (c : Thread nD τ) arg2 fullShare x0 ∗ owns (c : Thread nD τ) arg3 fullShare x1 ∗ owns (c : Thread nD τ) arg4 fullShare (k1_pay2 i x0 xs0 x1)
            ∗ owns (c : Thread nD τ) arg5 fullShare (k1_pay2 i x0 xs0 x1)) -∗ K ⟨⟩))
      ⊢ wp frame (wpE (defs₀ (F := F)) Variants.none c none) E (cc1__phaseB_kernel i arg2 harg2 arg3 harg3 arg4 harg4 arg5 harg5) K := by
  iintro ⟨H0, H1, H2, HS, Hk⟩
  iapply ((scatterRun_C c i arg2 harg2 arg3 harg3 arg4 harg4 arg5 harg5 hc0 hc1 x0 x1 xs0).2.2 E K)
  isplitl [H0]; · iexact H0
  isplitl [H1]; · iexact H1
  isplitl [H2]; · iexact H2
  isplitl [HS]; · iexact HS
  iintro ⟨H0, H1, ⟨%e2, H2⟩, ⟨%es0, HS0⟩⟩
  iapply Hk
  isplitl [H0]; · iexact H0
  isplitl [H1]; · iexact H1
  isplitl [H2]
  · unfold owns; iexists _; isplitr
    swap; · iexact H2
    ipureintro
    exact (View.read_writes_eq_canon _ _ _ (scatterOutCover_C c i arg2 harg2 arg3 harg3 arg4 harg4 arg5 harg5 hc0 hc1 x0 x1 xs0)).trans (scatterOut_C c i arg2 harg2 arg3 harg3 arg4 harg4 arg5 harg5 hc0 hc1 x0 x1 xs0)
  unfold owns; iexists _; isplitr
  swap; · iexact HS0
  ipureintro
  exact (View.read_writes_eq_canon _ _ _ (scatterAccCover_C c i arg2 harg2 arg3 harg3 arg4 harg4 arg5 harg5 hc0 hc1 x0 x1 xs0)).trans (scatterAcc_C c i arg2 harg2 arg3 harg3 arg4 harg4 arg5 harg5 hc0 hc1 x0 x1 xs0)

end Cert.Kernel.Rg

end
-- ==== Proof.KR1Body.lean ====
import proofs.«425541_j70411693850858_1_alg».proof.Proof.KR1Run
import proofs.«425541_j70411693850858_1_alg».proof.Proof.KR1Pcs

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  rw [bodyAt1_eq]
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 147 = 0
  · have h1 : ¬t.val % 147 = 146 := by omega
    rw [Dat.leavesExact_idle (dat1 V c) 2 t (idleAt1_2 _ (fun h => h1 ((hcond1_1 t).mp h))) (noFlush1_2 t h1)]
    rw [acc1_first V c t h0]
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩⟩
      iapply (scatterKernel_A c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hr⟩, Hg⟩, Ho, ⟨%d0, H0⟩, ⟨%d1, H1⟩, ⟨%d2, H2⟩⟩
      iapply (scatterKernel_A c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS0]; · iexists _; iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
  · have hz : t.val ≠ 0 := by omega
    rw [acc1_next V c t h0, PhiS1_castSucc V c t, PhiS1_pos V c _ _ hz]
    by_cases h1 : t.val % 147 = 146
    · rw [show (dat1 V c).leavesExact 2 t = owns (c : Thread nD τ) (ms1_2 t) fullShare ((dat1 V c).after 2 t) from by
        unfold Dat.leavesExact; rw [liveAt1_2 _ ((hcond1_1 t).mpr h1)], after1_2]
      unfold out1
      rw [acc1_next V c t h0]
      iintro ⟨⟨⟨HS0, Hr⟩, Hg⟩, Ho, ⟨%d0, H0⟩, ⟨%d1, H1⟩, ⟨%d2, H2⟩⟩
      iapply (scatterKernel_C c (grid1.coords t) _ _ _ _ _ _ _ _ (fun h => h0 ((hcond1_0 t).mp h)) ((hcond1_1 t).mpr h1) (iblk1 V c 0 t) (iblk1 V c 1 t) _ Set.univ _)
      isplitl [H0]; · iexact H0
      isplitl [H1]; · iexact H1
      isplitl [H2]; · iexists _; iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexact H2
    · rw [Dat.leavesExact_idle (dat1 V c) 2 t (idleAt1_2 _ (fun h => h1 ((hcond1_1 t).mp h))) (noFlush1_2 t h1)]
      iintro ⟨⟨⟨HS0, Hr⟩, Hg⟩, Ho, ⟨%d0, H0⟩, ⟨%d1, H1⟩, ⟨%d2, H2⟩⟩
      iapply (scatterKernel_B c (grid1.coords t) _ _ _ _ _ _ _ _ (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

theorem hout1 (c : Dev nD) : (dat1 V c).Φ (Fin.last cfg1.N) ⊢ Pipeline.ΦA spec1 c :=
  Phi_out1 V c _ (by rw [Fin.val_last]; have : cfg1.N = 7203 := N_1; omega)

end Cert.Kernel.Rg

end
-- ==== Proof.KDense.lean ====
import proofs.«425541_j70411693850858_1_alg».proof.Proof.KR2Defs
import Idealize.ShloMosaic.Lib.Pipeline.Value

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → ℕ) = fun _ => 0 := funext fun a => by fin_cases a <;> rfl

theorem denseCover (p0 : Vec F S1024x128 .f32) (y : S1024x128.Idx) :
    ∃ pc ∈ ([⟨(Rect.unit (s := S1024x128) ![0, 0] S1024x128.size inb_S1024x128_S1024x128_0_0), p0⟩] : List (View.Piece (Elt F) S1024x128 .f32)), y ∈ pc.1.set :=
  ⟨_, List.mem_singleton_self _, View.mem_set_unit_zero hz2 inb_S1024x128_S1024x128_0_0 y⟩

set_option maxHeartbeats 1000000 in

theorem denseKernel (c : Dev nD) (E : Set ℕ) (i : grid2.Coords)
    (arg1 : Memref sig .tc .vmem S1024x128 .bf16) (harg1 : arg1.IsWhole) (arg2 : Memref sig .tc .vmem S1024x128 .bf16) (harg2 : arg2.IsWhole)
    (arg3 : Memref sig .tc .vmem S128x128 .bf16) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S1024x128 .f32) (harg6 : arg6.IsWhole)
    (x0 : Vec F S1024x128 .bf16) (x1 : Vec F S1024x128 .bf16) (x2 : Vec F S128x128 .bf16) (x3 : Vec F S128x128 .bf16) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k2_pay1 x0 x2 x1 x3 x4)) -∗ K ⟨⟩))
      ⊢ wp frame (wpE (defs₀ (F := F)) Variants.none c none) E (cc2__affine_kernel i arg1 harg1 arg2 harg2 arg3 harg3 arg4 harg4 arg5 harg5 arg6 harg6) K := by
  simp only [cc2__affine_kernel_eq_skeleton]; unfold cc2__affine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (denseCover _), View.canon_unit_zero hz2]
  simp only [View.readAt_eq_ld, View.ld_unit_zero (S := S1024x128) hz2, View.ld_unit_zero (S := S128x128) hz2, View.ld_unit_zero (S := S1x128) hz2]

end Cert.Kernel.Rg

end
-- ==== Proof.KR2Body.lean ====
import proofs.«425541_j70411693850858_1_alg».proof.Proof.KR2Defs
import proofs.«425541_j70411693850858_1_alg».proof.Proof.KDense
import Idealize.ShloMosaic.Lib.Pipeline.Value

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- Every layer's dense region runs one kernel function: the later layers' printed bodies are this one's text. -/
theorem bodyAt2_eq (t : Fin cfg2.N) : bodyAt2 (F := F) t = cc2__affine_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) := rfl

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2
  rw [bodyAt2_eq]
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  unfold out2
  iintro ⟨HΦ, Ho, ⟨%d0, H0⟩, ⟨%d1, H1⟩, ⟨%d2, H2⟩, ⟨%d3, H3⟩, ⟨%d4, H4⟩, ⟨%d5, H5⟩⟩
  iapply (denseKernel c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Rg

end
-- ==== Proof.KR3Run.lean ====
import proofs.«425541_j70411693850858_1_alg».proof.Proof.KR3Defs

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 1).val) 0#32)) 0#32) = 1#1

theorem hcond3_0 : ∀ t : Fin cfg3.N, cond3_0 (grid3.coords t) ↔ t.val % 49 = 0 :=
  (by decide +kernel : ∀ t : Fin grid3.N, cond3_0 (grid3.coords t) ↔ t.val % 49 = 0)

abbrev cond3_1 (i : grid3.Coords) : Prop := k0_cond2 i = 1#1

theorem hcond3_1 : ∀ t : Fin cfg3.N, cond3_1 (grid3.coords t) ↔ t.val % 49 = 48 :=
  (by decide +kernel : ∀ t : Fin grid3.N, cond3_1 (grid3.coords t) ↔ t.val % 49 = 48)

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl

theorem idleAt3_3 : ∀ t : Fin cfg3.N, ¬cond3_1 (grid3.coords t) → cfg3.idle 3 (grid3.coords t) = true := by
  intro t h
  show (!(k0_cond2 (grid3.coords t) == 1#1)) = true
  rw [Bool.not_eq_true', beq_eq_false_iff_ne]; exact h

theorem noFlush3_3 : ∀ t : Fin cfg3.N, ¬cond3_1 (grid3.coords t) → (cfg3.win 3).flush t = false := by
  intro t h
  rw [Bool.eq_false_iff]; intro hf
  exact h ((hcond3_1 t).mpr ((flush3_3 t).mp hf))

theorem liveAt3_3 : ∀ t : Fin cfg3.N, cond3_1 (grid3.coords t) → cfg3.idle 3 (grid3.coords t) = false := by
  intro t h
  show (!(k0_cond2 (grid3.coords t) == 1#1)) = false
  rw [Bool.not_eq_false', beq_iff_eq]; exact h

abbrev ms3_0 (t : Fin cfg3.N) : Memref sig .tc .vmem S4096x1 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S4096x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x128 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S4096x128 .bf16 := win3_3.stage (cfg3.slots t 3)
abbrev hs3_3 (t : Fin cfg3.N) : (ms3_3 t).IsWhole := hstage3_3 ((cfg3.slots t 3).cast nbuf3_3)

theorem PhiA3_eq (c : Dev nD) :
    (Pipeline.ΦA spec3 c : sProp 𝕄)
      = iprop(iprop(iprop(∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- Every layer's gather region runs one kernel function: the later layers' printed bodies are this one's text. -/
theorem bodyAt3_eq (t : Fin cfg3.N) : bodyAt3 (F := F) t = cc0__phaseA_kernel (grid3.coords t) (ms3_0 t) (hs3_0 t) (ms3_1 t) (hs3_1 t) (ms3_2 t) (hs3_2 t) (ms3_3 t) (hs3_3 t) scM3 (Memref.isWhole_whole _) := rfl

end Cert.Kernel.Rg

end
-- ==== Proof.KR3Body.lean ====
import proofs.«425541_j70411693850858_1_alg».proof.Proof.KR3Run
import proofs.«425541_j70411693850858_1_alg».proof.Proof.KR0Pcs

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 1600000 in

theorem sound_body3_A (c : Dev nD) (t : Fin cfg3.N) (hm : t.val % 49 = 0) :
    bodyPre3 V c t ⊢ wp frame (wpE (defs₀ (F := F)) Variants.none c none) Set.univ (bodyAt3 t) (fun _ => bodyPost3 V c t) := by
  unfold bodyPre3 bodyPost3
  rw [bodyAt3_eq]
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hca : cond3_0 (grid3.coords t) := (hcond3_0 t).mpr hm
  have hcb : ¬cond3_1 (grid3.coords t) := fun h => absurd ((hcond3_1 t).mp h) (by omega)
  rw [Dat.leavesExact_idle (dat3 V c) 3 t (idleAt3_3 t hcb) (noFlush3_3 t hcb)]
  by_cases hz : t.val = 0
  · rw [PhiS3_castSucc V c t, PhiS3_zero V c _ _ hz, PhiA3_eq]
    iintro ⟨⟨⟨HS, HR⟩, Hg⟩, Ho, ⟨%da, Ha⟩, ⟨%db, Hb⟩, ⟨%dc, Hc⟩, ⟨%dd, Hd⟩⟩
    iapply ((gatherRun_A c (grid3.coords t) _ _ _ _ _ _ _ _ _ _ hca hcb (iblk3 V c 0 t) (iblk3 V c 1 t) (iblk3 V c 2 t)).2 _ Set.univ _)
    isplitl [Ha]; · iexact Ha
    isplitl [Hb]; · iexact Hb
    isplitl [Hc]; · iexact Hc
    isplitl [Hd]; · iexact Hd
    isplitl [HS]; · iexact HS
    iintro ⟨Ha, Hb, Hc, Hd, ⟨%es, HS⟩⟩
    isplitl [HS HR Hg]
    · isplitl [HS HR]
      · isplitl [HS]
        · unfold owns; iexists _; isplitr
          swap; · iexact HS
          ipureintro
          rw [acc3_first V c t hm]
          exact (View.read_writes_eq_canon _ _ _ (gatherAccCover_A c (grid3.coords t) _ _ _ _ _ _ _ _ _ _ hca hcb (iblk3 V c 0 t) (iblk3 V c 1 t) (iblk3 V c 2 t))).trans (gatherAcc_A c (grid3.coords t) _ _ _ _ _ _ _ _ _ _ hca hcb (iblk3 V c 0 t) (iblk3 V c 1 t) (iblk3 V c 2 t))
        iexact HR
      iexact Hg
    isplitl [Ho]; · iexact Ho
    isplitl [Ha]; · iexact Ha
    isplitl [Hb]; · iexact Hb
    isplitl [Hc]; · iexact Hc
    iexists _; iexact Hd
  · rw [PhiS3_castSucc V c t, PhiS3_pos V c _ _ hz]
    iintro ⟨⟨⟨HS, HR⟩, Hg⟩, Ho, ⟨%da, Ha⟩, ⟨%db, Hb⟩, ⟨%dc, Hc⟩, ⟨%dd, Hd⟩⟩
    iapply ((gatherRun_A c (grid3.coords t) _ _ _ _ _ _ _ _ _ _ hca hcb (iblk3 V c 0 t) (iblk3 V c 1 t) (iblk3 V c 2 t)).2 _ Set.univ _)
    isplitl [Ha]; · iexact Ha
    isplitl [Hb]; · iexact Hb
    isplitl [Hc]; · iexact Hc
    isplitl [Hd]; · iexact Hd
    isplitl [HS]; · iexists _; iexact HS
    iintro ⟨Ha, Hb, Hc, Hd, ⟨%es, HS⟩⟩
    isplitl [HS HR Hg]
    · isplitl [HS HR]
      · isplitl [HS]
        · unfold owns; iexists _; isplitr
          swap; · iexact HS
          ipureintro
          rw [acc3_first V c t hm]
          exact (View.read_writes_eq_canon _ _ _ (gatherAccCover_A c (grid3.coords t) _ _ _ _ _ _ _ _ _ _ hca hcb (iblk3 V c 0 t) (iblk3 V c 1 t) (iblk3 V c 2 t))).trans (gatherAcc_A c (grid3.coords t) _ _ _ _ _ _ _ _ _ _ hca hcb (iblk3 V c 0 t) (iblk3 V c 1 t) (iblk3 V c 2 t))
        iexact HR
      iexact Hg
    isplitl [Ho]; · iexact Ho
    isplitl [Ha]; · iexact Ha
    isplitl [Hb]; · iexact Hb
    isplitl [Hc]; · iexact Hc
    iexists _; iexact Hd

set_option maxHeartbeats 1600000 in

theorem sound_body3_B (c : Dev nD) (t : Fin cfg3.N) (hm : ¬t.val % 49 = 0) (hl : ¬t.val % 49 = 48) :
    bodyPre3 V c t ⊢ wp frame (wpE (defs₀ (F := F)) Variants.none c none) Set.univ (bodyAt3 t) (fun _ => bodyPost3 V c t) := by
  unfold bodyPre3 bodyPost3
  rw [bodyAt3_eq]
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hca : ¬cond3_0 (grid3.coords t) := fun h => hm ((hcond3_0 t).mp h)
  have hcb : ¬cond3_1 (grid3.coords t) := fun h => hl ((hcond3_1 t).mp h)
  have hz : t.val ≠ 0 := fun e => hm (by rw [e])
  have hlt : t.val - 1 < cfg3.N := Nat.lt_of_le_of_lt (Nat.sub_le _ _) t.isLt
  rw [Dat.leavesExact_idle (dat3 V c) 3 t (idleAt3_3 t hcb) (noFlush3_3 t hcb)]
  · rw [PhiS3_castSucc V c t, PhiS3_pos V c _ _ hz]
    iintro ⟨⟨⟨HS, HR⟩, Hg⟩, Ho, ⟨%da, Ha⟩, ⟨%db, Hb⟩, ⟨%dc, Hc⟩, ⟨%dd, Hd⟩⟩
    iapply ((gatherRun_B c (grid3.coords t) _ _ _ _ _ _ _ _ _ _ hca hcb (iblk3 V c 0 t) (iblk3 V c 1 t) (iblk3 V c 2 t) (acc3 V c (t.val - 1) hlt)).2 _ Set.univ _)
    isplitl [Ha]; · iexact Ha
    isplitl [Hb]; · iexact Hb
    isplitl [Hc]; · iexact Hc
    isplitl [Hd]; · iexact Hd
    isplitl [HS]; · iexact HS
    iintro ⟨Ha, Hb, Hc, Hd, ⟨%es, HS⟩⟩
    isplitl [HS HR Hg]
    · isplitl [HS HR]
      · isplitl [HS]
        · unfold owns; iexists _; isplitr
          swap; · iexact HS
          ipureintro
          rw [acc3_next V c t hm]
          exact (View.read_writes_eq_canon _ _ _ (gatherAccCover_B c (grid3.coords t) _ _ _ _ _ _ _ _ _ _ hca hcb (iblk3 V c 0 t) (iblk3 V c 1 t) (iblk3 V c 2 t) (acc3 V c (t.val - 1) hlt))).trans (gatherAcc_B c (grid3.coords t) _ _ _ _ _ _ _ _ _ _ hca hcb (iblk3 V c 0 t) (iblk3 V c 1 t) (iblk3 V c 2 t) (acc3 V c (t.val - 1) hlt))
        iexact HR
      iexact Hg
    isplitl [Ho]; · iexact Ho
    isplitl [Ha]; · iexact Ha
    isplitl [Hb]; · iexact Hb
    isplitl [Hc]; · iexact Hc
    iexists _; iexact Hd

set_option maxHeartbeats 1600000 in

theorem sound_body3_C (c : Dev nD) (t : Fin cfg3.N) (hl : t.val % 49 = 48) :
    bodyPre3 V c t ⊢ wp frame (wpE (defs₀ (F := F)) Variants.none c none) Set.univ (bodyAt3 t) (fun _ => bodyPost3 V c t) := by
  unfold bodyPre3 bodyPost3
  rw [bodyAt3_eq]
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hm : ¬t.val % 49 = 0 := by omega
  have hca : ¬cond3_0 (grid3.coords t) := fun h => hm ((hcond3_0 t).mp h)
  have hcb : cond3_1 (grid3.coords t) := (hcond3_1 t).mpr hl
  have hz : t.val ≠ 0 := fun e => hm (by rw [e])
  have hlt : t.val - 1 < cfg3.N := Nat.lt_of_le_of_lt (Nat.sub_le _ _) t.isLt
  rw [show (dat3 V c).leavesExact 3 t = owns (c : Thread nD τ) (ms3_3 t) fullShare ((dat3 V c).after 3 t) from by
    unfold Dat.leavesExact; rw [liveAt3_3 t hcb], after3_3]
  · rw [PhiS3_castSucc V c t, PhiS3_pos V c _ _ hz]
    iintro ⟨⟨⟨HS, HR⟩, Hg⟩, Ho, ⟨%da, Ha⟩, ⟨%db, Hb⟩, ⟨%dc, Hc⟩, ⟨%dd, Hd⟩⟩
    iapply ((gatherRun_C c (grid3.coords t) _ _ _ _ _ _ _ _ _ _ hca hcb (iblk3 V c 0 t) (iblk3 V c 1 t) (iblk3 V c 2 t) (acc3 V c (t.val - 1) hlt)).2.2 Set.univ _)
    isplitl [Ha]; · iexact Ha
    isplitl [Hb]; · iexact Hb
    isplitl [Hc]; · iexact Hc
    isplitl [Hd]; · iexists _; iexact Hd
    isplitl [HS]; · iexact HS
    iintro ⟨Ha, Hb, Hc, ⟨%eo, Hd⟩, ⟨%es, HS⟩⟩
    isplitl [HS HR Hg]
    · isplitl [HS HR]
      · isplitl [HS]
        · unfold owns; iexists _; isplitr
          swap; · iexact HS
          ipureintro
          rw [acc3_next V c t hm]
          exact (View.read_writes_eq_canon _ _ _ (gatherAccCover_C c (grid3.coords t) _ _ _ _ _ _ _ _ _ _ hca hcb (iblk3 V c 0 t) (iblk3 V c 1 t) (iblk3 V c 2 t) (acc3 V c (t.val - 1) hlt))).trans
            (gatherAcc_C c (grid3.coords t) _ _ _ _ _ _ _ _ _ _ hca hcb (iblk3 V c 0 t) (iblk3 V c 1 t) (iblk3 V c 2 t) (acc3 V c (t.val - 1) hlt))
        iexact HR
      iexact Hg
    isplitl [Ho]; · iexact Ho
    isplitl [Ha]; · iexact Ha
    isplitl [Hb]; · iexact Hb
    isplitl [Hc]; · iexact Hc
    unfold owns; iexists _; isplitr
    swap; · iexact Hd
    ipureintro
    unfold out3; rw [acc3_next V c t hm]
    exact (View.read_writes_eq_canon _ _ _ (gatherOutCover_C c (grid3.coords t) _ _ _ _ _ _ _ _ _ _ hca hcb (iblk3 V c 0 t) (iblk3 V c 1 t) (iblk3 V c 2 t) (acc3 V c (t.val - 1) hlt))).trans
      (gatherOut_C c (grid3.coords t) _ _ _ _ _ _ _ _ _ _ hca hcb (iblk3 V c 0 t) (iblk3 V c 1 t) (iblk3 V c 2 t) (acc3 V c (t.val - 1) hlt))

theorem sound_body3 (c : Dev nD) (t : Fin cfg3.N) :
    bodyPre3 V c t ⊢ wp frame (wpE (defs₀ (F := F)) Variants.none c none) Set.univ (bodyAt3 t) (fun _ => bodyPost3 V c t) := by
  by_cases hm : t.val % 49 = 0
  · exact sound_body3_A V c t hm
  · by_cases hl : t.val % 49 = 48
    · exact sound_body3_C V c t hl
    · exact sound_body3_B V c t hm hl

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg

theorem hout3 (c : Dev nD) : (dat3 V c).Φ (Fin.last cfg3.N) ⊢ Pipeline.ΦA spec3 c :=
  Phi_out3 V c _ (by rw [Fin.val_last]; have : cfg3.N = 7203 := N_3; omega)

end Cert.Kernel.Rg

end
-- ==== Proof.KR4Run.lean ====
import proofs.«425541_j70411693850858_1_alg».proof.Proof.KR4Defs

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d

theorem before4_1 (c : Dev nD) (t : Fin cfg4.N) (d) : (dat4 V c).before 1 t d = iblk4 V c 1 t :=
  before4_1_of V (dat4 V c) (A_eq4 V c 1) (after4_1 V c) t d

abbrev cond4_0 (i : grid4.Coords) : Prop := (Scalar.cmpi .ne (Scalar.extui (Scalar.cmpi .eq (BitVec.ofNat 32 (i 1).val) 0#32)) 0#32) = 1#1

theorem hcond4_0 : ∀ t : Fin cfg4.N, cond4_0 (grid4.coords t) ↔ t.val % 147 = 0 :=
  (by decide +kernel : ∀ t : Fin grid4.N, cond4_0 (grid4.coords t) ↔ t.val % 147 = 0)

abbrev cond4_1 (i : grid4.Coords) : Prop := k1_cond2 i = 1#1

theorem hcond4_1 : ∀ t : Fin cfg4.N, cond4_1 (grid4.coords t) ↔ t.val % 147 = 146 :=
  (by decide +kernel : ∀ t : Fin grid4.N, cond4_1 (grid4.coords t) ↔ t.val % 147 = 146)

theorem liveAt4_0 (t : Fin cfg4.N) : cfg4.idle 0 (grid4.coords t) = false := rfl
theorem liveAt4_1 (t : Fin cfg4.N) : cfg4.idle 1 (grid4.coords t) = false := rfl

theorem idleAt4_2 (i : grid4.Coords) (h : ¬cond4_1 i) : cfg4.idle 2 i = true := by
  have e : (k1_cond2 i == 1#1) = false := beq_eq_false_iff_ne.mpr h
  show (!(k1_cond2 i == 1#1)) = true
  rw [e]; rfl

theorem liveAt4_2 (i : grid4.Coords) (h : cond4_1 i) : cfg4.idle 2 i = false := by
  have e : (k1_cond2 i == 1#1) = true := beq_iff_eq.mpr h
  show (!(k1_cond2 i == 1#1)) = false
  rw [e]; rfl

theorem noFlush4_2 (t : Fin cfg4.N) (h : ¬t.val % 147 = 146) : (cfg4.win 2).flush t = false :=
  Bool.eq_false_iff.mpr fun hf => h ((flush4_2 t).mp hf)

abbrev ms4_0 (t : Fin cfg4.N) : Memref sig .tc .vmem S1x4096 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S4096x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x128 .f32 := win4_2.stage (cfg4.slots t 2)
abbrev hs4_2 (t : Fin cfg4.N) : (ms4_2 t).IsWhole := hstage4_2 ((cfg4.slots t 2).cast nbuf4_2)

theorem hz4 : (![0, 0] : Fin 2 → Nat) = fun _ => 0 := funext fun a => by fin_cases a <;> rfl

theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-- Every layer's scatter region runs one kernel function: the later layers' printed bodies are this one's text. -/
theorem bodyAt4_eq (t : Fin cfg4.N) : bodyAt4 (F := F) t = cc1__phaseB_kernel (grid4.coords t) (ms4_0 t) (hs4_0 t) (ms4_1 t) (hs4_1 t) (ms4_2 t) (hs4_2 t) scM4 (Memref.isWhole_whole _) := rfl

end Cert.Kernel.Rg

end
-- ==== Proof.KR4Body.lean ====
import proofs.«425541_j70411693850858_1_alg».proof.Proof.KR4Run
import proofs.«425541_j70411693850858_1_alg».proof.Proof.KR1Pcs

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4
  rw [bodyAt4_eq]
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 147 = 0
  · have h1 : ¬t.val % 147 = 146 := by omega
    rw [Dat.leavesExact_idle (dat4 V c) 2 t (idleAt4_2 _ (fun h => h1 ((hcond4_1 t).mp h))) (noFlush4_2 t h1)]
    rw [acc4_first V c t h0]
    by_cases hz : t.val = 0
    · rw [PhiS4_castSucc V c t, PhiS4_zero V c _ _ hz, PhiA4_eq]
      iintro ⟨⟨⟨HS0, Hr⟩, Hg⟩, Ho, ⟨%d0, H0⟩, ⟨%d1, H1⟩, ⟨%d2, H2⟩⟩
      iapply (scatterKernel_A c (grid4.coords t) _ _ _ _ _ _ _ _ ((hcond4_0 t).mpr h0) (fun h => h1 ((hcond4_1 t).mp h)) (iblk4 V c 0 t) (iblk4 V c 1 t) _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
    · rw [PhiS4_castSucc V c t, PhiS4_pos V c _ _ hz]
      iintro ⟨⟨⟨HS0, Hr⟩, Hg⟩, Ho, ⟨%d0, H0⟩, ⟨%d1, H1⟩, ⟨%d2, H2⟩⟩
      iapply (scatterKernel_A c (grid4.coords t) _ _ _ _ _ _ _ _ ((hcond4_0 t).mpr h0) (fun h => h1 ((hcond4_1 t).mp h)) (iblk4 V c 0 t) (iblk4 V c 1 t) _ Set.univ _)
      isplitl [H0]; · iexact H0
      isplitl [H1]; · iexact H1
      isplitl [H2]; · iexact H2
      isplitl [HS0]; · iexists _; iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
  · have hz : t.val ≠ 0 := by omega
    rw [acc4_next V c t h0, PhiS4_castSucc V c t, PhiS4_pos V c _ _ hz]
    by_cases h1 : t.val % 147 = 146
    · rw [show (dat4 V c).leavesExact 2 t = owns (c : Thread nD τ) (ms4_2 t) fullShare ((dat4 V c).after 2 t) from by
        unfold Dat.leavesExact; rw [liveAt4_2 _ ((hcond4_1 t).mpr h1)], after4_2]
      unfold out4
      rw [acc4_next V c t h0]
      iintro ⟨⟨⟨HS0, Hr⟩, Hg⟩, Ho, ⟨%d0, H0⟩, ⟨%d1, H1⟩, ⟨%d2, H2⟩⟩
      iapply (scatterKernel_C c (grid4.coords t) _ _ _ _ _ _ _ _ (fun h => h0 ((hcond4_0 t).mp h)) ((hcond4_1 t).mpr h1) (iblk4 V c 0 t) (iblk4 V c 1 t) _ Set.univ _)
      isplitl [H0]; · iexact H0
      isplitl [H1]; · iexact H1
      isplitl [H2]; · iexists _; iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexact H2
    · rw [Dat.leavesExact_idle (dat4 V c) 2 t (idleAt4_2 _ (fun h => h1 ((hcond4_1 t).mp h))) (noFlush4_2 t h1)]
      iintro ⟨⟨⟨HS0, Hr⟩, Hg⟩, Ho, ⟨%d0, H0⟩, ⟨%d1, H1⟩, ⟨%d2, H2⟩⟩
      iapply (scatterKernel_B c (grid4.coords t) _ _ _ _ _ _ _ _ (fun h => h0 ((hcond4_0 t).mp h)) (fun h => h1 ((hcond4_1 t).mp h)) (iblk4 V c 0 t) (iblk4 V c 1 t) _ _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

theorem hout4 (c : Dev nD) : (dat4 V c).Φ (Fin.last cfg4.N) ⊢ Pipeline.ΦA spec4 c :=
  Phi_out4 V c _ (by rw [Fin.val_last]; have : cfg4.N = 7203 := N_4; omega)

end Cert.Kernel.Rg

end
-- ==== Proof.KR5Body.lean ====
import proofs.«425541_j70411693850858_1_alg».proof.Proof.KR5Defs
import proofs.«425541_j70411693850858_1_alg».proof.Proof.KDense
import Idealize.ShloMosaic.Lib.Pipeline.Value

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- Every layer's dense region runs one kernel function: the later layers' printed bodies are this one's text. -/
theorem bodyAt5_eq (t : Fin cfg5.N) : bodyAt5 (F := F) t = cc2__affine_kernel (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (win5_4.stage (cfg5.slots t 4)) (hstage5_4 ((cfg5.slots t 4).cast nbuf5_4)) (win5_5.stage (cfg5.slots t 5)) (hstage5_5 ((cfg5.slots t 5).cast nbuf5_5)) := rfl

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5
  rw [bodyAt5_eq]
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  unfold out5
  iintro ⟨HΦ, Ho, ⟨%d0, H0⟩, ⟨%d1, H1⟩, ⟨%d2, H2⟩, ⟨%d3, H3⟩, ⟨%d4, H4⟩, ⟨%d5, H5⟩⟩
  iapply (denseKernel c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.Kernel.Rg

end
-- ==== Proof.KR6Run.lean ====
import proofs.«425541_j70411693850858_1_alg».proof.Proof.KR6Defs

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev cond6_0 (i : grid6.Coords) : Prop := (Scalar.cmpi .ne (Scalar.extui (Scalar.cmpi .eq (BitVec.ofNat 32 (i 1).val) 0#32)) 0#32) = 1#1

theorem hcond6_0 : ∀ t : Fin cfg6.N, cond6_0 (grid6.coords t) ↔ t.val % 49 = 0 :=
  (by decide +kernel : ∀ t : Fin grid6.N, cond6_0 (grid6.coords t) ↔ t.val % 49 = 0)

abbrev cond6_1 (i : grid6.Coords) : Prop := k0_cond2 i = 1#1

theorem hcond6_1 : ∀ t : Fin cfg6.N, cond6_1 (grid6.coords t) ↔ t.val % 49 = 48 :=
  (by decide +kernel : ∀ t : Fin grid6.N, cond6_1 (grid6.coords t) ↔ t.val % 49 = 48)

theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl

theorem idleAt6_3 : ∀ t : Fin cfg6.N, ¬cond6_1 (grid6.coords t) → cfg6.idle 3 (grid6.coords t) = true := by
  intro t h
  show (!(k0_cond2 (grid6.coords t) == 1#1)) = true
  rw [Bool.not_eq_true', beq_eq_false_iff_ne]; exact h

theorem noFlush6_3 : ∀ t : Fin cfg6.N, ¬cond6_1 (grid6.coords t) → (cfg6.win 3).flush t = false := by
  intro t h
  rw [Bool.eq_false_iff]; intro hf
  exact h ((hcond6_1 t).mpr ((flush6_3 t).mp hf))

theorem liveAt6_3 : ∀ t : Fin cfg6.N, cond6_1 (grid6.coords t) → cfg6.idle 3 (grid6.coords t) = false := by
  intro t h
  show (!(k0_cond2 (grid6.coords t) == 1#1)) = false
  rw [Bool.not_eq_false', beq_iff_eq]; exact h

abbrev ms6_0 (t : Fin cfg6.N) : Memref sig .tc .vmem S4096x1 .i32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S4096x1 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x128 .bf16 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S4096x128 .bf16 := win6_3.stage (cfg6.slots t 3)
abbrev hs6_3 (t : Fin cfg6.N) : (ms6_3 t).IsWhole := hstage6_3 ((cfg6.slots t 3).cast nbuf6_3)

theorem PhiA6_eq (c : Dev nD) :
    (Pipeline.ΦA spec6 c : sProp 𝕄)
      = iprop(iprop(iprop(∃ d, owns (c : Thread nD τ) scM6 fullShare d)
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl

/-- Every layer's gather region runs one kernel function: the later layers' printed bodies are this one's text. -/
theorem bodyAt6_eq (t : Fin cfg6.N) : bodyAt6 (F := F) t = cc0__phaseA_kernel (grid6.coords t) (ms6_0 t) (hs6_0 t) (ms6_1 t) (hs6_1 t) (ms6_2 t) (hs6_2 t) (ms6_3 t) (hs6_3 t) scM6 (Memref.isWhole_whole _) := rfl

end Cert.Kernel.Rg

end
-- ==== Proof.KR6Body.lean ====
import proofs.«425541_j70411693850858_1_alg».proof.Proof.KR6Run
import proofs.«425541_j70411693850858_1_alg».proof.Proof.KR0Pcs

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 1600000 in

theorem sound_body6_A (c : Dev nD) (t : Fin cfg6.N) (hm : t.val % 49 = 0) :
    bodyPre6 V c t ⊢ wp frame (wpE (defs₀ (F := F)) Variants.none c none) Set.univ (bodyAt6 t) (fun _ => bodyPost6 V c t) := by
  unfold bodyPre6 bodyPost6
  rw [bodyAt6_eq]
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  have hca : cond6_0 (grid6.coords t) := (hcond6_0 t).mpr hm
  have hcb : ¬cond6_1 (grid6.coords t) := fun h => absurd ((hcond6_1 t).mp h) (by omega)
  rw [Dat.leavesExact_idle (dat6 V c) 3 t (idleAt6_3 t hcb) (noFlush6_3 t hcb)]
  by_cases hz : t.val = 0
  · rw [PhiS6_castSucc V c t, PhiS6_zero V c _ _ hz, PhiA6_eq]
    iintro ⟨⟨⟨HS, HR⟩, Hg⟩, Ho, ⟨%da, Ha⟩, ⟨%db, Hb⟩, ⟨%dc, Hc⟩, ⟨%dd, Hd⟩⟩
    iapply ((gatherRun_A c (grid6.coords t) _ _ _ _ _ _ _ _ _ _ hca hcb (iblk6 V c 0 t) (iblk6 V c 1 t) (iblk6 V c 2 t)).2 _ Set.univ _)
    isplitl [Ha]; · iexact Ha
    isplitl [Hb]; · iexact Hb
    isplitl [Hc]; · iexact Hc
    isplitl [Hd]; · iexact Hd
    isplitl [HS]; · iexact HS
    iintro ⟨Ha, Hb, Hc, Hd, ⟨%es, HS⟩⟩
    isplitl [HS HR Hg]
    · isplitl [HS HR]
      · isplitl [HS]
        · unfold owns; iexists _; isplitr
          swap; · iexact HS
          ipureintro
          rw [acc6_first V c t hm]
          exact (View.read_writes_eq_canon _ _ _ (gatherAccCover_A c (grid6.coords t) _ _ _ _ _ _ _ _ _ _ hca hcb (iblk6 V c 0 t) (iblk6 V c 1 t) (iblk6 V c 2 t))).trans (gatherAcc_A c (grid6.coords t) _ _ _ _ _ _ _ _ _ _ hca hcb (iblk6 V c 0 t) (iblk6 V c 1 t) (iblk6 V c 2 t))
        iexact HR
      iexact Hg
    isplitl [Ho]; · iexact Ho
    isplitl [Ha]; · iexact Ha
    isplitl [Hb]; · iexact Hb
    isplitl [Hc]; · iexact Hc
    iexists _; iexact Hd
  · rw [PhiS6_castSucc V c t, PhiS6_pos V c _ _ hz]
    iintro ⟨⟨⟨HS, HR⟩, Hg⟩, Ho, ⟨%da, Ha⟩, ⟨%db, Hb⟩, ⟨%dc, Hc⟩, ⟨%dd, Hd⟩⟩
    iapply ((gatherRun_A c (grid6.coords t) _ _ _ _ _ _ _ _ _ _ hca hcb (iblk6 V c 0 t) (iblk6 V c 1 t) (iblk6 V c 2 t)).2 _ Set.univ _)
    isplitl [Ha]; · iexact Ha
    isplitl [Hb]; · iexact Hb
    isplitl [Hc]; · iexact Hc
    isplitl [Hd]; · iexact Hd
    isplitl [HS]; · iexists _; iexact HS
    iintro ⟨Ha, Hb, Hc, Hd, ⟨%es, HS⟩⟩
    isplitl [HS HR Hg]
    · isplitl [HS HR]
      · isplitl [HS]
        · unfold owns; iexists _; isplitr
          swap; · iexact HS
          ipureintro
          rw [acc6_first V c t hm]
          exact (View.read_writes_eq_canon _ _ _ (gatherAccCover_A c (grid6.coords t) _ _ _ _ _ _ _ _ _ _ hca hcb (iblk6 V c 0 t) (iblk6 V c 1 t) (iblk6 V c 2 t))).trans (gatherAcc_A c (grid6.coords t) _ _ _ _ _ _ _ _ _ _ hca hcb (iblk6 V c 0 t) (iblk6 V c 1 t) (iblk6 V c 2 t))
        iexact HR
      iexact Hg
    isplitl [Ho]; · iexact Ho
    isplitl [Ha]; · iexact Ha
    isplitl [Hb]; · iexact Hb
    isplitl [Hc]; · iexact Hc
    iexists _; iexact Hd

set_option maxHeartbeats 1600000 in

theorem sound_body6_B (c : Dev nD) (t : Fin cfg6.N) (hm : ¬t.val % 49 = 0) (hl : ¬t.val % 49 = 48) :
    bodyPre6 V c t ⊢ wp frame (wpE (defs₀ (F := F)) Variants.none c none) Set.univ (bodyAt6 t) (fun _ => bodyPost6 V c t) := by
  unfold bodyPre6 bodyPost6
  rw [bodyAt6_eq]
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  have hca : ¬cond6_0 (grid6.coords t) := fun h => hm ((hcond6_0 t).mp h)
  have hcb : ¬cond6_1 (grid6.coords t) := fun h => hl ((hcond6_1 t).mp h)
  have hz : t.val ≠ 0 := fun e => hm (by rw [e])
  have hlt : t.val - 1 < cfg6.N := Nat.lt_of_le_of_lt (Nat.sub_le _ _) t.isLt
  rw [Dat.leavesExact_idle (dat6 V c) 3 t (idleAt6_3 t hcb) (noFlush6_3 t hcb)]
  · rw [PhiS6_castSucc V c t, PhiS6_pos V c _ _ hz]
    iintro ⟨⟨⟨HS, HR⟩, Hg⟩, Ho, ⟨%da, Ha⟩, ⟨%db, Hb⟩, ⟨%dc, Hc⟩, ⟨%dd, Hd⟩⟩
    iapply ((gatherRun_B c (grid6.coords t) _ _ _ _ _ _ _ _ _ _ hca hcb (iblk6 V c 0 t) (iblk6 V c 1 t) (iblk6 V c 2 t) (acc6 V c (t.val - 1) hlt)).2 _ Set.univ _)
    isplitl [Ha]; · iexact Ha
    isplitl [Hb]; · iexact Hb
    isplitl [Hc]; · iexact Hc
    isplitl [Hd]; · iexact Hd
    isplitl [HS]; · iexact HS
    iintro ⟨Ha, Hb, Hc, Hd, ⟨%es, HS⟩⟩
    isplitl [HS HR Hg]
    · isplitl [HS HR]
      · isplitl [HS]
        · unfold owns; iexists _; isplitr
          swap; · iexact HS
          ipureintro
          rw [acc6_next V c t hm]
          exact (View.read_writes_eq_canon _ _ _ (gatherAccCover_B c (grid6.coords t) _ _ _ _ _ _ _ _ _ _ hca hcb (iblk6 V c 0 t) (iblk6 V c 1 t) (iblk6 V c 2 t) (acc6 V c (t.val - 1) hlt))).trans (gatherAcc_B c (grid6.coords t) _ _ _ _ _ _ _ _ _ _ hca hcb (iblk6 V c 0 t) (iblk6 V c 1 t) (iblk6 V c 2 t) (acc6 V c (t.val - 1) hlt))
        iexact HR
      iexact Hg
    isplitl [Ho]; · iexact Ho
    isplitl [Ha]; · iexact Ha
    isplitl [Hb]; · iexact Hb
    isplitl [Hc]; · iexact Hc
    iexists _; iexact Hd

set_option maxHeartbeats 1600000 in

theorem sound_body6_C (c : Dev nD) (t : Fin cfg6.N) (hl : t.val % 49 = 48) :
    bodyPre6 V c t ⊢ wp frame (wpE (defs₀ (F := F)) Variants.none c none) Set.univ (bodyAt6 t) (fun _ => bodyPost6 V c t) := by
  unfold bodyPre6 bodyPost6
  rw [bodyAt6_eq]
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  have hm : ¬t.val % 49 = 0 := by omega
  have hca : ¬cond6_0 (grid6.coords t) := fun h => hm ((hcond6_0 t).mp h)
  have hcb : cond6_1 (grid6.coords t) := (hcond6_1 t).mpr hl
  have hz : t.val ≠ 0 := fun e => hm (by rw [e])
  have hlt : t.val - 1 < cfg6.N := Nat.lt_of_le_of_lt (Nat.sub_le _ _) t.isLt
  rw [show (dat6 V c).leavesExact 3 t = owns (c : Thread nD τ) (ms6_3 t) fullShare ((dat6 V c).after 3 t) from by
    unfold Dat.leavesExact; rw [liveAt6_3 t hcb], after6_3]
  · rw [PhiS6_castSucc V c t, PhiS6_pos V c _ _ hz]
    iintro ⟨⟨⟨HS, HR⟩, Hg⟩, Ho, ⟨%da, Ha⟩, ⟨%db, Hb⟩, ⟨%dc, Hc⟩, ⟨%dd, Hd⟩⟩
    iapply ((gatherRun_C c (grid6.coords t) _ _ _ _ _ _ _ _ _ _ hca hcb (iblk6 V c 0 t) (iblk6 V c 1 t) (iblk6 V c 2 t) (acc6 V c (t.val - 1) hlt)).2.2 Set.univ _)
    isplitl [Ha]; · iexact Ha
    isplitl [Hb]; · iexact Hb
    isplitl [Hc]; · iexact Hc
    isplitl [Hd]; · iexists _; iexact Hd
    isplitl [HS]; · iexact HS
    iintro ⟨Ha, Hb, Hc, ⟨%eo, Hd⟩, ⟨%es, HS⟩⟩
    isplitl [HS HR Hg]
    · isplitl [HS HR]
      · isplitl [HS]
        · unfold owns; iexists _; isplitr
          swap; · iexact HS
          ipureintro
          rw [acc6_next V c t hm]
          exact (View.read_writes_eq_canon _ _ _ (gatherAccCover_C c (grid6.coords t) _ _ _ _ _ _ _ _ _ _ hca hcb (iblk6 V c 0 t) (iblk6 V c 1 t) (iblk6 V c 2 t) (acc6 V c (t.val - 1) hlt))).trans
            (gatherAcc_C c (grid6.coords t) _ _ _ _ _ _ _ _ _ _ hca hcb (iblk6 V c 0 t) (iblk6 V c 1 t) (iblk6 V c 2 t) (acc6 V c (t.val - 1) hlt))
        iexact HR
      iexact Hg
    isplitl [Ho]; · iexact Ho
    isplitl [Ha]; · iexact Ha
    isplitl [Hb]; · iexact Hb
    isplitl [Hc]; · iexact Hc
    unfold owns; iexists _; isplitr
    swap; · iexact Hd
    ipureintro
    unfold out6; rw [acc6_next V c t hm]
    exact (View.read_writes_eq_canon _ _ _ (gatherOutCover_C c (grid6.coords t) _ _ _ _ _ _ _ _ _ _ hca hcb (iblk6 V c 0 t) (iblk6 V c 1 t) (iblk6 V c 2 t) (acc6 V c (t.val - 1) hlt))).trans
      (gatherOut_C c (grid6.coords t) _ _ _ _ _ _ _ _ _ _ hca hcb (iblk6 V c 0 t) (iblk6 V c 1 t) (iblk6 V c 2 t) (acc6 V c (t.val - 1) hlt))

theorem sound_body6 (c : Dev nD) (t : Fin cfg6.N) :
    bodyPre6 V c t ⊢ wp frame (wpE (defs₀ (F := F)) Variants.none c none) Set.univ (bodyAt6 t) (fun _ => bodyPost6 V c t) := by
  by_cases hm : t.val % 49 = 0
  · exact sound_body6_A V c t hm
  · by_cases hl : t.val % 49 = 48
    · exact sound_body6_C V c t hl
    · exact sound_body6_B V c t hm hl

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS, HR⟩, Hg⟩
  isplitl [HS HR]
  · isplitl [HS]
    · iexists _; iexact HS
    iexact HR
  iexact Hg

theorem hout6 (c : Dev nD) : (dat6 V c).Φ (Fin.last cfg6.N) ⊢ Pipeline.ΦA spec6 c :=
  Phi_out6 V c _ (by rw [Fin.val_last]; have : cfg6.N = 7203 := N_6; omega)

end Cert.Kernel.Rg

end
-- ==== Proof.KR7Run.lean ====
import proofs.«425541_j70411693850858_1_alg».proof.Proof.KR7Defs

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_0 (c : Dev nD) (t : Fin cfg7.N) (d) : (dat7 V c).before 0 t d = iblk7 V c 0 t :=
  before7_0_of V (dat7 V c) (A_eq7 V c 0) (after7_0 V c) t d

theorem before7_1 (c : Dev nD) (t : Fin cfg7.N) (d) : (dat7 V c).before 1 t d = iblk7 V c 1 t :=
  before7_1_of V (dat7 V c) (A_eq7 V c 1) (after7_1 V c) t d

abbrev cond7_0 (i : grid7.Coords) : Prop := (Scalar.cmpi .ne (Scalar.extui (Scalar.cmpi .eq (BitVec.ofNat 32 (i 1).val) 0#32)) 0#32) = 1#1

theorem hcond7_0 : ∀ t : Fin cfg7.N, cond7_0 (grid7.coords t) ↔ t.val % 147 = 0 :=
  (by decide +kernel : ∀ t : Fin grid7.N, cond7_0 (grid7.coords t) ↔ t.val % 147 = 0)

abbrev cond7_1 (i : grid7.Coords) : Prop := k1_cond2 i = 1#1

theorem hcond7_1 : ∀ t : Fin cfg7.N, cond7_1 (grid7.coords t) ↔ t.val % 147 = 146 :=
  (by decide +kernel : ∀ t : Fin grid7.N, cond7_1 (grid7.coords t) ↔ t.val % 147 = 146)

theorem liveAt7_0 (t : Fin cfg7.N) : cfg7.idle 0 (grid7.coords t) = false := rfl
theorem liveAt7_1 (t : Fin cfg7.N) : cfg7.idle 1 (grid7.coords t) = false := rfl

theorem idleAt7_2 (i : grid7.Coords) (h : ¬cond7_1 i) : cfg7.idle 2 i = true := by
  have e : (k1_cond2 i == 1#1) = false := beq_eq_false_iff_ne.mpr h
  show (!(k1_cond2 i == 1#1)) = true
  rw [e]; rfl

theorem liveAt7_2 (i : grid7.Coords) (h : cond7_1 i) : cfg7.idle 2 i = false := by
  have e : (k1_cond2 i == 1#1) = true := beq_iff_eq.mpr h
  show (!(k1_cond2 i == 1#1)) = false
  rw [e]; rfl

theorem noFlush7_2 (t : Fin cfg7.N) (h : ¬t.val % 147 = 146) : (cfg7.win 2).flush t = false :=
  Bool.eq_false_iff.mpr fun hf => h ((flush7_2 t).mp hf)

abbrev ms7_0 (t : Fin cfg7.N) : Memref sig .tc .vmem S1x4096 .i32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S4096x128 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1024x128 .f32 := win7_2.stage (cfg7.slots t 2)
abbrev hs7_2 (t : Fin cfg7.N) : (ms7_2 t).IsWhole := hstage7_2 ((cfg7.slots t 2).cast nbuf7_2)

theorem hz7 : (![0, 0] : Fin 2 → Nat) = fun _ => 0 := funext fun a => by fin_cases a <;> rfl

theorem PhiA7_eq (c : Dev nD) :
    (Pipeline.ΦA spec7 c : sProp 𝕄)
      = iprop(iprop((∃ d, owns (c : Thread nD τ) scM7 fullShare d)
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7, owns_whole]; try rfl

/-- Every layer's scatter region runs one kernel function: the later layers' printed bodies are this one's text. -/
theorem bodyAt7_eq (t : Fin cfg7.N) : bodyAt7 (F := F) t = cc1__phaseB_kernel (grid7.coords t) (ms7_0 t) (hs7_0 t) (ms7_1 t) (hs7_1 t) (ms7_2 t) (hs7_2 t) scM7 (Memref.isWhole_whole _) := rfl

end Cert.Kernel.Rg

end
-- ==== Proof.KR7Body.lean ====
import proofs.«425541_j70411693850858_1_alg».proof.Proof.KR7Run
import proofs.«425541_j70411693850858_1_alg».proof.Proof.KR1Pcs

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7
  rw [bodyAt7_eq]
  simp only [before7_0, before7_1]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  by_cases h0 : t.val % 147 = 0
  · have h1 : ¬t.val % 147 = 146 := by omega
    rw [Dat.leavesExact_idle (dat7 V c) 2 t (idleAt7_2 _ (fun h => h1 ((hcond7_1 t).mp h))) (noFlush7_2 t h1)]
    rw [acc7_first V c t h0]
    by_cases hz : t.val = 0
    · rw [PhiS7_castSucc V c t, PhiS7_zero V c _ _ hz, PhiA7_eq]
      iintro ⟨⟨⟨HS0, Hr⟩, Hg⟩, Ho, ⟨%d0, H0⟩, ⟨%d1, H1⟩, ⟨%d2, H2⟩⟩
      iapply (scatterKernel_A c (grid7.coords t) _ _ _ _ _ _ _ _ ((hcond7_0 t).mpr h0) (fun h => h1 ((hcond7_1 t).mp h)) (iblk7 V c 0 t) (iblk7 V c 1 t) _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
    · rw [PhiS7_castSucc V c t, PhiS7_pos V c _ _ hz]
      iintro ⟨⟨⟨HS0, Hr⟩, Hg⟩, Ho, ⟨%d0, H0⟩, ⟨%d1, H1⟩, ⟨%d2, H2⟩⟩
      iapply (scatterKernel_A c (grid7.coords t) _ _ _ _ _ _ _ _ ((hcond7_0 t).mpr h0) (fun h => h1 ((hcond7_1 t).mp h)) (iblk7 V c 0 t) (iblk7 V c 1 t) _ Set.univ _)
      isplitl [H0]; · iexact H0
      isplitl [H1]; · iexact H1
      isplitl [H2]; · iexact H2
      isplitl [HS0]; · iexists _; iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
  · have hz : t.val ≠ 0 := by omega
    rw [acc7_next V c t h0, PhiS7_castSucc V c t, PhiS7_pos V c _ _ hz]
    by_cases h1 : t.val % 147 = 146
    · rw [show (dat7 V c).leavesExact 2 t = owns (c : Thread nD τ) (ms7_2 t) fullShare ((dat7 V c).after 2 t) from by
        unfold Dat.leavesExact; rw [liveAt7_2 _ ((hcond7_1 t).mpr h1)], after7_2]
      unfold out7
      rw [acc7_next V c t h0]
      iintro ⟨⟨⟨HS0, Hr⟩, Hg⟩, Ho, ⟨%d0, H0⟩, ⟨%d1, H1⟩, ⟨%d2, H2⟩⟩
      iapply (scatterKernel_C c (grid7.coords t) _ _ _ _ _ _ _ _ (fun h => h0 ((hcond7_0 t).mp h)) ((hcond7_1 t).mpr h1) (iblk7 V c 0 t) (iblk7 V c 1 t) _ Set.univ _)
      isplitl [H0]; · iexact H0
      isplitl [H1]; · iexact H1
      isplitl [H2]; · iexists _; iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexact H2
    · rw [Dat.leavesExact_idle (dat7 V c) 2 t (idleAt7_2 _ (fun h => h1 ((hcond7_1 t).mp h))) (noFlush7_2 t h1)]
      iintro ⟨⟨⟨HS0, Hr⟩, Hg⟩, Ho, ⟨%d0, H0⟩, ⟨%d1, H1⟩, ⟨%d2, H2⟩⟩
      iapply (scatterKernel_B c (grid7.coords t) _ _ _ _ _ _ _ _ (fun h => h0 ((hcond7_0 t).mp h)) (fun h => h1 ((hcond7_1 t).mp h)) (iblk7 V c 0 t) (iblk7 V c 1 t) _ _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS0, Hr⟩, Hg⟩
  isplitl [HS0 Hr]
  · isplitl [HS0]
    · iexists _; iexact HS0
    iexact Hr
  iexact Hg

theorem hout7 (c : Dev nD) : (dat7 V c).Φ (Fin.last cfg7.N) ⊢ Pipeline.ΦA spec7 c :=
  Phi_out7 V c _ (by rw [Fin.val_last]; have : cfg7.N = 7203 := N_7; omega)

end Cert.Kernel.Rg

end
-- ==== Proof.KR8Body.lean ====
import proofs.«425541_j70411693850858_1_alg».proof.Proof.KR8Defs
import proofs.«425541_j70411693850858_1_alg».proof.Proof.KDense
import Idealize.ShloMosaic.Lib.Pipeline.Value

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- Every layer's dense region runs one kernel function: the later layers' printed bodies are this one's text. -/
theorem bodyAt8_eq (t : Fin cfg8.N) : bodyAt8 (F := F) t = cc2__affine_kernel (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (win8_3.stage (cfg8.slots t 3)) (hstage8_3 ((cfg8.slots t 3).cast nbuf8_3)) (win8_4.stage (cfg8.slots t 4)) (hstage8_4 ((cfg8.slots t 4).cast nbuf8_4)) (win8_5.stage (cfg8.slots t 5)) (hstage8_5 ((cfg8.slots t 5).cast nbuf8_5)) := rfl

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8
  rw [bodyAt8_eq]
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  unfold out8
  iintro ⟨HΦ, Ho, ⟨%d0, H0⟩, ⟨%d1, H1⟩, ⟨%d2, H2⟩, ⟨%d3, H3⟩, ⟨%d4, H4⟩, ⟨%d5, H5⟩⟩
  iapply (denseKernel c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation8 (c : Dev nD) : BodyObligation (dat8 (F := F) V c) (defs₀ (F := F)) Variants.none () Set.univ := fun t => by
  rw [bigSep_W8, bigSep_W8]
  exact sound_body8 V c t

end Cert.Kernel.Rg

end
-- ==== Proof.Bridge.lean ====
import Idealize.ShloMosaic.Lib.ValueIdx
import Mathlib.Algebra.BigOperators.Fin

set_option maxRecDepth 16384

noncomputable section

open scoped BigOperators

namespace Cert.Bridge

open Idealize.ShloMosaic Idealize.ShloMosaic.ValueIdx

theorem allOnes_ne_ofNat (n : Fin 50176) : (4294967295#32 : BitVec 32) ≠ BitVec.ofNat 32 n.val := by
  intro h
  have h2 := congrArg BitVec.toNat h
  simp only [BitVec.toNat_ofNat] at h2
  have := n.isLt
  omega

theorem ofNat_inj_of_lt {a b : ℕ} (ha : a < 50176) (hb : b < 50176) (h : BitVec.ofNat 32 a = BitVec.ofNat 32 b) : a = b := by
  have h2 := congrArg BitVec.toNat h
  simp only [BitVec.toNat_ofNat] at h2
  omega

theorem sum_pad (f : Fin 600000 → EReal) :
    (∑ e : Fin 602112, (if h : e.val < 600000 then f ⟨e.val, h⟩ else 0)) = ∑ e : Fin 600000, f e := by
  have hs := Fin.sum_univ_add (a := 600000) (b := 2112)
    (fun e : Fin (600000 + 2112) => (if h : e.val < 600000 then f ⟨e.val, h⟩ else (0 : EReal)))
  refine (hs : (∑ e : Fin 602112, (if h : e.val < 600000 then f ⟨e.val, h⟩ else 0)) = _).trans ?_
  have h1 : (∑ i : Fin 600000, (if h : (Fin.castAdd 2112 i).val < 600000 then f ⟨(Fin.castAdd 2112 i).val, h⟩ else (0 : EReal)))
      = ∑ e : Fin 600000, f e :=
    Finset.sum_congr rfl fun i _ => by
      have hi : (Fin.castAdd 2112 i).val < 600000 := by rw [Fin.coe_castAdd]; exact i.isLt
      rw [dif_pos hi]
      exact congrArg f (Fin.ext (Fin.coe_castAdd 2112 i))
  have h2 : (∑ i : Fin 2112, (if h : (Fin.natAdd 600000 i).val < 600000 then f ⟨(Fin.natAdd 600000 i).val, h⟩ else (0 : EReal))) = 0 :=
    Finset.sum_eq_zero fun i _ => by
      have hi : ¬ (Fin.natAdd 600000 i).val < 600000 := by rw [Fin.coe_natAdd]; omega
      rw [dif_neg hi]
  rw [h1, h2, add_zero]

abbrev S602112x1 : Shape := ⟨2, ![602112, 1]⟩
abbrev S1x602112 : Shape := ⟨2, ![1, 602112]⟩
abbrev S50176x128 : Shape := ⟨2, ![50176, 128]⟩
abbrev S602112x128 : Shape := ⟨2, ![602112, 128]⟩
abbrev S128x128 : Shape := ⟨2, ![128, 128]⟩
abbrev S1x128 : Shape := ⟨2, ![1, 128]⟩
abbrev S2x600000 : Shape := ⟨2, ![2, 600000]⟩
abbrev S600000 : Shape := ⟨1, ![600000]⟩
abbrev S50000x128 : Shape := ⟨2, ![50000, 128]⟩
abbrev S128 : Shape := ⟨1, ![128]⟩

abbrev up (n : Fin 50000) : Fin 50176 := ⟨n.val, by have := n.isLt; omega⟩

section Layer

variable (col : S602112x1.Idx → BitVec 32) (row : S1x602112.Idx → BitVec 32) (wgt : S602112x1.Idx → EReal)
  (Xin : S50176x128.Idx → EReal) (msgs : S602112x128.Idx → EReal) (agg aggc out : S50176x128.Idx → EReal)
  (Wl Wr : S128x128.Idx → EReal) (b : S1x128.Idx → EReal)
  (ei : S2x600000.Idx → BitVec 32) (w : S600000.Idx → EReal) (XR : S50000x128.Idx → EReal)
  (WlR WrR : S128x128.Idx → EReal) (bR : S128.Idx → EReal)
  (colN : Fin 600000 → Fin 50000)

theorem msgs_eq
    (hcol : ∀ e : Fin 600000, ei (ix2 1 e) = BitVec.ofNat 32 (colN e).val)
    (hcolp : ∀ e : Fin 602112, col (ix2 e 0) = if h : e.val < 600000 then ei (ix2 1 ⟨e.val, h⟩) else 4294967295#32)
    (hwp : ∀ e : Fin 602112, wgt (ix2 e 0) = if h : e.val < 600000 then w (ix1 ⟨e.val, h⟩) else 0)
    (hX : ∀ (n : Fin 50000) (j : Fin 128), Xin (ix2 (up n) j) = XR (ix2 n j))
    (hit : ∀ (e : Fin 602112) (j : Fin 128) (n₀ : Fin 50176), col (ix2 e 0) = BitVec.ofNat 32 n₀.val →
      msgs (ix2 e j) = Xin (ix2 n₀ j) * wgt (ix2 e 0))
    (miss : ∀ (e : Fin 602112) (j : Fin 128), (∀ n : Fin 50176, col (ix2 e 0) ≠ BitVec.ofNat 32 n.val) →
      msgs (ix2 e j) = 0 * wgt (ix2 e 0))
    (e : Fin 602112) (j : Fin 128) :
    msgs (ix2 e j) = if h : e.val < 600000 then XR (ix2 (colN ⟨e.val, h⟩) j) * w (ix1 ⟨e.val, h⟩) else 0 := by
  by_cases he : e.val < 600000
  · rw [dif_pos he]
    have hc : col (ix2 e 0) = BitVec.ofNat 32 (up (colN ⟨e.val, he⟩)).val := by
      rw [hcolp e, dif_pos he, hcol ⟨e.val, he⟩]
    rw [hit e j (up (colN ⟨e.val, he⟩)) hc, hX, hwp e, dif_pos he]
  · rw [dif_neg he]
    have hc : ∀ n : Fin 50176, col (ix2 e 0) ≠ BitVec.ofNat 32 n.val := by
      intro n; rw [hcolp e, dif_neg he]; exact allOnes_ne_ofNat n
    rw [miss e j hc, zero_mul]

theorem agg_eq
    (hrowp : ∀ e : Fin 602112, row (ix2 0 e) = if h : e.val < 600000 then ei (ix2 0 ⟨e.val, h⟩) else 4294967295#32)
    (hmsgs : ∀ (e : Fin 602112) (j : Fin 128),
      msgs (ix2 e j) = if h : e.val < 600000 then XR (ix2 (colN ⟨e.val, h⟩) j) * w (ix1 ⟨e.val, h⟩) else 0)
    (hagg : ∀ (n : Fin 50176) (j : Fin 128), agg (ix2 n j)
      = ∑ e : Fin 602112, (if row (ix2 0 e) = BitVec.ofNat 32 n.val then msgs (ix2 e j) else 0))
    (n : Fin 50000) (j : Fin 128) :
    agg (ix2 (up n) j)
      = ∑ e : Fin 600000, (if ei (ix2 0 e) = BitVec.ofNat 32 n.val then XR (ix2 (colN e) j) * w (ix1 e) else 0) := by
  rw [hagg (up n) j, ← sum_pad]
  refine Finset.sum_congr rfl fun e _ => ?_
  by_cases he : e.val < 600000
  · rw [dif_pos he, hrowp e, dif_pos he, hmsgs e j, dif_pos he]
  · rw [dif_neg he, hrowp e, dif_neg he, if_neg (allOnes_ne_ofNat (up n))]

def closed (n : Fin 50000) (j : Fin 128) : EReal :=
  max ((∑ k : Fin 128, (∑ e : Fin 600000, (if ei (ix2 0 e) = BitVec.ofNat 32 n.val then XR (ix2 (colN e) k) * w (ix1 e) else 0)) * WlR (ix2 k j))
      + (∑ k : Fin 128, XR (ix2 n k) * WrR (ix2 k j)) + bR (ix1 j)) 0

theorem layer_eq
    (hcol : ∀ e : Fin 600000, ei (ix2 1 e) = BitVec.ofNat 32 (colN e).val)
    (hcolp : ∀ e : Fin 602112, col (ix2 e 0) = if h : e.val < 600000 then ei (ix2 1 ⟨e.val, h⟩) else 4294967295#32)
    (hrowp : ∀ e : Fin 602112, row (ix2 0 e) = if h : e.val < 600000 then ei (ix2 0 ⟨e.val, h⟩) else 4294967295#32)
    (hwp : ∀ e : Fin 602112, wgt (ix2 e 0) = if h : e.val < 600000 then w (ix1 ⟨e.val, h⟩) else 0)
    (hX : ∀ (n : Fin 50000) (j : Fin 128), Xin (ix2 (up n) j) = XR (ix2 n j))
    (hit : ∀ (e : Fin 602112) (j : Fin 128) (n₀ : Fin 50176), col (ix2 e 0) = BitVec.ofNat 32 n₀.val →
      msgs (ix2 e j) = Xin (ix2 n₀ j) * wgt (ix2 e 0))
    (miss : ∀ (e : Fin 602112) (j : Fin 128), (∀ n : Fin 50176, col (ix2 e 0) ≠ BitVec.ofNat 32 n.val) →
      msgs (ix2 e j) = 0 * wgt (ix2 e 0))
    (hagg : ∀ (n : Fin 50176) (j : Fin 128), agg (ix2 n j)
      = ∑ e : Fin 602112, (if row (ix2 0 e) = BitVec.ofNat 32 n.val then msgs (ix2 e j) else 0))
    (haggc : ∀ i, aggc i = agg i)
    (hout : ∀ (n : Fin 50176) (j : Fin 128), out (ix2 n j)
      = max ((∑ k : Fin 128, aggc (ix2 n k) * Wl (ix2 k j)) + (∑ k : Fin 128, Xin (ix2 n k) * Wr (ix2 k j)) + b (ix2 0 j)) 0)
    (hWl : ∀ i, Wl i = WlR i) (hWr : ∀ i, Wr i = WrR i) (hb : ∀ j : Fin 128, b (ix2 0 j) = bR (ix1 j))
    (n : Fin 50000) (j : Fin 128) :
    out (ix2 (up n) j) = closed ei w XR WlR WrR bR colN n j := by
  unfold closed
  have hm := msgs_eq col wgt Xin msgs ei w XR colN hcol hcolp hwp hX hit miss
  have ha := agg_eq row msgs agg ei w XR colN hrowp hm hagg
  have e1 : (∑ k : Fin 128, aggc (ix2 (up n) k) * Wl (ix2 k j))
      = ∑ k : Fin 128, (∑ e : Fin 600000, (if ei (ix2 0 e) = BitVec.ofNat 32 n.val then XR (ix2 (colN e) k) * w (ix1 e) else 0)) * WlR (ix2 k j) :=
    Finset.sum_congr rfl fun k _ => by rw [haggc, ha n k, hWl]
  have e2 : (∑ k : Fin 128, Xin (ix2 (up n) k) * Wr (ix2 k j)) = ∑ k : Fin 128, XR (ix2 n k) * WrR (ix2 k j) :=
    Finset.sum_congr rfl fun k _ => by rw [hX n k, hWr]
  rw [hout (up n) j, hb j, e1, e2]

end Layer

end Cert.Bridge

end
-- ==== Proof.HostIn.lean ====
import proofs.«425541_j70411693850858_1_alg».proof.Proof.Chain
import proofs.«425541_j70411693850858_1_alg».proof.Proof.Gen.KernelIdeal.Regions
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Layout
variable {α : Type}

theorem hostRow_apply (r : Nat) (hr : r < 2) (x1 : S2x600000.Idx → α) (hs : S2x600000.Slices ![r, 0] S1x600000)
    (hc : S1x600000.ShapeCasts S600000) (k : Fin 600000) :
    shapeCast S600000 (extractStridedSlice S1x600000 ![r, 0] x1 hs) hc (ix1 k) = x1 (ix2 ⟨r, hr⟩ k) := by
  refine (shapeCast_apply _ hc (ix1 k) (ix2 (0 : Fin 1) k) ?_).trans ?_
  · rw [Shape.rowMajor_val_two, Shape.rowMajor_val_one]
    show 0 * 600000 + k.val = k.val
    omega
  · exact extractStridedSlice_apply ![r, 0] x1 hs (ix2 (0 : Fin 1) k) (ix2 ⟨r, hr⟩ k) (fun a => match a with
      | ⟨0, _⟩ => by show r = r + 0; omega
      | ⟨1, _⟩ => by show k.val = 0 + k.val; omega)

theorem hostFill_apply (z : S_.Idx → α) (hb : S_.BroadcastsInDim S2112 (![] : Fin 0 → Fin S2112.rank)) (j : S2112.Idx) :
    broadcastInDim S2112 ![] hb z j = z ix0 :=
  broadcastInDim_apply _ hb z j ix0 (fun a => a.elim0)

theorem hostCat_apply (a : S600000.Idx → α) (b : S2112.Idx → α)
    (h : Shape.Concatenates [S600000, S2112] S602112 0) (e : Fin 602112) :
    concatenate S602112 0 [⟨S600000, a⟩, ⟨S2112, b⟩] h (ix1 e)
      = if h' : e.val < 600000 then a (ix1 ⟨e.val, h'⟩) else b (ix1 ⟨e.val - 600000, by have := e.isLt; omega⟩) := by
  by_cases h' : e.val < 600000
  · rw [dif_pos h']
    exact concatenate_pair_apply_left _ a b h (ix1 e) rfl (ix1 ⟨e.val, h'⟩) (fun b => match b with | ⟨0, _⟩ => rfl)
  · rw [dif_neg h']
    exact concatenate_pair_apply_right _ a b h (ix1 e) rfl rfl (ix1 ⟨e.val - 600000, by have := e.isLt; omega⟩)
      (fun b hb => match b with | ⟨0, _⟩ => absurd rfl hb)
      (by show e.val - 600000 + 600000 = e.val; omega)

theorem hostCol_apply (y : S602112.Idx → α) (h : S602112.ShapeCasts S602112x1) (e : Fin 602112) :
    shapeCast S602112x1 y h (ix2 e (0 : Fin 1)) = y (ix1 e) :=
  shapeCast_apply y h (ix2 e (0 : Fin 1)) (ix1 e) (by
    rw [Shape.rowMajor_val_two, Shape.rowMajor_val_one]
    show e.val = e.val * 1 + 0
    omega)

theorem hostRowv_apply (y : S602112.Idx → α) (h : S602112.ShapeCasts S1x602112) (e : Fin 602112) :
    shapeCast S1x602112 y h (ix2 (0 : Fin 1) e) = y (ix1 e) :=
  shapeCast_apply y h (ix2 (0 : Fin 1) e) (ix1 e) (by
    rw [Shape.rowMajor_val_two, Shape.rowMajor_val_one]
    show e.val = 0 * 602112 + e.val
    omega)

theorem hostPadRows_apply (x : S50000x128.Idx → α) (v : S_.Idx → α)
    (h : S50000x128.Pads (![0, 0] : Fin 2 → Nat) ![176, 0] ![0, 0] S50176x128) (hu : 0 < S_.numel)
    (n : Fin 50176) (j : Fin 128) :
    pad S50176x128 ![0, 0] ![176, 0] ![0, 0] x v h hu (ix2 n j)
      = if h' : n.val < 50000 then x (ix2 ⟨n.val, h'⟩ j) else v ix0 := by
  by_cases h' : n.val < 50000
  · rw [dif_pos h']
    exact pad_apply_of_inside _ _ _ x v h hu (ix2 n j) (ix2 ⟨n.val, h'⟩ j) (fun a => match a with
      | ⟨0, _⟩ => by show n.val = 0 + n.val * (0 + 1); omega
      | ⟨1, _⟩ => by show j.val = 0 + j.val * (0 + 1); omega)
  · rw [dif_neg h', pad_apply_of_not_inside _ _ _ x v h hu (ix2 n j) (0 : Fin 2) (by
      show ¬(0 ≤ n.val ∧ (n.val - 0) % (0 + 1) = 0 ∧ (n.val - 0) / (0 + 1) < 50000)
      omega)]
    exact congrArg v (eq_ix0 _)

theorem hostIdxFlat_apply (r : Nat) (hr : r < 2) (x1 : S2x600000.Idx → α) (z : S_.Idx → α)
    (hs : S2x600000.Slices ![r, 0] S1x600000) (hc : S1x600000.ShapeCasts S600000)
    (hb : S_.BroadcastsInDim S2112 (![] : Fin 0 → Fin S2112.rank))
    (hcat : Shape.Concatenates [S600000, S2112] S602112 0) (e : Fin 602112) :
    concatenate S602112 0
        [⟨S600000, shapeCast S600000 (extractStridedSlice S1x600000 ![r, 0] x1 hs) hc⟩,
         ⟨S2112, broadcastInDim S2112 ![] hb z⟩] hcat (ix1 e)
      = if h : e.val < 600000 then x1 (ix2 ⟨r, hr⟩ ⟨e.val, h⟩) else z ix0 := by
  rw [hostCat_apply]
  by_cases h : e.val < 600000
  · rw [dif_pos h, dif_pos h]
    exact hostRow_apply r hr x1 hs hc _
  · rw [dif_neg h, dif_neg h]
    exact hostFill_apply z hb _

theorem hostWgtFlat_apply (x2 : S600000.Idx → α) (z : S_.Idx → α)
    (hb : S_.BroadcastsInDim S2112 (![] : Fin 0 → Fin S2112.rank))
    (hcat : Shape.Concatenates [S600000, S2112] S602112 0) (e : Fin 602112) :
    concatenate S602112 0 [⟨S600000, x2⟩, ⟨S2112, broadcastInDim S2112 ![] hb z⟩] hcat (ix1 e)
      = if h : e.val < 600000 then x2 (ix1 ⟨e.val, h⟩) else z ix0 := by
  rw [hostCat_apply]
  by_cases h : e.val < 600000
  · rw [dif_pos h, dif_pos h]
  · rw [dif_neg h, dif_neg h]
    exact hostFill_apply z hb _

theorem hostSitofp_zero : FloatOps.sitofp (F := Ideal) .f32 (0#32) = 0 := by
  show (((0#32 : BitVec 32).toInt : ℝ) : EReal) = 0
  rw [show (0#32 : BitVec 32).toInt = 0 from rfl, Int.cast_zero, EReal.coe_zero]

end Layout

section Keep
variable {F : FTy → Type} [FloatOps F]
variable (m : (ℓ : Loc nD τ sig) → Buf (Elt F) ℓ)

theorem hin_W1_of (c : Dev nD) (r : Ref sig .tc) (h : r ∉ hostOps0_W) :
    W1 m c (Proc.devRef .tc r) = W0 m c (Proc.devRef .tc r) :=
  StableHlo.after_of_writes_sub hostOps0 _ hostOps0_writes h
theorem hin_W2_of (c : Dev nD) (r : Ref sig .tc) (h : r ∉ hostOps0_1_W) :
    W2 m c (Proc.devRef .tc r) = W1 m c (Proc.devRef .tc r) :=
  StableHlo.after_of_writes_sub hostOps0_1 _ hostOps0_1_writes h
theorem hin_W3_of (c : Dev nD) (r : Ref sig .tc) (h : r ∉ hostOps0_2_W) :
    W3 m c (Proc.devRef .tc r) = W2 m c (Proc.devRef .tc r) :=
  StableHlo.after_of_writes_sub hostOps0_2 _ hostOps0_2_writes h
theorem hin_W6_of (c : Dev nD) (r : Ref sig .tc) (h : r ∉ hostOps2_W) :
    W6 m c (Proc.devRef .tc r) = W5 m c (Proc.devRef .tc r) :=
  StableHlo.after_of_writes_sub hostOps2 _ hostOps2_writes h
theorem hin_W8_of (c : Dev nD) (r : Ref sig .tc) (h : r ∉ hostOps3_W) :
    W8 m c (Proc.devRef .tc r) = W7 m c (Proc.devRef .tc r) :=
  StableHlo.after_of_writes_sub hostOps3 _ hostOps3_writes h
theorem hin_W11_of (c : Dev nD) (r : Ref sig .tc) (h : r ∉ hostOps5_W) :
    W11 m c (Proc.devRef .tc r) = W10 m c (Proc.devRef .tc r) :=
  StableHlo.after_of_writes_sub hostOps5 _ hostOps5_writes h
theorem hin_W13_of (c : Dev nD) (r : Ref sig .tc) (h : r ∉ hostOps6_W) :
    W13 m c (Proc.devRef .tc r) = W12 m c (Proc.devRef .tc r) :=
  StableHlo.after_of_writes_sub hostOps6 _ hostOps6_writes h

theorem hin_W4_v10 (c : Dev nD) : W4 m c (Proc.devRef .tc main_v10) = W3 m c (Proc.devRef .tc main_v10) :=
  (W4_arr m c 0).trans (((dat0 (V3 m) c).arrAt_in 0 rfl _).trans (A_eq0 (V3 m) c 0))
theorem hin_W8_v10 (c : Dev nD) : W8 m c (Proc.devRef .tc main_v10) = W3 m c (Proc.devRef .tc main_v10) :=
  (hin_W8_of m c main_v10 (by decide)).trans <| (W7_of_ne m c main_v10 (by decide)).trans <|
    (hin_W6_of m c main_v10 (by decide)).trans <| (W5_of_ne m c main_v10 (by decide)).trans (hin_W4_v10 m c)
theorem hin_W9_v10 (c : Dev nD) : W9 m c (Proc.devRef .tc main_v10) = W8 m c (Proc.devRef .tc main_v10) :=
  (W9_arr m c 0).trans (((dat3 (V8 m) c).arrAt_in 0 rfl _).trans (A_eq3 (V8 m) c 0))
theorem hin_W13_v10 (c : Dev nD) : W13 m c (Proc.devRef .tc main_v10) = W3 m c (Proc.devRef .tc main_v10) :=
  (hin_W13_of m c main_v10 (by decide)).trans <| (W12_of_ne m c main_v10 (by decide)).trans <|
    (hin_W11_of m c main_v10 (by decide)).trans <| (W10_of_ne m c main_v10 (by decide)).trans <|
    (hin_W9_v10 m c).trans (hin_W8_v10 m c)

theorem keep_v10_8 (c : Dev nD) : V8 m c main_v10 = V3 m c main_v10 := hin_W8_v10 m c
theorem keep_v10_13 (c : Dev nD) : V13 m c main_v10 = V3 m c main_v10 := hin_W13_v10 m c

theorem hin_W4_v12 (c : Dev nD) : W4 m c (Proc.devRef .tc main_v12) = W3 m c (Proc.devRef .tc main_v12) :=
  (W4_arr m c 1).trans (((dat0 (V3 m) c).arrAt_in 1 rfl _).trans (A_eq0 (V3 m) c 1))
theorem hin_W8_v12 (c : Dev nD) : W8 m c (Proc.devRef .tc main_v12) = W3 m c (Proc.devRef .tc main_v12) :=
  (hin_W8_of m c main_v12 (by decide)).trans <| (W7_of_ne m c main_v12 (by decide)).trans <|
    (hin_W6_of m c main_v12 (by decide)).trans <| (W5_of_ne m c main_v12 (by decide)).trans (hin_W4_v12 m c)
theorem hin_W9_v12 (c : Dev nD) : W9 m c (Proc.devRef .tc main_v12) = W8 m c (Proc.devRef .tc main_v12) :=
  (W9_arr m c 1).trans (((dat3 (V8 m) c).arrAt_in 1 rfl _).trans (A_eq3 (V8 m) c 1))
theorem hin_W13_v12 (c : Dev nD) : W13 m c (Proc.devRef .tc main_v12) = W3 m c (Proc.devRef .tc main_v12) :=
  (hin_W13_of m c main_v12 (by decide)).trans <| (W12_of_ne m c main_v12 (by decide)).trans <|
    (hin_W11_of m c main_v12 (by decide)).trans <| (W10_of_ne m c main_v12 (by decide)).trans <|
    (hin_W9_v12 m c).trans (hin_W8_v12 m c)

theorem keep_v12_8 (c : Dev nD) : V8 m c main_v12 = V3 m c main_v12 := hin_W8_v12 m c
theorem keep_v12_13 (c : Dev nD) : V13 m c main_v12 = V3 m c main_v12 := hin_W13_v12 m c

theorem hin_W4_v11 (c : Dev nD) : W4 m c (Proc.devRef .tc main_v11) = W3 m c (Proc.devRef .tc main_v11) :=
  W4_of_ne m c main_v11 (by decide)
theorem hin_W5_v11 (c : Dev nD) : W5 m c (Proc.devRef .tc main_v11) = W4 m c (Proc.devRef .tc main_v11) :=
  (W5_arr m c 0).trans (((dat1 (V4 m) c).arrAt_in 0 rfl _).trans (A_eq1 (V4 m) c 0))
theorem hin_W9_v11 (c : Dev nD) : W9 m c (Proc.devRef .tc main_v11) = W3 m c (Proc.devRef .tc main_v11) :=
  (W9_of_ne m c main_v11 (by decide)).trans <| (hin_W8_of m c main_v11 (by decide)).trans <|
    (W7_of_ne m c main_v11 (by decide)).trans <| (hin_W6_of m c main_v11 (by decide)).trans <|
    (hin_W5_v11 m c).trans (hin_W4_v11 m c)
theorem hin_W10_v11 (c : Dev nD) : W10 m c (Proc.devRef .tc main_v11) = W9 m c (Proc.devRef .tc main_v11) :=
  (W10_arr m c 0).trans (((dat4 (V9 m) c).arrAt_in 0 rfl _).trans (A_eq4 (V9 m) c 0))
theorem hin_W14_v11 (c : Dev nD) : W14 m c (Proc.devRef .tc main_v11) = W3 m c (Proc.devRef .tc main_v11) :=
  (W14_of_ne m c main_v11 (by decide)).trans <| (hin_W13_of m c main_v11 (by decide)).trans <|
    (W12_of_ne m c main_v11 (by decide)).trans <| (hin_W11_of m c main_v11 (by decide)).trans <|
    (hin_W10_v11 m c).trans (hin_W9_v11 m c)

theorem keep_v11_4 (c : Dev nD) : V4 m c main_v11 = V3 m c main_v11 := hin_W4_v11 m c
theorem keep_v11_9 (c : Dev nD) : V9 m c main_v11 = V3 m c main_v11 := hin_W9_v11 m c
theorem keep_v11_14 (c : Dev nD) : V14 m c main_v11 = V3 m c main_v11 := hin_W14_v11 m c

theorem hin_W4_v14 (c : Dev nD) : W4 m c (Proc.devRef .tc main_v14) = W3 m c (Proc.devRef .tc main_v14) :=
  (W4_arr m c 2).trans (((dat0 (V3 m) c).arrAt_in 2 rfl _).trans (A_eq0 (V3 m) c 2))
theorem hin_W6_v14 (c : Dev nD) : W6 m c (Proc.devRef .tc main_v14) = W3 m c (Proc.devRef .tc main_v14) :=
  (hin_W6_of m c main_v14 (by decide)).trans <| (W5_of_ne m c main_v14 (by decide)).trans (hin_W4_v14 m c)

theorem keep_v14_6 (c : Dev nD) : V6 m c main_v14 = V3 m c main_v14 := hin_W6_v14 m c

end Keep

section Read
variable (m : (ℓ : Loc nD τ sig) → Buf (Elt Ideal) ℓ)

theorem hin_W1_v10_eq (c : Dev nD) :
    (W1 m c (Proc.devRef .tc main_v10) : S602112x1.Idx → BitVec 32)
      = shapeCast S602112x1
          (concatenate S602112 0
            [⟨S600000, shapeCast S600000 (extractStridedSlice S1x600000 ![1, 0]
                (m ((c.tc : Thread nD τ).loc main_arg1) : S2x600000.Idx → BitVec 32) slices_S2x600000_S1x600000_1_0)
                shapeCasts_S1x600000_S600000⟩,
             ⟨S2112, broadcastInDim S2112 ![] bcast_S_S2112 (constantI S_ 32 4294967295#32)⟩]
            concatenates_S600000_S2112_S602112_d0)
          shapeCasts_S602112_S602112x1 := by
  show StableHlo.after hostOps0 _ (Proc.devRef .tc main_v10) = _
  after_results <;> rfl

theorem hin_W1_v11_eq (c : Dev nD) :
    (W1 m c (Proc.devRef .tc main_v11) : S1x602112.Idx → BitVec 32)
      = shapeCast S1x602112
          (concatenate S602112 0
            [⟨S600000, shapeCast S600000 (extractStridedSlice S1x600000 ![0, 0]
                (m ((c.tc : Thread nD τ).loc main_arg1) : S2x600000.Idx → BitVec 32) slices_S2x600000_S1x600000_0_0)
                shapeCasts_S1x600000_S600000⟩,
             ⟨S2112, broadcastInDim S2112 ![] bcast_S_S2112 (constantI S_ 32 4294967295#32)⟩]
            concatenates_S600000_S2112_S602112_d0)
          shapeCasts_S602112_S1x602112 := by
  show StableHlo.after hostOps0 _ (Proc.devRef .tc main_v11) = _
  after_results <;> rfl

theorem hin_W1_v12_eq (c : Dev nD) :
    (W1 m c (Proc.devRef .tc main_v12) : S602112x1.Idx → EReal)
      = shapeCast S602112x1
          (concatenate S602112 0
            [⟨S600000, (m ((c.tc : Thread nD τ).loc main_arg2) : S600000.Idx → EReal)⟩,
             ⟨S2112, broadcastInDim S2112 ![] bcast_S_S2112 (constant (F := Ideal) S_ .f32 0x00000000#32)⟩]
            concatenates_S600000_S2112_S602112_d0)
          shapeCasts_S602112_S602112x1 := by
  show StableHlo.after hostOps0 _ (Proc.devRef .tc main_v12) = _
  after_results <;> rfl

theorem hin_W1_c_1_eq (c : Dev nD) :
    (W1 m c (Proc.devRef .tc main_c_1) : S_.Idx → BitVec 32) = constantI S_ 32 0#32 := by
  show StableHlo.after hostOps0 _ (Proc.devRef .tc main_c_1) = _
  after_results <;> rfl

theorem hin_W2_v13_eq (c : Dev nD) :
    (W2 m c (Proc.devRef .tc main_v13) : S50176x128.Idx → EReal)
      = pad S50176x128 ![0, 0] ![176, 0] ![0, 0] (W1 m c (Proc.devRef .tc main_arg0) : S50000x128.Idx → EReal)
          (sitofp (F := Ideal) .f32 (W1 m c (Proc.devRef .tc main_c_1) : S_.Idx → BitVec 32))
          pads_S50000x128_S50176x128_01760_000 h_S_ := by
  show StableHlo.after hostOps0_1 (W1 m c) (Proc.devRef .tc main_v13) = _
  generalize W1 m c = Wv
  after_results <;> rfl

theorem hin_W3_v14_eq (c : Dev nD) :
    (W3 m c (Proc.devRef .tc main_v14) : S50176x128.Idx → EReal)
      = truncf (F := Ideal) .bf16 (W2 m c (Proc.devRef .tc main_v13) : S50176x128.Idx → EReal) bitsLt_bf16_f32 := by
  show StableHlo.after hostOps0_2 (W2 m c) (Proc.devRef .tc main_v14) = _
  generalize W2 m c = Wv
  after_results <;> rfl

theorem colIdx_apply (c : Dev nD) (e : Fin 602112) :
    (V3 m c main_v10 : S602112x1.Idx → BitVec 32) (ValueIdx.ix2 e 0)
      = if h : e.val < 600000 then
          (m ((c.tc : Thread nD τ).loc main_arg1) : S2x600000.Idx → BitVec 32) (ValueIdx.ix2 1 ⟨e.val, h⟩)
        else 4294967295#32 := by
  have e3 : (V3 m c main_v10 : S602112x1.Idx → BitVec 32) = (W1 m c (Proc.devRef .tc main_v10) : S602112x1.Idx → BitVec 32) :=
    (hin_W3_of m c main_v10 (by decide)).trans (hin_W2_of m c main_v10 (by decide))
  rw [e3, hin_W1_v10_eq]
  generalize (m ((c.tc : Thread nD τ).loc main_arg1) : S2x600000.Idx → BitVec 32) = x1
  rw [hostCol_apply, hostIdxFlat_apply 1 (by decide)]
  rfl

theorem rowIdx_apply (c : Dev nD) (e : Fin 602112) :
    (V3 m c main_v11 : S1x602112.Idx → BitVec 32) (ValueIdx.ix2 0 e)
      = if h : e.val < 600000 then
          (m ((c.tc : Thread nD τ).loc main_arg1) : S2x600000.Idx → BitVec 32) (ValueIdx.ix2 0 ⟨e.val, h⟩)
        else 4294967295#32 := by
  have e3 : (V3 m c main_v11 : S1x602112.Idx → BitVec 32) = (W1 m c (Proc.devRef .tc main_v11) : S1x602112.Idx → BitVec 32) :=
    (hin_W3_of m c main_v11 (by decide)).trans (hin_W2_of m c main_v11 (by decide))
  rw [e3, hin_W1_v11_eq]
  generalize (m ((c.tc : Thread nD τ).loc main_arg1) : S2x600000.Idx → BitVec 32) = x1
  rw [hostRowv_apply, hostIdxFlat_apply 0 (by decide)]
  rfl

theorem wgt_apply (c : Dev nD) (e : Fin 602112) :
    (V3 m c main_v12 : S602112x1.Idx → EReal) (ValueIdx.ix2 e 0)
      = if h : e.val < 600000 then
          (m ((c.tc : Thread nD τ).loc main_arg2) : S600000.Idx → EReal) (ValueIdx.ix1 ⟨e.val, h⟩)
        else (0 : EReal) := by
  have e3 : (V3 m c main_v12 : S602112x1.Idx → EReal) = (W1 m c (Proc.devRef .tc main_v12) : S602112x1.Idx → EReal) :=
    (hin_W3_of m c main_v12 (by decide)).trans (hin_W2_of m c main_v12 (by decide))
  rw [e3, hin_W1_v12_eq]
  generalize (m ((c.tc : Thread nD τ).loc main_arg2) : S600000.Idx → EReal) = x2
  rw [hostCol_apply, hostWgtFlat_apply]
  by_cases h : e.val < 600000
  · rw [dif_pos h, dif_pos h]
  · rw [dif_neg h, dif_neg h]
    show Ideal.ofBits .f32 0x00000000#32 = 0
    exact Ideal.ofBits_zero_f32

theorem xpad_apply (c : Dev nD) (n : Fin 50176) (j : Fin 128) :
    (V3 m c main_v14 : S50176x128.Idx → EReal) (ValueIdx.ix2 n j)
      = if h : n.val < 50000 then
          (m ((c.tc : Thread nD τ).loc main_arg0) : S50000x128.Idx → EReal) (ValueIdx.ix2 ⟨n.val, h⟩ j)
        else (0 : EReal) := by
  have e0 : (W1 m c (Proc.devRef .tc main_arg0) : S50000x128.Idx → EReal)
      = (m ((c.tc : Thread nD τ).loc main_arg0) : S50000x128.Idx → EReal) := hin_W1_of m c main_arg0 (by decide)
  show (W3 m c (Proc.devRef .tc main_v14) : S50176x128.Idx → EReal) (ValueIdx.ix2 n j) = _
  rw [hin_W3_v14_eq, hin_W2_v13_eq, e0, hin_W1_c_1_eq]
  generalize (m ((c.tc : Thread nD τ).loc main_arg0) : S50000x128.Idx → EReal) = x0
  rw [truncf_apply, hostPadRows_apply]
  by_cases h : n.val < 50000
  · rw [dif_pos h, dif_pos h]
  · rw [dif_neg h, dif_neg h]
    exact hostSitofp_zero

end Read

end Cert.KernelIdeal.Rg

end
-- ==== Proof.HostMid.lean ====
import proofs.«425541_j70411693850858_1_alg».proof.Proof.Chain
import proofs.«425541_j70411693850858_1_alg».proof.Proof.Gen.KernelIdeal.Regions
import Idealize.ShloMosaic.Lib.Pipeline.Value
import Idealize.ShloMosaic.Lib.ValueLayout
import Idealize.ShloMosaic.Lib.ValueIdx
import Idealize.ShloMosaic.PureOps.Ideal

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Generic

variable {F : FTy → Type} [FloatOps F]
variable (m : (ℓ : Loc nD τ sig) → Buf (Elt F) ℓ)

theorem hm_hostOps2_main_v17 (G : Valuation τ sig (Elt F)) :
    (StableHlo.after hostOps2 G (Proc.devRef .tc main_v17) : FVec F S50176x128 .bf16)
      = truncf .bf16 (G (Proc.devRef .tc main_v16) : FVec F S50176x128 .f32) bitsLt_bf16_f32 := by
  after_results <;> rfl
theorem hm_hostOps2_main_v18 (G : Valuation τ sig (Elt F)) :
    (StableHlo.after hostOps2 G (Proc.devRef .tc main_v18) : FVec F S128x128 .bf16)
      = truncf .bf16 (G (Proc.devRef .tc main_arg3) : FVec F S128x128 .f32) bitsLt_bf16_f32 := by
  after_results <;> rfl
theorem hm_hostOps2_main_v19 (G : Valuation τ sig (Elt F)) :
    (StableHlo.after hostOps2 G (Proc.devRef .tc main_v19) : FVec F S128x128 .bf16)
      = truncf .bf16 (G (Proc.devRef .tc main_arg4) : FVec F S128x128 .f32) bitsLt_bf16_f32 := by
  after_results <;> rfl
theorem hm_hostOps2_main_v20 (G : Valuation τ sig (Elt F)) :
    (StableHlo.after hostOps2 G (Proc.devRef .tc main_v20) : FVec F S1x128 .f32)
      = shapeCast S1x128 (G (Proc.devRef .tc main_arg5) : FVec F S128 .f32) shapeCasts_S128_S1x128 := by
  after_results <;> rfl

theorem hm_hostOps3_main_v22 (G : Valuation τ sig (Elt F)) :
    (StableHlo.after hostOps3 G (Proc.devRef .tc main_v22) : FVec F S50176x128 .bf16)
      = truncf .bf16 (G (Proc.devRef .tc main_v21) : FVec F S50176x128 .f32) bitsLt_bf16_f32 := by
  after_results <;> rfl

theorem hm_hostOps5_main_v25 (G : Valuation τ sig (Elt F)) :
    (StableHlo.after hostOps5 G (Proc.devRef .tc main_v25) : FVec F S50176x128 .bf16)
      = truncf .bf16 (G (Proc.devRef .tc main_v24) : FVec F S50176x128 .f32) bitsLt_bf16_f32 := by
  after_results <;> rfl
theorem hm_hostOps5_main_v26 (G : Valuation τ sig (Elt F)) :
    (StableHlo.after hostOps5 G (Proc.devRef .tc main_v26) : FVec F S128x128 .bf16)
      = truncf .bf16 (G (Proc.devRef .tc main_arg6) : FVec F S128x128 .f32) bitsLt_bf16_f32 := by
  after_results <;> rfl
theorem hm_hostOps5_main_v27 (G : Valuation τ sig (Elt F)) :
    (StableHlo.after hostOps5 G (Proc.devRef .tc main_v27) : FVec F S128x128 .bf16)
      = truncf .bf16 (G (Proc.devRef .tc main_arg7) : FVec F S128x128 .f32) bitsLt_bf16_f32 := by
  after_results <;> rfl
theorem hm_hostOps5_main_v28 (G : Valuation τ sig (Elt F)) :
    (StableHlo.after hostOps5 G (Proc.devRef .tc main_v28) : FVec F S1x128 .f32)
      = shapeCast S1x128 (G (Proc.devRef .tc main_arg8) : FVec F S128 .f32) shapeCasts_S128_S1x128 := by
  after_results <;> rfl

theorem hm_hostOps6_main_v30 (G : Valuation τ sig (Elt F)) :
    (StableHlo.after hostOps6 G (Proc.devRef .tc main_v30) : FVec F S50176x128 .bf16)
      = truncf .bf16 (G (Proc.devRef .tc main_v29) : FVec F S50176x128 .f32) bitsLt_bf16_f32 := by
  after_results <;> rfl

theorem hm_hostOps8_main_v33 (G : Valuation τ sig (Elt F)) :
    (StableHlo.after hostOps8 G (Proc.devRef .tc main_v33) : FVec F S50176x128 .bf16)
      = truncf .bf16 (G (Proc.devRef .tc main_v32) : FVec F S50176x128 .f32) bitsLt_bf16_f32 := by
  after_results <;> rfl
theorem hm_hostOps8_main_v34 (G : Valuation τ sig (Elt F)) :
    (StableHlo.after hostOps8 G (Proc.devRef .tc main_v34) : FVec F S128x128 .bf16)
      = truncf .bf16 (G (Proc.devRef .tc main_arg9) : FVec F S128x128 .f32) bitsLt_bf16_f32 := by
  after_results <;> rfl
theorem hm_hostOps8_main_v35 (G : Valuation τ sig (Elt F)) :
    (StableHlo.after hostOps8 G (Proc.devRef .tc main_v35) : FVec F S128x128 .bf16)
      = truncf .bf16 (G (Proc.devRef .tc main_arg10) : FVec F S128x128 .f32) bitsLt_bf16_f32 := by
  after_results <;> rfl
theorem hm_hostOps8_main_v36 (G : Valuation τ sig (Elt F)) :
    (StableHlo.after hostOps8 G (Proc.devRef .tc main_v36) : FVec F S1x128 .f32)
      = shapeCast S1x128 (G (Proc.devRef .tc main_arg11) : FVec F S128 .f32) shapeCasts_S128_S1x128 := by
  after_results <;> rfl

theorem hm_keep1 (c : Dev nD) (r : Ref sig .tc) (h : r ∉ hostOps0_W) :
    W1 m c (Proc.devRef .tc r) = W0 m c (Proc.devRef .tc r) :=
  StableHlo.after_of_writes_sub hostOps0 _ hostOps0_writes h
theorem hm_keep2 (c : Dev nD) (r : Ref sig .tc) (h : r ∉ hostOps0_1_W) :
    W2 m c (Proc.devRef .tc r) = W1 m c (Proc.devRef .tc r) :=
  StableHlo.after_of_writes_sub hostOps0_1 _ hostOps0_1_writes h
theorem hm_keep3 (c : Dev nD) (r : Ref sig .tc) (h : r ∉ hostOps0_2_W) :
    W3 m c (Proc.devRef .tc r) = W2 m c (Proc.devRef .tc r) :=
  StableHlo.after_of_writes_sub hostOps0_2 _ hostOps0_2_writes h
theorem hm_keep6 (c : Dev nD) (r : Ref sig .tc) (h : r ∉ hostOps2_W) :
    W6 m c (Proc.devRef .tc r) = W5 m c (Proc.devRef .tc r) :=
  StableHlo.after_of_writes_sub hostOps2 _ hostOps2_writes h
theorem hm_keep8 (c : Dev nD) (r : Ref sig .tc) (h : r ∉ hostOps3_W) :
    W8 m c (Proc.devRef .tc r) = W7 m c (Proc.devRef .tc r) :=
  StableHlo.after_of_writes_sub hostOps3 _ hostOps3_writes h
theorem hm_keep11 (c : Dev nD) (r : Ref sig .tc) (h : r ∉ hostOps5_W) :
    W11 m c (Proc.devRef .tc r) = W10 m c (Proc.devRef .tc r) :=
  StableHlo.after_of_writes_sub hostOps5 _ hostOps5_writes h
theorem hm_keep13 (c : Dev nD) (r : Ref sig .tc) (h : r ∉ hostOps6_W) :
    W13 m c (Proc.devRef .tc r) = W12 m c (Proc.devRef .tc r) :=
  StableHlo.after_of_writes_sub hostOps6 _ hostOps6_writes h
theorem hm_keep16 (c : Dev nD) (r : Ref sig .tc) (h : r ∉ hostOps8_W) :
    W16 m c (Proc.devRef .tc r) = W15 m c (Proc.devRef .tc r) :=
  StableHlo.after_of_writes_sub hostOps8 _ hostOps8_writes h

abbrev hm_free5 (r : Ref sig .tc) : Prop :=
  r ∉ hostOps0_W ∧ r ∉ hostOps0_1_W ∧ r ∉ hostOps0_2_W ∧ (∀ w, Pipeline.arrRef spec0 w ≠ r) ∧ (∀ w, Pipeline.arrRef spec1 w ≠ r)

abbrev hm_free10 (r : Ref sig .tc) : Prop :=
  r ∉ hostOps2_W ∧ (∀ w, Pipeline.arrRef spec2 w ≠ r) ∧ r ∉ hostOps3_W ∧ (∀ w, Pipeline.arrRef spec3 w ≠ r) ∧ (∀ w, Pipeline.arrRef spec4 w ≠ r)

abbrev hm_free15 (r : Ref sig .tc) : Prop :=
  r ∉ hostOps5_W ∧ (∀ w, Pipeline.arrRef spec5 w ≠ r) ∧ r ∉ hostOps6_W ∧ (∀ w, Pipeline.arrRef spec6 w ≠ r) ∧ (∀ w, Pipeline.arrRef spec7 w ≠ r)

abbrev hm_free17 (r : Ref sig .tc) : Prop :=
  r ∉ hostOps8_W ∧ (∀ w, Pipeline.arrRef spec8 w ≠ r)

theorem hm_launch5 (c : Dev nD) (r : Ref sig .tc) (h : hm_free5 r) :
    W5 m c (Proc.devRef .tc r) = m ((c : Thread nD τ).loc r) :=
  (W5_of_ne m c r h.2.2.2.2).trans <| (W4_of_ne m c r h.2.2.2.1).trans <| (hm_keep3 m c r h.2.2.1).trans <|
    (hm_keep2 m c r h.2.1).trans <| (hm_keep1 m c r h.1).trans rfl
theorem hm_launch10 (c : Dev nD) (r : Ref sig .tc) (h5 : hm_free5 r) (h : hm_free10 r) :
    W10 m c (Proc.devRef .tc r) = m ((c : Thread nD τ).loc r) :=
  (W10_of_ne m c r h.2.2.2.2).trans <| (W9_of_ne m c r h.2.2.2.1).trans <| (hm_keep8 m c r h.2.2.1).trans <|
    (W7_of_ne m c r h.2.1).trans <| (hm_keep6 m c r h.1).trans (hm_launch5 m c r h5)
theorem hm_launch15 (c : Dev nD) (r : Ref sig .tc) (h5 : hm_free5 r) (h10 : hm_free10 r) (h : hm_free15 r) :
    W15 m c (Proc.devRef .tc r) = m ((c : Thread nD τ).loc r) :=
  (W15_of_ne m c r h.2.2.2.2).trans <| (W14_of_ne m c r h.2.2.2.1).trans <| (hm_keep13 m c r h.2.2.1).trans <|
    (W12_of_ne m c r h.2.1).trans <| (hm_keep11 m c r h.1).trans (hm_launch10 m c r h5 h10)
theorem hm_launch17 (c : Dev nD) (r : Ref sig .tc) (h5 : hm_free5 r) (h10 : hm_free10 r) (h15 : hm_free15 r)
    (h : hm_free17 r) : W17 m c (Proc.devRef .tc r) = m ((c : Thread nD τ).loc r) :=
  (W17_of_ne m c r h.2).trans <| (hm_keep16 m c r h.1).trans (hm_launch15 m c r h5 h10 h15)

theorem msgs_1 (c : Dev nD) : V4 m c main_v15 = (dat0 (V3 m) c).arrAt 3 cfg0.N := W4_arr m c 3
theorem msgs_2 (c : Dev nD) : V9 m c main_v23 = (dat3 (V8 m) c).arrAt 3 cfg3.N := W9_arr m c 3
theorem msgs_3 (c : Dev nD) : V14 m c main_v31 = (dat6 (V13 m) c).arrAt 3 cfg6.N := W14_arr m c 3

theorem xin_2_F (c : Dev nD) : V11 m c main_v22 = V8 m c main_v22 :=
  (hm_keep11 m c main_v22 (by decide)).trans <| (W10_of_ne m c main_v22 (by decide)).trans <|
    (W9_arr m c 2).trans <| (Pipeline.Dat.arrAt_in (dat3 (V8 m) c) 2 rfl cfg3.N).trans (A_eq3 (V8 m) c 2)
theorem xin_3_F (c : Dev nD) : V16 m c main_v30 = V13 m c main_v30 :=
  (hm_keep16 m c main_v30 (by decide)).trans <| (W15_of_ne m c main_v30 (by decide)).trans <|
    (W14_arr m c 2).trans <| (Pipeline.Dat.arrAt_in (dat6 (V13 m) c) 2 rfl cfg6.N).trans (A_eq6 (V13 m) c 2)

end Generic

section AtIdeal

variable (m : (ℓ : Loc nD τ sig) → Buf (Elt Ideal) ℓ)

theorem hm_trunc_apply {s : Shape} (x : s.Idx → EReal) (i : s.Idx) :
    (truncf (F := Ideal) (φ := .f32) .bf16 x bitsLt_bf16_f32 : s.Idx → EReal) i = x i := rfl

theorem agg_1 (c : Dev nD) (i : S50176x128.Idx) :
    (V6 m c main_v17 : S50176x128.Idx → EReal) i
      = ((dat1 (V4 m) c).arrAt 2 cfg1.N : S50176x128.Idx → EReal) i :=
  (congrFun (hm_hostOps2_main_v17 (W5 m c)) i).trans
    ((hm_trunc_apply _ i).trans (congrFun (W5_arr m c 2) i))
theorem agg_2 (c : Dev nD) (i : S50176x128.Idx) :
    (V11 m c main_v25 : S50176x128.Idx → EReal) i
      = ((dat4 (V9 m) c).arrAt 2 cfg4.N : S50176x128.Idx → EReal) i :=
  (congrFun (hm_hostOps5_main_v25 (W10 m c)) i).trans
    ((hm_trunc_apply _ i).trans (congrFun (W10_arr m c 2) i))
theorem agg_3 (c : Dev nD) (i : S50176x128.Idx) :
    (V16 m c main_v33 : S50176x128.Idx → EReal) i
      = ((dat7 (V14 m) c).arrAt 2 cfg7.N : S50176x128.Idx → EReal) i :=
  (congrFun (hm_hostOps8_main_v33 (W15 m c)) i).trans
    ((hm_trunc_apply _ i).trans (congrFun (W15_arr m c 2) i))

theorem wl_1 (c : Dev nD) (i : S128x128.Idx) :
    (V6 m c main_v18 : S128x128.Idx → EReal) i = (m ((c : Thread nD τ).loc main_arg3) : S128x128.Idx → EReal) i :=
  (congrFun (hm_hostOps2_main_v18 (W5 m c)) i).trans
    ((hm_trunc_apply _ i).trans (congrFun (hm_launch5 m c main_arg3 (by decide)) i))
theorem wr_1 (c : Dev nD) (i : S128x128.Idx) :
    (V6 m c main_v19 : S128x128.Idx → EReal) i = (m ((c : Thread nD τ).loc main_arg4) : S128x128.Idx → EReal) i :=
  (congrFun (hm_hostOps2_main_v19 (W5 m c)) i).trans
    ((hm_trunc_apply _ i).trans (congrFun (hm_launch5 m c main_arg4 (by decide)) i))
theorem b_1 (c : Dev nD) (j : Fin 128) :
    (V6 m c main_v20 : S1x128.Idx → EReal) (ValueIdx.ix2 0 j)
      = (m ((c : Thread nD τ).loc main_arg5) : S128.Idx → EReal) (ValueIdx.ix1 j) :=
  (congrFun (hm_hostOps2_main_v20 (W5 m c)) (ValueIdx.ix2 0 j)).trans
    ((ValueIdx.shapeCast_a_1a_apply _ shapeCasts_S128_S1x128 0 j).trans
      (congrFun (hm_launch5 m c main_arg5 (by decide)) (ValueIdx.ix1 j)))

theorem wl_2 (c : Dev nD) (i : S128x128.Idx) :
    (V11 m c main_v26 : S128x128.Idx → EReal) i = (m ((c : Thread nD τ).loc main_arg6) : S128x128.Idx → EReal) i :=
  (congrFun (hm_hostOps5_main_v26 (W10 m c)) i).trans
    ((hm_trunc_apply _ i).trans (congrFun (hm_launch10 m c main_arg6 (by decide) (by decide)) i))
theorem wr_2 (c : Dev nD) (i : S128x128.Idx) :
    (V11 m c main_v27 : S128x128.Idx → EReal) i = (m ((c : Thread nD τ).loc main_arg7) : S128x128.Idx → EReal) i :=
  (congrFun (hm_hostOps5_main_v27 (W10 m c)) i).trans
    ((hm_trunc_apply _ i).trans (congrFun (hm_launch10 m c main_arg7 (by decide) (by decide)) i))
theorem b_2 (c : Dev nD) (j : Fin 128) :
    (V11 m c main_v28 : S1x128.Idx → EReal) (ValueIdx.ix2 0 j)
      = (m ((c : Thread nD τ).loc main_arg8) : S128.Idx → EReal) (ValueIdx.ix1 j) :=
  (congrFun (hm_hostOps5_main_v28 (W10 m c)) (ValueIdx.ix2 0 j)).trans
    ((ValueIdx.shapeCast_a_1a_apply _ shapeCasts_S128_S1x128 0 j).trans
      (congrFun (hm_launch10 m c main_arg8 (by decide) (by decide)) (ValueIdx.ix1 j)))

theorem wl_3 (c : Dev nD) (i : S128x128.Idx) :
    (V16 m c main_v34 : S128x128.Idx → EReal) i = (m ((c : Thread nD τ).loc main_arg9) : S128x128.Idx → EReal) i :=
  (congrFun (hm_hostOps8_main_v34 (W15 m c)) i).trans
    ((hm_trunc_apply _ i).trans (congrFun (hm_launch15 m c main_arg9 (by decide) (by decide) (by decide)) i))
theorem wr_3 (c : Dev nD) (i : S128x128.Idx) :
    (V16 m c main_v35 : S128x128.Idx → EReal) i = (m ((c : Thread nD τ).loc main_arg10) : S128x128.Idx → EReal) i :=
  (congrFun (hm_hostOps8_main_v35 (W15 m c)) i).trans
    ((hm_trunc_apply _ i).trans (congrFun (hm_launch15 m c main_arg10 (by decide) (by decide) (by decide)) i))
theorem b_3 (c : Dev nD) (j : Fin 128) :
    (V16 m c main_v36 : S1x128.Idx → EReal) (ValueIdx.ix2 0 j)
      = (m ((c : Thread nD τ).loc main_arg11) : S128.Idx → EReal) (ValueIdx.ix1 j) :=
  (congrFun (hm_hostOps8_main_v36 (W15 m c)) (ValueIdx.ix2 0 j)).trans
    ((ValueIdx.shapeCast_a_1a_apply _ shapeCasts_S128_S1x128 0 j).trans
      (congrFun (hm_launch15 m c main_arg11 (by decide) (by decide) (by decide)) (ValueIdx.ix1 j)))

theorem xin_2 (c : Dev nD) (i : S50176x128.Idx) :
    (V8 m c main_v22 : S50176x128.Idx → EReal) i
      = ((dat2 (V6 m) c).arrAt 5 cfg2.N : S50176x128.Idx → EReal) i :=
  (congrFun (hm_hostOps3_main_v22 (W7 m c)) i).trans
    ((hm_trunc_apply _ i).trans (congrFun (W7_arr m c 5) i))
theorem xin_3 (c : Dev nD) (i : S50176x128.Idx) :
    (V13 m c main_v30 : S50176x128.Idx → EReal) i
      = ((dat5 (V11 m) c).arrAt 5 cfg5.N : S50176x128.Idx → EReal) i :=
  (congrFun (hm_hostOps6_main_v30 (W12 m c)) i).trans
    ((hm_trunc_apply _ i).trans (congrFun (W12_arr m c 5) i))

end AtIdeal

end Cert.KernelIdeal.Rg

end
-- ==== Proof.R0Pts.lean ====
import proofs.«425541_j70411693850858_1_alg».proof.Proof.R0Defs
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

theorem idx0_facts : ∀ t : Fin cfg0.N,
    win0_0.index t (0 : Fin 2) = t.val / 49 ∧ win0_0.index t (1 : Fin 2) = 0
    ∧ win0_1.index t (0 : Fin 2) = t.val / 49 ∧ win0_1.index t (1 : Fin 2) = 0
    ∧ win0_2.index t (0 : Fin 2) = t.val % 49 ∧ win0_2.index t (1 : Fin 2) = 0
    ∧ win0_3.index t (0 : Fin 2) = t.val / 49 ∧ win0_3.index t (1 : Fin 2) = 0
    ∧ (grid0.coords t 1).val = t.val % 49 :=
  (by decide +kernel : ∀ t : Fin grid0.N, _)

abbrev blk0_col (c : Dev nD) (t : Fin cfg0.N) : Vec F S4096x1 .i32 := iblk0 V c 0 t
abbrev blk0_wt (c : Dev nD) (t : Fin cfg0.N) : Vec F S4096x1 .f32 := iblk0 V c 1 t
abbrev blk0_x (c : Dev nD) (t : Fin cfg0.N) : Vec F S1024x128 .bf16 := iblk0 V c 2 t
abbrev G0_col (c : Dev nD) : Vec F S602112x1 .i32 := V c (Pipeline.arrRef spec0 0)
abbrev G0_wt (c : Dev nD) : Vec F S602112x1 .f32 := V c (Pipeline.arrRef spec0 1)
abbrev G0_x (c : Dev nD) : Vec F S50176x128 .bf16 := V c (Pipeline.arrRef spec0 2)

theorem blk0_col_apply (c : Dev nD) (t : Fin cfg0.N) (p : Fin 4096) (e : Fin 602112)
    (he : e.val = 4096 * (t.val / 49) + p.val) :
    blk0_col V c t (ix2 p 0) = G0_col V c (ix2 e 0) := by
  obtain ⟨ha, hb, -⟩ := idx0_facts t
  show ((cfg0.win 0).blk t).view.read (Elt F) (V c (Pipeline.arrRef spec0 0)) (ix2 p 0) = _
  rw [View.read_apply]
  show (V c (Pipeline.arrRef spec0 0) : S602112x1.Idx → Elt F .i32) _ = (V c (Pipeline.arrRef spec0 0) : S602112x1.Idx → Elt F .i32) (ix2 e 0)
  refine congrArg (V c (Pipeline.arrRef spec0 0) : S602112x1.Idx → Elt F .i32) (funext fun a => Fin.ext ?_)
  match a with
  | ⟨0, _⟩ => show win0_0.index t (0 : Fin 2) * 4096 + 1 * p.val = e.val; omega
  | ⟨1, _⟩ => show win0_0.index t (1 : Fin 2) * 1 + 1 * 0 = 0; omega

theorem blk0_wt_apply (c : Dev nD) (t : Fin cfg0.N) (p : Fin 4096) (e : Fin 602112)
    (he : e.val = 4096 * (t.val / 49) + p.val) :
    blk0_wt V c t (ix2 p 0) = G0_wt V c (ix2 e 0) := by
  obtain ⟨-, -, ha, hb, -⟩ := idx0_facts t
  show ((cfg0.win 1).blk t).view.read (Elt F) (V c (Pipeline.arrRef spec0 1)) (ix2 p 0) = _
  rw [View.read_apply]
  show (V c (Pipeline.arrRef spec0 1) : S602112x1.Idx → Elt F .f32) _ = (V c (Pipeline.arrRef spec0 1) : S602112x1.Idx → Elt F .f32) (ix2 e 0)
  refine congrArg (V c (Pipeline.arrRef spec0 1) : S602112x1.Idx → Elt F .f32) (funext fun a => Fin.ext ?_)
  match a with
  | ⟨0, _⟩ => show win0_1.index t (0 : Fin 2) * 4096 + 1 * p.val = e.val; omega
  | ⟨1, _⟩ => show win0_1.index t (1 : Fin 2) * 1 + 1 * 0 = 0; omega

theorem blk0_x_apply (c : Dev nD) (t : Fin cfg0.N) (k : Fin 1024) (q : Fin 128) (n : Fin 50176)
    (hn : n.val = 1024 * (t.val % 49) + k.val) :
    blk0_x V c t (ix2 k q) = G0_x V c (ix2 n q) := by
  obtain ⟨-, -, -, -, ha, hb, -⟩ := idx0_facts t
  show ((cfg0.win 2).blk t).view.read (Elt F) (V c (Pipeline.arrRef spec0 2)) (ix2 k q) = _
  rw [View.read_apply]
  show (V c (Pipeline.arrRef spec0 2) : S50176x128.Idx → Elt F .bf16) _ = (V c (Pipeline.arrRef spec0 2) : S50176x128.Idx → Elt F .bf16) (ix2 n q)
  refine congrArg (V c (Pipeline.arrRef spec0 2) : S50176x128.Idx → Elt F .bf16) (funext fun a => Fin.ext ?_)
  match a with
  | ⟨0, _⟩ => show win0_2.index t (0 : Fin 2) * 1024 + 1 * k.val = n.val; omega
  | ⟨1, _⟩ => show win0_2.index t (1 : Fin 2) * 128 + 1 * q.val = q.val; omega

theorem blk0_out_read (t : Fin cfg0.N) (Y : S602112x128.Idx → Elt F .bf16) (p : Fin 4096) (q : Fin 128) (e : Fin 602112)
    (he : e.val = 4096 * (t.val / 49) + p.val) :
    ((cfg0.win 3).blk t).view.read (Elt F) Y (ix2 p q) = Y (ix2 e q) := by
  obtain ⟨-, -, -, -, -, -, ha, hb, -⟩ := idx0_facts t
  rw [View.read_apply]
  show Y _ = Y (ix2 e q)
  refine congrArg Y (funext fun a => Fin.ext ?_)
  match a with
  | ⟨0, _⟩ => show win0_3.index t (0 : Fin 2) * 4096 + 1 * p.val = e.val; omega
  | ⟨1, _⟩ => show win0_3.index t (1 : Fin 2) * 128 + 1 * q.val = q.val; omega

theorem blk0_out_mem (t : Fin cfg0.N) (i : S602112x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole (Pipeline.arrRef spec0 3)).slice (win0_3.rect t)).set ↔ _
  rw [View.set_slice_whole, Rect.mem_set_unit]
  exact Iff.rfl

theorem cover0_out (i : S602112x128.Idx) :
    ∃ t : Fin cfg0.N, (cfg0.win 3).flush t = true ∧ i ∈ ((cfg0.win 3).blk t).view.set := by
  have hN : cfg0.N = 7203 := N_0
  have hr : (i 0).val < 602112 := idx2_lt0 i
  have hl : (i 1).val < 128 := idx2_lt1 i
  obtain ⟨t, ht⟩ : ∃ t : Fin cfg0.N, t.val = 49 * ((i 0).val / 4096) + 48 := ⟨⟨49 * ((i 0).val / 4096) + 48, by rw [hN]; omega⟩, rfl⟩
  refine ⟨t, (flush0_3 t).mpr (by omega), ?_⟩
  rw [blk0_out_mem]
  obtain ⟨-, -, -, -, -, -, ha, hb, -⟩ := idx0_facts t
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

end Cert.KernelIdeal.Rg

end
-- ==== Proof.GatherVal.lean ====
import proofs.«425541_j70411693850858_1_alg».proof.Proof.Gen.KernelIdeal.Launch
import proofs.«425541_j70411693850858_1_alg».proof.Proof.Gen.KernelIdeal.Skeleton
import proofs.«425541_j70411693850858_1_alg».proof.Proof.Gen.KernelIdeal.Points
import Idealize.ShloMosaic.Lib.Pipeline.Value
import Idealize.ShloMosaic.Lib.ValueIdx
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

theorem row0_onehot (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  by_cases h : a = b
  · rw [if_pos h]
    have hw : IntOp.cmpi .eq a b = 1#1 := by simp [IntOp.cmpi, h]
    rw [hw]
    have hi : ((1#1 : BitVec 1).setWidth 32).toInt = 1 := by decide
    rw [hi]
    norm_num
  · rw [if_neg h]
    have hb : (a == b) = false := beq_eq_false_iff_ne.mpr h
    have hw : IntOp.cmpi .eq a b = 0#1 := by simp [IntOp.cmpi, hb]
    rw [hw]
    have hi : ((0#1 : BitVec 1).setWidth 32).toInt = 0 := by decide
    rw [hi]
    norm_num

theorem row0_word (nb k : ℕ) : BitVec.ofNat 32 nb * 1024#32 + BitVec.ofNat 32 k = BitVec.ofNat 32 (1024 * nb + k) := by
  first
    | (rw [← BitVec.ofNat_mul, ← BitVec.ofNat_add, Nat.mul_comm])
    | (apply BitVec.eq_of_toNat_eq
       simp only [BitVec.toNat_add, BitVec.toNat_mul, BitVec.toNat_ofNat, Nat.reducePow]
       omega)

theorem row0_ofNat_inj (x y : ℕ) (hx : x < 4294967296) (hy : y < 4294967296) (h : BitVec.ofNat 32 x = BitVec.ofNat 32 y) : x = y := by
  have hv := congrArg BitVec.toNat h
  simp only [BitVec.toNat_ofNat, Nat.reducePow] at hv
  omega

theorem row0_sum_hit (cw : BitVec 32) (nb n₀ : ℕ) (hb : nb < 49) (hn : n₀ < 50176) (hcw : cw = BitVec.ofNat 32 n₀)
    (xb : Fin 1024 → EReal) (X : EReal) (hX : ∀ k : Fin 1024, n₀ = 1024 * nb + k.val → xb k = X) :
    ∑ k : Fin 1024, (if cw = BitVec.ofNat 32 nb * 1024#32 + BitVec.ofNat 32 k.val then (1 : EReal) else 0) * xb k
      = if n₀ / 1024 = nb then X else 0 := by
  have hc : ∀ k : Fin 1024, (cw = BitVec.ofNat 32 nb * 1024#32 + BitVec.ofNat 32 k.val) ↔ n₀ = 1024 * nb + k.val := fun k => by
    rw [hcw, row0_word]
    constructor
    · intro h; exact row0_ofNat_inj _ _ (by omega) (by have := k.isLt; omega) h
    · intro h; rw [h]
  by_cases h : n₀ / 1024 = nb
  · rw [if_pos h]
    have hk : n₀ % 1024 < 1024 := Nat.mod_lt _ (by norm_num)
    rw [Finset.sum_eq_single (⟨n₀ % 1024, hk⟩ : Fin 1024)]
    · rw [if_pos ((hc _).mpr (by show n₀ = 1024 * nb + n₀ % 1024; omega)), one_mul]
      exact hX _ (by show n₀ = 1024 * nb + n₀ % 1024; omega)
    · intro k _ hne
      rw [if_neg (fun hh => hne (Fin.ext (by have := (hc k).mp hh; show k.val = n₀ % 1024; omega))), zero_mul]
    · intro hh; exact absurd (Finset.mem_univ _) hh
  · rw [if_neg h]
    refine Finset.sum_eq_zero fun k _ => ?_
    rw [if_neg (fun hh => h (by have := (hc k).mp hh; have := k.isLt; omega)), zero_mul]

theorem row0_sum_miss (cw : BitVec 32) (nb : ℕ) (hb : nb < 49) (hcw : ∀ n : Fin 50176, cw ≠ BitVec.ofNat 32 n.val)
    (xb : Fin 1024 → EReal) :
    ∑ k : Fin 1024, (if cw = BitVec.ofNat 32 nb * 1024#32 + BitVec.ofNat 32 k.val then (1 : EReal) else 0) * xb k = 0 := by
  refine Finset.sum_eq_zero fun k _ => ?_
  rw [if_neg (fun hh => hcw ⟨1024 * nb + k.val, by have := k.isLt; omega⟩ (by rw [hh, row0_word])), zero_mul]

def G0_at (colarr : S602112x1.Idx → BitVec 32) (warr : S602112x1.Idx → EReal) (xarr : S50176x128.Idx → EReal)
    (e : Fin 602112) (j : Fin 128) : EReal :=
  (∑ n : Fin 50176, if colarr (ix2 e 0) = BitVec.ofNat 32 n.val then xarr (ix2 n j) else 0) * warr (ix2 e 0)

theorem G0_at_hit (colarr : S602112x1.Idx → BitVec 32) (warr : S602112x1.Idx → EReal) (xarr : S50176x128.Idx → EReal)
    (e : Fin 602112) (j : Fin 128) (n₀ : Fin 50176) (h : colarr (ix2 e 0) = BitVec.ofNat 32 n₀.val) :
    G0_at colarr warr xarr e j = xarr (ix2 n₀ j) * warr (ix2 e 0) := by
  unfold G0_at
  refine congrArg (· * warr (ix2 e 0)) ?_
  rw [Finset.sum_eq_single n₀]
  · exact if_pos h
  · intro n _ hne
    refine if_neg fun hh => hne (Fin.ext ?_)
    exact row0_ofNat_inj _ _ (by have := n.isLt; omega) (by have := n₀.isLt; omega) (hh.symm.trans h)
  · intro hh; exact absurd (Finset.mem_univ _) hh

theorem G0_at_miss (colarr : S602112x1.Idx → BitVec 32) (warr : S602112x1.Idx → EReal) (xarr : S50176x128.Idx → EReal)
    (e : Fin 602112) (j : Fin 128) (h : ∀ n : Fin 50176, colarr (ix2 e 0) ≠ BitVec.ofNat 32 n.val) :
    G0_at colarr warr xarr e j = 0 * warr (ix2 e 0) := by
  unfold G0_at
  refine congrArg (· * warr (ix2 e 0)) ?_
  exact Finset.sum_eq_zero fun n _ => if_neg (h n)

theorem idx0_lhs_0 (i : S4096x128.Idx) (q : dot_S4096x1024_S1024x128_S4096x128_1_0_0_1_n_n.contr.Idx) :
    (dot_S4096x1024_S1024x128_S4096x128_1_0_0_1_n_n.lhsIdx i q 0).val = (i 0).val := by
  unfold DotDims.lhsIdx
  rw [dif_neg (show ¬(0 : Fin S4096x1024.rank) ∈ dot_S4096x1024_S1024x128_S4096x128_1_0_0_1_n_n.lhsBatch by decide), dif_pos (show (0 : Fin S4096x1024.rank) ∈ dot_S4096x1024_S1024x128_S4096x128_1_0_0_1_n_n.lhsNonContracting by decide)]
  rfl

theorem idx0_lhs_1 (i : S4096x128.Idx) (q : dot_S4096x1024_S1024x128_S4096x128_1_0_0_1_n_n.contr.Idx) :
    (dot_S4096x1024_S1024x128_S4096x128_1_0_0_1_n_n.lhsIdx i q 1).val = (q ⟨0, by decide⟩).val :=
  dot_S4096x1024_S1024x128_S4096x128_1_0_0_1_n_n.lhsIdx_val_of_single rfl i q

theorem idx0_rhs_0 (i : S4096x128.Idx) (q : dot_S4096x1024_S1024x128_S4096x128_1_0_0_1_n_n.contr.Idx) :
    (dot_S4096x1024_S1024x128_S4096x128_1_0_0_1_n_n.rhsIdx i q 0).val = (q ⟨0, by decide⟩).val :=
  dot_S4096x1024_S1024x128_S4096x128_1_0_0_1_n_n.rhsIdx_val_of_single rfl i q

theorem idx0_rhs_1 (i : S4096x128.Idx) (q : dot_S4096x1024_S1024x128_S4096x128_1_0_0_1_n_n.contr.Idx) :
    (dot_S4096x1024_S1024x128_S4096x128_1_0_0_1_n_n.rhsIdx i q 1).val = (i 1).val := by
  unfold DotDims.rhsIdx
  rw [dif_neg (show ¬(1 : Fin S1024x128.rank) ∈ dot_S4096x1024_S1024x128_S4096x128_1_0_0_1_n_n.rhsBatch by decide), dif_pos (show (1 : Fin S1024x128.rank) ∈ dot_S4096x1024_S1024x128_S4096x128_1_0_0_1_n_n.rhsNonContracting by decide)]
  rfl

theorem k0_pay1_apply (p : Fin 4096) (q : Fin 128) :
    (k0_pay1 (F := Ideal) : S4096x128.Idx → EReal) (ix2 p q) = 0 := by
  unfold k0_pay1
  simp only [shapeCast_self]
  exact Ideal.ofBits_zero_f32

theorem k0_pay3_apply (v26 : Vec Ideal S4096x1 .f32) (v28 : Vec Ideal S4096x128 .f32) (p : Fin 4096) (q : Fin 128) :
    (k0_pay3 (F := Ideal) v26 v28 : S4096x128.Idx → EReal) (ix2 p q)
      = (v28 : S4096x128.Idx → EReal) (ix2 p q) * (v26 : S4096x1.Idx → EReal) (ix2 p 0) := by
  unfold k0_pay3
  simp only [shapeCast_self]
  refine congrArg ((v28 : S4096x128.Idx → EReal) (ix2 p q) * ·) ?_
  exact broadcastTo_apply _ _ _ (ix2 p 0) (fun a => by match a with | ⟨0, _⟩ => rfl | ⟨1, _⟩ => rfl)

theorem k0_pay2_apply (i : grid0.Coords) (v7 : Vec Ideal S4096x1 .i32) (v15 : Vec Ideal S4096x128 .f32)
    (v16 : Vec Ideal S1024x128 .bf16) (p : Fin 4096) (q : Fin 128) :
    (k0_pay2 (F := Ideal) i v7 v15 v16 : S4096x128.Idx → EReal) (ix2 p q)
      = (v15 : S4096x128.Idx → EReal) (ix2 p q)
        + ∑ k : Fin 1024, (if (v7 : S4096x1.Idx → BitVec 32) (ix2 p 0) = BitVec.ofNat 32 (i 1).val * 1024#32 + BitVec.ofNat 32 k.val
            then (1 : EReal) else 0) * (v16 : S1024x128.Idx → EReal) (ix2 k q) := by
  unfold k0_pay2
  simp only [shapeCast_self]
  refine congrArg ((v15 : S4096x128.Idx → EReal) (ix2 p q) + ·) ?_
  refine (Ideal.matmul_constant_zero_apply (φ₁ := .bf16) (φ₂ := .bf16) dot_S4096x1024_S1024x128_S4096x128_1_0_0_1_n_n none _ _ (ix2 p q)).trans ?_
  rw [← Equiv.sum_comp (contrEquiv1 dot_S4096x1024_S1024x128_S4096x128_1_0_0_1_n_n 1024 rfl rfl).symm]
  refine Finset.sum_congr rfl fun k _ => ?_
  have hk := contrEquiv1_symm_val dot_S4096x1024_S1024x128_S4096x128_1_0_0_1_n_n 1024 rfl rfl k
  have el : dot_S4096x1024_S1024x128_S4096x128_1_0_0_1_n_n.lhsIdx (ix2 p q) ((contrEquiv1 dot_S4096x1024_S1024x128_S4096x128_1_0_0_1_n_n 1024 rfl rfl).symm k) = (ix2 p k : S4096x1024.Idx) := funext fun a => Fin.ext (by
    match a with
    | ⟨0, _⟩ => exact idx0_lhs_0 _ _
    | ⟨1, _⟩ => exact (idx0_lhs_1 _ _).trans hk)
  have er : dot_S4096x1024_S1024x128_S4096x128_1_0_0_1_n_n.rhsIdx (ix2 p q) ((contrEquiv1 dot_S4096x1024_S1024x128_S4096x128_1_0_0_1_n_n 1024 rfl rfl).symm k) = (ix2 k q : S1024x128.Idx) := funext fun a => Fin.ext (by
    match a with
    | ⟨0, _⟩ => exact (idx0_rhs_0 _ _).trans hk
    | ⟨1, _⟩ => exact idx0_rhs_1 _ _)
  rw [el, er]
  refine congrArg (· * (v16 : S1024x128.Idx → EReal) (ix2 k q)) ?_
  have hl : broadcastTo S4096x1024 (v7 : S4096x1.Idx → BitVec 32) broadcasts_S4096x1_S4096x1024 (ix2 p k) = (v7 : S4096x1.Idx → BitVec 32) (ix2 p 0) :=
    broadcastTo_apply _ _ _ (ix2 p 0) (fun a => by match a with | ⟨0, _⟩ => rfl | ⟨1, _⟩ => rfl)
  have hr : broadcastTo S4096x1024 (addi (broadcast S1x1024 (Scalar.muli (BitVec.ofNat 32 (i 1).val) 1024#32)) (iota .tc S1x1024 32 [1] iota_S1x1024_d1_w32)) broadcasts_S1x1024_S4096x1024 (ix2 p k)
      = BitVec.ofNat 32 (i 1).val * 1024#32 + BitVec.ofNat 32 k.val := by
    refine (broadcastTo_apply _ _ _ (ix2 0 k) (fun a => by match a with | ⟨0, _⟩ => rfl | ⟨1, _⟩ => rfl)).trans ?_
    show IntOp.addi (Scalar.muli (BitVec.ofNat 32 (i 1).val) 1024#32) (iota .tc S1x1024 32 [1] iota_S1x1024_d1_w32 (ix2 0 k)) = _
    rw [iota_single_apply]
    rfl
  refine (row0_onehot _ _).trans ?_
  rw [hl, hr]

end Cert.KernelIdeal.Rg

end
-- ==== Proof.R0Val.lean ====
import proofs.«425541_j70411693850858_1_alg».proof.Proof.R0Defs
import proofs.«425541_j70411693850858_1_alg».proof.Proof.R0Pts
import proofs.«425541_j70411693850858_1_alg».proof.Proof.GatherVal
import Idealize.ShloMosaic.Lib.Pipeline.Value
import Idealize.ShloMosaic.Lib.ValueIdx
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

def G0_out (c : Dev nD) : S602112x128.Idx → EReal := fun i =>
  G0_at (G0_col V c) (G0_wt V c) (G0_x V c) ⟨(i 0).val, idx2_lt0 i⟩ ⟨(i 1).val, idx2_lt1 i⟩

theorem acc0_step_hit (c : Dev nD) (t : Fin cfg0.N) (A : Vec Ideal S4096x128 .f32) (p : Fin 4096) (q : Fin 128)
    (e : Fin 602112) (n₀ : Fin 50176) (he : e.val = 4096 * (t.val / 49) + p.val)
    (hc : (G0_col V c : S602112x1.Idx → BitVec 32) (ix2 e 0) = BitVec.ofNat 32 n₀.val) :
    (k0_pay2 (F := Ideal) (grid0.coords t) (iblk0 V c 0 t) A (iblk0 V c 2 t) : S4096x128.Idx → EReal) (ix2 p q)
      = (A : S4096x128.Idx → EReal) (ix2 p q) + if n₀.val / 1024 = t.val % 49 then (G0_x V c : S50176x128.Idx → EReal) (ix2 n₀ q) else 0 := by
  obtain ⟨-, -, -, -, -, -, -, -, hg⟩ := idx0_facts t
  refine (k0_pay2_apply (grid0.coords t) (blk0_col V c t) A (blk0_x V c t) p q).trans ?_
  refine congrArg ((A : S4096x128.Idx → EReal) (ix2 p q) + ·) ?_
  rw [blk0_col_apply V c t p e he, hg]
  exact row0_sum_hit _ (t.val % 49) n₀.val (Nat.mod_lt _ (by norm_num)) n₀.isLt hc
    (fun k => (blk0_x V c t : S1024x128.Idx → EReal) (ix2 k q)) _
    (fun k hk => blk0_x_apply V c t k q n₀ hk)

theorem acc0_step_miss (c : Dev nD) (t : Fin cfg0.N) (A : Vec Ideal S4096x128 .f32) (p : Fin 4096) (q : Fin 128)
    (e : Fin 602112) (he : e.val = 4096 * (t.val / 49) + p.val)
    (hc : ∀ n : Fin 50176, (G0_col V c : S602112x1.Idx → BitVec 32) (ix2 e 0) ≠ BitVec.ofNat 32 n.val) :
    (k0_pay2 (F := Ideal) (grid0.coords t) (iblk0 V c 0 t) A (iblk0 V c 2 t) : S4096x128.Idx → EReal) (ix2 p q)
      = (A : S4096x128.Idx → EReal) (ix2 p q) + 0 := by
  obtain ⟨-, -, -, -, -, -, -, -, hg⟩ := idx0_facts t
  refine (k0_pay2_apply (grid0.coords t) (blk0_col V c t) A (blk0_x V c t) p q).trans ?_
  refine congrArg ((A : S4096x128.Idx → EReal) (ix2 p q) + ·) ?_
  rw [blk0_col_apply V c t p e he, hg]
  exact row0_sum_miss _ (t.val % 49) (Nat.mod_lt _ (by norm_num)) hc
    (fun k => (blk0_x V c t : S1024x128.Idx → EReal) (ix2 k q))

theorem acc0_hit (c : Dev nD) : ∀ (n : ℕ) (hn : n < cfg0.N) (p : Fin 4096) (q : Fin 128) (e : Fin 602112) (n₀ : Fin 50176),
    e.val = 4096 * (n / 49) + p.val → (G0_col V c : S602112x1.Idx → BitVec 32) (ix2 e 0) = BitVec.ofNat 32 n₀.val →
    (acc0 (F := Ideal) V c n hn : S4096x128.Idx → EReal) (ix2 p q)
      = if n₀.val / 1024 ≤ n % 49 then (G0_x V c : S50176x128.Idx → EReal) (ix2 n₀ q) else 0
  | 0, hn, p, q, e, n₀, he, hc => by
    refine (congrFun (acc0_first V c ⟨0, hn⟩ rfl) (ix2 p q)).trans ?_
    refine (acc0_step_hit V c ⟨0, hn⟩ _ p q e n₀ he hc).trans ?_
    rw [k0_pay1_apply, zero_add]
    exact if_congr (by show n₀.val / 1024 = 0 % 49 ↔ n₀.val / 1024 ≤ 0 % 49; omega) rfl rfl
  | n + 1, hn, p, q, e, n₀, he, hc => by
    by_cases h : (n + 1) % 49 = 0
    · refine (congrFun (acc0_first V c ⟨n + 1, hn⟩ h) (ix2 p q)).trans ?_
      refine (acc0_step_hit V c ⟨n + 1, hn⟩ _ p q e n₀ he hc).trans ?_
      rw [k0_pay1_apply, zero_add]
      exact if_congr (by show n₀.val / 1024 = (n + 1) % 49 ↔ n₀.val / 1024 ≤ (n + 1) % 49; omega) rfl rfl
    · refine (congrFun (acc0_next V c ⟨n + 1, hn⟩ h) (ix2 p q)).trans ?_
      refine (acc0_step_hit V c ⟨n + 1, hn⟩ _ p q e n₀ he hc).trans ?_
      have ih := acc0_hit c n (Nat.lt_of_succ_lt hn) p q e n₀ (by omega) hc
      refine (congrArg (· + if n₀.val / 1024 = (n + 1) % 49 then (G0_x V c : S50176x128.Idx → EReal) (ix2 n₀ q) else 0) ih).trans ?_
      have hm : (n + 1) % 49 = n % 49 + 1 := by omega
      rw [hm]
      by_cases hx : n₀.val / 1024 ≤ n % 49
      · rw [if_pos hx, if_neg (by omega), if_pos (by omega), add_zero]
      · by_cases hy : n₀.val / 1024 = n % 49 + 1
        · rw [if_neg hx, if_pos hy, if_pos (by omega), zero_add]
        · rw [if_neg hx, if_neg hy, if_neg (by omega), add_zero]

theorem acc0_miss (c : Dev nD) : ∀ (n : ℕ) (hn : n < cfg0.N) (p : Fin 4096) (q : Fin 128) (e : Fin 602112),
    e.val = 4096 * (n / 49) + p.val → (∀ m : Fin 50176, (G0_col V c : S602112x1.Idx → BitVec 32) (ix2 e 0) ≠ BitVec.ofNat 32 m.val) →
    (acc0 (F := Ideal) V c n hn : S4096x128.Idx → EReal) (ix2 p q) = 0
  | 0, hn, p, q, e, he, hc => by
    refine (congrFun (acc0_first V c ⟨0, hn⟩ rfl) (ix2 p q)).trans ?_
    refine (acc0_step_miss V c ⟨0, hn⟩ _ p q e he hc).trans ?_
    rw [k0_pay1_apply, zero_add]
  | n + 1, hn, p, q, e, he, hc => by
    by_cases h : (n + 1) % 49 = 0
    · refine (congrFun (acc0_first V c ⟨n + 1, hn⟩ h) (ix2 p q)).trans ?_
      refine (acc0_step_miss V c ⟨n + 1, hn⟩ _ p q e he hc).trans ?_
      rw [k0_pay1_apply, zero_add]
    · refine (congrFun (acc0_next V c ⟨n + 1, hn⟩ h) (ix2 p q)).trans ?_
      refine (acc0_step_miss V c ⟨n + 1, hn⟩ _ p q e he hc).trans ?_
      have ih := acc0_miss c n (Nat.lt_of_succ_lt hn) p q e (by omega) hc
      exact (congrArg (· + (0 : EReal)) ih).trans (add_zero 0)

theorem out0_apply (c : Dev nD) (t : Fin cfg0.N) (hl : t.val % 49 = 48) (p : Fin 4096) (q : Fin 128) (e : Fin 602112)
    (he : e.val = 4096 * (t.val / 49) + p.val) :
    (out0 (F := Ideal) V c t : S4096x128.Idx → EReal) (ix2 p q) = G0_at (G0_col V c) (G0_wt V c) (G0_x V c) e q := by
  refine (k0_pay3_apply (blk0_wt V c t) (acc0 V c t.val t.isLt) p q).trans ?_
  rw [blk0_wt_apply V c t p e he]
  by_cases hc : ∃ n₀ : Fin 50176, (G0_col V c : S602112x1.Idx → BitVec 32) (ix2 e 0) = BitVec.ofNat 32 n₀.val
  · obtain ⟨n₀, hn₀⟩ := hc
    rw [acc0_hit V c t.val t.isLt p q e n₀ he hn₀, if_pos (by have := n₀.isLt; omega), G0_at_hit _ _ _ e q n₀ hn₀]
  · have hm : ∀ m : Fin 50176, (G0_col V c : S602112x1.Idx → BitVec 32) (ix2 e 0) ≠ BitVec.ofNat 32 m.val := fun m hh => hc ⟨m, hh⟩
    rw [acc0_miss V c t.val t.isLt p q e he hm, G0_at_miss _ _ _ e q hm]

theorem flushed0_eq (c : Dev nD) (t : Fin cfg0.N) (hf : (cfg0.win 3).flush t = true) :
    (dat0 (F := Ideal) V c).flushed 3 t = ((cfg0.win 3).blk t).view.read (Elt Ideal) (G0_out V c) := by
  have hl : t.val % 49 = 48 := (flush0_3 t).mp hf
  have hN : cfg0.N = 7203 := N_0
  have ht : t.val < 7203 := by have := t.isLt; omega
  show (cfg0.win 3).cut (grid0.coords t) ((dat0 V c).after 3 t) = _
  rw [after0_3]
  refine funext fun (y : S4096x128.Idx) => ?_
  obtain ⟨p, q, rfl⟩ : ∃ (p : Fin 4096) (q : Fin 128), y = ix2 p q := ⟨y 0, y 1, eq_ix2 y⟩
  obtain ⟨e, he⟩ : ∃ e : Fin 602112, e.val = 4096 * (t.val / 49) + p.val := ⟨⟨4096 * (t.val / 49) + p.val, by have := p.isLt; omega⟩, rfl⟩
  rw [blk0_out_read (F := Ideal) t (G0_out V c) p q e he]
  exact out0_apply V c t hl p q e he

theorem final0_out (c : Dev nD) : (dat0 (F := Ideal) V c).arrAt 3 cfg0.N = G0_out V c :=
  (dat0 (F := Ideal) V c).arrAt_eq_of_cover 3 (G0_out V c) (fun t hf => flushed0_eq V c t hf) cover0_out

theorem regionVal0_hit (c : Dev nD) (e : Fin 602112) (j : Fin 128) (n₀ : Fin 50176)
    (h : (V c (Pipeline.arrRef spec0 0) : S602112x1.Idx → BitVec 32) (ValueIdx.ix2 e 0) = BitVec.ofNat 32 n₀.val) :
    ((dat0 (F := Ideal) V c).arrAt 3 cfg0.N : S602112x128.Idx → EReal) (ValueIdx.ix2 e j)
      = G0_x V c (ValueIdx.ix2 n₀ j) * G0_wt V c (ValueIdx.ix2 e 0) := by
  rw [final0_out V c]
  exact G0_at_hit (G0_col V c) (G0_wt V c) (G0_x V c) e j n₀ h

theorem regionVal0_miss (c : Dev nD) (e : Fin 602112) (j : Fin 128)
    (h : ∀ n : Fin 50176, (V c (Pipeline.arrRef spec0 0) : S602112x1.Idx → BitVec 32) (ValueIdx.ix2 e 0) ≠ BitVec.ofNat 32 n.val) :
    ((dat0 (F := Ideal) V c).arrAt 3 cfg0.N : S602112x128.Idx → EReal) (ValueIdx.ix2 e j)
      = (0 : EReal) * G0_wt V c (ValueIdx.ix2 e 0) := by
  rw [final0_out V c]
  exact G0_at_miss (G0_col V c) (G0_wt V c) (G0_x V c) e j h

end Cert.KernelIdeal.Rg

end
-- ==== Proof.R1Pts.lean ====
import proofs.«425541_j70411693850858_1_alg».proof.Proof.R1Defs

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem idx1_facts : ∀ t : Fin cfg1.N,
    (grid1.coords t 0).val = t.val / 147 ∧ (grid1.coords t 1).val = t.val % 147
    ∧ win1_0.index t (0 : Fin 2) = 0 ∧ win1_0.index t (1 : Fin 2) = t.val % 147
    ∧ win1_1.index t (0 : Fin 2) = t.val % 147 ∧ win1_1.index t (1 : Fin 2) = 0
    ∧ win1_2.index t (0 : Fin 2) = t.val / 147 ∧ win1_2.index t (1 : Fin 2) = 0 :=
  (by decide +kernel : ∀ t : Fin grid1.N,
    (grid1.coords t 0).val = t.val / 147 ∧ (grid1.coords t 1).val = t.val % 147
    ∧ win1_0.index t (0 : Fin 2) = 0 ∧ win1_0.index t (1 : Fin 2) = t.val % 147
    ∧ win1_1.index t (0 : Fin 2) = t.val % 147 ∧ win1_1.index t (1 : Fin 2) = 0
    ∧ win1_2.index t (0 : Fin 2) = t.val / 147 ∧ win1_2.index t (1 : Fin 2) = 0)

theorem pt1_lt (t : Fin cfg1.N) : t.val < 7203 := by
  have h := t.isLt
  have hN : cfg1.N = 7203 := N_1
  omega

theorem pt1_last_lt (b : ℕ) (hb : b < 49) : 147 * b + 146 < cfg1.N := by
  have hN : cfg1.N = 7203 := N_1
  omega

end Cert.KernelIdeal.Rg

end
-- ==== Proof.ScatterVal.lean ====
import proofs.«425541_j70411693850858_1_alg».proof.Proof.Gen.KernelIdeal.Launch
import proofs.«425541_j70411693850858_1_alg».proof.Proof.Gen.KernelIdeal.Skeleton
import proofs.«425541_j70411693850858_1_alg».proof.Proof.Gen.KernelIdeal.Points
import Idealize.ShloMosaic.Lib.Pipeline.Value
import Idealize.ShloMosaic.Lib.ValueIdx
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

theorem k1_word_eq (a p : Nat) :
    IntOp.addi (Scalar.muli (BitVec.ofNat 32 a) 1024#32) (BitVec.ofNat 32 p) = BitVec.ofNat 32 (1024 * a + p) := by
  show BitVec.ofNat 32 a * BitVec.ofNat 32 1024 + BitVec.ofNat 32 p = _
  rw [← BitVec.ofNat_mul, ← BitVec.ofNat_add, Nat.mul_comm]

theorem k1_bit_val (x y : BitVec 32) :
    (FloatOps.sitofp (F := Ideal) .f32 ((IntOp.cmpi .eq x y).setWidth 32) : EReal) = if x = y then 1 else 0 := by
  show (((((BitVec.ofBool (x == y)).setWidth 32).toInt : ℝ) : EReal)) = _
  by_cases h : x = y
  · rw [if_pos h, beq_iff_eq.mpr h]
    have e : ((BitVec.ofBool true).setWidth 32).toInt = 1 := by decide
    rw [e]; simp
  · rw [if_neg h, beq_eq_false_iff_ne.mpr h]
    have e : ((BitVec.ofBool false).setWidth 32).toInt = 0 := by decide
    rw [e]; simp

theorem k1_onehot_apply (a : Nat) (v7 : IVec S1x4096 32) (p : Fin 1024) (q : Fin 4096) :
    (truncf .bf16 (sitofp .f32 (extui 32 (cmpi .eq
        (broadcastTo S1024x4096 (shapeCast S1x4096 v7 shapeCasts_S1x4096_S1x4096) broadcasts_S1x4096_S1024x4096)
        (broadcastTo S1024x4096 (addi (broadcast S1024x1 (Scalar.muli (BitVec.ofNat 32 a) 1024#32)) (iota .tc S1024x1 32 [0] iota_S1024x1_d0_w32)) broadcasts_S1024x1_S1024x4096))
        natLt_1_32)) bitsLt_bf16_f32 : FVec Ideal S1024x4096 .bf16) (ix2 p q)
      = if v7 (ix2 0 q) = BitVec.ofNat 32 (1024 * a + p.val) then 1 else 0 := by
  have e1 : broadcastTo S1024x4096 (shapeCast S1x4096 v7 shapeCasts_S1x4096_S1x4096) broadcasts_S1x4096_S1024x4096 (ix2 p q) = v7 (ix2 0 q) := by
    rw [shapeCast_self]
    exact broadcastTo_apply v7 broadcasts_S1x4096_S1024x4096 (ix2 p q) (ix2 0 q) (fun a => match a with
      | ⟨0, _⟩ => by show (0 : Nat) = if (1 : Nat) = 1 then 0 else _; rw [if_pos rfl]
      | ⟨1, _⟩ => by show q.val = if (4096 : Nat) = 1 then 0 else q.val; rw [if_neg (by decide)])
  have e2 : broadcastTo S1024x4096 (addi (broadcast S1024x1 (Scalar.muli (BitVec.ofNat 32 a) 1024#32)) (iota .tc S1024x1 32 [0] iota_S1024x1_d0_w32)) broadcasts_S1024x1_S1024x4096 (ix2 p q)
      = BitVec.ofNat 32 (1024 * a + p.val) := by
    refine (broadcastTo_apply _ broadcasts_S1024x1_S1024x4096 (ix2 p q) (ix2 p 0) (fun a => match a with
      | ⟨0, _⟩ => by show p.val = if (1024 : Nat) = 1 then 0 else p.val; rw [if_neg (by decide)]
      | ⟨1, _⟩ => by show (0 : Nat) = if (1 : Nat) = 1 then 0 else _; rw [if_pos rfl])).trans ?_
    show IntOp.addi (Scalar.muli (BitVec.ofNat 32 a) 1024#32) (iota .tc S1024x1 32 [0] iota_S1024x1_d0_w32 (ix2 p 0)) = _
    rw [iota_single_apply]
    exact k1_word_eq a p.val
  show FloatOps.sitofp (F := Ideal) .f32 ((IntOp.cmpi .eq (broadcastTo S1024x4096 (shapeCast S1x4096 v7 shapeCasts_S1x4096_S1x4096) broadcasts_S1x4096_S1024x4096 (ix2 p q))
      (broadcastTo S1024x4096 (addi (broadcast S1024x1 (Scalar.muli (BitVec.ofNat 32 a) 1024#32)) (iota .tc S1024x1 32 [0] iota_S1024x1_d0_w32)) broadcasts_S1024x1_S1024x4096 (ix2 p q))).setWidth 32) = _
  rw [e1, e2]
  exact k1_bit_val _ _

theorem k1_dot_lhs_0 (i : S1024x128.Idx) (q : dot_S1024x4096_S4096x128_S1024x128_1_0_0_1_n_n.contr.Idx) :
    (dot_S1024x4096_S4096x128_S1024x128_1_0_0_1_n_n.lhsIdx i q 0).val = (i 0).val := by
  unfold DotDims.lhsIdx
  rw [dif_neg (show ¬(0 : Fin S1024x4096.rank) ∈ dot_S1024x4096_S4096x128_S1024x128_1_0_0_1_n_n.lhsBatch by decide), dif_pos (show (0 : Fin S1024x4096.rank) ∈ dot_S1024x4096_S4096x128_S1024x128_1_0_0_1_n_n.lhsNonContracting by decide)]
  rfl

theorem k1_dot_lhs_1 (i : S1024x128.Idx) (q : dot_S1024x4096_S4096x128_S1024x128_1_0_0_1_n_n.contr.Idx) :
    (dot_S1024x4096_S4096x128_S1024x128_1_0_0_1_n_n.lhsIdx i q 1).val = (q ⟨0, by decide⟩).val :=
  dot_S1024x4096_S4096x128_S1024x128_1_0_0_1_n_n.lhsIdx_val_of_single rfl i q

theorem k1_dot_rhs_0 (i : S1024x128.Idx) (q : dot_S1024x4096_S4096x128_S1024x128_1_0_0_1_n_n.contr.Idx) :
    (dot_S1024x4096_S4096x128_S1024x128_1_0_0_1_n_n.rhsIdx i q 0).val = (q ⟨0, by decide⟩).val :=
  dot_S1024x4096_S4096x128_S1024x128_1_0_0_1_n_n.rhsIdx_val_of_single rfl i q

theorem k1_dot_rhs_1 (i : S1024x128.Idx) (q : dot_S1024x4096_S4096x128_S1024x128_1_0_0_1_n_n.contr.Idx) :
    (dot_S1024x4096_S4096x128_S1024x128_1_0_0_1_n_n.rhsIdx i q 1).val = (i 1).val := by
  unfold DotDims.rhsIdx
  rw [dif_neg (show ¬(1 : Fin S4096x128.rank) ∈ dot_S1024x4096_S4096x128_S1024x128_1_0_0_1_n_n.rhsBatch by decide), dif_pos (show (1 : Fin S4096x128.rank) ∈ dot_S1024x4096_S4096x128_S1024x128_1_0_0_1_n_n.rhsNonContracting by decide)]
  rfl

theorem k1_matmul_apply (L : FVec Ideal S1024x4096 .bf16) (R : FVec Ideal S4096x128 .bf16) (p : Fin 1024) (j : Fin 128) :
    matmul dot_S1024x4096_S4096x128_S1024x128_1_0_0_1_n_n none L R (constant S1024x128 .f32 0x00000000#32) (ix2 p j)
      = ∑ q : Fin 4096, L (ix2 p q) * R (ix2 q j) := by
  simp only [matmul]
  rw [Ideal.matmul_constant_zero_apply, ← Equiv.sum_comp (contrEquiv1 dot_S1024x4096_S4096x128_S1024x128_1_0_0_1_n_n 4096 rfl rfl).symm]
  refine Finset.sum_congr rfl fun k _ => ?_
  have hk := contrEquiv1_symm_val dot_S1024x4096_S4096x128_S1024x128_1_0_0_1_n_n 4096 rfl rfl k
  have el : dot_S1024x4096_S4096x128_S1024x128_1_0_0_1_n_n.lhsIdx (ix2 p j) ((contrEquiv1 dot_S1024x4096_S4096x128_S1024x128_1_0_0_1_n_n 4096 rfl rfl).symm k) = ix2 p k := funext fun a => Fin.ext (by
    match a with
    | ⟨0, _⟩ => exact k1_dot_lhs_0 _ _
    | ⟨1, _⟩ => exact (k1_dot_lhs_1 _ _).trans hk)
  have er : dot_S1024x4096_S4096x128_S1024x128_1_0_0_1_n_n.rhsIdx (ix2 p j) ((contrEquiv1 dot_S1024x4096_S4096x128_S1024x128_1_0_0_1_n_n 4096 rfl rfl).symm k) = ix2 k j := funext fun a => Fin.ext (by
    match a with
    | ⟨0, _⟩ => exact (k1_dot_rhs_0 _ _).trans hk
    | ⟨1, _⟩ => exact k1_dot_rhs_1 _ _)
  rw [el, er]

theorem k1_pay1_apply (p : Fin 1024) (j : Fin 128) : (k1_pay1 (F := Ideal)) (ix2 p j) = 0 := by
  unfold k1_pay1
  rw [shapeCast_self]
  show Ideal.ofBits .f32 0x00000000#32 = 0
  exact Ideal.ofBits_zero_f32

theorem k1_pay2_apply (i : grid1.Coords) (v7 : IVec S1x4096 32) (v15 : FVec Ideal S1024x128 .f32) (v16 : FVec Ideal S4096x128 .bf16)
    (p : Fin 1024) (j : Fin 128) :
    k1_pay2 (F := Ideal) i v7 v15 v16 (ix2 p j)
      = v15 (ix2 p j) + ∑ q : Fin 4096, (if v7 (ix2 0 q) = BitVec.ofNat 32 (1024 * (i 0).val + p.val) then v16 (ix2 q j) else 0) := by
  unfold k1_pay2
  dsimp only
  rw [shapeCast_self]
  refine (addf_apply _ _ _).trans ?_
  refine congrArg (v15 (ix2 p j) + ·) ?_
  refine (k1_matmul_apply _ _ p j).trans ?_
  refine Finset.sum_congr rfl fun q _ => ?_
  rw [k1_onehot_apply, shapeCast_self]
  split
  · exact one_mul _
  · exact zero_mul _

theorem k1_sum_blocks (f : ℕ → EReal) :
    ∑ s ∈ Finset.range 147, ∑ q : Fin 4096, f (4096 * s + q.val) = ∑ e : Fin 602112, f e.val := by
  rw [Finset.sum_range (fun s => ∑ q : Fin 4096, f (4096 * s + q.val))]
  rw [← Fintype.sum_prod_type' (fun (s : Fin 147) (q : Fin 4096) => f (4096 * s.val + q.val))]
  rw [← Equiv.sum_comp (finProdFinEquiv (m := 147) (n := 4096)) (fun e : Fin (147 * 4096) => f e.val)]
  refine Finset.sum_congr rfl fun x _ => ?_
  show f (4096 * x.1.val + x.2.val) = f (x.2.val + 4096 * x.1.val)
  rw [Nat.add_comm]

end Cert.KernelIdeal.Rg

end
-- ==== Proof.R1Val.lean ====
import proofs.«425541_j70411693850858_1_alg».proof.Proof.R1Defs
import proofs.«425541_j70411693850858_1_alg».proof.Proof.R1Pts
import proofs.«425541_j70411693850858_1_alg».proof.Proof.ScatterVal
import Idealize.ShloMosaic.Lib.Pipeline.Value
import Idealize.ShloMosaic.Lib.ValueIdx
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

abbrev row1_arr (c : Dev nD) : IVec S1x602112 32 := V c (Pipeline.arrRef spec1 0)

abbrev row1_msg (c : Dev nD) : FVec Ideal S602112x128 .bf16 := V c (Pipeline.arrRef spec1 1)

abbrev blk1_row (c : Dev nD) (t : Fin cfg1.N) : IVec S1x4096 32 := iblk1 (F := Ideal) V c 0 t

abbrev blk1_msg (c : Dev nD) (t : Fin cfg1.N) : FVec Ideal S4096x128 .bf16 := iblk1 (F := Ideal) V c 1 t

theorem blk1_row_apply (c : Dev nD) (t : Fin cfg1.N) (q : Fin 4096) (e : Fin 602112)
    (he : e.val = 4096 * (t.val % 147) + q.val) :
    blk1_row V c t (ix2 0 q) = row1_arr V c (ix2 0 e) := by
  obtain ⟨-, -, f00, f01, -, -, -, -⟩ := idx1_facts t
  show iblk1 (F := Ideal) V c 0 t (ix2 0 q) = V c (Pipeline.arrRef spec1 0) (ix2 0 e)
  unfold iblk1
  rw [View.read_apply]
  show V c (Pipeline.arrRef spec1 0) (((cfg1.win 0).blk t).view.emb (ix2 0 q)) = V c (Pipeline.arrRef spec1 0) (ix2 0 e)
  refine congrArg (V c (Pipeline.arrRef spec1 0)) ?_
  funext a
  apply Fin.ext
  match a with
  | ⟨0, _⟩ => show win1_0.index t (0 : Fin 2) * 1 + 1 * 0 = 0; omega
  | ⟨1, _⟩ => show win1_0.index t (1 : Fin 2) * 4096 + 1 * q.val = e.val; omega

theorem blk1_msg_apply (c : Dev nD) (t : Fin cfg1.N) (q : Fin 4096) (j : Fin 128) (e : Fin 602112)
    (he : e.val = 4096 * (t.val % 147) + q.val) :
    blk1_msg V c t (ix2 q j) = row1_msg V c (ix2 e j) := by
  obtain ⟨-, -, -, -, f10, f11, -, -⟩ := idx1_facts t
  show iblk1 (F := Ideal) V c 1 t (ix2 q j) = V c (Pipeline.arrRef spec1 1) (ix2 e j)
  unfold iblk1
  rw [View.read_apply]
  show V c (Pipeline.arrRef spec1 1) (((cfg1.win 1).blk t).view.emb (ix2 q j)) = V c (Pipeline.arrRef spec1 1) (ix2 e j)
  refine congrArg (V c (Pipeline.arrRef spec1 1)) ?_
  funext a
  apply Fin.ext
  match a with
  | ⟨0, _⟩ => show win1_1.index t (0 : Fin 2) * 4096 + 1 * q.val = e.val; omega
  | ⟨1, _⟩ => show win1_1.index t (1 : Fin 2) * 128 + 1 * j.val = j.val; omega

def G1_term (c : Dev nD) (n : ℕ) (j : Fin 128) (e : ℕ) : EReal :=
  if h : e < 602112 then
    (if row1_arr V c (ix2 0 ⟨e, h⟩) = BitVec.ofNat 32 n then row1_msg V c (ix2 ⟨e, h⟩ j) else 0)
  else 0

theorem pt1_block_term (c : Dev nD) (t : Fin cfg1.N) (p : Fin 1024) (j : Fin 128) :
    (∑ q : Fin 4096, (if blk1_row V c t (ix2 0 q) = BitVec.ofNat 32 (1024 * (grid1.coords t 0).val + p.val)
        then blk1_msg V c t (ix2 q j) else 0))
      = ∑ q : Fin 4096, G1_term V c (1024 * (t.val / 147) + p.val) j (4096 * (t.val % 147) + q.val) := by
  obtain ⟨g0, -, -, -, -, -, -, -⟩ := idx1_facts t
  have hlt := pt1_lt t
  refine Finset.sum_congr rfl fun q _ => ?_
  have hq : q.val < 4096 := q.isLt
  have hb : 4096 * (t.val % 147) + q.val < 602112 := by omega
  unfold G1_term
  rw [dif_pos hb, g0, blk1_row_apply V c t q ⟨4096 * (t.val % 147) + q.val, hb⟩ rfl,
    blk1_msg_apply V c t q j ⟨4096 * (t.val % 147) + q.val, hb⟩ rfl]

theorem acc1_congr (c : Dev nD) (n n' : ℕ) (h : n < cfg1.N) (h' : n' < cfg1.N) (e : n = n') :
    acc1 (F := Ideal) V c n h = acc1 (F := Ideal) V c n' h' := by
  subst e; rfl

theorem acc1_apply (c : Dev nD) (b : ℕ) (p : Fin 1024) (j : Fin 128) :
    ∀ (k : ℕ) (hk : k < 147) (h : 147 * b + k < cfg1.N),
      (acc1 (F := Ideal) V c (147 * b + k) h : FVec Ideal S1024x128 .f32) (ix2 p j)
        = ∑ s ∈ Finset.range (k + 1), ∑ q : Fin 4096, G1_term V c (1024 * b + p.val) j (4096 * s + q.val)
  | 0, hk, h => by
    have hm : (⟨147 * b + 0, h⟩ : Fin cfg1.N).val % 147 = 0 := by show (147 * b + 0) % 147 = 0; omega
    have hd : (⟨147 * b + 0, h⟩ : Fin cfg1.N).val / 147 = b := by show (147 * b + 0) / 147 = b; omega
    refine (congrFun (acc1_first (F := Ideal) V c ⟨147 * b + 0, h⟩ hm) (ix2 p j)).trans ?_
    refine (k1_pay2_apply (grid1.coords ⟨147 * b + 0, h⟩) (blk1_row V c ⟨147 * b + 0, h⟩) (k1_pay1 (F := Ideal)) (blk1_msg V c ⟨147 * b + 0, h⟩) p j).trans ?_
    rw [k1_pay1_apply, zero_add, pt1_block_term V c ⟨147 * b + 0, h⟩ p j, hm, hd]
    exact (Finset.sum_range_one (fun s => ∑ q : Fin 4096, G1_term V c (1024 * b + p.val) j (4096 * s + q.val))).symm
  | k + 1, hk, h => by
    have hm : (⟨147 * b + (k + 1), h⟩ : Fin cfg1.N).val % 147 = k + 1 := by show (147 * b + (k + 1)) % 147 = k + 1; omega
    have hd : (⟨147 * b + (k + 1), h⟩ : Fin cfg1.N).val / 147 = b := by show (147 * b + (k + 1)) / 147 = b; omega
    have hn : ¬(⟨147 * b + (k + 1), h⟩ : Fin cfg1.N).val % 147 = 0 := by rw [hm]; omega
    have hprev : 147 * b + k < cfg1.N := by omega
    refine (congrFun (acc1_next (F := Ideal) V c ⟨147 * b + (k + 1), h⟩ hn) (ix2 p j)).trans ?_
    refine (k1_pay2_apply (grid1.coords ⟨147 * b + (k + 1), h⟩) (blk1_row V c ⟨147 * b + (k + 1), h⟩)
      (acc1 (F := Ideal) V c ((⟨147 * b + (k + 1), h⟩ : Fin cfg1.N).val - 1) (Nat.lt_of_le_of_lt (Nat.sub_le _ _) (⟨147 * b + (k + 1), h⟩ : Fin cfg1.N).isLt))
      (blk1_msg V c ⟨147 * b + (k + 1), h⟩) p j).trans ?_
    rw [acc1_congr V c ((⟨147 * b + (k + 1), h⟩ : Fin cfg1.N).val - 1) (147 * b + k) _ hprev (by show 147 * b + (k + 1) - 1 = 147 * b + k; omega),
      acc1_apply c b p j k (by omega) hprev, pt1_block_term V c ⟨147 * b + (k + 1), h⟩ p j, hm, hd,
      Finset.sum_range_succ _ (k + 1)]

def G1_val (c : Dev nD) : FVec Ideal S50176x128 .f32 := fun i =>
  ∑ e : Fin 602112, (if row1_arr V c (ix2 0 e) = BitVec.ofNat 32 (i 0).val then row1_msg V c (ix2 e (i 1)) else 0)

theorem G1_val_apply (c : Dev nD) (n : Fin 50176) (j : Fin 128) :
    G1_val V c (ix2 n j)
      = ∑ e : Fin 602112, (if row1_arr V c (ix2 0 e) = BitVec.ofNat 32 n.val then row1_msg V c (ix2 e j) else 0) := rfl

theorem G1_val_eq (c : Dev nD) (n : Fin 50176) (j : Fin 128) :
    G1_val V c (ix2 n j) = ∑ e : Fin 602112, G1_term V c n.val j e.val := by
  rw [G1_val_apply]
  refine Finset.sum_congr rfl fun e _ => ?_
  unfold G1_term
  rw [dif_pos e.isLt]

theorem out1_apply (c : Dev nD) (t : Fin cfg1.N) (ht : t.val % 147 = 146) (p : Fin 1024) (j : Fin 128) (n : Fin 50176)
    (hn : n.val = 1024 * (t.val / 147) + p.val) :
    (out1 (F := Ideal) V c t : FVec Ideal S1024x128 .f32) (ix2 p j) = G1_val V c (ix2 n j) := by
  have hlt := pt1_lt t
  have hN : cfg1.N = 7203 := N_1
  have h' : 147 * (t.val / 147) + 146 < cfg1.N := by omega
  unfold out1
  rw [acc1_congr V c t.val (147 * (t.val / 147) + 146) t.isLt h' (by omega),
    acc1_apply V c (t.val / 147) p j 146 (by omega) h', G1_val_eq, hn]
  exact k1_sum_blocks (fun e => G1_term V c (1024 * (t.val / 147) + p.val) j e)

theorem blk1_out_cut (X : FVec Ideal S1024x128 .f32) (t : Fin cfg1.N) (y : S1024x128.Idx) :
    (cfg1.win 2).cut (grid1.coords t) X y = X y := rfl

theorem blk1_out_read (A : FVec Ideal S50176x128 .f32) (t : Fin cfg1.N) (y : S1024x128.Idx) :
    ((cfg1.win 2).blk t).view.read (Elt Ideal) A y = A (((cfg1.win 2).blk t).view.emb y) := rfl

theorem flushed1_eq (c : Dev nD) (t : Fin cfg1.N) (hf : (cfg1.win 2).flush t = true) :
    (dat1 (F := Ideal) V c).flushed 2 t = ((cfg1.win 2).blk t).view.read (Elt Ideal) (G1_val V c) := by
  have ht : t.val % 147 = 146 := (flush1_2 t).mp hf
  have hlt := pt1_lt t
  obtain ⟨-, -, -, -, -, -, f20, f21⟩ := idx1_facts t
  show (cfg1.win 2).cut (grid1.coords t) ((dat1 (F := Ideal) V c).after 2 t) = _
  rw [after1_2]
  refine funext fun (y : S1024x128.Idx) => ?_
  obtain ⟨p, j, rfl⟩ : ∃ (p : Fin 1024) (j : Fin 128), y = ix2 p j := ⟨y 0, y 1, eq_ix2 y⟩
  have hp : p.val < 1024 := p.isLt
  refine (blk1_out_cut (out1 (F := Ideal) V c t) t (ix2 p j)).trans ?_
  refine Eq.trans ?_ (blk1_out_read (G1_val V c) t (ix2 p j)).symm
  have hemb : ((cfg1.win 2).blk t).view.emb (ix2 p j) = (ix2 (⟨1024 * (t.val / 147) + p.val, by omega⟩ : Fin 50176) j : S50176x128.Idx) := by
    funext a
    apply Fin.ext
    match a with
    | ⟨0, _⟩ => show win1_2.index t (0 : Fin 2) * 1024 + 1 * p.val = 1024 * (t.val / 147) + p.val; omega
    | ⟨1, _⟩ => show win1_2.index t (1 : Fin 2) * 128 + 1 * j.val = j.val; omega
  rw [hemb]
  exact out1_apply V c t ht p j ⟨1024 * (t.val / 147) + p.val, by omega⟩ rfl

theorem cover1 (c : Dev nD) (i : S50176x128.Idx) :
    ∃ t : Fin cfg1.N, (cfg1.win 2).flush t = true ∧ i ∈ ((cfg1.win 2).blk t).view.set := by
  have h0 : (i 0).val < 50176 := (i 0).isLt
  have h1 : (i 1).val < 128 := (i 1).isLt
  have hb : (i 0).val / 1024 < 49 := by omega
  refine ⟨⟨147 * ((i 0).val / 1024) + 146, pt1_last_lt _ hb⟩, (flush1_2 _).mpr (by show (147 * ((i 0).val / 1024) + 146) % 147 = 146; omega), ?_⟩
  obtain ⟨-, -, -, -, -, -, f20, f21⟩ := idx1_facts ⟨147 * ((i 0).val / 1024) + 146, pt1_last_lt _ hb⟩
  have f20' : win1_2.index ⟨147 * ((i 0).val / 1024) + 146, pt1_last_lt _ hb⟩ (0 : Fin 2) = (i 0).val / 1024 :=
    f20.trans (by show (147 * ((i 0).val / 1024) + 146) / 147 = (i 0).val / 1024; omega)
  show i ∈ ((View.whole (Pipeline.arrRef spec1 2)).slice (win1_2.rect ⟨147 * ((i 0).val / 1024) + 146, pt1_last_lt _ hb⟩)).set
  rw [View.set_slice_whole, Rect.mem_set_unit]
  intro a
  match a with
  | ⟨0, _⟩ =>
    show win1_2.index ⟨147 * ((i 0).val / 1024) + 146, pt1_last_lt _ hb⟩ (0 : Fin 2) * 1024 ≤ (i 0).val
      ∧ (i 0).val < win1_2.index ⟨147 * ((i 0).val / 1024) + 146, pt1_last_lt _ hb⟩ (0 : Fin 2) * 1024 + 1024
    omega
  | ⟨1, _⟩ =>
    show win1_2.index ⟨147 * ((i 0).val / 1024) + 146, pt1_last_lt _ hb⟩ (1 : Fin 2) * 128 ≤ (i 1).val
      ∧ (i 1).val < win1_2.index ⟨147 * ((i 0).val / 1024) + 146, pt1_last_lt _ hb⟩ (1 : Fin 2) * 128 + 128
    omega

theorem final1 (c : Dev nD) : (dat1 (F := Ideal) V c).arrAt 2 cfg1.N = G1_val V c :=
  (dat1 (F := Ideal) V c).arrAt_eq_of_cover 2 (G1_val V c) (flushed1_eq V c) (cover1 c)

theorem regionVal1 (c : Dev nD) (n : Fin 50176) (j : Fin 128) :
    ((dat1 (F := Ideal) V c).arrAt 2 cfg1.N : S50176x128.Idx → EReal) (ValueIdx.ix2 n j)
      = ∑ e : Fin 602112, (if row1_arr V c (ValueIdx.ix2 0 e) = BitVec.ofNat 32 n.val
          then row1_msg V c (ValueIdx.ix2 e j) else 0) :=
  (congrFun (final1 V c) (ix2 n j)).trans (G1_val_apply V c n j)

end Cert.KernelIdeal.Rg

end
-- ==== Proof.R2Pts.lean ====
import proofs.«425541_j70411693850858_1_alg».proof.Proof.R2Defs
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idx2_0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)

theorem idx2_1 : ∀ t : Fin cfg2.N, win2_1.index t (0 : Fin 2) = t.val ∧ win2_1.index t (1 : Fin 2) = 0 :=
  (by decide +kernel : ∀ t : Fin grid2.N, win2_1.index t (0 : Fin 2) = t.val ∧ win2_1.index t (1 : Fin 2) = 0)

theorem idx2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)

theorem idx2_3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)

theorem idx2_4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)

theorem idx2_5 : ∀ t : Fin cfg2.N, win2_5.index t (0 : Fin 2) = t.val ∧ win2_5.index t (1 : Fin 2) = 0 :=
  (by decide +kernel : ∀ t : Fin grid2.N, win2_5.index t (0 : Fin 2) = t.val ∧ win2_5.index t (1 : Fin 2) = 0)

abbrev G2_agg (c : Dev nD) : Vec F S50176x128 .bf16 := V c (Pipeline.arrRef spec2 0)

abbrev G2_x (c : Dev nD) : Vec F S50176x128 .bf16 := V c (Pipeline.arrRef spec2 1)

abbrev G2_wl (c : Dev nD) : Vec F S128x128 .bf16 := V c (Pipeline.arrRef spec2 2)

abbrev G2_wr (c : Dev nD) : Vec F S128x128 .bf16 := V c (Pipeline.arrRef spec2 3)

abbrev G2_b (c : Dev nD) : Vec F S1x128 .f32 := V c (Pipeline.arrRef spec2 4)

abbrev blk2_agg (c : Dev nD) (t : Fin cfg2.N) : Vec F S1024x128 .bf16 := iblk2 V c 0 t

abbrev blk2_x (c : Dev nD) (t : Fin cfg2.N) : Vec F S1024x128 .bf16 := iblk2 V c 1 t

abbrev blk2_wl (c : Dev nD) (t : Fin cfg2.N) : Vec F S128x128 .bf16 := iblk2 V c 2 t

abbrev blk2_wr (c : Dev nD) (t : Fin cfg2.N) : Vec F S128x128 .bf16 := iblk2 V c 3 t

abbrev blk2_b (c : Dev nD) (t : Fin cfg2.N) : Vec F S1x128 .f32 := iblk2 V c 4 t

theorem out2_eq (c : Dev nD) (t : Fin cfg2.N) :
    out2 V c t = k2_pay1 (blk2_agg V c t) (blk2_wl V c t) (blk2_x V c t) (blk2_wr V c t) (blk2_b V c t) := rfl

theorem blk2_agg_apply (c : Dev nD) (t : Fin cfg2.N) (p : Fin 1024) (q : Fin 128) (n : Fin 50176)
    (hn : n.val = t.val * 1024 + p.val) :
    blk2_agg V c t (ix2 p q) = G2_agg V c (ix2 n q) := by
  obtain ⟨e0, e1⟩ := idx2_0 t
  show G2_agg V c (((cfg2.win 0).blk t).view.emb (ix2 p q)) = G2_agg V c (ix2 n q)
  refine congrArg (G2_agg V c) (funext fun a => Fin.ext ?_)
  match a with
  | ⟨0, _⟩ => show win2_0.index t (0 : Fin 2) * 1024 + 1 * p.val = n.val; rw [e0, hn]; omega
  | ⟨1, _⟩ => show win2_0.index t (1 : Fin 2) * 128 + 1 * q.val = q.val; rw [e1]; omega

theorem blk2_x_apply (c : Dev nD) (t : Fin cfg2.N) (p : Fin 1024) (q : Fin 128) (n : Fin 50176)
    (hn : n.val = t.val * 1024 + p.val) :
    blk2_x V c t (ix2 p q) = G2_x V c (ix2 n q) := by
  obtain ⟨e0, e1⟩ := idx2_1 t
  show G2_x V c (((cfg2.win 1).blk t).view.emb (ix2 p q)) = G2_x V c (ix2 n q)
  refine congrArg (G2_x V c) (funext fun a => Fin.ext ?_)
  match a with
  | ⟨0, _⟩ => show win2_1.index t (0 : Fin 2) * 1024 + 1 * p.val = n.val; rw [e0, hn]; omega
  | ⟨1, _⟩ => show win2_1.index t (1 : Fin 2) * 128 + 1 * q.val = q.val; rw [e1]; omega

theorem blk2_wl_apply (c : Dev nD) (t : Fin cfg2.N) (p : Fin 128) (q : Fin 128) :
    blk2_wl V c t (ix2 p q) = G2_wl V c (ix2 p q) := by
  obtain ⟨e0, e1⟩ := idx2_2 t
  show G2_wl V c (((cfg2.win 2).blk t).view.emb (ix2 p q)) = G2_wl V c (ix2 p q)
  refine congrArg (G2_wl V c) (funext fun a => Fin.ext ?_)
  match a with
  | ⟨0, _⟩ => show win2_2.index t (0 : Fin 2) * 128 + 1 * p.val = p.val; rw [e0]; omega
  | ⟨1, _⟩ => show win2_2.index t (1 : Fin 2) * 128 + 1 * q.val = q.val; rw [e1]; omega

theorem blk2_wr_apply (c : Dev nD) (t : Fin cfg2.N) (p : Fin 128) (q : Fin 128) :
    blk2_wr V c t (ix2 p q) = G2_wr V c (ix2 p q) := by
  obtain ⟨e0, e1⟩ := idx2_3 t
  show G2_wr V c (((cfg2.win 3).blk t).view.emb (ix2 p q)) = G2_wr V c (ix2 p q)
  refine congrArg (G2_wr V c) (funext fun a => Fin.ext ?_)
  match a with
  | ⟨0, _⟩ => show win2_3.index t (0 : Fin 2) * 128 + 1 * p.val = p.val; rw [e0]; omega
  | ⟨1, _⟩ => show win2_3.index t (1 : Fin 2) * 128 + 1 * q.val = q.val; rw [e1]; omega

theorem blk2_b_apply (c : Dev nD) (t : Fin cfg2.N) (p : Fin 1) (q : Fin 128) :
    blk2_b V c t (ix2 p q) = G2_b V c (ix2 p q) := by
  obtain ⟨e0, e1⟩ := idx2_4 t
  show G2_b V c (((cfg2.win 4).blk t).view.emb (ix2 p q)) = G2_b V c (ix2 p q)
  refine congrArg (G2_b V c) (funext fun a => Fin.ext ?_)
  match a with
  | ⟨0, _⟩ => show win2_4.index t (0 : Fin 2) * 1 + 1 * p.val = p.val; rw [e0]; omega
  | ⟨1, _⟩ => show win2_4.index t (1 : Fin 2) * 128 + 1 * q.val = q.val; rw [e1]; omega

theorem blk2_out_emb (t : Fin cfg2.N) (p : Fin 1024) (q : Fin 128) (n : Fin 50176)
    (hn : n.val = t.val * 1024 + p.val) :
    (((cfg2.win 5).blk t).view.emb (ix2 p q) : S50176x128.Idx) = ix2 n q := by
  obtain ⟨e0, e1⟩ := idx2_5 t
  funext a
  apply Fin.ext
  match a with
  | ⟨0, _⟩ => show win2_5.index t (0 : Fin 2) * 1024 + 1 * p.val = n.val; rw [e0, hn]; omega
  | ⟨1, _⟩ => show win2_5.index t (1 : Fin 2) * 128 + 1 * q.val = q.val; rw [e1]; omega

theorem blk2_mem (t : Fin cfg2.N) (i : S50176x128.Idx) :
    i ∈ ((cfg2.win 5).blk t).view.set ↔ ∀ a : Fin 2, win2_5.index t a * S1024x128.size a ≤ (i a).val ∧ (i a).val < win2_5.index t a * S1024x128.size a + S1024x128.size a := by
  show i ∈ ((View.whole (Pipeline.arrRef spec2 5)).slice (win2_5.rect t)).set ↔ _
  rw [View.set_slice_whole, Rect.mem_set_unit]
  exact Iff.rfl

theorem cover2 (i : S50176x128.Idx) :
    ∃ t : Fin cfg2.N, (cfg2.win 5).flush t = true ∧ i ∈ ((cfg2.win 5).blk t).view.set := by
  have hi0 : (i 0).val < 50176 := (i 0).isLt
  have hi1 : (i 1).val < 128 := (i 1).isLt
  have hN : (i 0).val / 1024 < cfg2.N := by rw [show cfg2.N = 49 from N_2]; omega
  refine ⟨⟨(i 0).val / 1024, hN⟩, flush2_5 _, ?_⟩
  obtain ⟨e0, e1⟩ := idx2_5 ⟨(i 0).val / 1024, hN⟩
  rw [blk2_mem]
  intro a
  match a with
  | ⟨0, _⟩ =>
    show win2_5.index ⟨(i 0).val / 1024, hN⟩ (0 : Fin 2) * 1024 ≤ (i 0).val ∧ (i 0).val < win2_5.index ⟨(i 0).val / 1024, hN⟩ (0 : Fin 2) * 1024 + 1024
    rw [e0]; show (i 0).val / 1024 * 1024 ≤ (i 0).val ∧ (i 0).val < (i 0).val / 1024 * 1024 + 1024; omega
  | ⟨1, _⟩ =>
    show win2_5.index ⟨(i 0).val / 1024, hN⟩ (1 : Fin 2) * 128 ≤ (i 1).val ∧ (i 1).val < win2_5.index ⟨(i 0).val / 1024, hN⟩ (1 : Fin 2) * 128 + 128
    rw [e1]; omega

end Cert.KernelIdeal.Rg

end
-- ==== Proof.DenseVal.lean ====
import proofs.«425541_j70411693850858_1_alg».proof.Proof.Gen.KernelIdeal.Launch
import proofs.«425541_j70411693850858_1_alg».proof.Proof.Gen.KernelIdeal.Skeleton
import proofs.«425541_j70411693850858_1_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

theorem idx2_lhs0 (i : S1024x128.Idx) (r : dot_S1024x128_S128x128_S1024x128_1_0_0_1_n_n.contr.Idx) :
    (dot_S1024x128_S128x128_S1024x128_1_0_0_1_n_n.lhsIdx i r 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl

theorem idx2_lhs1 (i : S1024x128.Idx) (r : dot_S1024x128_S128x128_S1024x128_1_0_0_1_n_n.contr.Idx) :
    (dot_S1024x128_S128x128_S1024x128_1_0_0_1_n_n.lhsIdx i r 1).val = (r ⟨0, by decide⟩).val :=
  dot_S1024x128_S128x128_S1024x128_1_0_0_1_n_n.lhsIdx_val_of_single rfl i r

theorem idx2_rhs0 (i : S1024x128.Idx) (r : dot_S1024x128_S128x128_S1024x128_1_0_0_1_n_n.contr.Idx) :
    (dot_S1024x128_S128x128_S1024x128_1_0_0_1_n_n.rhsIdx i r 0).val = (r ⟨0, by decide⟩).val :=
  dot_S1024x128_S128x128_S1024x128_1_0_0_1_n_n.rhsIdx_val_of_single rfl i r

theorem idx2_rhs1 (i : S1024x128.Idx) (r : dot_S1024x128_S128x128_S1024x128_1_0_0_1_n_n.contr.Idx) :
    (dot_S1024x128_S128x128_S1024x128_1_0_0_1_n_n.rhsIdx i r 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

theorem k2_matmul_apply (a : FVec Ideal S1024x128 .bf16) (w : FVec Ideal S128x128 .bf16) (p : Fin 1024) (q : Fin 128) :
    matmul dot_S1024x128_S128x128_S1024x128_1_0_0_1_n_n none a w (constant S1024x128 .f32 0x00000000#32) (ix2 p q)
      = ∑ k : Fin 128, a (ix2 p k) * w (ix2 k q) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p q) ((contrEquiv1 dot_S1024x128_S128x128_S1024x128_1_0_0_1_n_n 128 rfl rfl).symm k) = ix2 p k := funext fun ax => Fin.ext (by
    match ax with
    | ⟨0, _⟩ => exact idx2_lhs0 _ _
    | ⟨1, _⟩ => exact (idx2_lhs1 _ _).trans hk)
  have er : dot_S1024x128_S128x128_S1024x128_1_0_0_1_n_n.rhsIdx (ix2 p q) ((contrEquiv1 dot_S1024x128_S128x128_S1024x128_1_0_0_1_n_n 128 rfl rfl).symm k) = ix2 k q := funext fun ax => Fin.ext (by
    match ax with
    | ⟨0, _⟩ => exact (idx2_rhs0 _ _).trans hk
    | ⟨1, _⟩ => exact idx2_rhs1 _ _)
  rw [el, er]

theorem k2_pay1_apply (a : Vec Ideal S1024x128 .bf16) (wl : Vec Ideal S128x128 .bf16) (x : Vec Ideal S1024x128 .bf16)
    (wr : Vec Ideal S128x128 .bf16) (b : Vec Ideal S1x128 .f32) (p : Fin 1024) (q : Fin 128) :
    k2_pay1 (F := Ideal) a wl x wr b (ix2 p q)
      = max ((∑ k : Fin 128, (a (ix2 p k) : EReal) * (wl (ix2 k q) : EReal))
            + (∑ k : Fin 128, (x (ix2 p k) : EReal) * (wr (ix2 k q) : EReal))
            + (b (ix2 (0 : Fin 1) q) : EReal)) 0 := by
  unfold k2_pay1
  refine (maximumf_apply _ _ _).trans ?_
  refine congrArg₂ max ?_ ?_
  · refine (addf_apply _ _ _).trans ?_
    refine congrArg₂ (· + ·) ?_ ?_
    · refine (addf_apply _ _ _).trans ?_
      refine congrArg₂ (· + ·) ?_ ?_
      · rw [shapeCast_self, shapeCast_self]; exact k2_matmul_apply a wl p q
      · rw [shapeCast_self, shapeCast_self]; exact k2_matmul_apply x wr p q
    · rw [shapeCast_self]; exact broadcastTo_1b_ab_apply b _ p q
  · exact Ideal.ofBits_zero_f32

end Cert.KernelIdeal.Rg

end
-- ==== Proof.R2Val.lean ====
import proofs.«425541_j70411693850858_1_alg».proof.Proof.R2Pts
import proofs.«425541_j70411693850858_1_alg».proof.Proof.DenseVal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

def row2 (c : Dev nD) (n : Fin 50176) (j : Fin 128) : EReal :=
  max ((∑ k : Fin 128, (G2_agg V c (ix2 n k) : EReal) * (G2_wl V c (ix2 k j) : EReal))
      + (∑ k : Fin 128, (G2_x V c (ix2 n k) : EReal) * (G2_wr V c (ix2 k j) : EReal))
      + (G2_b V c (ix2 (0 : Fin 1) j) : EReal)) 0

def G2_out (c : Dev nD) : S50176x128.Idx → EReal := fun i => row2 V c (i 0) (i 1)

theorem G2_out_apply (c : Dev nD) (n : Fin 50176) (j : Fin 128) : G2_out V c (ix2 n j) = row2 V c n j := rfl

theorem out2_apply (c : Dev nD) (t : Fin cfg2.N) (p : Fin 1024) (q : Fin 128) (n : Fin 50176)
    (hn : n.val = t.val * 1024 + p.val) :
    out2 V c t (ix2 p q) = G2_out V c (ix2 n q) := by
  rw [G2_out_apply, out2_eq]
  refine (k2_pay1_apply (blk2_agg V c t) (blk2_wl V c t) (blk2_x V c t) (blk2_wr V c t) (blk2_b V c t) p q).trans ?_
  unfold row2
  refine congrArg₂ max ?_ rfl
  refine congrArg₂ (· + ·) ?_ ?_
  · refine congrArg₂ (· + ·) ?_ ?_
    · refine Finset.sum_congr rfl fun k _ => ?_
      exact congrArg₂ (· * ·) (blk2_agg_apply V c t p k n hn) (blk2_wl_apply V c t k q)
    · refine Finset.sum_congr rfl fun k _ => ?_
      exact congrArg₂ (· * ·) (blk2_x_apply V c t p k n hn) (blk2_wr_apply V c t k q)
  · exact blk2_b_apply V c t 0 q

theorem flushed2_eq (c : Dev nD) (t : Fin cfg2.N) :
    (dat2 (F := Ideal) V c).flushed 5 t = ((cfg2.win 5).blk t).view.read (Elt Ideal) (G2_out V c) := by
  show (cfg2.win 5).cut (grid2.coords t) ((dat2 (F := Ideal) V c).after 5 t) = _
  rw [after2_5]
  funext y
  obtain ⟨p, q, rfl⟩ : ∃ (p : Fin 1024) (q : Fin 128), y = ix2 p q := ⟨y 0, y 1, eq_ix2 y⟩
  have hp : p.val < 1024 := p.isLt
  have ht : t.val < 49 := lt_of_lt_of_eq t.isLt N_2
  have hn : t.val * 1024 + p.val < 50176 := by omega
  show out2 V c t (ix2 p q) = G2_out V c (((cfg2.win 5).blk t).view.emb (ix2 p q))
  exact (out2_apply V c t p q ⟨t.val * 1024 + p.val, hn⟩ rfl).trans
    (congrArg (G2_out V c) (blk2_out_emb t p q ⟨t.val * 1024 + p.val, hn⟩ rfl).symm)

theorem final2 (c : Dev nD) : (dat2 (F := Ideal) V c).arrAt 5 cfg2.N = G2_out V c :=
  (dat2 (F := Ideal) V c).arrAt_eq_of_cover 5 (G2_out V c) (fun t _ => flushed2_eq V c t) cover2

theorem regionVal2 (c : Dev nD) (n : Fin 50176) (j : Fin 128) :
    ((dat2 (F := Ideal) V c).arrAt 5 cfg2.N : S50176x128.Idx → EReal) (ix2 n j)
      = max ((∑ k : Fin 128, (G2_agg V c (ix2 n k) : EReal) * (G2_wl V c (ix2 k j) : EReal))
            + (∑ k : Fin 128, (G2_x V c (ix2 n k) : EReal) * (G2_wr V c (ix2 k j) : EReal))
            + (G2_b V c (ix2 (0 : Fin 1) j) : EReal)) 0 := by
  rw [final2 V c]
  rfl

end Cert.KernelIdeal.Rg

end
-- ==== Proof.R3Pts.lean ====
import proofs.«425541_j70411693850858_1_alg».proof.Proof.R3Defs
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

theorem idx3_facts : ∀ t : Fin cfg3.N,
    win3_0.index t (0 : Fin 2) = t.val / 49 ∧ win3_0.index t (1 : Fin 2) = 0
    ∧ win3_1.index t (0 : Fin 2) = t.val / 49 ∧ win3_1.index t (1 : Fin 2) = 0
    ∧ win3_2.index t (0 : Fin 2) = t.val % 49 ∧ win3_2.index t (1 : Fin 2) = 0
    ∧ win3_3.index t (0 : Fin 2) = t.val / 49 ∧ win3_3.index t (1 : Fin 2) = 0
    ∧ (grid3.coords t 1).val = t.val % 49 :=
  (by decide +kernel : ∀ t : Fin grid3.N, _)

abbrev blk3_col (c : Dev nD) (t : Fin cfg3.N) : Vec F S4096x1 .i32 := iblk3 V c 0 t
abbrev blk3_wt (c : Dev nD) (t : Fin cfg3.N) : Vec F S4096x1 .f32 := iblk3 V c 1 t
abbrev blk3_x (c : Dev nD) (t : Fin cfg3.N) : Vec F S1024x128 .bf16 := iblk3 V c 2 t
abbrev G3_col (c : Dev nD) : Vec F S602112x1 .i32 := V c (Pipeline.arrRef spec3 0)
abbrev G3_wt (c : Dev nD) : Vec F S602112x1 .f32 := V c (Pipeline.arrRef spec3 1)
abbrev G3_x (c : Dev nD) : Vec F S50176x128 .bf16 := V c (Pipeline.arrRef spec3 2)

theorem blk3_col_apply (c : Dev nD) (t : Fin cfg3.N) (p : Fin 4096) (e : Fin 602112)
    (he : e.val = 4096 * (t.val / 49) + p.val) :
    blk3_col V c t (ix2 p 0) = G3_col V c (ix2 e 0) := by
  obtain ⟨ha, hb, -⟩ := idx3_facts t
  show ((cfg3.win 0).blk t).view.read (Elt F) (V c (Pipeline.arrRef spec3 0)) (ix2 p 0) = _
  rw [View.read_apply]
  show (V c (Pipeline.arrRef spec3 0) : S602112x1.Idx → Elt F .i32) _ = (V c (Pipeline.arrRef spec3 0) : S602112x1.Idx → Elt F .i32) (ix2 e 0)
  refine congrArg (V c (Pipeline.arrRef spec3 0) : S602112x1.Idx → Elt F .i32) (funext fun a => Fin.ext ?_)
  match a with
  | ⟨0, _⟩ => show win3_0.index t (0 : Fin 2) * 4096 + 1 * p.val = e.val; omega
  | ⟨1, _⟩ => show win3_0.index t (1 : Fin 2) * 1 + 1 * 0 = 0; omega

theorem blk3_wt_apply (c : Dev nD) (t : Fin cfg3.N) (p : Fin 4096) (e : Fin 602112)
    (he : e.val = 4096 * (t.val / 49) + p.val) :
    blk3_wt V c t (ix2 p 0) = G3_wt V c (ix2 e 0) := by
  obtain ⟨-, -, ha, hb, -⟩ := idx3_facts t
  show ((cfg3.win 1).blk t).view.read (Elt F) (V c (Pipeline.arrRef spec3 1)) (ix2 p 0) = _
  rw [View.read_apply]
  show (V c (Pipeline.arrRef spec3 1) : S602112x1.Idx → Elt F .f32) _ = (V c (Pipeline.arrRef spec3 1) : S602112x1.Idx → Elt F .f32) (ix2 e 0)
  refine congrArg (V c (Pipeline.arrRef spec3 1) : S602112x1.Idx → Elt F .f32) (funext fun a => Fin.ext ?_)
  match a with
  | ⟨0, _⟩ => show win3_1.index t (0 : Fin 2) * 4096 + 1 * p.val = e.val; omega
  | ⟨1, _⟩ => show win3_1.index t (1 : Fin 2) * 1 + 1 * 0 = 0; omega

theorem blk3_x_apply (c : Dev nD) (t : Fin cfg3.N) (k : Fin 1024) (q : Fin 128) (n : Fin 50176)
    (hn : n.val = 1024 * (t.val % 49) + k.val) :
    blk3_x V c t (ix2 k q) = G3_x V c (ix2 n q) := by
  obtain ⟨-, -, -, -, ha, hb, -⟩ := idx3_facts t
  show ((cfg3.win 2).blk t).view.read (Elt F) (V c (Pipeline.arrRef spec3 2)) (ix2 k q) = _
  rw [View.read_apply]
  show (V c (Pipeline.arrRef spec3 2) : S50176x128.Idx → Elt F .bf16) _ = (V c (Pipeline.arrRef spec3 2) : S50176x128.Idx → Elt F .bf16) (ix2 n q)
  refine congrArg (V c (Pipeline.arrRef spec3 2) : S50176x128.Idx → Elt F .bf16) (funext fun a => Fin.ext ?_)
  match a with
  | ⟨0, _⟩ => show win3_2.index t (0 : Fin 2) * 1024 + 1 * k.val = n.val; omega
  | ⟨1, _⟩ => show win3_2.index t (1 : Fin 2) * 128 + 1 * q.val = q.val; omega

theorem blk3_out_read (t : Fin cfg3.N) (Y : S602112x128.Idx → Elt F .bf16) (p : Fin 4096) (q : Fin 128) (e : Fin 602112)
    (he : e.val = 4096 * (t.val / 49) + p.val) :
    ((cfg3.win 3).blk t).view.read (Elt F) Y (ix2 p q) = Y (ix2 e q) := by
  obtain ⟨-, -, -, -, -, -, ha, hb, -⟩ := idx3_facts t
  rw [View.read_apply]
  show Y _ = Y (ix2 e q)
  refine congrArg Y (funext fun a => Fin.ext ?_)
  match a with
  | ⟨0, _⟩ => show win3_3.index t (0 : Fin 2) * 4096 + 1 * p.val = e.val; omega
  | ⟨1, _⟩ => show win3_3.index t (1 : Fin 2) * 128 + 1 * q.val = q.val; omega

theorem blk3_out_mem (t : Fin cfg3.N) (i : S602112x128.Idx) :
    i ∈ ((cfg3.win 3).blk t).view.set ↔ ∀ a : Fin 2, win3_3.index t a * S4096x128.size a ≤ (i a).val ∧ (i a).val < win3_3.index t a * S4096x128.size a + S4096x128.size a := by
  show i ∈ ((View.whole (Pipeline.arrRef spec3 3)).slice (win3_3.rect t)).set ↔ _
  rw [View.set_slice_whole, Rect.mem_set_unit]
  exact Iff.rfl

theorem cover3_out (i : S602112x128.Idx) :
    ∃ t : Fin cfg3.N, (cfg3.win 3).flush t = true ∧ i ∈ ((cfg3.win 3).blk t).view.set := by
  have hN : cfg3.N = 7203 := N_3
  have hr : (i 0).val < 602112 := idx2_lt0 i
  have hl : (i 1).val < 128 := idx2_lt1 i
  obtain ⟨t, ht⟩ : ∃ t : Fin cfg3.N, t.val = 49 * ((i 0).val / 4096) + 48 := ⟨⟨49 * ((i 0).val / 4096) + 48, by rw [hN]; omega⟩, rfl⟩
  refine ⟨t, (flush3_3 t).mpr (by omega), ?_⟩
  rw [blk3_out_mem]
  obtain ⟨-, -, -, -, -, -, ha, hb, -⟩ := idx3_facts t
  intro a
  match a with
  | ⟨0, _⟩ => show win3_3.index t (0 : Fin 2) * 4096 ≤ (i 0).val ∧ (i 0).val < win3_3.index t (0 : Fin 2) * 4096 + 4096; omega
  | ⟨1, _⟩ => show win3_3.index t (1 : Fin 2) * 128 ≤ (i 1).val ∧ (i 1).val < win3_3.index t (1 : Fin 2) * 128 + 128; omega

end Cert.KernelIdeal.Rg

end
-- ==== Proof.R3Val.lean ====
import proofs.«425541_j70411693850858_1_alg».proof.Proof.R3Defs
import proofs.«425541_j70411693850858_1_alg».proof.Proof.R3Pts
import proofs.«425541_j70411693850858_1_alg».proof.Proof.GatherVal
import Idealize.ShloMosaic.Lib.Pipeline.Value
import Idealize.ShloMosaic.Lib.ValueIdx
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

def G3_out (c : Dev nD) : S602112x128.Idx → EReal := fun i =>
  G0_at (G3_col V c) (G3_wt V c) (G3_x V c) ⟨(i 0).val, idx2_lt0 i⟩ ⟨(i 1).val, idx2_lt1 i⟩

theorem acc3_step_hit (c : Dev nD) (t : Fin cfg3.N) (A : Vec Ideal S4096x128 .f32) (p : Fin 4096) (q : Fin 128)
    (e : Fin 602112) (n₀ : Fin 50176) (he : e.val = 4096 * (t.val / 49) + p.val)
    (hc : (G3_col V c : S602112x1.Idx → BitVec 32) (ix2 e 0) = BitVec.ofNat 32 n₀.val) :
    (k0_pay2 (F := Ideal) (grid3.coords t) (iblk3 V c 0 t) A (iblk3 V c 2 t) : S4096x128.Idx → EReal) (ix2 p q)
      = (A : S4096x128.Idx → EReal) (ix2 p q) + if n₀.val / 1024 = t.val % 49 then (G3_x V c : S50176x128.Idx → EReal) (ix2 n₀ q) else 0 := by
  obtain ⟨-, -, -, -, -, -, -, -, hg⟩ := idx3_facts t
  refine (k0_pay2_apply (grid3.coords t) (blk3_col V c t) A (blk3_x V c t) p q).trans ?_
  refine congrArg ((A : S4096x128.Idx → EReal) (ix2 p q) + ·) ?_
  rw [blk3_col_apply V c t p e he, hg]
  exact row0_sum_hit _ (t.val % 49) n₀.val (Nat.mod_lt _ (by norm_num)) n₀.isLt hc
    (fun k => (blk3_x V c t : S1024x128.Idx → EReal) (ix2 k q)) _
    (fun k hk => blk3_x_apply V c t k q n₀ hk)

theorem acc3_step_miss (c : Dev nD) (t : Fin cfg3.N) (A : Vec Ideal S4096x128 .f32) (p : Fin 4096) (q : Fin 128)
    (e : Fin 602112) (he : e.val = 4096 * (t.val / 49) + p.val)
    (hc : ∀ n : Fin 50176, (G3_col V c : S602112x1.Idx → BitVec 32) (ix2 e 0) ≠ BitVec.ofNat 32 n.val) :
    (k0_pay2 (F := Ideal) (grid3.coords t) (iblk3 V c 0 t) A (iblk3 V c 2 t) : S4096x128.Idx → EReal) (ix2 p q)
      = (A : S4096x128.Idx → EReal) (ix2 p q) + 0 := by
  obtain ⟨-, -, -, -, -, -, -, -, hg⟩ := idx3_facts t
  refine (k0_pay2_apply (grid3.coords t) (blk3_col V c t) A (blk3_x V c t) p q).trans ?_
  refine congrArg ((A : S4096x128.Idx → EReal) (ix2 p q) + ·) ?_
  rw [blk3_col_apply V c t p e he, hg]
  exact row0_sum_miss _ (t.val % 49) (Nat.mod_lt _ (by norm_num)) hc
    (fun k => (blk3_x V c t : S1024x128.Idx → EReal) (ix2 k q))

theorem acc3_hit (c : Dev nD) : ∀ (n : ℕ) (hn : n < cfg3.N) (p : Fin 4096) (q : Fin 128) (e : Fin 602112) (n₀ : Fin 50176),
    e.val = 4096 * (n / 49) + p.val → (G3_col V c : S602112x1.Idx → BitVec 32) (ix2 e 0) = BitVec.ofNat 32 n₀.val →
    (acc3 (F := Ideal) V c n hn : S4096x128.Idx → EReal) (ix2 p q)
      = if n₀.val / 1024 ≤ n % 49 then (G3_x V c : S50176x128.Idx → EReal) (ix2 n₀ q) else 0
  | 0, hn, p, q, e, n₀, he, hc => by
    refine (congrFun (acc3_first V c ⟨0, hn⟩ rfl) (ix2 p q)).trans ?_
    refine (acc3_step_hit V c ⟨0, hn⟩ _ p q e n₀ he hc).trans ?_
    rw [k0_pay1_apply, zero_add]
    exact if_congr (by show n₀.val / 1024 = 0 % 49 ↔ n₀.val / 1024 ≤ 0 % 49; omega) rfl rfl
  | n + 1, hn, p, q, e, n₀, he, hc => by
    by_cases h : (n + 1) % 49 = 0
    · refine (congrFun (acc3_first V c ⟨n + 1, hn⟩ h) (ix2 p q)).trans ?_
      refine (acc3_step_hit V c ⟨n + 1, hn⟩ _ p q e n₀ he hc).trans ?_
      rw [k0_pay1_apply, zero_add]
      exact if_congr (by show n₀.val / 1024 = (n + 1) % 49 ↔ n₀.val / 1024 ≤ (n + 1) % 49; omega) rfl rfl
    · refine (congrFun (acc3_next V c ⟨n + 1, hn⟩ h) (ix2 p q)).trans ?_
      refine (acc3_step_hit V c ⟨n + 1, hn⟩ _ p q e n₀ he hc).trans ?_
      have ih := acc3_hit c n (Nat.lt_of_succ_lt hn) p q e n₀ (by omega) hc
      refine (congrArg (· + if n₀.val / 1024 = (n + 1) % 49 then (G3_x V c : S50176x128.Idx → EReal) (ix2 n₀ q) else 0) ih).trans ?_
      have hm : (n + 1) % 49 = n % 49 + 1 := by omega
      rw [hm]
      by_cases hx : n₀.val / 1024 ≤ n % 49
      · rw [if_pos hx, if_neg (by omega), if_pos (by omega), add_zero]
      · by_cases hy : n₀.val / 1024 = n % 49 + 1
        · rw [if_neg hx, if_pos hy, if_pos (by omega), zero_add]
        · rw [if_neg hx, if_neg hy, if_neg (by omega), add_zero]

theorem acc3_miss (c : Dev nD) : ∀ (n : ℕ) (hn : n < cfg3.N) (p : Fin 4096) (q : Fin 128) (e : Fin 602112),
    e.val = 4096 * (n / 49) + p.val → (∀ m : Fin 50176, (G3_col V c : S602112x1.Idx → BitVec 32) (ix2 e 0) ≠ BitVec.ofNat 32 m.val) →
    (acc3 (F := Ideal) V c n hn : S4096x128.Idx → EReal) (ix2 p q) = 0
  | 0, hn, p, q, e, he, hc => by
    refine (congrFun (acc3_first V c ⟨0, hn⟩ rfl) (ix2 p q)).trans ?_
    refine (acc3_step_miss V c ⟨0, hn⟩ _ p q e he hc).trans ?_
    rw [k0_pay1_apply, zero_add]
  | n + 1, hn, p, q, e, he, hc => by
    by_cases h : (n + 1) % 49 = 0
    · refine (congrFun (acc3_first V c ⟨n + 1, hn⟩ h) (ix2 p q)).trans ?_
      refine (acc3_step_miss V c ⟨n + 1, hn⟩ _ p q e he hc).trans ?_
      rw [k0_pay1_apply, zero_add]
    · refine (congrFun (acc3_next V c ⟨n + 1, hn⟩ h) (ix2 p q)).trans ?_
      refine (acc3_step_miss V c ⟨n + 1, hn⟩ _ p q e he hc).trans ?_
      have ih := acc3_miss c n (Nat.lt_of_succ_lt hn) p q e (by omega) hc
      exact (congrArg (· + (0 : EReal)) ih).trans (add_zero 0)

theorem out3_apply (c : Dev nD) (t : Fin cfg3.N) (hl : t.val % 49 = 48) (p : Fin 4096) (q : Fin 128) (e : Fin 602112)
    (he : e.val = 4096 * (t.val / 49) + p.val) :
    (out3 (F := Ideal) V c t : S4096x128.Idx → EReal) (ix2 p q) = G0_at (G3_col V c) (G3_wt V c) (G3_x V c) e q := by
  refine (k0_pay3_apply (blk3_wt V c t) (acc3 V c t.val t.isLt) p q).trans ?_
  rw [blk3_wt_apply V c t p e he]
  by_cases hc : ∃ n₀ : Fin 50176, (G3_col V c : S602112x1.Idx → BitVec 32) (ix2 e 0) = BitVec.ofNat 32 n₀.val
  · obtain ⟨n₀, hn₀⟩ := hc
    rw [acc3_hit V c t.val t.isLt p q e n₀ he hn₀, if_pos (by have := n₀.isLt; omega), G0_at_hit _ _ _ e q n₀ hn₀]
  · have hm : ∀ m : Fin 50176, (G3_col V c : S602112x1.Idx → BitVec 32) (ix2 e 0) ≠ BitVec.ofNat 32 m.val := fun m hh => hc ⟨m, hh⟩
    rw [acc3_miss V c t.val t.isLt p q e he hm, G0_at_miss _ _ _ e q hm]

theorem flushed3_eq (c : Dev nD) (t : Fin cfg3.N) (hf : (cfg3.win 3).flush t = true) :
    (dat3 (F := Ideal) V c).flushed 3 t = ((cfg3.win 3).blk t).view.read (Elt Ideal) (G3_out V c) := by
  have hl : t.val % 49 = 48 := (flush3_3 t).mp hf
  have hN : cfg3.N = 7203 := N_3
  have ht : t.val < 7203 := by have := t.isLt; omega
  show (cfg3.win 3).cut (grid3.coords t) ((dat3 V c).after 3 t) = _
  rw [after3_3]
  refine funext fun (y : S4096x128.Idx) => ?_
  obtain ⟨p, q, rfl⟩ : ∃ (p : Fin 4096) (q : Fin 128), y = ix2 p q := ⟨y 0, y 1, eq_ix2 y⟩
  obtain ⟨e, he⟩ : ∃ e : Fin 602112, e.val = 4096 * (t.val / 49) + p.val := ⟨⟨4096 * (t.val / 49) + p.val, by have := p.isLt; omega⟩, rfl⟩
  rw [blk3_out_read (F := Ideal) t (G3_out V c) p q e he]
  exact out3_apply V c t hl p q e he

theorem final3_out (c : Dev nD) : (dat3 (F := Ideal) V c).arrAt 3 cfg3.N = G3_out V c :=
  (dat3 (F := Ideal) V c).arrAt_eq_of_cover 3 (G3_out V c) (fun t hf => flushed3_eq V c t hf) cover3_out

theorem regionVal3_hit (c : Dev nD) (e : Fin 602112) (j : Fin 128) (n₀ : Fin 50176)
    (h : (V c (Pipeline.arrRef spec3 0) : S602112x1.Idx → BitVec 32) (ValueIdx.ix2 e 0) = BitVec.ofNat 32 n₀.val) :
    ((dat3 (F := Ideal) V c).arrAt 3 cfg3.N : S602112x128.Idx → EReal) (ValueIdx.ix2 e j)
      = G3_x V c (ValueIdx.ix2 n₀ j) * G3_wt V c (ValueIdx.ix2 e 0) := by
  rw [final3_out V c]
  exact G0_at_hit (G3_col V c) (G3_wt V c) (G3_x V c) e j n₀ h

theorem regionVal3_miss (c : Dev nD) (e : Fin 602112) (j : Fin 128)
    (h : ∀ n : Fin 50176, (V c (Pipeline.arrRef spec3 0) : S602112x1.Idx → BitVec 32) (ValueIdx.ix2 e 0) ≠ BitVec.ofNat 32 n.val) :
    ((dat3 (F := Ideal) V c).arrAt 3 cfg3.N : S602112x128.Idx → EReal) (ValueIdx.ix2 e j)
      = (0 : EReal) * G3_wt V c (ValueIdx.ix2 e 0) := by
  rw [final3_out V c]
  exact G0_at_miss (G3_col V c) (G3_wt V c) (G3_x V c) e j h

end Cert.KernelIdeal.Rg

end
-- ==== Proof.R4Pts.lean ====
import proofs.«425541_j70411693850858_1_alg».proof.Proof.R4Defs

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem idx4_facts : ∀ t : Fin cfg4.N,
    (grid4.coords t 0).val = t.val / 147 ∧ (grid4.coords t 1).val = t.val % 147
    ∧ win4_0.index t (0 : Fin 2) = 0 ∧ win4_0.index t (1 : Fin 2) = t.val % 147
    ∧ win4_1.index t (0 : Fin 2) = t.val % 147 ∧ win4_1.index t (1 : Fin 2) = 0
    ∧ win4_2.index t (0 : Fin 2) = t.val / 147 ∧ win4_2.index t (1 : Fin 2) = 0 :=
  (by decide +kernel : ∀ t : Fin grid4.N,
    (grid4.coords t 0).val = t.val / 147 ∧ (grid4.coords t 1).val = t.val % 147
    ∧ win4_0.index t (0 : Fin 2) = 0 ∧ win4_0.index t (1 : Fin 2) = t.val % 147
    ∧ win4_1.index t (0 : Fin 2) = t.val % 147 ∧ win4_1.index t (1 : Fin 2) = 0
    ∧ win4_2.index t (0 : Fin 2) = t.val / 147 ∧ win4_2.index t (1 : Fin 2) = 0)

theorem pt4_lt (t : Fin cfg4.N) : t.val < 7203 := by
  have h := t.isLt
  have hN : cfg4.N = 7203 := N_4
  omega

theorem pt4_last_lt (b : ℕ) (hb : b < 49) : 147 * b + 146 < cfg4.N := by
  have hN : cfg4.N = 7203 := N_4
  omega

end Cert.KernelIdeal.Rg

end
-- ==== Proof.R4Val.lean ====
import proofs.«425541_j70411693850858_1_alg».proof.Proof.R4Defs
import proofs.«425541_j70411693850858_1_alg».proof.Proof.R4Pts
import proofs.«425541_j70411693850858_1_alg».proof.Proof.ScatterVal
import Idealize.ShloMosaic.Lib.Pipeline.Value
import Idealize.ShloMosaic.Lib.ValueIdx
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

abbrev row4_arr (c : Dev nD) : IVec S1x602112 32 := V c (Pipeline.arrRef spec4 0)

abbrev row4_msg (c : Dev nD) : FVec Ideal S602112x128 .bf16 := V c (Pipeline.arrRef spec4 1)

abbrev blk4_row (c : Dev nD) (t : Fin cfg4.N) : IVec S1x4096 32 := iblk4 (F := Ideal) V c 0 t

abbrev blk4_msg (c : Dev nD) (t : Fin cfg4.N) : FVec Ideal S4096x128 .bf16 := iblk4 (F := Ideal) V c 1 t

theorem blk4_row_apply (c : Dev nD) (t : Fin cfg4.N) (q : Fin 4096) (e : Fin 602112)
    (he : e.val = 4096 * (t.val % 147) + q.val) :
    blk4_row V c t (ix2 0 q) = row4_arr V c (ix2 0 e) := by
  obtain ⟨-, -, f00, f01, -, -, -, -⟩ := idx4_facts t
  show iblk4 (F := Ideal) V c 0 t (ix2 0 q) = V c (Pipeline.arrRef spec4 0) (ix2 0 e)
  unfold iblk4
  rw [View.read_apply]
  show V c (Pipeline.arrRef spec4 0) (((cfg4.win 0).blk t).view.emb (ix2 0 q)) = V c (Pipeline.arrRef spec4 0) (ix2 0 e)
  refine congrArg (V c (Pipeline.arrRef spec4 0)) ?_
  funext a
  apply Fin.ext
  match a with
  | ⟨0, _⟩ => show win4_0.index t (0 : Fin 2) * 1 + 1 * 0 = 0; omega
  | ⟨1, _⟩ => show win4_0.index t (1 : Fin 2) * 4096 + 1 * q.val = e.val; omega

theorem blk4_msg_apply (c : Dev nD) (t : Fin cfg4.N) (q : Fin 4096) (j : Fin 128) (e : Fin 602112)
    (he : e.val = 4096 * (t.val % 147) + q.val) :
    blk4_msg V c t (ix2 q j) = row4_msg V c (ix2 e j) := by
  obtain ⟨-, -, -, -, f10, f11, -, -⟩ := idx4_facts t
  show iblk4 (F := Ideal) V c 1 t (ix2 q j) = V c (Pipeline.arrRef spec4 1) (ix2 e j)
  unfold iblk4
  rw [View.read_apply]
  show V c (Pipeline.arrRef spec4 1) (((cfg4.win 1).blk t).view.emb (ix2 q j)) = V c (Pipeline.arrRef spec4 1) (ix2 e j)
  refine congrArg (V c (Pipeline.arrRef spec4 1)) ?_
  funext a
  apply Fin.ext
  match a with
  | ⟨0, _⟩ => show win4_1.index t (0 : Fin 2) * 4096 + 1 * q.val = e.val; omega
  | ⟨1, _⟩ => show win4_1.index t (1 : Fin 2) * 128 + 1 * j.val = j.val; omega

def G4_term (c : Dev nD) (n : ℕ) (j : Fin 128) (e : ℕ) : EReal :=
  if h : e < 602112 then
    (if row4_arr V c (ix2 0 ⟨e, h⟩) = BitVec.ofNat 32 n then row4_msg V c (ix2 ⟨e, h⟩ j) else 0)
  else 0

theorem pt4_block_term (c : Dev nD) (t : Fin cfg4.N) (p : Fin 1024) (j : Fin 128) :
    (∑ q : Fin 4096, (if blk4_row V c t (ix2 0 q) = BitVec.ofNat 32 (1024 * (grid4.coords t 0).val + p.val)
        then blk4_msg V c t (ix2 q j) else 0))
      = ∑ q : Fin 4096, G4_term V c (1024 * (t.val / 147) + p.val) j (4096 * (t.val % 147) + q.val) := by
  obtain ⟨g0, -, -, -, -, -, -, -⟩ := idx4_facts t
  have hlt := pt4_lt t
  refine Finset.sum_congr rfl fun q _ => ?_
  have hq : q.val < 4096 := q.isLt
  have hb : 4096 * (t.val % 147) + q.val < 602112 := by omega
  unfold G4_term
  rw [dif_pos hb, g0, blk4_row_apply V c t q ⟨4096 * (t.val % 147) + q.val, hb⟩ rfl,
    blk4_msg_apply V c t q j ⟨4096 * (t.val % 147) + q.val, hb⟩ rfl]

theorem acc4_congr (c : Dev nD) (n n' : ℕ) (h : n < cfg4.N) (h' : n' < cfg4.N) (e : n = n') :
    acc4 (F := Ideal) V c n h = acc4 (F := Ideal) V c n' h' := by
  subst e; rfl

theorem acc4_apply (c : Dev nD) (b : ℕ) (p : Fin 1024) (j : Fin 128) :
    ∀ (k : ℕ) (hk : k < 147) (h : 147 * b + k < cfg4.N),
      (acc4 (F := Ideal) V c (147 * b + k) h : FVec Ideal S1024x128 .f32) (ix2 p j)
        = ∑ s ∈ Finset.range (k + 1), ∑ q : Fin 4096, G4_term V c (1024 * b + p.val) j (4096 * s + q.val)
  | 0, hk, h => by
    have hm : (⟨147 * b + 0, h⟩ : Fin cfg4.N).val % 147 = 0 := by show (147 * b + 0) % 147 = 0; omega
    have hd : (⟨147 * b + 0, h⟩ : Fin cfg4.N).val / 147 = b := by show (147 * b + 0) / 147 = b; omega
    refine (congrFun (acc4_first (F := Ideal) V c ⟨147 * b + 0, h⟩ hm) (ix2 p j)).trans ?_
    refine (k1_pay2_apply (grid4.coords ⟨147 * b + 0, h⟩) (blk4_row V c ⟨147 * b + 0, h⟩) (k1_pay1 (F := Ideal)) (blk4_msg V c ⟨147 * b + 0, h⟩) p j).trans ?_
    rw [k1_pay1_apply, zero_add, pt4_block_term V c ⟨147 * b + 0, h⟩ p j, hm, hd]
    exact (Finset.sum_range_one (fun s => ∑ q : Fin 4096, G4_term V c (1024 * b + p.val) j (4096 * s + q.val))).symm
  | k + 1, hk, h => by
    have hm : (⟨147 * b + (k + 1), h⟩ : Fin cfg4.N).val % 147 = k + 1 := by show (147 * b + (k + 1)) % 147 = k + 1; omega
    have hd : (⟨147 * b + (k + 1), h⟩ : Fin cfg4.N).val / 147 = b := by show (147 * b + (k + 1)) / 147 = b; omega
    have hn : ¬(⟨147 * b + (k + 1), h⟩ : Fin cfg4.N).val % 147 = 0 := by rw [hm]; omega
    have hprev : 147 * b + k < cfg4.N := by omega
    refine (congrFun (acc4_next (F := Ideal) V c ⟨147 * b + (k + 1), h⟩ hn) (ix2 p j)).trans ?_
    refine (k1_pay2_apply (grid4.coords ⟨147 * b + (k + 1), h⟩) (blk4_row V c ⟨147 * b + (k + 1), h⟩)
      (acc4 (F := Ideal) V c ((⟨147 * b + (k + 1), h⟩ : Fin cfg4.N).val - 1) (Nat.lt_of_le_of_lt (Nat.sub_le _ _) (⟨147 * b + (k + 1), h⟩ : Fin cfg4.N).isLt))
      (blk4_msg V c ⟨147 * b + (k + 1), h⟩) p j).trans ?_
    rw [acc4_congr V c ((⟨147 * b + (k + 1), h⟩ : Fin cfg4.N).val - 1) (147 * b + k) _ hprev (by show 147 * b + (k + 1) - 1 = 147 * b + k; omega),
      acc4_apply c b p j k (by omega) hprev, pt4_block_term V c ⟨147 * b + (k + 1), h⟩ p j, hm, hd,
      Finset.sum_range_succ _ (k + 1)]

def G4_val (c : Dev nD) : FVec Ideal S50176x128 .f32 := fun i =>
  ∑ e : Fin 602112, (if row4_arr V c (ix2 0 e) = BitVec.ofNat 32 (i 0).val then row4_msg V c (ix2 e (i 1)) else 0)

theorem G4_val_apply (c : Dev nD) (n : Fin 50176) (j : Fin 128) :
    G4_val V c (ix2 n j)
      = ∑ e : Fin 602112, (if row4_arr V c (ix2 0 e) = BitVec.ofNat 32 n.val then row4_msg V c (ix2 e j) else 0) := rfl

theorem G4_val_eq (c : Dev nD) (n : Fin 50176) (j : Fin 128) :
    G4_val V c (ix2 n j) = ∑ e : Fin 602112, G4_term V c n.val j e.val := by
  rw [G4_val_apply]
  refine Finset.sum_congr rfl fun e _ => ?_
  unfold G4_term
  rw [dif_pos e.isLt]

theorem out4_apply (c : Dev nD) (t : Fin cfg4.N) (ht : t.val % 147 = 146) (p : Fin 1024) (j : Fin 128) (n : Fin 50176)
    (hn : n.val = 1024 * (t.val / 147) + p.val) :
    (out4 (F := Ideal) V c t : FVec Ideal S1024x128 .f32) (ix2 p j) = G4_val V c (ix2 n j) := by
  have hlt := pt4_lt t
  have hN : cfg4.N = 7203 := N_4
  have h' : 147 * (t.val / 147) + 146 < cfg4.N := by omega
  unfold out4
  rw [acc4_congr V c t.val (147 * (t.val / 147) + 146) t.isLt h' (by omega),
    acc4_apply V c (t.val / 147) p j 146 (by omega) h', G4_val_eq, hn]
  exact k1_sum_blocks (fun e => G4_term V c (1024 * (t.val / 147) + p.val) j e)

theorem blk4_out_cut (X : FVec Ideal S1024x128 .f32) (t : Fin cfg4.N) (y : S1024x128.Idx) :
    (cfg4.win 2).cut (grid4.coords t) X y = X y := rfl

theorem blk4_out_read (A : FVec Ideal S50176x128 .f32) (t : Fin cfg4.N) (y : S1024x128.Idx) :
    ((cfg4.win 2).blk t).view.read (Elt Ideal) A y = A (((cfg4.win 2).blk t).view.emb y) := rfl

theorem flushed4_eq (c : Dev nD) (t : Fin cfg4.N) (hf : (cfg4.win 2).flush t = true) :
    (dat4 (F := Ideal) V c).flushed 2 t = ((cfg4.win 2).blk t).view.read (Elt Ideal) (G4_val V c) := by
  have ht : t.val % 147 = 146 := (flush4_2 t).mp hf
  have hlt := pt4_lt t
  obtain ⟨-, -, -, -, -, -, f20, f21⟩ := idx4_facts t
  show (cfg4.win 2).cut (grid4.coords t) ((dat4 (F := Ideal) V c).after 2 t) = _
  rw [after4_2]
  refine funext fun (y : S1024x128.Idx) => ?_
  obtain ⟨p, j, rfl⟩ : ∃ (p : Fin 1024) (j : Fin 128), y = ix2 p j := ⟨y 0, y 1, eq_ix2 y⟩
  have hp : p.val < 1024 := p.isLt
  refine (blk4_out_cut (out4 (F := Ideal) V c t) t (ix2 p j)).trans ?_
  refine Eq.trans ?_ (blk4_out_read (G4_val V c) t (ix2 p j)).symm
  have hemb : ((cfg4.win 2).blk t).view.emb (ix2 p j) = (ix2 (⟨1024 * (t.val / 147) + p.val, by omega⟩ : Fin 50176) j : S50176x128.Idx) := by
    funext a
    apply Fin.ext
    match a with
    | ⟨0, _⟩ => show win4_2.index t (0 : Fin 2) * 1024 + 1 * p.val = 1024 * (t.val / 147) + p.val; omega
    | ⟨1, _⟩ => show win4_2.index t (1 : Fin 2) * 128 + 1 * j.val = j.val; omega
  rw [hemb]
  exact out4_apply V c t ht p j ⟨1024 * (t.val / 147) + p.val, by omega⟩ rfl

theorem cover4 (c : Dev nD) (i : S50176x128.Idx) :
    ∃ t : Fin cfg4.N, (cfg4.win 2).flush t = true ∧ i ∈ ((cfg4.win 2).blk t).view.set := by
  have h0 : (i 0).val < 50176 := (i 0).isLt
  have h1 : (i 1).val < 128 := (i 1).isLt
  have hb : (i 0).val / 1024 < 49 := by omega
  refine ⟨⟨147 * ((i 0).val / 1024) + 146, pt4_last_lt _ hb⟩, (flush4_2 _).mpr (by show (147 * ((i 0).val / 1024) + 146) % 147 = 146; omega), ?_⟩
  obtain ⟨-, -, -, -, -, -, f20, f21⟩ := idx4_facts ⟨147 * ((i 0).val / 1024) + 146, pt4_last_lt _ hb⟩
  have f20' : win4_2.index ⟨147 * ((i 0).val / 1024) + 146, pt4_last_lt _ hb⟩ (0 : Fin 2) = (i 0).val / 1024 :=
    f20.trans (by show (147 * ((i 0).val / 1024) + 146) / 147 = (i 0).val / 1024; omega)
  show i ∈ ((View.whole (Pipeline.arrRef spec4 2)).slice (win4_2.rect ⟨147 * ((i 0).val / 1024) + 146, pt4_last_lt _ hb⟩)).set
  rw [View.set_slice_whole, Rect.mem_set_unit]
  intro a
  match a with
  | ⟨0, _⟩ =>
    show win4_2.index ⟨147 * ((i 0).val / 1024) + 146, pt4_last_lt _ hb⟩ (0 : Fin 2) * 1024 ≤ (i 0).val
      ∧ (i 0).val < win4_2.index ⟨147 * ((i 0).val / 1024) + 146, pt4_last_lt _ hb⟩ (0 : Fin 2) * 1024 + 1024
    omega
  | ⟨1, _⟩ =>
    show win4_2.index ⟨147 * ((i 0).val / 1024) + 146, pt4_last_lt _ hb⟩ (1 : Fin 2) * 128 ≤ (i 1).val
      ∧ (i 1).val < win4_2.index ⟨147 * ((i 0).val / 1024) + 146, pt4_last_lt _ hb⟩ (1 : Fin 2) * 128 + 128
    omega

theorem final4 (c : Dev nD) : (dat4 (F := Ideal) V c).arrAt 2 cfg4.N = G4_val V c :=
  (dat4 (F := Ideal) V c).arrAt_eq_of_cover 2 (G4_val V c) (flushed4_eq V c) (cover4 c)

theorem regionVal4 (c : Dev nD) (n : Fin 50176) (j : Fin 128) :
    ((dat4 (F := Ideal) V c).arrAt 2 cfg4.N : S50176x128.Idx → EReal) (ValueIdx.ix2 n j)
      = ∑ e : Fin 602112, (if row4_arr V c (ValueIdx.ix2 0 e) = BitVec.ofNat 32 n.val
          then row4_msg V c (ValueIdx.ix2 e j) else 0) :=
  (congrFun (final4 V c) (ix2 n j)).trans (G4_val_apply V c n j)

end Cert.KernelIdeal.Rg

end
-- ==== Proof.R5Pts.lean ====
import proofs.«425541_j70411693850858_1_alg».proof.Proof.R5Defs
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idx5_0 : ∀ t : Fin cfg5.N, win5_0.index t (0 : Fin 2) = t.val ∧ win5_0.index t (1 : Fin 2) = 0 :=
  (by decide +kernel : ∀ t : Fin grid5.N, win5_0.index t (0 : Fin 2) = t.val ∧ win5_0.index t (1 : Fin 2) = 0)

theorem idx5_1 : ∀ t : Fin cfg5.N, win5_1.index t (0 : Fin 2) = t.val ∧ win5_1.index t (1 : Fin 2) = 0 :=
  (by decide +kernel : ∀ t : Fin grid5.N, win5_1.index t (0 : Fin 2) = t.val ∧ win5_1.index t (1 : Fin 2) = 0)

theorem idx5_2 : ∀ t : Fin cfg5.N, win5_2.index t (0 : Fin 2) = 0 ∧ win5_2.index t (1 : Fin 2) = 0 :=
  (by decide +kernel : ∀ t : Fin grid5.N, win5_2.index t (0 : Fin 2) = 0 ∧ win5_2.index t (1 : Fin 2) = 0)

theorem idx5_3 : ∀ t : Fin cfg5.N, win5_3.index t (0 : Fin 2) = 0 ∧ win5_3.index t (1 : Fin 2) = 0 :=
  (by decide +kernel : ∀ t : Fin grid5.N, win5_3.index t (0 : Fin 2) = 0 ∧ win5_3.index t (1 : Fin 2) = 0)

theorem idx5_4 : ∀ t : Fin cfg5.N, win5_4.index t (0 : Fin 2) = 0 ∧ win5_4.index t (1 : Fin 2) = 0 :=
  (by decide +kernel : ∀ t : Fin grid5.N, win5_4.index t (0 : Fin 2) = 0 ∧ win5_4.index t (1 : Fin 2) = 0)

theorem idx5_5 : ∀ t : Fin cfg5.N, win5_5.index t (0 : Fin 2) = t.val ∧ win5_5.index t (1 : Fin 2) = 0 :=
  (by decide +kernel : ∀ t : Fin grid5.N, win5_5.index t (0 : Fin 2) = t.val ∧ win5_5.index t (1 : Fin 2) = 0)

abbrev G5_agg (c : Dev nD) : Vec F S50176x128 .bf16 := V c (Pipeline.arrRef spec5 0)

abbrev G5_x (c : Dev nD) : Vec F S50176x128 .bf16 := V c (Pipeline.arrRef spec5 1)

abbrev G5_wl (c : Dev nD) : Vec F S128x128 .bf16 := V c (Pipeline.arrRef spec5 2)

abbrev G5_wr (c : Dev nD) : Vec F S128x128 .bf16 := V c (Pipeline.arrRef spec5 3)

abbrev G5_b (c : Dev nD) : Vec F S1x128 .f32 := V c (Pipeline.arrRef spec5 4)

abbrev blk5_agg (c : Dev nD) (t : Fin cfg5.N) : Vec F S1024x128 .bf16 := iblk5 V c 0 t

abbrev blk5_x (c : Dev nD) (t : Fin cfg5.N) : Vec F S1024x128 .bf16 := iblk5 V c 1 t

abbrev blk5_wl (c : Dev nD) (t : Fin cfg5.N) : Vec F S128x128 .bf16 := iblk5 V c 2 t

abbrev blk5_wr (c : Dev nD) (t : Fin cfg5.N) : Vec F S128x128 .bf16 := iblk5 V c 3 t

abbrev blk5_b (c : Dev nD) (t : Fin cfg5.N) : Vec F S1x128 .f32 := iblk5 V c 4 t

theorem out5_eq (c : Dev nD) (t : Fin cfg5.N) :
    out5 V c t = k2_pay1 (blk5_agg V c t) (blk5_wl V c t) (blk5_x V c t) (blk5_wr V c t) (blk5_b V c t) := rfl

theorem blk5_agg_apply (c : Dev nD) (t : Fin cfg5.N) (p : Fin 1024) (q : Fin 128) (n : Fin 50176)
    (hn : n.val = t.val * 1024 + p.val) :
    blk5_agg V c t (ix2 p q) = G5_agg V c (ix2 n q) := by
  obtain ⟨e0, e1⟩ := idx5_0 t
  show G5_agg V c (((cfg5.win 0).blk t).view.emb (ix2 p q)) = G5_agg V c (ix2 n q)
  refine congrArg (G5_agg V c) (funext fun a => Fin.ext ?_)
  match a with
  | ⟨0, _⟩ => show win5_0.index t (0 : Fin 2) * 1024 + 1 * p.val = n.val; rw [e0, hn]; omega
  | ⟨1, _⟩ => show win5_0.index t (1 : Fin 2) * 128 + 1 * q.val = q.val; rw [e1]; omega

theorem blk5_x_apply (c : Dev nD) (t : Fin cfg5.N) (p : Fin 1024) (q : Fin 128) (n : Fin 50176)
    (hn : n.val = t.val * 1024 + p.val) :
    blk5_x V c t (ix2 p q) = G5_x V c (ix2 n q) := by
  obtain ⟨e0, e1⟩ := idx5_1 t
  show G5_x V c (((cfg5.win 1).blk t).view.emb (ix2 p q)) = G5_x V c (ix2 n q)
  refine congrArg (G5_x V c) (funext fun a => Fin.ext ?_)
  match a with
  | ⟨0, _⟩ => show win5_1.index t (0 : Fin 2) * 1024 + 1 * p.val = n.val; rw [e0, hn]; omega
  | ⟨1, _⟩ => show win5_1.index t (1 : Fin 2) * 128 + 1 * q.val = q.val; rw [e1]; omega

theorem blk5_wl_apply (c : Dev nD) (t : Fin cfg5.N) (p : Fin 128) (q : Fin 128) :
    blk5_wl V c t (ix2 p q) = G5_wl V c (ix2 p q) := by
  obtain ⟨e0, e1⟩ := idx5_2 t
  show G5_wl V c (((cfg5.win 2).blk t).view.emb (ix2 p q)) = G5_wl V c (ix2 p q)
  refine congrArg (G5_wl V c) (funext fun a => Fin.ext ?_)
  match a with
  | ⟨0, _⟩ => show win5_2.index t (0 : Fin 2) * 128 + 1 * p.val = p.val; rw [e0]; omega
  | ⟨1, _⟩ => show win5_2.index t (1 : Fin 2) * 128 + 1 * q.val = q.val; rw [e1]; omega

theorem blk5_wr_apply (c : Dev nD) (t : Fin cfg5.N) (p : Fin 128) (q : Fin 128) :
    blk5_wr V c t (ix2 p q) = G5_wr V c (ix2 p q) := by
  obtain ⟨e0, e1⟩ := idx5_3 t
  show G5_wr V c (((cfg5.win 3).blk t).view.emb (ix2 p q)) = G5_wr V c (ix2 p q)
  refine congrArg (G5_wr V c) (funext fun a => Fin.ext ?_)
  match a with
  | ⟨0, _⟩ => show win5_3.index t (0 : Fin 2) * 128 + 1 * p.val = p.val; rw [e0]; omega
  | ⟨1, _⟩ => show win5_3.index t (1 : Fin 2) * 128 + 1 * q.val = q.val; rw [e1]; omega

theorem blk5_b_apply (c : Dev nD) (t : Fin cfg5.N) (p : Fin 1) (q : Fin 128) :
    blk5_b V c t (ix2 p q) = G5_b V c (ix2 p q) := by
  obtain ⟨e0, e1⟩ := idx5_4 t
  show G5_b V c (((cfg5.win 4).blk t).view.emb (ix2 p q)) = G5_b V c (ix2 p q)
  refine congrArg (G5_b V c) (funext fun a => Fin.ext ?_)
  match a with
  | ⟨0, _⟩ => show win5_4.index t (0 : Fin 2) * 1 + 1 * p.val = p.val; rw [e0]; omega
  | ⟨1, _⟩ => show win5_4.index t (1 : Fin 2) * 128 + 1 * q.val = q.val; rw [e1]; omega

theorem blk5_out_emb (t : Fin cfg5.N) (p : Fin 1024) (q : Fin 128) (n : Fin 50176)
    (hn : n.val = t.val * 1024 + p.val) :
    (((cfg5.win 5).blk t).view.emb (ix2 p q) : S50176x128.Idx) = ix2 n q := by
  obtain ⟨e0, e1⟩ := idx5_5 t
  funext a
  apply Fin.ext
  match a with
  | ⟨0, _⟩ => show win5_5.index t (0 : Fin 2) * 1024 + 1 * p.val = n.val; rw [e0, hn]; omega
  | ⟨1, _⟩ => show win5_5.index t (1 : Fin 2) * 128 + 1 * q.val = q.val; rw [e1]; omega

theorem blk5_mem (t : Fin cfg5.N) (i : S50176x128.Idx) :
    i ∈ ((cfg5.win 5).blk t).view.set ↔ ∀ a : Fin 2, win5_5.index t a * S1024x128.size a ≤ (i a).val ∧ (i a).val < win5_5.index t a * S1024x128.size a + S1024x128.size a := by
  show i ∈ ((View.whole (Pipeline.arrRef spec5 5)).slice (win5_5.rect t)).set ↔ _
  rw [View.set_slice_whole, Rect.mem_set_unit]
  exact Iff.rfl

theorem cover5 (i : S50176x128.Idx) :
    ∃ t : Fin cfg5.N, (cfg5.win 5).flush t = true ∧ i ∈ ((cfg5.win 5).blk t).view.set := by
  have hi0 : (i 0).val < 50176 := (i 0).isLt
  have hi1 : (i 1).val < 128 := (i 1).isLt
  have hN : (i 0).val / 1024 < cfg5.N := by rw [show cfg5.N = 49 from N_5]; omega
  refine ⟨⟨(i 0).val / 1024, hN⟩, flush5_5 _, ?_⟩
  obtain ⟨e0, e1⟩ := idx5_5 ⟨(i 0).val / 1024, hN⟩
  rw [blk5_mem]
  intro a
  match a with
  | ⟨0, _⟩ =>
    show win5_5.index ⟨(i 0).val / 1024, hN⟩ (0 : Fin 2) * 1024 ≤ (i 0).val ∧ (i 0).val < win5_5.index ⟨(i 0).val / 1024, hN⟩ (0 : Fin 2) * 1024 + 1024
    rw [e0]; show (i 0).val / 1024 * 1024 ≤ (i 0).val ∧ (i 0).val < (i 0).val / 1024 * 1024 + 1024; omega
  | ⟨1, _⟩ =>
    show win5_5.index ⟨(i 0).val / 1024, hN⟩ (1 : Fin 2) * 128 ≤ (i 1).val ∧ (i 1).val < win5_5.index ⟨(i 0).val / 1024, hN⟩ (1 : Fin 2) * 128 + 128
    rw [e1]; omega

end Cert.KernelIdeal.Rg

end
-- ==== Proof.R5Val.lean ====
import proofs.«425541_j70411693850858_1_alg».proof.Proof.R5Pts
import proofs.«425541_j70411693850858_1_alg».proof.Proof.DenseVal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

def row5 (c : Dev nD) (n : Fin 50176) (j : Fin 128) : EReal :=
  max ((∑ k : Fin 128, (G5_agg V c (ix2 n k) : EReal) * (G5_wl V c (ix2 k j) : EReal))
      + (∑ k : Fin 128, (G5_x V c (ix2 n k) : EReal) * (G5_wr V c (ix2 k j) : EReal))
      + (G5_b V c (ix2 (0 : Fin 1) j) : EReal)) 0

def G5_out (c : Dev nD) : S50176x128.Idx → EReal := fun i => row5 V c (i 0) (i 1)

theorem G5_out_apply (c : Dev nD) (n : Fin 50176) (j : Fin 128) : G5_out V c (ix2 n j) = row5 V c n j := rfl

theorem out5_apply (c : Dev nD) (t : Fin cfg5.N) (p : Fin 1024) (q : Fin 128) (n : Fin 50176)
    (hn : n.val = t.val * 1024 + p.val) :
    out5 V c t (ix2 p q) = G5_out V c (ix2 n q) := by
  rw [G5_out_apply, out5_eq]
  refine (k2_pay1_apply (blk5_agg V c t) (blk5_wl V c t) (blk5_x V c t) (blk5_wr V c t) (blk5_b V c t) p q).trans ?_
  unfold row5
  refine congrArg₂ max ?_ rfl
  refine congrArg₂ (· + ·) ?_ ?_
  · refine congrArg₂ (· + ·) ?_ ?_
    · refine Finset.sum_congr rfl fun k _ => ?_
      exact congrArg₂ (· * ·) (blk5_agg_apply V c t p k n hn) (blk5_wl_apply V c t k q)
    · refine Finset.sum_congr rfl fun k _ => ?_
      exact congrArg₂ (· * ·) (blk5_x_apply V c t p k n hn) (blk5_wr_apply V c t k q)
  · exact blk5_b_apply V c t 0 q

theorem flushed5_eq (c : Dev nD) (t : Fin cfg5.N) :
    (dat5 (F := Ideal) V c).flushed 5 t = ((cfg5.win 5).blk t).view.read (Elt Ideal) (G5_out V c) := by
  show (cfg5.win 5).cut (grid5.coords t) ((dat5 (F := Ideal) V c).after 5 t) = _
  rw [after5_5]
  funext y
  obtain ⟨p, q, rfl⟩ : ∃ (p : Fin 1024) (q : Fin 128), y = ix2 p q := ⟨y 0, y 1, eq_ix2 y⟩
  have hp : p.val < 1024 := p.isLt
  have ht : t.val < 49 := lt_of_lt_of_eq t.isLt N_5
  have hn : t.val * 1024 + p.val < 50176 := by omega
  show out5 V c t (ix2 p q) = G5_out V c (((cfg5.win 5).blk t).view.emb (ix2 p q))
  exact (out5_apply V c t p q ⟨t.val * 1024 + p.val, hn⟩ rfl).trans
    (congrArg (G5_out V c) (blk5_out_emb t p q ⟨t.val * 1024 + p.val, hn⟩ rfl).symm)

theorem final5 (c : Dev nD) : (dat5 (F := Ideal) V c).arrAt 5 cfg5.N = G5_out V c :=
  (dat5 (F := Ideal) V c).arrAt_eq_of_cover 5 (G5_out V c) (fun t _ => flushed5_eq V c t) cover5

theorem regionVal5 (c : Dev nD) (n : Fin 50176) (j : Fin 128) :
    ((dat5 (F := Ideal) V c).arrAt 5 cfg5.N : S50176x128.Idx → EReal) (ix2 n j)
      = max ((∑ k : Fin 128, (G5_agg V c (ix2 n k) : EReal) * (G5_wl V c (ix2 k j) : EReal))
            + (∑ k : Fin 128, (G5_x V c (ix2 n k) : EReal) * (G5_wr V c (ix2 k j) : EReal))
            + (G5_b V c (ix2 (0 : Fin 1) j) : EReal)) 0 := by
  rw [final5 V c]
  rfl

end Cert.KernelIdeal.Rg

end
-- ==== Proof.R6Pts.lean ====
import proofs.«425541_j70411693850858_1_alg».proof.Proof.R6Defs
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

theorem idx6_facts : ∀ t : Fin cfg6.N,
    win6_0.index t (0 : Fin 2) = t.val / 49 ∧ win6_0.index t (1 : Fin 2) = 0
    ∧ win6_1.index t (0 : Fin 2) = t.val / 49 ∧ win6_1.index t (1 : Fin 2) = 0
    ∧ win6_2.index t (0 : Fin 2) = t.val % 49 ∧ win6_2.index t (1 : Fin 2) = 0
    ∧ win6_3.index t (0 : Fin 2) = t.val / 49 ∧ win6_3.index t (1 : Fin 2) = 0
    ∧ (grid6.coords t 1).val = t.val % 49 :=
  (by decide +kernel : ∀ t : Fin grid6.N, _)

abbrev blk6_col (c : Dev nD) (t : Fin cfg6.N) : Vec F S4096x1 .i32 := iblk6 V c 0 t
abbrev blk6_wt (c : Dev nD) (t : Fin cfg6.N) : Vec F S4096x1 .f32 := iblk6 V c 1 t
abbrev blk6_x (c : Dev nD) (t : Fin cfg6.N) : Vec F S1024x128 .bf16 := iblk6 V c 2 t
abbrev G6_col (c : Dev nD) : Vec F S602112x1 .i32 := V c (Pipeline.arrRef spec6 0)
abbrev G6_wt (c : Dev nD) : Vec F S602112x1 .f32 := V c (Pipeline.arrRef spec6 1)
abbrev G6_x (c : Dev nD) : Vec F S50176x128 .bf16 := V c (Pipeline.arrRef spec6 2)

theorem blk6_col_apply (c : Dev nD) (t : Fin cfg6.N) (p : Fin 4096) (e : Fin 602112)
    (he : e.val = 4096 * (t.val / 49) + p.val) :
    blk6_col V c t (ix2 p 0) = G6_col V c (ix2 e 0) := by
  obtain ⟨ha, hb, -⟩ := idx6_facts t
  show ((cfg6.win 0).blk t).view.read (Elt F) (V c (Pipeline.arrRef spec6 0)) (ix2 p 0) = _
  rw [View.read_apply]
  show (V c (Pipeline.arrRef spec6 0) : S602112x1.Idx → Elt F .i32) _ = (V c (Pipeline.arrRef spec6 0) : S602112x1.Idx → Elt F .i32) (ix2 e 0)
  refine congrArg (V c (Pipeline.arrRef spec6 0) : S602112x1.Idx → Elt F .i32) (funext fun a => Fin.ext ?_)
  match a with
  | ⟨0, _⟩ => show win6_0.index t (0 : Fin 2) * 4096 + 1 * p.val = e.val; omega
  | ⟨1, _⟩ => show win6_0.index t (1 : Fin 2) * 1 + 1 * 0 = 0; omega

theorem blk6_wt_apply (c : Dev nD) (t : Fin cfg6.N) (p : Fin 4096) (e : Fin 602112)
    (he : e.val = 4096 * (t.val / 49) + p.val) :
    blk6_wt V c t (ix2 p 0) = G6_wt V c (ix2 e 0) := by
  obtain ⟨-, -, ha, hb, -⟩ := idx6_facts t
  show ((cfg6.win 1).blk t).view.read (Elt F) (V c (Pipeline.arrRef spec6 1)) (ix2 p 0) = _
  rw [View.read_apply]
  show (V c (Pipeline.arrRef spec6 1) : S602112x1.Idx → Elt F .f32) _ = (V c (Pipeline.arrRef spec6 1) : S602112x1.Idx → Elt F .f32) (ix2 e 0)
  refine congrArg (V c (Pipeline.arrRef spec6 1) : S602112x1.Idx → Elt F .f32) (funext fun a => Fin.ext ?_)
  match a with
  | ⟨0, _⟩ => show win6_1.index t (0 : Fin 2) * 4096 + 1 * p.val = e.val; omega
  | ⟨1, _⟩ => show win6_1.index t (1 : Fin 2) * 1 + 1 * 0 = 0; omega

theorem blk6_x_apply (c : Dev nD) (t : Fin cfg6.N) (k : Fin 1024) (q : Fin 128) (n : Fin 50176)
    (hn : n.val = 1024 * (t.val % 49) + k.val) :
    blk6_x V c t (ix2 k q) = G6_x V c (ix2 n q) := by
  obtain ⟨-, -, -, -, ha, hb, -⟩ := idx6_facts t
  show ((cfg6.win 2).blk t).view.read (Elt F) (V c (Pipeline.arrRef spec6 2)) (ix2 k q) = _
  rw [View.read_apply]
  show (V c (Pipeline.arrRef spec6 2) : S50176x128.Idx → Elt F .bf16) _ = (V c (Pipeline.arrRef spec6 2) : S50176x128.Idx → Elt F .bf16) (ix2 n q)
  refine congrArg (V c (Pipeline.arrRef spec6 2) : S50176x128.Idx → Elt F .bf16) (funext fun a => Fin.ext ?_)
  match a with
  | ⟨0, _⟩ => show win6_2.index t (0 : Fin 2) * 1024 + 1 * k.val = n.val; omega
  | ⟨1, _⟩ => show win6_2.index t (1 : Fin 2) * 128 + 1 * q.val = q.val; omega

theorem blk6_out_read (t : Fin cfg6.N) (Y : S602112x128.Idx → Elt F .bf16) (p : Fin 4096) (q : Fin 128) (e : Fin 602112)
    (he : e.val = 4096 * (t.val / 49) + p.val) :
    ((cfg6.win 3).blk t).view.read (Elt F) Y (ix2 p q) = Y (ix2 e q) := by
  obtain ⟨-, -, -, -, -, -, ha, hb, -⟩ := idx6_facts t
  rw [View.read_apply]
  show Y _ = Y (ix2 e q)
  refine congrArg Y (funext fun a => Fin.ext ?_)
  match a with
  | ⟨0, _⟩ => show win6_3.index t (0 : Fin 2) * 4096 + 1 * p.val = e.val; omega
  | ⟨1, _⟩ => show win6_3.index t (1 : Fin 2) * 128 + 1 * q.val = q.val; omega

theorem blk6_out_mem (t : Fin cfg6.N) (i : S602112x128.Idx) :
    i ∈ ((cfg6.win 3).blk t).view.set ↔ ∀ a : Fin 2, win6_3.index t a * S4096x128.size a ≤ (i a).val ∧ (i a).val < win6_3.index t a * S4096x128.size a + S4096x128.size a := by
  show i ∈ ((View.whole (Pipeline.arrRef spec6 3)).slice (win6_3.rect t)).set ↔ _
  rw [View.set_slice_whole, Rect.mem_set_unit]
  exact Iff.rfl

theorem cover6_out (i : S602112x128.Idx) :
    ∃ t : Fin cfg6.N, (cfg6.win 3).flush t = true ∧ i ∈ ((cfg6.win 3).blk t).view.set := by
  have hN : cfg6.N = 7203 := N_6
  have hr : (i 0).val < 602112 := idx2_lt0 i
  have hl : (i 1).val < 128 := idx2_lt1 i
  obtain ⟨t, ht⟩ : ∃ t : Fin cfg6.N, t.val = 49 * ((i 0).val / 4096) + 48 := ⟨⟨49 * ((i 0).val / 4096) + 48, by rw [hN]; omega⟩, rfl⟩
  refine ⟨t, (flush6_3 t).mpr (by omega), ?_⟩
  rw [blk6_out_mem]
  obtain ⟨-, -, -, -, -, -, ha, hb, -⟩ := idx6_facts t
  intro a
  match a with
  | ⟨0, _⟩ => show win6_3.index t (0 : Fin 2) * 4096 ≤ (i 0).val ∧ (i 0).val < win6_3.index t (0 : Fin 2) * 4096 + 4096; omega
  | ⟨1, _⟩ => show win6_3.index t (1 : Fin 2) * 128 ≤ (i 1).val ∧ (i 1).val < win6_3.index t (1 : Fin 2) * 128 + 128; omega

end Cert.KernelIdeal.Rg

end
-- ==== Proof.R6Val.lean ====
import proofs.«425541_j70411693850858_1_alg».proof.Proof.R6Defs
import proofs.«425541_j70411693850858_1_alg».proof.Proof.R6Pts
import proofs.«425541_j70411693850858_1_alg».proof.Proof.GatherVal
import Idealize.ShloMosaic.Lib.Pipeline.Value
import Idealize.ShloMosaic.Lib.ValueIdx
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

def G6_out (c : Dev nD) : S602112x128.Idx → EReal := fun i =>
  G0_at (G6_col V c) (G6_wt V c) (G6_x V c) ⟨(i 0).val, idx2_lt0 i⟩ ⟨(i 1).val, idx2_lt1 i⟩

theorem acc6_step_hit (c : Dev nD) (t : Fin cfg6.N) (A : Vec Ideal S4096x128 .f32) (p : Fin 4096) (q : Fin 128)
    (e : Fin 602112) (n₀ : Fin 50176) (he : e.val = 4096 * (t.val / 49) + p.val)
    (hc : (G6_col V c : S602112x1.Idx → BitVec 32) (ix2 e 0) = BitVec.ofNat 32 n₀.val) :
    (k0_pay2 (F := Ideal) (grid6.coords t) (iblk6 V c 0 t) A (iblk6 V c 2 t) : S4096x128.Idx → EReal) (ix2 p q)
      = (A : S4096x128.Idx → EReal) (ix2 p q) + if n₀.val / 1024 = t.val % 49 then (G6_x V c : S50176x128.Idx → EReal) (ix2 n₀ q) else 0 := by
  obtain ⟨-, -, -, -, -, -, -, -, hg⟩ := idx6_facts t
  refine (k0_pay2_apply (grid6.coords t) (blk6_col V c t) A (blk6_x V c t) p q).trans ?_
  refine congrArg ((A : S4096x128.Idx → EReal) (ix2 p q) + ·) ?_
  rw [blk6_col_apply V c t p e he, hg]
  exact row0_sum_hit _ (t.val % 49) n₀.val (Nat.mod_lt _ (by norm_num)) n₀.isLt hc
    (fun k => (blk6_x V c t : S1024x128.Idx → EReal) (ix2 k q)) _
    (fun k hk => blk6_x_apply V c t k q n₀ hk)

theorem acc6_step_miss (c : Dev nD) (t : Fin cfg6.N) (A : Vec Ideal S4096x128 .f32) (p : Fin 4096) (q : Fin 128)
    (e : Fin 602112) (he : e.val = 4096 * (t.val / 49) + p.val)
    (hc : ∀ n : Fin 50176, (G6_col V c : S602112x1.Idx → BitVec 32) (ix2 e 0) ≠ BitVec.ofNat 32 n.val) :
    (k0_pay2 (F := Ideal) (grid6.coords t) (iblk6 V c 0 t) A (iblk6 V c 2 t) : S4096x128.Idx → EReal) (ix2 p q)
      = (A : S4096x128.Idx → EReal) (ix2 p q) + 0 := by
  obtain ⟨-, -, -, -, -, -, -, -, hg⟩ := idx6_facts t
  refine (k0_pay2_apply (grid6.coords t) (blk6_col V c t) A (blk6_x V c t) p q).trans ?_
  refine congrArg ((A : S4096x128.Idx → EReal) (ix2 p q) + ·) ?_
  rw [blk6_col_apply V c t p e he, hg]
  exact row0_sum_miss _ (t.val % 49) (Nat.mod_lt _ (by norm_num)) hc
    (fun k => (blk6_x V c t : S1024x128.Idx → EReal) (ix2 k q))

theorem acc6_hit (c : Dev nD) : ∀ (n : ℕ) (hn : n < cfg6.N) (p : Fin 4096) (q : Fin 128) (e : Fin 602112) (n₀ : Fin 50176),
    e.val = 4096 * (n / 49) + p.val → (G6_col V c : S602112x1.Idx → BitVec 32) (ix2 e 0) = BitVec.ofNat 32 n₀.val →
    (acc6 (F := Ideal) V c n hn : S4096x128.Idx → EReal) (ix2 p q)
      = if n₀.val / 1024 ≤ n % 49 then (G6_x V c : S50176x128.Idx → EReal) (ix2 n₀ q) else 0
  | 0, hn, p, q, e, n₀, he, hc => by
    refine (congrFun (acc6_first V c ⟨0, hn⟩ rfl) (ix2 p q)).trans ?_
    refine (acc6_step_hit V c ⟨0, hn⟩ _ p q e n₀ he hc).trans ?_
    rw [k0_pay1_apply, zero_add]
    exact if_congr (by show n₀.val / 1024 = 0 % 49 ↔ n₀.val / 1024 ≤ 0 % 49; omega) rfl rfl
  | n + 1, hn, p, q, e, n₀, he, hc => by
    by_cases h : (n + 1) % 49 = 0
    · refine (congrFun (acc6_first V c ⟨n + 1, hn⟩ h) (ix2 p q)).trans ?_
      refine (acc6_step_hit V c ⟨n + 1, hn⟩ _ p q e n₀ he hc).trans ?_
      rw [k0_pay1_apply, zero_add]
      exact if_congr (by show n₀.val / 1024 = (n + 1) % 49 ↔ n₀.val / 1024 ≤ (n + 1) % 49; omega) rfl rfl
    · refine (congrFun (acc6_next V c ⟨n + 1, hn⟩ h) (ix2 p q)).trans ?_
      refine (acc6_step_hit V c ⟨n + 1, hn⟩ _ p q e n₀ he hc).trans ?_
      have ih := acc6_hit c n (Nat.lt_of_succ_lt hn) p q e n₀ (by omega) hc
      refine (congrArg (· + if n₀.val / 1024 = (n + 1) % 49 then (G6_x V c : S50176x128.Idx → EReal) (ix2 n₀ q) else 0) ih).trans ?_
      have hm : (n + 1) % 49 = n % 49 + 1 := by omega
      rw [hm]
      by_cases hx : n₀.val / 1024 ≤ n % 49
      · rw [if_pos hx, if_neg (by omega), if_pos (by omega), add_zero]
      · by_cases hy : n₀.val / 1024 = n % 49 + 1
        · rw [if_neg hx, if_pos hy, if_pos (by omega), zero_add]
        · rw [if_neg hx, if_neg hy, if_neg (by omega), add_zero]

theorem acc6_miss (c : Dev nD) : ∀ (n : ℕ) (hn : n < cfg6.N) (p : Fin 4096) (q : Fin 128) (e : Fin 602112),
    e.val = 4096 * (n / 49) + p.val → (∀ m : Fin 50176, (G6_col V c : S602112x1.Idx → BitVec 32) (ix2 e 0) ≠ BitVec.ofNat 32 m.val) →
    (acc6 (F := Ideal) V c n hn : S4096x128.Idx → EReal) (ix2 p q) = 0
  | 0, hn, p, q, e, he, hc => by
    refine (congrFun (acc6_first V c ⟨0, hn⟩ rfl) (ix2 p q)).trans ?_
    refine (acc6_step_miss V c ⟨0, hn⟩ _ p q e he hc).trans ?_
    rw [k0_pay1_apply, zero_add]
  | n + 1, hn, p, q, e, he, hc => by
    by_cases h : (n + 1) % 49 = 0
    · refine (congrFun (acc6_first V c ⟨n + 1, hn⟩ h) (ix2 p q)).trans ?_
      refine (acc6_step_miss V c ⟨n + 1, hn⟩ _ p q e he hc).trans ?_
      rw [k0_pay1_apply, zero_add]
    · refine (congrFun (acc6_next V c ⟨n + 1, hn⟩ h) (ix2 p q)).trans ?_
      refine (acc6_step_miss V c ⟨n + 1, hn⟩ _ p q e he hc).trans ?_
      have ih := acc6_miss c n (Nat.lt_of_succ_lt hn) p q e (by omega) hc
      exact (congrArg (· + (0 : EReal)) ih).trans (add_zero 0)

theorem out6_apply (c : Dev nD) (t : Fin cfg6.N) (hl : t.val % 49 = 48) (p : Fin 4096) (q : Fin 128) (e : Fin 602112)
    (he : e.val = 4096 * (t.val / 49) + p.val) :
    (out6 (F := Ideal) V c t : S4096x128.Idx → EReal) (ix2 p q) = G0_at (G6_col V c) (G6_wt V c) (G6_x V c) e q := by
  refine (k0_pay3_apply (blk6_wt V c t) (acc6 V c t.val t.isLt) p q).trans ?_
  rw [blk6_wt_apply V c t p e he]
  by_cases hc : ∃ n₀ : Fin 50176, (G6_col V c : S602112x1.Idx → BitVec 32) (ix2 e 0) = BitVec.ofNat 32 n₀.val
  · obtain ⟨n₀, hn₀⟩ := hc
    rw [acc6_hit V c t.val t.isLt p q e n₀ he hn₀, if_pos (by have := n₀.isLt; omega), G0_at_hit _ _ _ e q n₀ hn₀]
  · have hm : ∀ m : Fin 50176, (G6_col V c : S602112x1.Idx → BitVec 32) (ix2 e 0) ≠ BitVec.ofNat 32 m.val := fun m hh => hc ⟨m, hh⟩
    rw [acc6_miss V c t.val t.isLt p q e he hm, G0_at_miss _ _ _ e q hm]

theorem flushed6_eq (c : Dev nD) (t : Fin cfg6.N) (hf : (cfg6.win 3).flush t = true) :
    (dat6 (F := Ideal) V c).flushed 3 t = ((cfg6.win 3).blk t).view.read (Elt Ideal) (G6_out V c) := by
  have hl : t.val % 49 = 48 := (flush6_3 t).mp hf
  have hN : cfg6.N = 7203 := N_6
  have ht : t.val < 7203 := by have := t.isLt; omega
  show (cfg6.win 3).cut (grid6.coords t) ((dat6 V c).after 3 t) = _
  rw [after6_3]
  refine funext fun (y : S4096x128.Idx) => ?_
  obtain ⟨p, q, rfl⟩ : ∃ (p : Fin 4096) (q : Fin 128), y = ix2 p q := ⟨y 0, y 1, eq_ix2 y⟩
  obtain ⟨e, he⟩ : ∃ e : Fin 602112, e.val = 4096 * (t.val / 49) + p.val := ⟨⟨4096 * (t.val / 49) + p.val, by have := p.isLt; omega⟩, rfl⟩
  rw [blk6_out_read (F := Ideal) t (G6_out V c) p q e he]
  exact out6_apply V c t hl p q e he

theorem final6_out (c : Dev nD) : (dat6 (F := Ideal) V c).arrAt 3 cfg6.N = G6_out V c :=
  (dat6 (F := Ideal) V c).arrAt_eq_of_cover 3 (G6_out V c) (fun t hf => flushed6_eq V c t hf) cover6_out

theorem regionVal6_hit (c : Dev nD) (e : Fin 602112) (j : Fin 128) (n₀ : Fin 50176)
    (h : (V c (Pipeline.arrRef spec6 0) : S602112x1.Idx → BitVec 32) (ValueIdx.ix2 e 0) = BitVec.ofNat 32 n₀.val) :
    ((dat6 (F := Ideal) V c).arrAt 3 cfg6.N : S602112x128.Idx → EReal) (ValueIdx.ix2 e j)
      = G6_x V c (ValueIdx.ix2 n₀ j) * G6_wt V c (ValueIdx.ix2 e 0) := by
  rw [final6_out V c]
  exact G0_at_hit (G6_col V c) (G6_wt V c) (G6_x V c) e j n₀ h

theorem regionVal6_miss (c : Dev nD) (e : Fin 602112) (j : Fin 128)
    (h : ∀ n : Fin 50176, (V c (Pipeline.arrRef spec6 0) : S602112x1.Idx → BitVec 32) (ValueIdx.ix2 e 0) ≠ BitVec.ofNat 32 n.val) :
    ((dat6 (F := Ideal) V c).arrAt 3 cfg6.N : S602112x128.Idx → EReal) (ValueIdx.ix2 e j)
      = (0 : EReal) * G6_wt V c (ValueIdx.ix2 e 0) := by
  rw [final6_out V c]
  exact G0_at_miss (G6_col V c) (G6_wt V c) (G6_x V c) e j h

end Cert.KernelIdeal.Rg

end
-- ==== Proof.R7Pts.lean ====
import proofs.«425541_j70411693850858_1_alg».proof.Proof.R7Defs

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem idx7_facts : ∀ t : Fin cfg7.N,
    (grid7.coords t 0).val = t.val / 147 ∧ (grid7.coords t 1).val = t.val % 147
    ∧ win7_0.index t (0 : Fin 2) = 0 ∧ win7_0.index t (1 : Fin 2) = t.val % 147
    ∧ win7_1.index t (0 : Fin 2) = t.val % 147 ∧ win7_1.index t (1 : Fin 2) = 0
    ∧ win7_2.index t (0 : Fin 2) = t.val / 147 ∧ win7_2.index t (1 : Fin 2) = 0 :=
  (by decide +kernel : ∀ t : Fin grid7.N,
    (grid7.coords t 0).val = t.val / 147 ∧ (grid7.coords t 1).val = t.val % 147
    ∧ win7_0.index t (0 : Fin 2) = 0 ∧ win7_0.index t (1 : Fin 2) = t.val % 147
    ∧ win7_1.index t (0 : Fin 2) = t.val % 147 ∧ win7_1.index t (1 : Fin 2) = 0
    ∧ win7_2.index t (0 : Fin 2) = t.val / 147 ∧ win7_2.index t (1 : Fin 2) = 0)

theorem pt7_lt (t : Fin cfg7.N) : t.val < 7203 := by
  have h := t.isLt
  have hN : cfg7.N = 7203 := N_7
  omega

theorem pt7_last_lt (b : ℕ) (hb : b < 49) : 147 * b + 146 < cfg7.N := by
  have hN : cfg7.N = 7203 := N_7
  omega

end Cert.KernelIdeal.Rg

end
-- ==== Proof.R7Val.lean ====
import proofs.«425541_j70411693850858_1_alg».proof.Proof.R7Defs
import proofs.«425541_j70411693850858_1_alg».proof.Proof.R7Pts
import proofs.«425541_j70411693850858_1_alg».proof.Proof.ScatterVal
import Idealize.ShloMosaic.Lib.Pipeline.Value
import Idealize.ShloMosaic.Lib.ValueIdx
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

abbrev row7_arr (c : Dev nD) : IVec S1x602112 32 := V c (Pipeline.arrRef spec7 0)

abbrev row7_msg (c : Dev nD) : FVec Ideal S602112x128 .bf16 := V c (Pipeline.arrRef spec7 1)

abbrev blk7_row (c : Dev nD) (t : Fin cfg7.N) : IVec S1x4096 32 := iblk7 (F := Ideal) V c 0 t

abbrev blk7_msg (c : Dev nD) (t : Fin cfg7.N) : FVec Ideal S4096x128 .bf16 := iblk7 (F := Ideal) V c 1 t

theorem blk7_row_apply (c : Dev nD) (t : Fin cfg7.N) (q : Fin 4096) (e : Fin 602112)
    (he : e.val = 4096 * (t.val % 147) + q.val) :
    blk7_row V c t (ix2 0 q) = row7_arr V c (ix2 0 e) := by
  obtain ⟨-, -, f00, f01, -, -, -, -⟩ := idx7_facts t
  show iblk7 (F := Ideal) V c 0 t (ix2 0 q) = V c (Pipeline.arrRef spec7 0) (ix2 0 e)
  unfold iblk7
  rw [View.read_apply]
  show V c (Pipeline.arrRef spec7 0) (((cfg7.win 0).blk t).view.emb (ix2 0 q)) = V c (Pipeline.arrRef spec7 0) (ix2 0 e)
  refine congrArg (V c (Pipeline.arrRef spec7 0)) ?_
  funext a
  apply Fin.ext
  match a with
  | ⟨0, _⟩ => show win7_0.index t (0 : Fin 2) * 1 + 1 * 0 = 0; omega
  | ⟨1, _⟩ => show win7_0.index t (1 : Fin 2) * 4096 + 1 * q.val = e.val; omega

theorem blk7_msg_apply (c : Dev nD) (t : Fin cfg7.N) (q : Fin 4096) (j : Fin 128) (e : Fin 602112)
    (he : e.val = 4096 * (t.val % 147) + q.val) :
    blk7_msg V c t (ix2 q j) = row7_msg V c (ix2 e j) := by
  obtain ⟨-, -, -, -, f10, f11, -, -⟩ := idx7_facts t
  show iblk7 (F := Ideal) V c 1 t (ix2 q j) = V c (Pipeline.arrRef spec7 1) (ix2 e j)
  unfold iblk7
  rw [View.read_apply]
  show V c (Pipeline.arrRef spec7 1) (((cfg7.win 1).blk t).view.emb (ix2 q j)) = V c (Pipeline.arrRef spec7 1) (ix2 e j)
  refine congrArg (V c (Pipeline.arrRef spec7 1)) ?_
  funext a
  apply Fin.ext
  match a with
  | ⟨0, _⟩ => show win7_1.index t (0 : Fin 2) * 4096 + 1 * q.val = e.val; omega
  | ⟨1, _⟩ => show win7_1.index t (1 : Fin 2) * 128 + 1 * j.val = j.val; omega

def G7_term (c : Dev nD) (n : ℕ) (j : Fin 128) (e : ℕ) : EReal :=
  if h : e < 602112 then
    (if row7_arr V c (ix2 0 ⟨e, h⟩) = BitVec.ofNat 32 n then row7_msg V c (ix2 ⟨e, h⟩ j) else 0)
  else 0

theorem pt7_block_term (c : Dev nD) (t : Fin cfg7.N) (p : Fin 1024) (j : Fin 128) :
    (∑ q : Fin 4096, (if blk7_row V c t (ix2 0 q) = BitVec.ofNat 32 (1024 * (grid7.coords t 0).val + p.val)
        then blk7_msg V c t (ix2 q j) else 0))
      = ∑ q : Fin 4096, G7_term V c (1024 * (t.val / 147) + p.val) j (4096 * (t.val % 147) + q.val) := by
  obtain ⟨g0, -, -, -, -, -, -, -⟩ := idx7_facts t
  have hlt := pt7_lt t
  refine Finset.sum_congr rfl fun q _ => ?_
  have hq : q.val < 4096 := q.isLt
  have hb : 4096 * (t.val % 147) + q.val < 602112 := by omega
  unfold G7_term
  rw [dif_pos hb, g0, blk7_row_apply V c t q ⟨4096 * (t.val % 147) + q.val, hb⟩ rfl,
    blk7_msg_apply V c t q j ⟨4096 * (t.val % 147) + q.val, hb⟩ rfl]

theorem acc7_congr (c : Dev nD) (n n' : ℕ) (h : n < cfg7.N) (h' : n' < cfg7.N) (e : n = n') :
    acc7 (F := Ideal) V c n h = acc7 (F := Ideal) V c n' h' := by
  subst e; rfl

theorem acc7_apply (c : Dev nD) (b : ℕ) (p : Fin 1024) (j : Fin 128) :
    ∀ (k : ℕ) (hk : k < 147) (h : 147 * b + k < cfg7.N),
      (acc7 (F := Ideal) V c (147 * b + k) h : FVec Ideal S1024x128 .f32) (ix2 p j)
        = ∑ s ∈ Finset.range (k + 1), ∑ q : Fin 4096, G7_term V c (1024 * b + p.val) j (4096 * s + q.val)
  | 0, hk, h => by
    have hm : (⟨147 * b + 0, h⟩ : Fin cfg7.N).val % 147 = 0 := by show (147 * b + 0) % 147 = 0; omega
    have hd : (⟨147 * b + 0, h⟩ : Fin cfg7.N).val / 147 = b := by show (147 * b + 0) / 147 = b; omega
    refine (congrFun (acc7_first (F := Ideal) V c ⟨147 * b + 0, h⟩ hm) (ix2 p j)).trans ?_
    refine (k1_pay2_apply (grid7.coords ⟨147 * b + 0, h⟩) (blk7_row V c ⟨147 * b + 0, h⟩) (k1_pay1 (F := Ideal)) (blk7_msg V c ⟨147 * b + 0, h⟩) p j).trans ?_
    rw [k1_pay1_apply, zero_add, pt7_block_term V c ⟨147 * b + 0, h⟩ p j, hm, hd]
    exact (Finset.sum_range_one (fun s => ∑ q : Fin 4096, G7_term V c (1024 * b + p.val) j (4096 * s + q.val))).symm
  | k + 1, hk, h => by
    have hm : (⟨147 * b + (k + 1), h⟩ : Fin cfg7.N).val % 147 = k + 1 := by show (147 * b + (k + 1)) % 147 = k + 1; omega
    have hd : (⟨147 * b + (k + 1), h⟩ : Fin cfg7.N).val / 147 = b := by show (147 * b + (k + 1)) / 147 = b; omega
    have hn : ¬(⟨147 * b + (k + 1), h⟩ : Fin cfg7.N).val % 147 = 0 := by rw [hm]; omega
    have hprev : 147 * b + k < cfg7.N := by omega
    refine (congrFun (acc7_next (F := Ideal) V c ⟨147 * b + (k + 1), h⟩ hn) (ix2 p j)).trans ?_
    refine (k1_pay2_apply (grid7.coords ⟨147 * b + (k + 1), h⟩) (blk7_row V c ⟨147 * b + (k + 1), h⟩)
      (acc7 (F := Ideal) V c ((⟨147 * b + (k + 1), h⟩ : Fin cfg7.N).val - 1) (Nat.lt_of_le_of_lt (Nat.sub_le _ _) (⟨147 * b + (k + 1), h⟩ : Fin cfg7.N).isLt))
      (blk7_msg V c ⟨147 * b + (k + 1), h⟩) p j).trans ?_
    rw [acc7_congr V c ((⟨147 * b + (k + 1), h⟩ : Fin cfg7.N).val - 1) (147 * b + k) _ hprev (by show 147 * b + (k + 1) - 1 = 147 * b + k; omega),
      acc7_apply c b p j k (by omega) hprev, pt7_block_term V c ⟨147 * b + (k + 1), h⟩ p j, hm, hd,
      Finset.sum_range_succ _ (k + 1)]

def G7_val (c : Dev nD) : FVec Ideal S50176x128 .f32 := fun i =>
  ∑ e : Fin 602112, (if row7_arr V c (ix2 0 e) = BitVec.ofNat 32 (i 0).val then row7_msg V c (ix2 e (i 1)) else 0)

theorem G7_val_apply (c : Dev nD) (n : Fin 50176) (j : Fin 128) :
    G7_val V c (ix2 n j)
      = ∑ e : Fin 602112, (if row7_arr V c (ix2 0 e) = BitVec.ofNat 32 n.val then row7_msg V c (ix2 e j) else 0) := rfl

theorem G7_val_eq (c : Dev nD) (n : Fin 50176) (j : Fin 128) :
    G7_val V c (ix2 n j) = ∑ e : Fin 602112, G7_term V c n.val j e.val := by
  rw [G7_val_apply]
  refine Finset.sum_congr rfl fun e _ => ?_
  unfold G7_term
  rw [dif_pos e.isLt]

theorem out7_apply (c : Dev nD) (t : Fin cfg7.N) (ht : t.val % 147 = 146) (p : Fin 1024) (j : Fin 128) (n : Fin 50176)
    (hn : n.val = 1024 * (t.val / 147) + p.val) :
    (out7 (F := Ideal) V c t : FVec Ideal S1024x128 .f32) (ix2 p j) = G7_val V c (ix2 n j) := by
  have hlt := pt7_lt t
  have hN : cfg7.N = 7203 := N_7
  have h' : 147 * (t.val / 147) + 146 < cfg7.N := by omega
  unfold out7
  rw [acc7_congr V c t.val (147 * (t.val / 147) + 146) t.isLt h' (by omega),
    acc7_apply V c (t.val / 147) p j 146 (by omega) h', G7_val_eq, hn]
  exact k1_sum_blocks (fun e => G7_term V c (1024 * (t.val / 147) + p.val) j e)

theorem blk7_out_cut (X : FVec Ideal S1024x128 .f32) (t : Fin cfg7.N) (y : S1024x128.Idx) :
    (cfg7.win 2).cut (grid7.coords t) X y = X y := rfl

theorem blk7_out_read (A : FVec Ideal S50176x128 .f32) (t : Fin cfg7.N) (y : S1024x128.Idx) :
    ((cfg7.win 2).blk t).view.read (Elt Ideal) A y = A (((cfg7.win 2).blk t).view.emb y) := rfl

theorem flushed7_eq (c : Dev nD) (t : Fin cfg7.N) (hf : (cfg7.win 2).flush t = true) :
    (dat7 (F := Ideal) V c).flushed 2 t = ((cfg7.win 2).blk t).view.read (Elt Ideal) (G7_val V c) := by
  have ht : t.val % 147 = 146 := (flush7_2 t).mp hf
  have hlt := pt7_lt t
  obtain ⟨-, -, -, -, -, -, f20, f21⟩ := idx7_facts t
  show (cfg7.win 2).cut (grid7.coords t) ((dat7 (F := Ideal) V c).after 2 t) = _
  rw [after7_2]
  refine funext fun (y : S1024x128.Idx) => ?_
  obtain ⟨p, j, rfl⟩ : ∃ (p : Fin 1024) (j : Fin 128), y = ix2 p j := ⟨y 0, y 1, eq_ix2 y⟩
  have hp : p.val < 1024 := p.isLt
  refine (blk7_out_cut (out7 (F := Ideal) V c t) t (ix2 p j)).trans ?_
  refine Eq.trans ?_ (blk7_out_read (G7_val V c) t (ix2 p j)).symm
  have hemb : ((cfg7.win 2).blk t).view.emb (ix2 p j) = (ix2 (⟨1024 * (t.val / 147) + p.val, by omega⟩ : Fin 50176) j : S50176x128.Idx) := by
    funext a
    apply Fin.ext
    match a with
    | ⟨0, _⟩ => show win7_2.index t (0 : Fin 2) * 1024 + 1 * p.val = 1024 * (t.val / 147) + p.val; omega
    | ⟨1, _⟩ => show win7_2.index t (1 : Fin 2) * 128 + 1 * j.val = j.val; omega
  rw [hemb]
  exact out7_apply V c t ht p j ⟨1024 * (t.val / 147) + p.val, by omega⟩ rfl

theorem cover7 (c : Dev nD) (i : S50176x128.Idx) :
    ∃ t : Fin cfg7.N, (cfg7.win 2).flush t = true ∧ i ∈ ((cfg7.win 2).blk t).view.set := by
  have h0 : (i 0).val < 50176 := (i 0).isLt
  have h1 : (i 1).val < 128 := (i 1).isLt
  have hb : (i 0).val / 1024 < 49 := by omega
  refine ⟨⟨147 * ((i 0).val / 1024) + 146, pt7_last_lt _ hb⟩, (flush7_2 _).mpr (by show (147 * ((i 0).val / 1024) + 146) % 147 = 146; omega), ?_⟩
  obtain ⟨-, -, -, -, -, -, f20, f21⟩ := idx7_facts ⟨147 * ((i 0).val / 1024) + 146, pt7_last_lt _ hb⟩
  have f20' : win7_2.index ⟨147 * ((i 0).val / 1024) + 146, pt7_last_lt _ hb⟩ (0 : Fin 2) = (i 0).val / 1024 :=
    f20.trans (by show (147 * ((i 0).val / 1024) + 146) / 147 = (i 0).val / 1024; omega)
  show i ∈ ((View.whole (Pipeline.arrRef spec7 2)).slice (win7_2.rect ⟨147 * ((i 0).val / 1024) + 146, pt7_last_lt _ hb⟩)).set
  rw [View.set_slice_whole, Rect.mem_set_unit]
  intro a
  match a with
  | ⟨0, _⟩ =>
    show win7_2.index ⟨147 * ((i 0).val / 1024) + 146, pt7_last_lt _ hb⟩ (0 : Fin 2) * 1024 ≤ (i 0).val
      ∧ (i 0).val < win7_2.index ⟨147 * ((i 0).val / 1024) + 146, pt7_last_lt _ hb⟩ (0 : Fin 2) * 1024 + 1024
    omega
  | ⟨1, _⟩ =>
    show win7_2.index ⟨147 * ((i 0).val / 1024) + 146, pt7_last_lt _ hb⟩ (1 : Fin 2) * 128 ≤ (i 1).val
      ∧ (i 1).val < win7_2.index ⟨147 * ((i 0).val / 1024) + 146, pt7_last_lt _ hb⟩ (1 : Fin 2) * 128 + 128
    omega

theorem final7 (c : Dev nD) : (dat7 (F := Ideal) V c).arrAt 2 cfg7.N = G7_val V c :=
  (dat7 (F := Ideal) V c).arrAt_eq_of_cover 2 (G7_val V c) (flushed7_eq V c) (cover7 c)

theorem regionVal7 (c : Dev nD) (n : Fin 50176) (j : Fin 128) :
    ((dat7 (F := Ideal) V c).arrAt 2 cfg7.N : S50176x128.Idx → EReal) (ValueIdx.ix2 n j)
      = ∑ e : Fin 602112, (if row7_arr V c (ValueIdx.ix2 0 e) = BitVec.ofNat 32 n.val
          then row7_msg V c (ValueIdx.ix2 e j) else 0) :=
  (congrFun (final7 V c) (ix2 n j)).trans (G7_val_apply V c n j)

end Cert.KernelIdeal.Rg

end
-- ==== Proof.R8Pts.lean ====
import proofs.«425541_j70411693850858_1_alg».proof.Proof.R8Defs
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idx8_0 : ∀ t : Fin cfg8.N, win8_0.index t (0 : Fin 2) = t.val ∧ win8_0.index t (1 : Fin 2) = 0 :=
  (by decide +kernel : ∀ t : Fin grid8.N, win8_0.index t (0 : Fin 2) = t.val ∧ win8_0.index t (1 : Fin 2) = 0)

theorem idx8_1 : ∀ t : Fin cfg8.N, win8_1.index t (0 : Fin 2) = t.val ∧ win8_1.index t (1 : Fin 2) = 0 :=
  (by decide +kernel : ∀ t : Fin grid8.N, win8_1.index t (0 : Fin 2) = t.val ∧ win8_1.index t (1 : Fin 2) = 0)

theorem idx8_2 : ∀ t : Fin cfg8.N, win8_2.index t (0 : Fin 2) = 0 ∧ win8_2.index t (1 : Fin 2) = 0 :=
  (by decide +kernel : ∀ t : Fin grid8.N, win8_2.index t (0 : Fin 2) = 0 ∧ win8_2.index t (1 : Fin 2) = 0)

theorem idx8_3 : ∀ t : Fin cfg8.N, win8_3.index t (0 : Fin 2) = 0 ∧ win8_3.index t (1 : Fin 2) = 0 :=
  (by decide +kernel : ∀ t : Fin grid8.N, win8_3.index t (0 : Fin 2) = 0 ∧ win8_3.index t (1 : Fin 2) = 0)

theorem idx8_4 : ∀ t : Fin cfg8.N, win8_4.index t (0 : Fin 2) = 0 ∧ win8_4.index t (1 : Fin 2) = 0 :=
  (by decide +kernel : ∀ t : Fin grid8.N, win8_4.index t (0 : Fin 2) = 0 ∧ win8_4.index t (1 : Fin 2) = 0)

theorem idx8_5 : ∀ t : Fin cfg8.N, win8_5.index t (0 : Fin 2) = t.val ∧ win8_5.index t (1 : Fin 2) = 0 :=
  (by decide +kernel : ∀ t : Fin grid8.N, win8_5.index t (0 : Fin 2) = t.val ∧ win8_5.index t (1 : Fin 2) = 0)

abbrev G8_agg (c : Dev nD) : Vec F S50176x128 .bf16 := V c (Pipeline.arrRef spec8 0)

abbrev G8_x (c : Dev nD) : Vec F S50176x128 .bf16 := V c (Pipeline.arrRef spec8 1)

abbrev G8_wl (c : Dev nD) : Vec F S128x128 .bf16 := V c (Pipeline.arrRef spec8 2)

abbrev G8_wr (c : Dev nD) : Vec F S128x128 .bf16 := V c (Pipeline.arrRef spec8 3)

abbrev G8_b (c : Dev nD) : Vec F S1x128 .f32 := V c (Pipeline.arrRef spec8 4)

abbrev blk8_agg (c : Dev nD) (t : Fin cfg8.N) : Vec F S1024x128 .bf16 := iblk8 V c 0 t

abbrev blk8_x (c : Dev nD) (t : Fin cfg8.N) : Vec F S1024x128 .bf16 := iblk8 V c 1 t

abbrev blk8_wl (c : Dev nD) (t : Fin cfg8.N) : Vec F S128x128 .bf16 := iblk8 V c 2 t

abbrev blk8_wr (c : Dev nD) (t : Fin cfg8.N) : Vec F S128x128 .bf16 := iblk8 V c 3 t

abbrev blk8_b (c : Dev nD) (t : Fin cfg8.N) : Vec F S1x128 .f32 := iblk8 V c 4 t

theorem out8_eq (c : Dev nD) (t : Fin cfg8.N) :
    out8 V c t = k2_pay1 (blk8_agg V c t) (blk8_wl V c t) (blk8_x V c t) (blk8_wr V c t) (blk8_b V c t) := rfl

theorem blk8_agg_apply (c : Dev nD) (t : Fin cfg8.N) (p : Fin 1024) (q : Fin 128) (n : Fin 50176)
    (hn : n.val = t.val * 1024 + p.val) :
    blk8_agg V c t (ix2 p q) = G8_agg V c (ix2 n q) := by
  obtain ⟨e0, e1⟩ := idx8_0 t
  show G8_agg V c (((cfg8.win 0).blk t).view.emb (ix2 p q)) = G8_agg V c (ix2 n q)
  refine congrArg (G8_agg V c) (funext fun a => Fin.ext ?_)
  match a with
  | ⟨0, _⟩ => show win8_0.index t (0 : Fin 2) * 1024 + 1 * p.val = n.val; rw [e0, hn]; omega
  | ⟨1, _⟩ => show win8_0.index t (1 : Fin 2) * 128 + 1 * q.val = q.val; rw [e1]; omega

theorem blk8_x_apply (c : Dev nD) (t : Fin cfg8.N) (p : Fin 1024) (q : Fin 128) (n : Fin 50176)
    (hn : n.val = t.val * 1024 + p.val) :
    blk8_x V c t (ix2 p q) = G8_x V c (ix2 n q) := by
  obtain ⟨e0, e1⟩ := idx8_1 t
  show G8_x V c (((cfg8.win 1).blk t).view.emb (ix2 p q)) = G8_x V c (ix2 n q)
  refine congrArg (G8_x V c) (funext fun a => Fin.ext ?_)
  match a with
  | ⟨0, _⟩ => show win8_1.index t (0 : Fin 2) * 1024 + 1 * p.val = n.val; rw [e0, hn]; omega
  | ⟨1, _⟩ => show win8_1.index t (1 : Fin 2) * 128 + 1 * q.val = q.val; rw [e1]; omega

theorem blk8_wl_apply (c : Dev nD) (t : Fin cfg8.N) (p : Fin 128) (q : Fin 128) :
    blk8_wl V c t (ix2 p q) = G8_wl V c (ix2 p q) := by
  obtain ⟨e0, e1⟩ := idx8_2 t
  show G8_wl V c (((cfg8.win 2).blk t).view.emb (ix2 p q)) = G8_wl V c (ix2 p q)
  refine congrArg (G8_wl V c) (funext fun a => Fin.ext ?_)
  match a with
  | ⟨0, _⟩ => show win8_2.index t (0 : Fin 2) * 128 + 1 * p.val = p.val; rw [e0]; omega
  | ⟨1, _⟩ => show win8_2.index t (1 : Fin 2) * 128 + 1 * q.val = q.val; rw [e1]; omega

theorem blk8_wr_apply (c : Dev nD) (t : Fin cfg8.N) (p : Fin 128) (q : Fin 128) :
    blk8_wr V c t (ix2 p q) = G8_wr V c (ix2 p q) := by
  obtain ⟨e0, e1⟩ := idx8_3 t
  show G8_wr V c (((cfg8.win 3).blk t).view.emb (ix2 p q)) = G8_wr V c (ix2 p q)
  refine congrArg (G8_wr V c) (funext fun a => Fin.ext ?_)
  match a with
  | ⟨0, _⟩ => show win8_3.index t (0 : Fin 2) * 128 + 1 * p.val = p.val; rw [e0]; omega
  | ⟨1, _⟩ => show win8_3.index t (1 : Fin 2) * 128 + 1 * q.val = q.val; rw [e1]; omega

theorem blk8_b_apply (c : Dev nD) (t : Fin cfg8.N) (p : Fin 1) (q : Fin 128) :
    blk8_b V c t (ix2 p q) = G8_b V c (ix2 p q) := by
  obtain ⟨e0, e1⟩ := idx8_4 t
  show G8_b V c (((cfg8.win 4).blk t).view.emb (ix2 p q)) = G8_b V c (ix2 p q)
  refine congrArg (G8_b V c) (funext fun a => Fin.ext ?_)
  match a with
  | ⟨0, _⟩ => show win8_4.index t (0 : Fin 2) * 1 + 1 * p.val = p.val; rw [e0]; omega
  | ⟨1, _⟩ => show win8_4.index t (1 : Fin 2) * 128 + 1 * q.val = q.val; rw [e1]; omega

theorem blk8_out_emb (t : Fin cfg8.N) (p : Fin 1024) (q : Fin 128) (n : Fin 50176)
    (hn : n.val = t.val * 1024 + p.val) :
    (((cfg8.win 5).blk t).view.emb (ix2 p q) : S50176x128.Idx) = ix2 n q := by
  obtain ⟨e0, e1⟩ := idx8_5 t
  funext a
  apply Fin.ext
  match a with
  | ⟨0, _⟩ => show win8_5.index t (0 : Fin 2) * 1024 + 1 * p.val = n.val; rw [e0, hn]; omega
  | ⟨1, _⟩ => show win8_5.index t (1 : Fin 2) * 128 + 1 * q.val = q.val; rw [e1]; omega

theorem blk8_mem (t : Fin cfg8.N) (i : S50176x128.Idx) :
    i ∈ ((cfg8.win 5).blk t).view.set ↔ ∀ a : Fin 2, win8_5.index t a * S1024x128.size a ≤ (i a).val ∧ (i a).val < win8_5.index t a * S1024x128.size a + S1024x128.size a := by
  show i ∈ ((View.whole (Pipeline.arrRef spec8 5)).slice (win8_5.rect t)).set ↔ _
  rw [View.set_slice_whole, Rect.mem_set_unit]
  exact Iff.rfl

theorem cover8 (i : S50176x128.Idx) :
    ∃ t : Fin cfg8.N, (cfg8.win 5).flush t = true ∧ i ∈ ((cfg8.win 5).blk t).view.set := by
  have hi0 : (i 0).val < 50176 := (i 0).isLt
  have hi1 : (i 1).val < 128 := (i 1).isLt
  have hN : (i 0).val / 1024 < cfg8.N := by rw [show cfg8.N = 49 from N_8]; omega
  refine ⟨⟨(i 0).val / 1024, hN⟩, flush8_5 _, ?_⟩
  obtain ⟨e0, e1⟩ := idx8_5 ⟨(i 0).val / 1024, hN⟩
  rw [blk8_mem]
  intro a
  match a with
  | ⟨0, _⟩ =>
    show win8_5.index ⟨(i 0).val / 1024, hN⟩ (0 : Fin 2) * 1024 ≤ (i 0).val ∧ (i 0).val < win8_5.index ⟨(i 0).val / 1024, hN⟩ (0 : Fin 2) * 1024 + 1024
    rw [e0]; show (i 0).val / 1024 * 1024 ≤ (i 0).val ∧ (i 0).val < (i 0).val / 1024 * 1024 + 1024; omega
  | ⟨1, _⟩ =>
    show win8_5.index ⟨(i 0).val / 1024, hN⟩ (1 : Fin 2) * 128 ≤ (i 1).val ∧ (i 1).val < win8_5.index ⟨(i 0).val / 1024, hN⟩ (1 : Fin 2) * 128 + 128
    rw [e1]; omega

end Cert.KernelIdeal.Rg

end
-- ==== Proof.R8Val.lean ====
import proofs.«425541_j70411693850858_1_alg».proof.Proof.R8Pts
import proofs.«425541_j70411693850858_1_alg».proof.Proof.DenseVal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

def row8 (c : Dev nD) (n : Fin 50176) (j : Fin 128) : EReal :=
  max ((∑ k : Fin 128, (G8_agg V c (ix2 n k) : EReal) * (G8_wl V c (ix2 k j) : EReal))
      + (∑ k : Fin 128, (G8_x V c (ix2 n k) : EReal) * (G8_wr V c (ix2 k j) : EReal))
      + (G8_b V c (ix2 (0 : Fin 1) j) : EReal)) 0

def G8_out (c : Dev nD) : S50176x128.Idx → EReal := fun i => row8 V c (i 0) (i 1)

theorem G8_out_apply (c : Dev nD) (n : Fin 50176) (j : Fin 128) : G8_out V c (ix2 n j) = row8 V c n j := rfl

theorem out8_apply (c : Dev nD) (t : Fin cfg8.N) (p : Fin 1024) (q : Fin 128) (n : Fin 50176)
    (hn : n.val = t.val * 1024 + p.val) :
    out8 V c t (ix2 p q) = G8_out V c (ix2 n q) := by
  rw [G8_out_apply, out8_eq]
  refine (k2_pay1_apply (blk8_agg V c t) (blk8_wl V c t) (blk8_x V c t) (blk8_wr V c t) (blk8_b V c t) p q).trans ?_
  unfold row8
  refine congrArg₂ max ?_ rfl
  refine congrArg₂ (· + ·) ?_ ?_
  · refine congrArg₂ (· + ·) ?_ ?_
    · refine Finset.sum_congr rfl fun k _ => ?_
      exact congrArg₂ (· * ·) (blk8_agg_apply V c t p k n hn) (blk8_wl_apply V c t k q)
    · refine Finset.sum_congr rfl fun k _ => ?_
      exact congrArg₂ (· * ·) (blk8_x_apply V c t p k n hn) (blk8_wr_apply V c t k q)
  · exact blk8_b_apply V c t 0 q

theorem flushed8_eq (c : Dev nD) (t : Fin cfg8.N) :
    (dat8 (F := Ideal) V c).flushed 5 t = ((cfg8.win 5).blk t).view.read (Elt Ideal) (G8_out V c) := by
  show (cfg8.win 5).cut (grid8.coords t) ((dat8 (F := Ideal) V c).after 5 t) = _
  rw [after8_5]
  funext y
  obtain ⟨p, q, rfl⟩ : ∃ (p : Fin 1024) (q : Fin 128), y = ix2 p q := ⟨y 0, y 1, eq_ix2 y⟩
  have hp : p.val < 1024 := p.isLt
  have ht : t.val < 49 := lt_of_lt_of_eq t.isLt N_8
  have hn : t.val * 1024 + p.val < 50176 := by omega
  show out8 V c t (ix2 p q) = G8_out V c (((cfg8.win 5).blk t).view.emb (ix2 p q))
  exact (out8_apply V c t p q ⟨t.val * 1024 + p.val, hn⟩ rfl).trans
    (congrArg (G8_out V c) (blk8_out_emb t p q ⟨t.val * 1024 + p.val, hn⟩ rfl).symm)

theorem final8 (c : Dev nD) : (dat8 (F := Ideal) V c).arrAt 5 cfg8.N = G8_out V c :=
  (dat8 (F := Ideal) V c).arrAt_eq_of_cover 5 (G8_out V c) (fun t _ => flushed8_eq V c t) cover8

theorem regionVal8 (c : Dev nD) (n : Fin 50176) (j : Fin 128) :
    ((dat8 (F := Ideal) V c).arrAt 5 cfg8.N : S50176x128.Idx → EReal) (ix2 n j)
      = max ((∑ k : Fin 128, (G8_agg V c (ix2 n k) : EReal) * (G8_wl V c (ix2 k j) : EReal))
            + (∑ k : Fin 128, (G8_x V c (ix2 n k) : EReal) * (G8_wr V c (ix2 k j) : EReal))
            + (G8_b V c (ix2 (0 : Fin 1) j) : EReal)) 0 := by
  rw [final8 V c]
  rfl

end Cert.KernelIdeal.Rg

end
-- ==== Proof.Layers.lean ====
import proofs.«425541_j70411693850858_1_alg».proof.Proof.Bridge
import proofs.«425541_j70411693850858_1_alg».proof.Proof.HostIn
import proofs.«425541_j70411693850858_1_alg».proof.Proof.HostMid
import proofs.«425541_j70411693850858_1_alg».proof.Proof.R0Val
import proofs.«425541_j70411693850858_1_alg».proof.Proof.R1Val
import proofs.«425541_j70411693850858_1_alg».proof.Proof.R2Val
import proofs.«425541_j70411693850858_1_alg».proof.Proof.R3Val
import proofs.«425541_j70411693850858_1_alg».proof.Proof.R4Val
import proofs.«425541_j70411693850858_1_alg».proof.Proof.R5Val
import proofs.«425541_j70411693850858_1_alg».proof.Proof.R6Val
import proofs.«425541_j70411693850858_1_alg».proof.Proof.R7Val
import proofs.«425541_j70411693850858_1_alg».proof.Proof.R8Val

set_option maxRecDepth 16384

noncomputable section

open scoped BigOperators

namespace Cert.KernelIdeal.Rg

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

abbrev argEI (c : Dev nD) : S2x600000.Idx → BitVec 32 := m ((c.tc : Thread nD τ).loc main_arg1)

abbrev argW (c : Dev nD) : S600000.Idx → EReal := m ((c.tc : Thread nD τ).loc main_arg2)

abbrev argX (c : Dev nD) : S50000x128.Idx → EReal := m ((c.tc : Thread nD τ).loc main_arg0)

theorem layer1_eq (c : Dev nD) (colN : Fin 600000 → Fin 50000)
    (hcol : ∀ e : Fin 600000, argEI m c (ix2 1 e) = BitVec.ofNat 32 (colN e).val)
    (XR : S50000x128.Idx → EReal)
    (hX : ∀ (n : Fin 50000) (j : Fin 128), (V3 m c main_v14 : S50176x128.Idx → EReal) (ix2 (Cert.Bridge.up n) j) = XR (ix2 n j))
    (n : Fin 50000) (j : Fin 128) :
    ((dat2 (F := Ideal) (V6 m) c).arrAt 5 cfg2.N : S50176x128.Idx → EReal) (ix2 (Cert.Bridge.up n) j)
      = Cert.Bridge.closed (argEI m c) (argW m c) XR (m ((c.tc : Thread nD τ).loc main_arg3)) (m ((c.tc : Thread nD τ).loc main_arg4)) (m ((c.tc : Thread nD τ).loc main_arg5)) colN n j := by
  refine Cert.Bridge.layer_eq
    (col := (V3 m c main_v10 : S602112x1.Idx → BitVec 32)) (row := (V4 m c main_v11 : S1x602112.Idx → BitVec 32))
    (wgt := (V3 m c main_v12 : S602112x1.Idx → EReal)) (Xin := (V3 m c main_v14 : S50176x128.Idx → EReal))
    (msgs := ((dat0 (F := Ideal) (V3 m) c).arrAt 3 cfg0.N : S602112x128.Idx → EReal))
    (agg := ((dat1 (F := Ideal) (V4 m) c).arrAt 2 cfg1.N : S50176x128.Idx → EReal))
    (aggc := (V6 m c main_v17 : S50176x128.Idx → EReal))
    (out := ((dat2 (F := Ideal) (V6 m) c).arrAt 5 cfg2.N : S50176x128.Idx → EReal))
    (Wl := (V6 m c main_v18 : S128x128.Idx → EReal)) (Wr := (V6 m c main_v19 : S128x128.Idx → EReal)) (b := (V6 m c main_v20 : S1x128.Idx → EReal))
    (argEI m c) (argW m c) XR _ _ _ colN hcol ?hcolp ?hrowp ?hwp hX ?hit ?miss ?hagg ?haggc ?hout ?hWl ?hWr ?hb n j
  case hcolp => intro e; exact colIdx_apply m c e
  case hrowp => intro e; rw [keep_v11_4 m c]; exact rowIdx_apply m c e
  case hwp => intro e; exact wgt_apply m c e
  case hit => exact fun e j n₀ h => regionVal0_hit (V3 m) c e j n₀ h
  case miss => exact fun e j h => regionVal0_miss (V3 m) c e j h
  case hagg =>
    intro n j
    have hmsg : (row1_msg (V4 m) c : S602112x128.Idx → EReal) = ((dat0 (F := Ideal) (V3 m) c).arrAt 3 cfg0.N : S602112x128.Idx → EReal) := msgs_1 m c
    have hv := regionVal1 (V4 m) c n j
    rw [hmsg] at hv
    exact hv
  case haggc => exact agg_1 m c
  case hout =>
    intro n j
    refine (regionVal2 (V6 m) c n j).trans ?_
    rw [show (G2_x (V6 m) c : S50176x128.Idx → EReal) = (V3 m c main_v14 : S50176x128.Idx → EReal) from keep_v14_6 m c]
  case hWl => exact wl_1 m c
  case hWr => exact wr_1 m c
  case hb => exact b_1 m c

theorem layer2_eq (c : Dev nD) (colN : Fin 600000 → Fin 50000)
    (hcol : ∀ e : Fin 600000, argEI m c (ix2 1 e) = BitVec.ofNat 32 (colN e).val)
    (XR : S50000x128.Idx → EReal)
    (hX : ∀ (n : Fin 50000) (j : Fin 128), (V8 m c main_v22 : S50176x128.Idx → EReal) (ix2 (Cert.Bridge.up n) j) = XR (ix2 n j))
    (n : Fin 50000) (j : Fin 128) :
    ((dat5 (F := Ideal) (V11 m) c).arrAt 5 cfg5.N : S50176x128.Idx → EReal) (ix2 (Cert.Bridge.up n) j)
      = Cert.Bridge.closed (argEI m c) (argW m c) XR (m ((c.tc : Thread nD τ).loc main_arg6)) (m ((c.tc : Thread nD τ).loc main_arg7)) (m ((c.tc : Thread nD τ).loc main_arg8)) colN n j := by
  refine Cert.Bridge.layer_eq
    (col := (V8 m c main_v10 : S602112x1.Idx → BitVec 32)) (row := (V9 m c main_v11 : S1x602112.Idx → BitVec 32))
    (wgt := (V8 m c main_v12 : S602112x1.Idx → EReal)) (Xin := (V8 m c main_v22 : S50176x128.Idx → EReal))
    (msgs := ((dat3 (F := Ideal) (V8 m) c).arrAt 3 cfg3.N : S602112x128.Idx → EReal))
    (agg := ((dat4 (F := Ideal) (V9 m) c).arrAt 2 cfg4.N : S50176x128.Idx → EReal))
    (aggc := (V11 m c main_v25 : S50176x128.Idx → EReal))
    (out := ((dat5 (F := Ideal) (V11 m) c).arrAt 5 cfg5.N : S50176x128.Idx → EReal))
    (Wl := (V11 m c main_v26 : S128x128.Idx → EReal)) (Wr := (V11 m c main_v27 : S128x128.Idx → EReal)) (b := (V11 m c main_v28 : S1x128.Idx → EReal))
    (argEI m c) (argW m c) XR _ _ _ colN hcol ?hcolp ?hrowp ?hwp hX ?hit ?miss ?hagg ?haggc ?hout ?hWl ?hWr ?hb n j
  case hcolp => intro e; rw [keep_v10_8 m c]; exact colIdx_apply m c e
  case hrowp => intro e; rw [keep_v11_9 m c]; exact rowIdx_apply m c e
  case hwp => intro e; rw [keep_v12_8 m c]; exact wgt_apply m c e
  case hit => exact fun e j n₀ h => regionVal3_hit (V8 m) c e j n₀ h
  case miss => exact fun e j h => regionVal3_miss (V8 m) c e j h
  case hagg =>
    intro n j
    have hmsg : (row4_msg (V9 m) c : S602112x128.Idx → EReal) = ((dat3 (F := Ideal) (V8 m) c).arrAt 3 cfg3.N : S602112x128.Idx → EReal) := msgs_2 m c
    have hv := regionVal4 (V9 m) c n j
    rw [hmsg] at hv
    exact hv
  case haggc => exact agg_2 m c
  case hout =>
    intro n j
    refine (regionVal5 (V11 m) c n j).trans ?_
    rw [show (G5_x (V11 m) c : S50176x128.Idx → EReal) = (V8 m c main_v22 : S50176x128.Idx → EReal) from xin_2_F m c]
  case hWl => exact wl_2 m c
  case hWr => exact wr_2 m c
  case hb => exact b_2 m c

theorem layer3_eq (c : Dev nD) (colN : Fin 600000 → Fin 50000)
    (hcol : ∀ e : Fin 600000, argEI m c (ix2 1 e) = BitVec.ofNat 32 (colN e).val)
    (XR : S50000x128.Idx → EReal)
    (hX : ∀ (n : Fin 50000) (j : Fin 128), (V13 m c main_v30 : S50176x128.Idx → EReal) (ix2 (Cert.Bridge.up n) j) = XR (ix2 n j))
    (n : Fin 50000) (j : Fin 128) :
    ((dat8 (F := Ideal) (V16 m) c).arrAt 5 cfg8.N : S50176x128.Idx → EReal) (ix2 (Cert.Bridge.up n) j)
      = Cert.Bridge.closed (argEI m c) (argW m c) XR (m ((c.tc : Thread nD τ).loc main_arg9)) (m ((c.tc : Thread nD τ).loc main_arg10)) (m ((c.tc : Thread nD τ).loc main_arg11)) colN n j := by
  refine Cert.Bridge.layer_eq
    (col := (V13 m c main_v10 : S602112x1.Idx → BitVec 32)) (row := (V14 m c main_v11 : S1x602112.Idx → BitVec 32))
    (wgt := (V13 m c main_v12 : S602112x1.Idx → EReal)) (Xin := (V13 m c main_v30 : S50176x128.Idx → EReal))
    (msgs := ((dat6 (F := Ideal) (V13 m) c).arrAt 3 cfg6.N : S602112x128.Idx → EReal))
    (agg := ((dat7 (F := Ideal) (V14 m) c).arrAt 2 cfg7.N : S50176x128.Idx → EReal))
    (aggc := (V16 m c main_v33 : S50176x128.Idx → EReal))
    (out := ((dat8 (F := Ideal) (V16 m) c).arrAt 5 cfg8.N : S50176x128.Idx → EReal))
    (Wl := (V16 m c main_v34 : S128x128.Idx → EReal)) (Wr := (V16 m c main_v35 : S128x128.Idx → EReal)) (b := (V16 m c main_v36 : S1x128.Idx → EReal))
    (argEI m c) (argW m c) XR _ _ _ colN hcol ?hcolp ?hrowp ?hwp hX ?hit ?miss ?hagg ?haggc ?hout ?hWl ?hWr ?hb n j
  case hcolp => intro e; rw [keep_v10_13 m c]; exact colIdx_apply m c e
  case hrowp => intro e; rw [keep_v11_14 m c]; exact rowIdx_apply m c e
  case hwp => intro e; rw [keep_v12_13 m c]; exact wgt_apply m c e
  case hit => exact fun e j n₀ h => regionVal6_hit (V13 m) c e j n₀ h
  case miss => exact fun e j h => regionVal6_miss (V13 m) c e j h
  case hagg =>
    intro n j
    have hmsg : (row7_msg (V14 m) c : S602112x128.Idx → EReal) = ((dat6 (F := Ideal) (V13 m) c).arrAt 3 cfg6.N : S602112x128.Idx → EReal) := msgs_3 m c
    have hv := regionVal7 (V14 m) c n j
    rw [hmsg] at hv
    exact hv
  case haggc => exact agg_3 m c
  case hout =>
    intro n j
    refine (regionVal8 (V16 m) c n j).trans ?_
    rw [show (G8_x (V16 m) c : S50176x128.Idx → EReal) = (V13 m c main_v30 : S50176x128.Idx → EReal) from xin_3_F m c]
  case hWl => exact wl_3 m c
  case hWr => exact wr_3 m c
  case hb => exact b_3 m c

theorem xin1_eq (c : Dev nD) (n : Fin 50000) (j : Fin 128) :
    (V3 m c main_v14 : S50176x128.Idx → EReal) (ix2 (Cert.Bridge.up n) j) = argX m c (ix2 n j) := by
  rw [xpad_apply m c (Cert.Bridge.up n) j, dif_pos n.isLt]

end Cert.KernelIdeal.Rg

end
-- ==== Proof.HostTail.lean ====
import proofs.«425541_j70411693850858_1_alg».proof.Proof.HostMid
import Idealize.ShloMosaic.Lib.StableHlo.Run

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Join3

variable {τ' : Topo} {sig' : RefSig} {Val : EltTy → Type}

theorem hm_nary3_result {x a b y : Ref sig' .tc}
    (f : ((k : Fin 3) → ((![x, a, b] : Fin 3 → Ref sig' .tc) k).ty.Contents Val) → y.ty.Contents Val) (hxs hy)
    (G : Valuation τ' sig' Val) :
    (StableHlo.nary (τ := τ') ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

end Join3

theorem hm_ofBuf_toBuf {sig' : RefSig} {Val : EltTy → Type} {T : BufTy} (x : StableHlo.TRef sig' T) (v : T.Contents Val) :
    x.ofBuf (x.toBuf v) = v := by
  obtain ⟨r, rfl, _, _⟩ := x; rfl

macro "hm_after_results" : tactic =>
  `(tactic| (simp only [StableHlo.after_cons, StableHlo.after_nil]
             repeat (first
               | rw [StableHlo.nullary_result] | rw [StableHlo.unary_result] | rw [StableHlo.binary_result]
               | rw [StableHlo.reshape_result] | rw [hm_nary3_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

section Generic

variable {F : FTy → Type} [FloatOps F]

abbrev sl {α : Type} (x : S50176x128.Idx → α) : S50000x128.Idx → α :=
  extractStridedSlice S50000x128 ![0, 0] x slices_S50176x128_S50000x128_0_0

def hm_linK (X1 X2 X3 : (⟨S50000x128, .f32⟩ : BufTy).Contents (Elt F)) (Wlin : (⟨S384x40, .f32⟩ : BufTy).Contents (Elt F))
    (blin : (⟨S40, .f32⟩ : BufTy).Contents (Elt F)) : (⟨S50000x40, .f32⟩ : BufTy).Contents (Elt F) :=
  addf
    (Host.dotGeneral dot_S50000x384_S384x40_S50000x40_1_0_0_1_n_n none
      (concatenate S50000x384 1 [⟨S50000x128, X1⟩, ⟨S50000x128, X2⟩, ⟨S50000x128, X3⟩]
        concatenates_S50000x128_S50000x128_S50000x128_S50000x384_d1 : (⟨S50000x384, .f32⟩ : BufTy).Contents (Elt F))
      Wlin)
    (broadcastInDim S50000x40 ![0, 1] bcast_S1x40_S50000x40_0_1 (broadcastInDim S1x40 ![1] bcast_S40_S1x40_1 blin))

def hm_lsmShiftK (x : (⟨S50000x40, .f32⟩ : BufTy).Contents (Elt F)) : (⟨S50000x40, .f32⟩ : BufTy).Contents (Elt F) :=
  subf x
    (broadcastInDim S50000x40 ![0, 1] bcast_S50000x1_S50000x40_0_1
      (broadcastInDim S50000x1 ![0] bcast_S50000_S50000x1_0
        (maximumf
          (broadcastInDim S50000 ![] bcast_S_S50000 (constant S_ .f32 0xFF800000#32 : (⟨S_, .f32⟩ : BufTy).Contents (Elt F)))
          (Host.reduce FloatOps.maximumf x (constant S_ .f32 0xFF800000#32 : (⟨S_, .f32⟩ : BufTy).Contents (Elt F))
            reducesTo_S50000x40_S50000_d1 h_S_))))

def hm_lsmK (x : (⟨S50000x40, .f32⟩ : BufTy).Contents (Elt F)) : (⟨S50000x40, .f32⟩ : BufTy).Contents (Elt F) :=
  subf (hm_lsmShiftK x)
    (broadcastInDim S50000x40 ![0, 1] bcast_S50000x1_S50000x40_0_1
      (Host.log
        (broadcastInDim S50000x1 ![0] bcast_S50000_S50000x1_0
          (Host.reduceAdd (Host.exp (hm_lsmShiftK x)) (constant S_ .f32 0x00000000#32 : (⟨S_, .f32⟩ : BufTy).Contents (Elt F))
            reducesTo_S50000x40_S50000_d1 h_S_))))

def tailK (X1 X2 X3 : (⟨S50000x128, .f32⟩ : BufTy).Contents (Elt F)) (Wlin : (⟨S384x40, .f32⟩ : BufTy).Contents (Elt F))
    (blin : (⟨S40, .f32⟩ : BufTy).Contents (Elt F)) : (⟨S50000x40, .f32⟩ : BufTy).Contents (Elt F) :=
  hm_lsmK (hm_linK X1 X2 X3 Wlin blin)

theorem hm_lin (G : Valuation τ sig (Elt F)) :
    StableHlo.after hostOps9 G (Proc.devRef .tc main_v45)
      = hm_linK (sl (G (Proc.devRef .tc main_v21))) (sl (G (Proc.devRef .tc main_v29))) (sl (G (Proc.devRef .tc main_v37)))
          (G (Proc.devRef .tc main_arg12)) (G (Proc.devRef .tc main_arg13)) := by
  hm_after_results
  rfl

theorem hm_lsm (G : Valuation τ sig (Elt F)) :
    StableHlo.after hostOps9_1 G (Proc.devRef .tc main_v46) = hm_lsmK (G (Proc.devRef .tc main_v45)) := by
  hm_after_results
  simp only [hm_ofBuf_toBuf]
  have hx : (StableHlo.TRef.of main_v45 rfl (by decide) rfl : StableHlo.TRef sig ⟨S50000x40, .f32⟩).ofBuf
      (G (Proc.devRef .tc main_v45)) = G (Proc.devRef .tc main_v45) := rfl
  rw [hx]
  unfold hm_lsmK hm_lsmShiftK
  rfl

variable (m : (ℓ : Loc nD τ sig) → Buf (Elt F) ℓ)

theorem hm_out_1 (c : Dev nD) : W17 m c (Proc.devRef .tc main_v21) = (dat2 (V6 m) c).arrAt 5 cfg2.N :=
  (W17_of_ne m c main_v21 (by decide)).trans <| (hm_keep16 m c main_v21 (by decide)).trans <|
  (W15_of_ne m c main_v21 (by decide)).trans <| (W14_of_ne m c main_v21 (by decide)).trans <|
  (hm_keep13 m c main_v21 (by decide)).trans <| (W12_of_ne m c main_v21 (by decide)).trans <|
  (hm_keep11 m c main_v21 (by decide)).trans <| (W10_of_ne m c main_v21 (by decide)).trans <|
  (W9_of_ne m c main_v21 (by decide)).trans <| (hm_keep8 m c main_v21 (by decide)).trans (W7_arr m c 5)
theorem hm_out_2 (c : Dev nD) : W17 m c (Proc.devRef .tc main_v29) = (dat5 (V11 m) c).arrAt 5 cfg5.N :=
  (W17_of_ne m c main_v29 (by decide)).trans <| (hm_keep16 m c main_v29 (by decide)).trans <|
  (W15_of_ne m c main_v29 (by decide)).trans <| (W14_of_ne m c main_v29 (by decide)).trans <|
  (hm_keep13 m c main_v29 (by decide)).trans (W12_arr m c 5)
theorem hm_out_3 (c : Dev nD) : W17 m c (Proc.devRef .tc main_v37) = (dat8 (V16 m) c).arrAt 5 cfg8.N :=
  W17_arr m c 5

theorem hm_result_eq (c : Dev nD) :
    W19 m c (Proc.devRef .tc main_v46)
      = tailK (sl (W17 m c (Proc.devRef .tc main_v21))) (sl (W17 m c (Proc.devRef .tc main_v29)))
          (sl (W17 m c (Proc.devRef .tc main_v37))) (m ((c : Thread nD τ).loc main_arg12)) (m ((c : Thread nD τ).loc main_arg13)) := by
  refine (hm_lsm (W18 m c)).trans (congrArg hm_lsmK ?_)
  refine (hm_lin (W17 m c)).trans ?_
  rw [hm_launch17 m c main_arg12 (by decide) (by decide) (by decide) (by decide),
    hm_launch17 m c main_arg13 (by decide) (by decide) (by decide) (by decide)]

end Generic

section AtIdeal

variable (m : (ℓ : Loc nD τ sig) → Buf (Elt Ideal) ℓ)

theorem result_eq (c : Dev nD) :
    (W19 m c main_v46 : S50000x40.Idx → EReal)
      = tailK (F := Ideal) (sl (W17 m c main_v21)) (sl (W17 m c main_v29)) (sl (W17 m c main_v37))
          (m ((c : Thread nD τ).loc main_arg12)) (m ((c : Thread nD τ).loc main_arg13)) :=
  hm_result_eq m c

theorem hm_sl_apply (x : S50176x128.Idx → EReal) (n : Fin 50000) (j : Fin 128) :
    (sl x : S50000x128.Idx → EReal) (ValueIdx.ix2 n j)
      = x (ValueIdx.ix2 ⟨n.val, lt_trans n.isLt (by decide)⟩ j) :=
  extractStridedSlice_apply ![0, 0] x slices_S50176x128_S50000x128_0_0 (ValueIdx.ix2 n j)
    (ValueIdx.ix2 ⟨n.val, lt_trans n.isLt (by decide)⟩ j) (fun a => match a with
      | ⟨0, _⟩ => by show n.val = 0 + n.val; omega
      | ⟨1, _⟩ => by show j.val = 0 + j.val; omega)

theorem out_1_apply (c : Dev nD) (n : Fin 50000) (j : Fin 128) :
    (sl (W17 m c main_v21) : S50000x128.Idx → EReal) (ValueIdx.ix2 n j)
      = ((dat2 (V6 m) c).arrAt 5 cfg2.N : S50176x128.Idx → EReal) (ValueIdx.ix2 ⟨n.val, lt_trans n.isLt (by decide)⟩ j) :=
  (hm_sl_apply (W17 m c (Proc.devRef .tc main_v21)) n j).trans (congrFun (hm_out_1 m c) _)
theorem out_2_apply (c : Dev nD) (n : Fin 50000) (j : Fin 128) :
    (sl (W17 m c main_v29) : S50000x128.Idx → EReal) (ValueIdx.ix2 n j)
      = ((dat5 (V11 m) c).arrAt 5 cfg5.N : S50176x128.Idx → EReal) (ValueIdx.ix2 ⟨n.val, lt_trans n.isLt (by decide)⟩ j) :=
  (hm_sl_apply (W17 m c (Proc.devRef .tc main_v29)) n j).trans (congrFun (hm_out_2 m c) _)
theorem out_3_apply (c : Dev nD) (n : Fin 50000) (j : Fin 128) :
    (sl (W17 m c main_v37) : S50000x128.Idx → EReal) (ValueIdx.ix2 n j)
      = ((dat8 (V16 m) c).arrAt 5 cfg8.N : S50176x128.Idx → EReal) (ValueIdx.ix2 ⟨n.val, lt_trans n.isLt (by decide)⟩ j) :=
  (hm_sl_apply (W17 m c (Proc.devRef .tc main_v37)) n j).trans (congrFun (hm_out_3 m c) _)

end AtIdeal

end Cert.KernelIdeal.Rg

end
-- ==== Proof.RefGather.lean ====
import Idealize.ShloMosaic.Lib.ValueIdx

noncomputable section

open scoped BigOperators

namespace Cert.ReferenceIdeal.RefVal

open Idealize.ShloMosaic Idealize.ShloMosaic.ValueIdx

section RowGather
variable {α : Type}

private theorem one_not_mem_zero : (1 : Fin 2) ∉ ([0] : List (Fin 2)) := by decide
private theorem one_mem_kept_zero : (1 : Fin 2) ∈ (List.finRange 2).filter (· ∉ ([0] ++ [] : List (Fin 2))) := by decide

abbrev rowGatherDims (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

theorem rowGather_apply {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) :
    Host.gather (rowGatherDims N E K wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowGatherDims N E K wf).start (ix2 e k) idx 0 + (rowGatherDims N E K wf).batchCoord (ix2 e k) 0
      + (rowGatherDims N E K wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E K wf).startIndexMap from List.mem_singleton.mpr rfl)]
    have hsi : (rowGatherDims N E K wf).siIdx (ix2 e k) ⟨List.idxOf (0 : Fin 2) (rowGatherDims N E K wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E K wf).start (ix2 e k) idx 1 + (rowGatherDims N E K wf).batchCoord (ix2 e k) 1
      + (rowGatherDims N E K wf).offCoord (ix2 e k) 1 = k.val
    rw [GatherDims.batchCoord_eq_zero _ _ _ List.not_mem_nil]
    unfold GatherDims.start
    rw [dif_neg (show (1 : Fin 2) ∉ (rowGatherDims N E K wf).startIndexMap from one_not_mem_zero)]
    simp only [Nat.add_zero, Nat.zero_add]
    unfold GatherDims.offCoord
    rw [dif_pos (show (1 : Fin 2) ∈ (rowGatherDims N E K wf).sKept from one_mem_kept_zero)]
    rfl

end RowGather

section Words

theorem toInt_ofNat32 (c : Nat) (h : c < 2 ^ 31) : (BitVec.ofNat 32 c).toInt = (c : Int) := by
  have h1 : (BitVec.ofNat 32 c).toNat = c := by
    rw [BitVec.toNat_ofNat]; exact Nat.mod_eq_of_lt (by omega)
  rw [BitVec.toInt_eq_toNat_of_lt (by rw [h1]; omega), h1]

theorem cmpi_slt_ofNat32_zero (c : Nat) (h : c < 2 ^ 31) : IntOp.cmpi .slt (BitVec.ofNat 32 c) 0#32 = 0#1 := by
  unfold IntOp.cmpi
  have : (BitVec.ofNat 32 c).slt 0#32 = false := by
    rw [BitVec.slt_eq_decide, toInt_ofNat32 c h]
    simp
  simp only [this]
  rfl

theorem toInt_eq_natCast_iff (r : BitVec 32) (n : Nat) (h : n < 2 ^ 31) : r.toInt = (n : Int) ↔ r = BitVec.ofNat 32 n := by
  rw [← toInt_ofNat32 n h, BitVec.toInt_inj]

end Words

end Cert.ReferenceIdeal.RefVal

end
-- ==== Proof.RefScatter.lean ====
import Idealize.ShloMosaic.Lib.ValueIdx

noncomputable section

open scoped BigOperators

namespace Cert.ReferenceIdeal.RefVal

open Idealize.ShloMosaic Idealize.ShloMosaic.ValueIdx

section RowScatter

private theorem zero_mem_zero : (0 : Fin 2) ∈ ([0] : List (Fin 2)) := by decide
private theorem one_not_mem_zero' : (1 : Fin 2) ∉ ([0] : List (Fin 2)) := by decide
private theorem zero_not_mem_kept : (0 : Fin 2) ∉ (List.finRange 2).filter (· ∉ ([0] : List (Fin 2))) := by decide
private theorem one_mem_kept : (1 : Fin 2) ∈ (List.finRange 2).filter (· ∉ ([0] : List (Fin 2))) := by decide

abbrev rowScatterDims (N E K : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

variable {N E K w : Nat} (wf : ScatterDims.WF ⟨2, ![N, K]⟩ ⟨2, ![E, 1]⟩ ⟨2, ![E, K]⟩ [1] [0] [0] 1)
  (idx : IVec ⟨2, ![E, 1]⟩ w)

theorem rowScatter_start0 (e : Fin E) (k' : Fin K) :
    (rowScatterDims N E K wf).start (ix2 e k') idx 0 = (idx (ix2 e (0 : Fin 1))).toInt := by
  unfold ScatterDims.start
  rw [dif_pos (show (0 : Fin 2) ∈ (rowScatterDims N E K wf).scatterDimsToOperandDims from zero_mem_zero)]
  have hsi : (rowScatterDims N E K wf).siIdx (ix2 e k') ⟨List.idxOf (0 : Fin 2) (rowScatterDims N E K wf).scatterDimsToOperandDims,
      List.idxOf_lt_length_iff.2 zero_mem_zero⟩ = ix2 e (0 : Fin 1) := by
    funext b; refine Fin.ext ?_
    match b with
    | ⟨0, _⟩ => rfl
    | ⟨1, _⟩ => rfl
  rw [hsi]

theorem rowScatter_start1 (e : Fin E) (k' : Fin K) :
    (rowScatterDims N E K wf).start (ix2 e k') idx 1 = 0 := by
  unfold ScatterDims.start
  rw [dif_neg (show (1 : Fin 2) ∉ (rowScatterDims N E K wf).scatterDimsToOperandDims from one_not_mem_zero')]

theorem rowScatter_window0 (e : Fin E) (k' : Fin K) :
    (rowScatterDims N E K wf).window (ix2 e k') 0 = 0 := by
  unfold ScatterDims.window
  rw [dif_neg (show (0 : Fin 2) ∉ (rowScatterDims N E K wf).sKept from zero_not_mem_kept)]

theorem rowScatter_window1 (e : Fin E) (k' : Fin K) :
    (rowScatterDims N E K wf).window (ix2 e k') 1 = k'.val := by
  unfold ScatterDims.window
  rw [dif_pos (show (1 : Fin 2) ∈ (rowScatterDims N E K wf).sKept from one_mem_kept)]
  rfl

theorem rowScatter_resultIdx?_iff (e : Fin E) (k' : Fin K) (n : Fin N) (k : Fin K) :
    (rowScatterDims N E K wf).resultIdx? (ix2 e k') idx = some (ix2 n k)
      ↔ (idx (ix2 e (0 : Fin 1))).toInt = (n.val : Int) ∧ k' = k := by
  have hs0 := rowScatter_start0 wf idx e k'
  have hs1 := rowScatter_start1 wf idx e k'
  have hw0 := rowScatter_window0 wf e k'
  have hw1 := rowScatter_window1 wf e k'
  have hn : n.val < N := n.isLt
  have hk' : k'.val < K := k'.isLt
  unfold ScatterDims.resultIdx?
  by_cases h : ∀ a, 0 ≤ (rowScatterDims N E K wf).start (ix2 e k') idx a + ((rowScatterDims N E K wf).window (ix2 e k') a : Int)
      ∧ (rowScatterDims N E K wf).start (ix2 e k') idx a + ((rowScatterDims N E K wf).window (ix2 e k') a : Int)
        < ((⟨2, ![N, K]⟩ : Shape).size a : Int)
  · rw [dif_pos h, Option.some.injEq]
    have h0 := (h 0).1
    rw [hs0, hw0] at h0
    constructor
    · intro heq
      have e0 := congrArg (fun f => (f 0).val) heq
      have e1 := congrArg (fun f => (f 1).val) heq
      simp only at e0 e1
      change ((rowScatterDims N E K wf).start (ix2 e k') idx 0 + ((rowScatterDims N E K wf).window (ix2 e k') 0 : Int)).toNat = n.val at e0
      change ((rowScatterDims N E K wf).start (ix2 e k') idx 1 + ((rowScatterDims N E K wf).window (ix2 e k') 1 : Int)).toNat = k.val at e1
      rw [hs0, hw0] at e0
      rw [hs1, hw1] at e1
      exact ⟨by omega, Fin.ext (by omega)⟩
    · rintro ⟨hrow, rfl⟩
      funext a; refine Fin.ext ?_
      match a with
      | ⟨0, _⟩ =>
        show ((rowScatterDims N E K wf).start (ix2 e k') idx 0 + ((rowScatterDims N E K wf).window (ix2 e k') 0 : Int)).toNat = n.val
        rw [hs0, hw0]; omega
      | ⟨1, _⟩ =>
        show ((rowScatterDims N E K wf).start (ix2 e k') idx 1 + ((rowScatterDims N E K wf).window (ix2 e k') 1 : Int)).toNat = k'.val
        rw [hs1, hw1]; omega
  · rw [dif_neg h]
    refine iff_of_false (fun hc => by cases hc) ?_
    rintro ⟨hrow, rfl⟩
    refine h fun a => ?_
    match a with
    | ⟨0, _⟩ =>
      show 0 ≤ (rowScatterDims N E K wf).start (ix2 e k') idx 0 + ((rowScatterDims N E K wf).window (ix2 e k') 0 : Int)
        ∧ (rowScatterDims N E K wf).start (ix2 e k') idx 0 + ((rowScatterDims N E K wf).window (ix2 e k') 0 : Int) < (N : Int)
      rw [hs0, hw0]; omega
    | ⟨1, _⟩ =>
      show 0 ≤ (rowScatterDims N E K wf).start (ix2 e k') idx 1 + ((rowScatterDims N E K wf).window (ix2 e k') 1 : Int)
        ∧ (rowScatterDims N E K wf).start (ix2 e k') idx 1 + ((rowScatterDims N E K wf).window (ix2 e k') 1 : Int) < (K : Int)
      rw [hs1, hw1]; omega

theorem rowScatterAdd_apply (x : (⟨2, ![N, K]⟩ : Shape).Idx → EReal) (upd : (⟨2, ![E, K]⟩ : Shape).Idx → EReal)
    (n : Fin N) (k : Fin K) :
    Ideal.hostScatterAdd (rowScatterDims N E K wf) x idx upd (ix2 n k)
      = x (ix2 n k) + ∑ e : Fin E, if (idx (ix2 e (0 : Fin 1))).toInt = (n.val : Int) then upd (ix2 e k) else 0 := by
  unfold Ideal.hostScatterAdd
  congr 1
  rw [Finset.sum_filter, sum_idx2]
  refine Finset.sum_congr rfl fun e _ => ?_
  by_cases hrow : (idx (ix2 e (0 : Fin 1))).toInt = (n.val : Int)
  · rw [if_pos hrow]
    rw [Finset.sum_eq_single k]
    · rw [if_pos ((rowScatter_resultIdx?_iff wf idx e k n k).2 ⟨hrow, rfl⟩)]
    · intro k' _ hne
      rw [if_neg (fun hc => hne ((rowScatter_resultIdx?_iff wf idx e k' n k).1 hc).2)]
    · intro hk; exact absurd (Finset.mem_univ k) hk
  · rw [if_neg hrow]
    refine Finset.sum_eq_zero fun k' _ => ?_
    rw [if_neg (fun hc => hrow ((rowScatter_resultIdx?_iff wf idx e k' n k).1 hc).1)]

end RowScatter

end Cert.ReferenceIdeal.RefVal

end
-- ==== Proof.RefVal.lean ====
import proofs.«425541_j70411693850858_1_alg».proof.Proof.ReadP
import proofs.«425541_j70411693850858_1_alg».proof.Proof.RefGather
import proofs.«425541_j70411693850858_1_alg».proof.Proof.RefScatter

noncomputable section

open scoped BigOperators

namespace Cert.ReferenceIdeal.RefVal

open Cert.ReferenceIdeal Cert.ReferenceIdeal.Gen Idealize.ShloMosaic Idealize.ShloMosaic.TcCoe Idealize.SL.Sem Idealize.ShloMosaic.StableHlo
open Idealize.ShloMosaic.ValueIdx

def layerR (X : (⟨S50000x128, .f32⟩ : BufTy).Contents (Elt Ideal)) (ei : (⟨S2x600000, .i32⟩ : BufTy).Contents (Elt Ideal)) (w : (⟨S600000, .f32⟩ : BufTy).Contents (Elt Ideal)) (Wl Wr : (⟨S128x128, .f32⟩ : BufTy).Contents (Elt Ideal)) (b : (⟨S128, .f32⟩ : BufTy).Contents (Elt Ideal)) : (⟨S50000x128, .f32⟩ : BufTy).Contents (Elt Ideal) :=
  ReadP.val_main_v23 (F := Ideal) X ei w Wl Wr b

theorem val23_eq (x0 : (⟨S50000x128, .f32⟩ : BufTy).Contents (Elt Ideal)) (x1 : (⟨S2x600000, .i32⟩ : BufTy).Contents (Elt Ideal)) (x2 : (⟨S600000, .f32⟩ : BufTy).Contents (Elt Ideal)) (x3 x4 : (⟨S128x128, .f32⟩ : BufTy).Contents (Elt Ideal)) (x5 : (⟨S128, .f32⟩ : BufTy).Contents (Elt Ideal)) :
    ReadP.val_main_v23 (F := Ideal) x0 x1 x2 x3 x4 x5 = layerR x0 x1 x2 x3 x4 x5 := rfl

theorem val47_eq (x0 : (⟨S50000x128, .f32⟩ : BufTy).Contents (Elt Ideal)) (x1 : (⟨S2x600000, .i32⟩ : BufTy).Contents (Elt Ideal)) (x2 : (⟨S600000, .f32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) :
    ReadP.val_main_v47 (F := Ideal) x0 x1 x2 x3 x4 x5 x6 x7 x8
      = layerR (ReadP.val_main_v23 (F := Ideal) x0 x1 x2 x3 x4 x5) x1 x2 x6 x7 x8 := rfl

theorem val71_eq (x0 : (⟨S50000x128, .f32⟩ : BufTy).Contents (Elt Ideal)) (x1 : (⟨S2x600000, .i32⟩ : BufTy).Contents (Elt Ideal)) (x2 : (⟨S600000, .f32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal))
    (x9 x10 : (⟨S128x128, .f32⟩ : BufTy).Contents (Elt Ideal)) (x11 : (⟨S128, .f32⟩ : BufTy).Contents (Elt Ideal)) :
    ReadP.val_main_v71 (F := Ideal) x0 x1 x2 x3 x4 x5 x6 x7 x8 x9 x10 x11
      = layerR (ReadP.val_main_v47 (F := Ideal) x0 x1 x2 x3 x4 x5 x6 x7 x8) x1 x2 x9 x10 x11 := rfl

def tailG {F : FTy → Type} [FloatOps F] (X1 X2 X3 : (⟨S50000x128, .f32⟩ : BufTy).Contents (Elt F)) (Wlin : (⟨S384x40, .f32⟩ : BufTy).Contents (Elt F))
    (blin : (⟨S40, .f32⟩ : BufTy).Contents (Elt F)) : (⟨S50000x40, .f32⟩ : BufTy).Contents (Elt F) :=
  let z : (⟨S50000x40, .f32⟩ : BufTy).Contents (Elt F) :=
    addf (Host.dotGeneral dot_S50000x384_S384x40_S50000x40_1_0_0_1_n_n none
        (concatenate S50000x384 1 [⟨S50000x128, X1⟩, ⟨S50000x128, X2⟩, ⟨S50000x128, X3⟩]
          concatenates_S50000x128_S50000x128_S50000x128_S50000x384_d1) Wlin)
      (broadcastInDim S50000x40 ![0, 1] bcast_S1x40_S50000x40_0_1 (broadcastInDim S1x40 ![1] bcast_S40_S1x40_1 blin))
  let mx : (⟨S50000, .f32⟩ : BufTy).Contents (Elt F) :=
    maximumf (broadcastInDim S50000 ![] bcast_S_S50000 (constant S_ .f32 0xFF800000#32))
      (Host.reduce FloatOps.maximumf z (constant S_ .f32 0xFF800000#32) reducesTo_S50000x40_S50000_d1 h_S_)
  let zc : (⟨S50000x40, .f32⟩ : BufTy).Contents (Elt F) :=
    subf z (broadcastInDim S50000x40 ![0, 1] bcast_S50000x1_S50000x40_0_1 (broadcastInDim S50000x1 ![0] bcast_S50000_S50000x1_0 mx))
  subf zc (broadcastInDim S50000x40 ![0, 1] bcast_S50000x1_S50000x40_0_1
    (Host.log (broadcastInDim S50000x1 ![0] bcast_S50000_S50000x1_0
      (Host.reduceAdd (Host.exp zc) (constant S_ .f32 0x00000000#32) reducesTo_S50000x40_S50000_d1 h_S_))))

def tailR (X1 X2 X3 : (⟨S50000x128, .f32⟩ : BufTy).Contents (Elt Ideal)) (Wlin : (⟨S384x40, .f32⟩ : BufTy).Contents (Elt Ideal)) (blin : (⟨S40, .f32⟩ : BufTy).Contents (Elt Ideal)) : (⟨S50000x40, .f32⟩ : BufTy).Contents (Elt Ideal) :=
  tailG (F := Ideal) X1 X2 X3 Wlin blin

theorem val77_eq_tail (x0 : (⟨S50000x128, .f32⟩ : BufTy).Contents (Elt Ideal)) (x1 : (⟨S2x600000, .i32⟩ : BufTy).Contents (Elt Ideal)) (x2 : (⟨S600000, .f32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal))
    (x9 x10 : (⟨S128x128, .f32⟩ : BufTy).Contents (Elt Ideal)) (x11 : (⟨S128, .f32⟩ : BufTy).Contents (Elt Ideal)) (x12 : (⟨S384x40, .f32⟩ : BufTy).Contents (Elt Ideal)) (x13 : (⟨S40, .f32⟩ : BufTy).Contents (Elt Ideal)) :
    ReadP.val_main_v77 (F := Ideal) x0 x1 x2 x3 x4 x5 x6 x7 x8 x9 x10 x11 x12 x13
      = tailR (ReadP.val_main_v23 (F := Ideal) x0 x1 x2 x3 x4 x5) (ReadP.val_main_v47 (F := Ideal) x0 x1 x2 x3 x4 x5 x6 x7 x8)
          (ReadP.val_main_v71 (F := Ideal) x0 x1 x2 x3 x4 x5 x6 x7 x8 x9 x10 x11) x12 x13 := rfl

section Layer

theorem scatterAdd_ideal {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

variable (X : (⟨S50000x128, .f32⟩ : BufTy).Contents (Elt Ideal)) (ei : (⟨S2x600000, .i32⟩ : BufTy).Contents (Elt Ideal)) (w : (⟨S600000, .f32⟩ : BufTy).Contents (Elt Ideal)) (Wl Wr : (⟨S128x128, .f32⟩ : BufTy).Contents (Elt Ideal)) (b : (⟨S128, .f32⟩ : BufTy).Contents (Elt Ideal))
  (colN : Fin 600000 → Fin 50000) (hcol : ∀ e : Fin 600000, ei (ValueIdx.ix2 1 e) = BitVec.ofNat 32 (colN e).val)

theorem row_apply (e : Fin 600000) : ReadP.val_main_v15 (F := Ideal) ei (ix2 e (0 : Fin 1)) = ei (ix2 0 e) := by
  rw [ReadP.val_main_v15_apply, ReadP.val_main_v1_apply, ReadP.val_main_v0_apply]
  refine congrArg ei ?_
  funext a
  match a with
  | ⟨0, _⟩ => rfl
  | ⟨1, _⟩ => exact Fin.ext (Nat.mod_eq_of_lt e.isLt)

include hcol in

theorem col_apply (e : Fin 600000) :
    ReadP.val_main_v9 (F := Ideal) ei (ix2 e (0 : Fin 1)) = BitVec.ofNat 32 (colN e).val := by
  have h3 : ReadP.val_main_v3 (F := Ideal) ei (ReadP.idx_main_v9 (ix2 e (0 : Fin 1))) = BitVec.ofNat 32 (colN e).val := by
    rw [ReadP.val_main_v3_apply, ReadP.val_main_v2_apply, ← hcol e]
    refine congrArg ei ?_
    funext a
    match a with
    | ⟨0, _⟩ => rfl
    | ⟨1, _⟩ => exact Fin.ext (Nat.mod_eq_of_lt e.isLt)
  have hc : (colN e).val < 2 ^ 31 := by have := (colN e).isLt; omega
  rw [ReadP.val_main_v9_apply, ReadP.val_main_v8_apply, ReadP.val_main_v5_apply, h3, ReadP.val_main_v4_apply,
    ReadP.val_main_c_apply, cmpi_slt_ofNat32_zero _ hc, select_zero]

include hcol in

theorem gather_apply (e : Fin 600000) (k : Fin 128) :
    ReadP.val_main_v10 (F := Ideal) X ei (ix2 e k) = X (ix2 (colN e) k) := by
  have hd : gather_S50000x128_S600000x1_S600000x128_1_0_n_n_0_1_1128 = rowGatherDims 50000 600000 128 gather_S50000x128_S600000x1_S600000x128_1_0_n_n_0_1_1128_wf := rfl
  unfold ReadP.val_main_v10
  rw [hd, rowGather_apply (by omega)]
  have hc : (colN e).val < 50000 := (colN e).isLt
  have hm : min ((ReadP.val_main_v9 (F := Ideal) ei (ix2 e (0 : Fin 1))).toInt.toNat) (50000 - 1) = (colN e).val := by
    rw [col_apply ei colN hcol e, toInt_ofNat32 _ (by omega)]; omega
  refine congrArg X ?_
  funext a
  match a with
  | ⟨0, _⟩ => exact Fin.ext hm
  | ⟨1, _⟩ => rfl

include hcol in

theorem msg_apply (e : Fin 600000) (k : Fin 128) :
    ReadP.val_main_v13 (F := Ideal) X ei w (ix2 e k) = X (ix2 (colN e) k) * w (ix1 e) := by
  have hi : ReadP.idx_main_v11 (ReadP.idx_main_v12 (ix2 e k)) = ix1 e := by
    funext a
    match a with
    | ⟨0, _⟩ => rfl
  rw [ReadP.val_main_v13_apply, gather_apply X ei colN hcol e k, ReadP.val_main_v12_apply, ReadP.val_main_v11_apply, hi,
    Ideal.mulf_def]

include hcol in

theorem agg_apply (n : Fin 50000) (k : Fin 128) :
    ReadP.val_main_v16 (F := Ideal) X ei w (ix2 n k)
      = ∑ e : Fin 600000, if ei (ix2 0 e) = BitVec.ofNat 32 n.val then X (ix2 (colN e) k) * w (ix1 e) else 0 := by
  have hd : scatter_S50000x128_S600000x1_S600000x128_1_0_0_1 = rowScatterDims 50000 600000 128 scatter_S50000x128_S600000x1_S600000x128_1_0_0_1_wf := rfl
  have h16 : ReadP.val_main_v16 (F := Ideal) X ei w
      = Host.scatterAdd (F := Ideal) scatter_S50000x128_S600000x1_S600000x128_1_0_0_1 (ReadP.val_main_v14 (F := Ideal)) (ReadP.val_main_v15 (F := Ideal) ei)
          (ReadP.val_main_v13 (F := Ideal) X ei w) := rfl
  rw [h16, scatterAdd_ideal, hd, rowScatterAdd_apply]
  have hz : ReadP.val_main_v14 (F := Ideal) (ix2 n k) = 0 := by
    rw [ReadP.val_main_v14_apply, ReadP.val_main_cst_apply]; exact Ideal.ofBits_zero_f32
  have hn : n.val < 2 ^ 31 := by have := n.isLt; omega
  rw [hz, zero_add]
  refine Finset.sum_congr rfl fun e _ => ?_
  rw [row_apply ei e, msg_apply X ei w colN hcol e k]
  exact if_congr (toInt_eq_natCast_iff _ _ hn) rfl rfl

include hcol in

theorem layerR_apply (n : Fin 50000) (j : Fin 128) :
    layerR X ei w Wl Wr b (ValueIdx.ix2 n j)
      = max ((∑ k : Fin 128, (∑ e : Fin 600000, if ei (ValueIdx.ix2 0 e) = BitVec.ofNat 32 n.val
                then X (ValueIdx.ix2 (colN e) k) * w (ValueIdx.ix1 e) else 0) * Wl (ValueIdx.ix2 k j))
            + (∑ k : Fin 128, X (ValueIdx.ix2 n k) * Wr (ValueIdx.ix2 k j)) + b (ValueIdx.ix1 j)) 0 := by
  have hl17 : ∀ k : Fin 128, ReadP.lidx_main_v17 (ix2 n j) k = ix2 n k := fun k => by
    funext a
    match a with
    | ⟨0, _⟩ => rfl
    | ⟨1, _⟩ => rfl
  have hr17 : ∀ k : Fin 128, ReadP.ridx_main_v17 (ix2 n j) k = ix2 k j := fun k => by
    funext a
    match a with
    | ⟨0, _⟩ => rfl
    | ⟨1, _⟩ => rfl
  have hl18 : ∀ k : Fin 128, ReadP.lidx_main_v18 (ix2 n j) k = ix2 n k := fun k => by
    funext a
    match a with
    | ⟨0, _⟩ => rfl
    | ⟨1, _⟩ => rfl
  have hr18 : ∀ k : Fin 128, ReadP.ridx_main_v18 (ix2 n j) k = ix2 k j := fun k => by
    funext a
    match a with
    | ⟨0, _⟩ => rfl
    | ⟨1, _⟩ => rfl
  have hb : ReadP.idx_main_v20 (ReadP.idx_main_v21 (ix2 n j)) = ix1 j := by
    funext a
    match a with
    | ⟨0, _⟩ => rfl
  have e17 : ReadP.val_main_v17 (F := Ideal) X ei w Wl (ix2 n j)
      = ∑ k : Fin 128, (∑ e : Fin 600000, if ei (ix2 0 e) = BitVec.ofNat 32 n.val
          then X (ix2 (colN e) k) * w (ix1 e) else 0) * Wl (ix2 k j) := by
    rw [ReadP.val_main_v17_apply]
    exact Finset.sum_congr rfl fun k _ => by rw [hl17 k, hr17 k, agg_apply X ei w colN hcol n k]
  have e18 : ReadP.val_main_v18 (F := Ideal) X Wr (ix2 n j) = ∑ k : Fin 128, X (ix2 n k) * Wr (ix2 k j) := by
    rw [ReadP.val_main_v18_apply]
    exact Finset.sum_congr rfl fun k _ => by rw [hl18 k, hr18 k]
  have e21 : ReadP.val_main_v21 (F := Ideal) b (ix2 n j) = b (ix1 j) := by
    rw [ReadP.val_main_v21_apply, ReadP.val_main_v20_apply, hb]
  have e0 : ReadP.val_main_call0_v0 (F := Ideal) (ix2 n j) = 0 := by
    rw [ReadP.val_main_call0_v0_apply, ReadP.val_main_call0_cst_apply]; exact Ideal.ofBits_zero_f32
  unfold layerR
  rw [ReadP.val_main_v23_apply, ReadP.val_main_v22_apply, ReadP.val_main_v19_apply, e17, e18, e21, e0,
    Ideal.maximumf_def, Ideal.addf_def, Ideal.addf_def]

end Layer

end Cert.ReferenceIdeal.RefVal

end
-- ==== Proof.PreCol.lean ====
import proofs.«425541_j70411693850858_1_alg».proof.Pre_finite_inputs
import Idealize.ShloMosaic.Lib.ReduceAll
import Idealize.ShloMosaic.Lib.StableHlo.Predicate
import Idealize.ShloMosaic.Lib.Pipeline.Value
import Idealize.ShloMosaic.Lib.ValueIdx

noncomputable section

namespace Cert.Pre_finite_inputs.Decode

open Idealize.ShloMosaic Idealize.ShloMosaic.ValueIdx
open Cert.Pre_finite_inputs Cert.Pre_finite_inputs.Facts

theorem row1_read {α : Type} {n : Nat} (x : (⟨2, ![2, n]⟩ : Shape).Idx → α)
    (hs : (⟨2, ![2, n]⟩ : Shape).Slices ![1, 0] ⟨2, ![1, n]⟩) (hc : (⟨2, ![1, n]⟩ : Shape).ShapeCasts ⟨1, ![n]⟩) (e : Fin n) :
    shapeCast ⟨1, ![n]⟩ (extractStridedSlice ⟨2, ![1, n]⟩ ![1, 0] x hs) hc (ix1 e) = x (ix2 (1 : Fin 2) e) := by
  refine (shapeCast_apply _ hc (ix1 e) (ix2 (0 : Fin 1) e) (by
    rw [Shape.rowMajor_val_two, Shape.rowMajor_val_one]; show 0 * n + e.val = e.val; omega)).trans ?_
  refine extractStridedSlice_apply _ _ hs (ix2 (0 : Fin 1) e) (ix2 (1 : Fin 2) e) ?_
  intro a
  match a with
  | ⟨0, _⟩ => rfl
  | ⟨1, _⟩ => show e.val = 0 + e.val; omega

theorem cmpi_const_apply {s : Shape} {w : Nat} (p : CmpIPredicate) (x : IVec s w) (c : BitVec w)
    (hb : S_.BroadcastsInDim s (![] : Fin 0 → Fin s.rank)) (i : s.Idx) :
    cmpi p x (broadcastInDim s ![] hb (constantI S_ w c)) i = IntOp.cmpi p (x i) c := rfl

theorem toNat_lt_of_signed_range (w : BitVec 32) (n : Nat) (hn : n < 2 ^ 31) (h0 : IntOp.cmpi .sge w 0#32 = 1#1)
    (h1 : IntOp.cmpi .slt w (BitVec.ofNat 32 n) = 1#1) : w.toNat < n := by
  rw [IntOp.cmpi_sge] at h0
  rw [IntOp.cmpi_slt, StableHlo.Predicate.toInt_ofNat_small n hn] at h1
  have hz : (0#32 : BitVec 32).toInt = 0 := by decide
  rw [hz, BitVec.toInt_eq_toNat_cond] at h0
  rw [BitVec.toInt_eq_toNat_cond] at h1
  have h32 := w.isLt
  split at h0 <;> omega

theorem word_eq_ofNat_toNat (w : BitVec 32) : w = BitVec.ofNat 32 w.toNat := by
  apply BitVec.eq_of_toNat_eq
  rw [BitVec.toNat_ofNat, Nat.mod_eq_of_lt w.isLt]

variable [Cert.Pre_finite_inputs.Facts]

theorem subsingleton_S_ : Subsingleton S_.Idx := ⟨fun a b => funext fun d => d.elim0⟩

abbrev colRow (a1 : IVec S2x600000 32) : IVec S600000 32 :=
  shapeCast S600000 (extractStridedSlice S1x600000 ![1, 0] a1 slices_S2x600000_S1x600000_1_0) shapeCasts_S1x600000_S600000

theorem colRow_apply (a1 : IVec S2x600000 32) (e : Fin 600000) : colRow a1 (ix1 e) = a1 (ix2 (1 : Fin 2) e) :=
  row1_read a1 slices_S2x600000_S1x600000_1_0 shapeCasts_S1x600000_S600000 e

theorem tail_split {F : FTy → Type} [FloatOps F] (a0 : FVec F S50000x128 .f32) (a1 : IVec S2x600000 32)
    (a2 : FVec F S600000 .f32) (a3 a4 : FVec F S128x128 .f32) (a5 : FVec F S128 .f32) (a6 a7 : FVec F S128x128 .f32)
    (a8 : FVec F S128 .f32) (a9 a10 : FVec F S128x128 .f32) (a11 : FVec F S128 .f32) (a12 : FVec F S384x40 .f32)
    (a13 : FVec F S40 .f32) :
    ∃ X : BitVec 1, fn (F := F) a0 a1 a2 a3 a4 a5 a6 a7 a8 a9 a10 a11 a12 a13 ix0 =
      IntOp.andi (IntOp.andi X
        (Host.reduce IntOp.andi (cmpi .sge (colRow a1) (broadcastInDim S600000 ![] bcast_S_S600000 (constantI S_ 32 0#32)))
          (constantI S_ 1 1#1) reducesTo_S600000_S_d0 h_S_ ix0))
        (Host.reduce IntOp.andi (cmpi .slt (colRow a1) (broadcastInDim S600000 ![] bcast_S_S600000 (constantI S_ 32 50000#32)))
          (constantI S_ 1 1#1) reducesTo_S600000_S_d0 h_S_ ix0) :=
  ⟨_, rfl⟩

theorem col_in_range {F : FTy → Type} [FloatOps F] (a0 : FVec F S50000x128 .f32) (a1 : IVec S2x600000 32)
    (a2 : FVec F S600000 .f32) (a3 a4 : FVec F S128x128 .f32) (a5 : FVec F S128 .f32) (a6 a7 : FVec F S128x128 .f32)
    (a8 : FVec F S128 .f32) (a9 a10 : FVec F S128x128 .f32) (a11 : FVec F S128 .f32) (a12 : FVec F S384x40 .f32)
    (a13 : FVec F S40 .f32)
    (h : fn (F := F) a0 a1 a2 a3 a4 a5 a6 a7 a8 a9 a10 a11 a12 a13 = (fun _ => 1#1)) :
    ∃ colN : Fin 600000 → Fin 50000, ∀ e : Fin 600000, a1 (ix2 (1 : Fin 2) e) = BitVec.ofNat 32 (colN e).val := by
  obtain ⟨X, hX⟩ := tail_split (F := F) a0 a1 a2 a3 a4 a5 a6 a7 a8 a9 a10 a11 a12 a13
  have h1 : fn (F := F) a0 a1 a2 a3 a4 a5 a6 a7 a8 a9 a10 a11 a12 a13 ix0 = 1#1 := congrFun h ix0
  rw [hX, IntOp.andi_eq_one, IntOp.andi_eq_one] at h1
  obtain ⟨⟨-, hge⟩, hlt⟩ := h1
  haveI := subsingleton_S_
  have hrange : ∀ e : Fin 600000, (a1 (ix2 (1 : Fin 2) e)).toNat < 50000 := fun e => by
    have g := Host.reduce_andi_all _ _ _ _ ix0 hge (ix1 e)
    have l := Host.reduce_andi_all _ _ _ _ ix0 hlt (ix1 e)
    rw [cmpi_const_apply, colRow_apply] at g l
    exact toNat_lt_of_signed_range _ 50000 (by decide) g l
  exact ⟨fun e => ⟨(a1 (ix2 (1 : Fin 2) e)).toNat, hrange e⟩, fun e => word_eq_ofNat_toNat _⟩

end Cert.Pre_finite_inputs.Decode

end
-- ==== Proof.Join.lean ====
import proofs.«425541_j70411693850858_1_alg».proof.Proof.Layers
import proofs.«425541_j70411693850858_1_alg».proof.Proof.HostTail
import proofs.«425541_j70411693850858_1_alg».proof.Proof.RefVal
import proofs.«425541_j70411693850858_1_alg».proof.Proof.PreCol

set_option maxRecDepth 16384

noncomputable section

open scoped BigOperators

namespace Cert.Join

open Idealize.ShloMosaic Idealize.ShloMosaic.TcCoe Idealize.ShloMosaic.ValueIdx
open Idealize.SL Idealize.SL.Sem
open Cert.KernelIdeal.Rg Cert.ReferenceIdeal.RefVal

variable (m : (ℓ : Loc Cert.KernelIdeal.nD Cert.KernelIdeal.τ Cert.KernelIdeal.sig) → Buf (Elt Ideal) ℓ) (c : Dev Cert.KernelIdeal.nD)
  (colN : Fin 600000 → Fin 50000)
  (hcol : ∀ e : Fin 600000, argEI m c (ix2 1 e) = BitVec.ofNat 32 (colN e).val)

abbrev ref1 : Cert.ReferenceIdeal.S50000x128.Idx → EReal := Cert.ReferenceIdeal.ReadP.val_main_v23 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))

abbrev ref2 : Cert.ReferenceIdeal.S50000x128.Idx → EReal := Cert.ReferenceIdeal.ReadP.val_main_v47 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))

abbrev ref3 : Cert.ReferenceIdeal.S50000x128.Idx → EReal := Cert.ReferenceIdeal.ReadP.val_main_v71 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))

include hcol in
theorem join1 (n : Fin 50000) (j : Fin 128) :
    ((Cert.KernelIdeal.Rg.dat2 (F := Ideal) (V6 m) c).arrAt 5 Cert.KernelIdeal.cfg2.N : Cert.KernelIdeal.S50176x128.Idx → EReal) (ix2 (Cert.Bridge.up n) j) = ref1 m c (ix2 n j) := by
  rw [layer1_eq m c colN hcol (argX m c) (xin1_eq m c) n j]
  show _ = layerR _ _ _ _ _ _ (ix2 n j)
  rw [layerR_apply _ _ _ _ _ _ colN hcol n j]
  rfl

include hcol in
theorem join2 (n : Fin 50000) (j : Fin 128) :
    ((Cert.KernelIdeal.Rg.dat5 (F := Ideal) (V11 m) c).arrAt 5 Cert.KernelIdeal.cfg5.N : Cert.KernelIdeal.S50176x128.Idx → EReal) (ix2 (Cert.Bridge.up n) j) = ref2 m c (ix2 n j) := by
  rw [layer2_eq m c colN hcol (ref1 m c) (fun n j => (xin_2 m c _).trans (join1 m c colN hcol n j)) n j]
  show _ = layerR _ _ _ _ _ _ (ix2 n j)
  rw [layerR_apply _ _ _ _ _ _ colN hcol n j]
  rfl

include hcol in
theorem join3 (n : Fin 50000) (j : Fin 128) :
    ((Cert.KernelIdeal.Rg.dat8 (F := Ideal) (V16 m) c).arrAt 5 Cert.KernelIdeal.cfg8.N : Cert.KernelIdeal.S50176x128.Idx → EReal) (ix2 (Cert.Bridge.up n) j) = ref3 m c (ix2 n j) := by
  rw [layer3_eq m c colN hcol (ref2 m c) (fun n j => (xin_3 m c _).trans (join2 m c colN hcol n j)) n j]
  show _ = layerR _ _ _ _ _ _ (ix2 n j)
  rw [layerR_apply _ _ _ _ _ _ colN hcol n j]
  rfl

include hcol in

theorem result_join :
    (W19 m c Cert.KernelIdeal.main_v46 : Cert.KernelIdeal.S50000x40.Idx → EReal)
      = Cert.ReferenceIdeal.ReadP.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  rw [result_eq m c, val77_eq_tail]
  have e1 : (sl (W17 m c Cert.KernelIdeal.main_v21) : Cert.KernelIdeal.S50000x128.Idx → EReal) = ref1 m c := by
    funext i; obtain ⟨n, j, rfl⟩ : ∃ (n : Fin 50000) (j : Fin 128), i = ix2 n j := ⟨i 0, i 1, eq_ix2 i⟩
    exact (out_1_apply m c n j).trans (join1 m c colN hcol n j)
  have e2 : (sl (W17 m c Cert.KernelIdeal.main_v29) : Cert.KernelIdeal.S50000x128.Idx → EReal) = ref2 m c := by
    funext i; obtain ⟨n, j, rfl⟩ : ∃ (n : Fin 50000) (j : Fin 128), i = ix2 n j := ⟨i 0, i 1, eq_ix2 i⟩
    exact (out_2_apply m c n j).trans (join2 m c colN hcol n j)
  have e3 : (sl (W17 m c Cert.KernelIdeal.main_v37) : Cert.KernelIdeal.S50000x128.Idx → EReal) = ref3 m c := by
    funext i; obtain ⟨n, j, rfl⟩ : ∃ (n : Fin 50000) (j : Fin 128), i = ix2 n j := ⟨i 0, i 1, eq_ix2 i⟩
    exact (out_3_apply m c n j).trans (join3 m c colN hcol n j)
  rw [e1, e2, e3]
  rfl

end Cert.Join

end
-- ==== Proof.RefRun.lean ====
import proofs.«425541_j70411693850858_1_alg».proof.Proof.RefVal

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefVal

variable {F : FTy → Type} [FloatOps F]

abbrev ops1 : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v3 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v6 (broadcastInDim S600000 ![] bcast_S_S600000 : (⟨S_, .i32⟩ : BufTy).Contents (Elt F) → (⟨S600000, .i32⟩ : BufTy).Contents (Elt F)),
    binary main_v3 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v3 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_arg2 main_v11 (broadcastInDim S600000x1 ![0] bcast_S600000_S600000x1_0 : (⟨S600000, .f32⟩ : BufTy).Contents (Elt F) → (⟨S600000x1, .f32⟩ : BufTy).Contents (Elt F)),
    unary main_v11 main_v12 (broadcastInDim S600000x128 ![0, 1] bcast_S600000x1_S600000x128_0_1 : (⟨S600000x1, .f32⟩ : BufTy).Contents (Elt F) → (⟨S600000x128, .f32⟩ : BufTy).Contents (Elt F)),
    binary main_v10 main_v12 main_v13 (mulf : (⟨S600000x128, .f32⟩ : BufTy).Contents (Elt F) → (⟨S600000x128, .f32⟩ : BufTy).Contents (Elt F) → (⟨S600000x128, .f32⟩ : BufTy).Contents (Elt F)),
    nullary main_cst (constant S_ .f32 0x00000000#32),
    unary main_cst main_v14 (broadcastInDim S50000x128 ![] bcast_S_S50000x128 : (⟨S_, .f32⟩ : BufTy).Contents (Elt F) → (⟨S50000x128, .f32⟩ : BufTy).Contents (Elt F)),
    unary main_v1 main_v15 (broadcastInDim S600000x1 ![0] bcast_S600000_S600000x1_0 : (⟨S600000, .i32⟩ : BufTy).Contents (Elt F) → (⟨S600000x1, .i32⟩ : BufTy).Contents (Elt F)),
    ternary main_v14 main_v15 main_v13 main_v16 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v16 main_arg3 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_arg0 main_arg4 main_v18 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v17 main_v18 main_v19 (addf : (⟨S50000x128, .f32⟩ : BufTy).Contents (Elt F) → (⟨S50000x128, .f32⟩ : BufTy).Contents (Elt F) → (⟨S50000x128, .f32⟩ : BufTy).Contents (Elt F)),
    unary main_arg5 main_v20 (broadcastInDim S1x128 ![1] bcast_S128_S1x128_1 : (⟨S128, .f32⟩ : BufTy).Contents (Elt F) → (⟨S1x128, .f32⟩ : BufTy).Contents (Elt F)),
    unary main_v20 main_v21 (broadcastInDim S50000x128 ![0, 1] bcast_S1x128_S50000x128_0_1 : (⟨S1x128, .f32⟩ : BufTy).Contents (Elt F) → (⟨S50000x128, .f32⟩ : BufTy).Contents (Elt F)),
    binary main_v19 main_v21 main_v22 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v22) (TRef.of (T := ⟨S50000x128, .f32⟩) main_call0_v0) (TRef.of (T := ⟨S50000x128, .f32⟩) main_v23) maximumf ]

abbrev ops2 : List (HloOp τ sig (Elt F)) :=
  [ unary main_arg1 main_v24 ((extractStridedSlice S1x600000 ![0, 0] · slices_S2x600000_S1x600000_0_0) : (⟨S2x600000, .i32⟩ : BufTy).Contents (Elt F) → (⟨S1x600000, .i32⟩ : BufTy).Contents (Elt F)),
    reshape main_v24 main_v25 rfl shapeCasts_S1x600000_S600000,
    unary main_arg1 main_v26 ((extractStridedSlice S1x600000 ![1, 0] · slices_S2x600000_S1x600000_1_0) : (⟨S2x600000, .i32⟩ : BufTy).Contents (Elt F) → (⟨S1x600000, .i32⟩ : BufTy).Contents (Elt F)),
    reshape main_v26 main_v27 rfl shapeCasts_S1x600000_S600000,
    nullary main_c_1 (constantI S_ 32 0#32),
    unary main_c_1 main_v28 (broadcastInDim S600000 ![] bcast_S_S600000 : (⟨S_, .i32⟩ : BufTy).Contents (Elt F) → (⟨S600000, .i32⟩ : BufTy).Contents (Elt F)),
    binary main_v27 main_v28 main_v29 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v30 (broadcastInDim S600000 ![] bcast_S_S600000 : (⟨S_, .i32⟩ : BufTy).Contents (Elt F) → (⟨S600000, .i32⟩ : BufTy).Contents (Elt F)),
    binary main_v27 main_v30 main_v31 (addi : (⟨S600000, .i32⟩ : BufTy).Contents (Elt F) → (⟨S600000, .i32⟩ : BufTy).Contents (Elt F) → (⟨S600000, .i32⟩ : BufTy).Contents (Elt F)),
    ternary main_v29 main_v31 main_v27 main_v32 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v32 main_v33 (broadcastInDim S600000x1 ![0] bcast_S600000_S600000x1_0 : (⟨S600000, .i32⟩ : BufTy).Contents (Elt F) → (⟨S600000x1, .i32⟩ : BufTy).Contents (Elt F)),
    binary main_v23 main_v33 main_v34 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_arg2 main_v35 (broadcastInDim S600000x1 ![0] bcast_S600000_S600000x1_0 : (⟨S600000, .f32⟩ : BufTy).Contents (Elt F) → (⟨S600000x1, .f32⟩ : BufTy).Contents (Elt F)),
    unary main_v35 main_v36 (broadcastInDim S600000x128 ![0, 1] bcast_S600000x1_S600000x128_0_1 : (⟨S600000x1, .f32⟩ : BufTy).Contents (Elt F) → (⟨S600000x128, .f32⟩ : BufTy).Contents (Elt F)),
    binary main_v34 main_v36 main_v37 (mulf : (⟨S600000x128, .f32⟩ : BufTy).Contents (Elt F) → (⟨S600000x128, .f32⟩ : BufTy).Contents (Elt F) → (⟨S600000x128, .f32⟩ : BufTy).Contents (Elt F)),
    nullary main_cst_3 (constant S_ .f32 0x00000000#32),
    unary main_cst_3 main_v38 (broadcastInDim S50000x128 ![] bcast_S_S50000x128 : (⟨S_, .f32⟩ : BufTy).Contents (Elt F) → (⟨S50000x128, .f32⟩ : BufTy).Contents (Elt F)),
    unary main_v25 main_v39 (broadcastInDim S600000x1 ![0] bcast_S600000_S600000x1_0 : (⟨S600000, .i32⟩ : BufTy).Contents (Elt F) → (⟨S600000x1, .i32⟩ : BufTy).Contents (Elt F)),
    ternary main_v38 main_v39 main_v37 main_v40 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v40 main_arg6 main_v41 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v23 main_arg7 main_v42 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v41 main_v42 main_v43 (addf : (⟨S50000x128, .f32⟩ : BufTy).Contents (Elt F) → (⟨S50000x128, .f32⟩ : BufTy).Contents (Elt F) → (⟨S50000x128, .f32⟩ : BufTy).Contents (Elt F)),
    unary main_arg8 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

abbrev ops3 : List (HloOp τ sig (Elt F)) :=
  [ unary main_arg1 main_v48 ((extractStridedSlice S1x600000 ![0, 0] · slices_S2x600000_S1x600000_0_0) : (⟨S2x600000, .i32⟩ : BufTy).Contents (Elt F) → (⟨S1x600000, .i32⟩ : BufTy).Contents (Elt F)),
    reshape main_v48 main_v49 rfl shapeCasts_S1x600000_S600000,
    unary main_arg1 main_v50 ((extractStridedSlice S1x600000 ![1, 0] · slices_S2x600000_S1x600000_1_0) : (⟨S2x600000, .i32⟩ : BufTy).Contents (Elt F) → (⟨S1x600000, .i32⟩ : BufTy).Contents (Elt F)),
    reshape main_v50 main_v51 rfl shapeCasts_S1x600000_S600000,
    nullary main_c_4 (constantI S_ 32 0#32),
    unary main_c_4 main_v52 (broadcastInDim S600000 ![] bcast_S_S600000 : (⟨S_, .i32⟩ : BufTy).Contents (Elt F) → (⟨S600000, .i32⟩ : BufTy).Contents (Elt F)),
    binary main_v51 main_v52 main_v53 (cmpi .slt : (⟨S600000, .i32⟩ : BufTy).Contents (Elt F) → (⟨S600000, .i32⟩ : BufTy).Contents (Elt F) → (⟨S600000, .i1⟩ : BufTy).Contents (Elt F)),
    nullary main_c_5 (constantI S_ 32 50000#32),
    unary main_c_5 main_v54 (broadcastInDim S600000 ![] bcast_S_S600000 : (⟨S_, .i32⟩ : BufTy).Contents (Elt F) → (⟨S600000, .i32⟩ : BufTy).Contents (Elt F)),
    binary main_v51 main_v54 main_v55 (addi : (⟨S600000, .i32⟩ : BufTy).Contents (Elt F) → (⟨S600000, .i32⟩ : BufTy).Contents (Elt F) → (⟨S600000, .i32⟩ : BufTy).Contents (Elt F)),
    ternary main_v53 main_v55 main_v51 main_v56 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v56 main_v57 (broadcastInDim S600000x1 ![0] bcast_S600000_S600000x1_0 : (⟨S600000, .i32⟩ : BufTy).Contents (Elt F) → (⟨S600000x1, .i32⟩ : BufTy).Contents (Elt F)),
    binary main_v47 main_v57 main_v58 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_arg2 main_v59 (broadcastInDim S600000x1 ![0] bcast_S600000_S600000x1_0 : (⟨S600000, .f32⟩ : BufTy).Contents (Elt F) → (⟨S600000x1, .f32⟩ : BufTy).Contents (Elt F)),
    unary main_v59 main_v60 (broadcastInDim S600000x128 ![0, 1] bcast_S600000x1_S600000x128_0_1 : (⟨S600000x1, .f32⟩ : BufTy).Contents (Elt F) → (⟨S600000x128, .f32⟩ : BufTy).Contents (Elt F)),
    binary main_v58 main_v60 main_v61 (mulf : (⟨S600000x128, .f32⟩ : BufTy).Contents (Elt F) → (⟨S600000x128, .f32⟩ : BufTy).Contents (Elt F) → (⟨S600000x128, .f32⟩ : BufTy).Contents (Elt F)),
    nullary main_cst_6 (constant S_ .f32 0x00000000#32),
    unary main_cst_6 main_v62 (broadcastInDim S50000x128 ![] bcast_S_S50000x128 : (⟨S_, .f32⟩ : BufTy).Contents (Elt F) → (⟨S50000x128, .f32⟩ : BufTy).Contents (Elt F)),
    unary main_v49 main_v63 (broadcastInDim S600000x1 ![0] bcast_S600000_S600000x1_0 : (⟨S600000, .i32⟩ : BufTy).Contents (Elt F) → (⟨S600000x1, .i32⟩ : BufTy).Contents (Elt F)),
    ternary main_v62 main_v63 main_v61 main_v64 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v64 main_arg9 main_v65 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v47 main_arg10 main_v66 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v65 main_v66 main_v67 (addf : (⟨S50000x128, .f32⟩ : BufTy).Contents (Elt F) → (⟨S50000x128, .f32⟩ : BufTy).Contents (Elt F) → (⟨S50000x128, .f32⟩ : BufTy).Contents (Elt F)),
    unary main_arg11 main_v68 (broadcastInDim S1x128 ![1] bcast_S128_S1x128_1 : (⟨S128, .f32⟩ : BufTy).Contents (Elt F) → (⟨S1x128, .f32⟩ : BufTy).Contents (Elt F)),
    unary main_v68 main_v69 (broadcastInDim S50000x128 ![0, 1] bcast_S1x128_S50000x128_0_1 : (⟨S1x128, .f32⟩ : BufTy).Contents (Elt F) → (⟨S50000x128, .f32⟩ : BufTy).Contents (Elt F)),
    binary main_v67 main_v69 main_v70 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v70) (TRef.of (T := ⟨S50000x128, .f32⟩) main_call2_v0) (TRef.of (T := ⟨S50000x128, .f32⟩) main_v71) maximumf ]

abbrev ops4 : List (HloOp τ sig (Elt F)) :=
  [ nary ![main_v23, main_v47, main_v71] main_v72 (fun u => concatenate S50000x384 1 [⟨S50000x128, u 0⟩, ⟨S50000x128, u 1⟩, ⟨S50000x128, u 2⟩] concatenates_S50000x128_S50000x128_S50000x128_S50000x384_d1),
    binary main_v72 main_arg12 main_v73 ((fun l r => Host.dotGeneral dot_S50000x384_S384x40_S50000x40_1_0_0_1_n_n none l r) : (⟨S50000x384, .f32⟩ : BufTy).Contents (Elt F) → (⟨S384x40, .f32⟩ : BufTy).Contents (Elt F) → (⟨S50000x40, .f32⟩ : BufTy).Contents (Elt F)),
    unary main_arg13 main_v74 (broadcastInDim S1x40 ![1] bcast_S40_S1x40_1 : (⟨S40, .f32⟩ : BufTy).Contents (Elt F) → (⟨S1x40, .f32⟩ : BufTy).Contents (Elt F)),
    unary main_v74 main_v75 (broadcastInDim S50000x40 ![0, 1] bcast_S1x40_S50000x40_0_1 : (⟨S1x40, .f32⟩ : BufTy).Contents (Elt F) → (⟨S50000x40, .f32⟩ : BufTy).Contents (Elt F)),
    binary main_v73 main_v75 main_v76 (addf : (⟨S50000x40, .f32⟩ : BufTy).Contents (Elt F) → (⟨S50000x40, .f32⟩ : BufTy).Contents (Elt F) → (⟨S50000x40, .f32⟩ : BufTy).Contents (Elt F)) ]

abbrev ops5 : List (HloOp τ sig (Elt F)) :=
  [ TRef.nullary (TRef.of (T := ⟨S_, .f32⟩) main_call3_cst) (constant S_ .f32 0xFF800000#32),
    TRef.binary (TRef.of (T := ⟨S50000x40, .f32⟩) main_v76) (TRef.of (T := ⟨S_, .f32⟩) main_call3_cst) (TRef.of (T := ⟨S50000, .f32⟩) main_call3_v0) (fun x v => Host.reduce FloatOps.maximumf x v reducesTo_S50000x40_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v76) (TRef.of (T := ⟨S50000x40, .f32⟩) main_call3_v4) (TRef.of (T := ⟨S50000x40, .f32⟩) main_call3_v5) subf,
    TRef.unary (TRef.of (T := ⟨S50000x40, .f32⟩) main_call3_v5) (TRef.of (T := ⟨S50000x40, .f32⟩) main_call3_v6) Host.exp,
    TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v77) subf ]

set_option maxRecDepth 8192 in
set_option maxHeartbeats 4000000 in

theorem ops_split : (ValueP.ops : List (HloOp τ sig (Elt F))) = ops1 ++ (ops2 ++ (ops3 ++ (ops4 ++ ops5))) := rfl

abbrev ops1_W : List (Ref sig .tc) := [main_v0, main_v1, main_v2, main_v3, main_c, main_v4, main_v5, main_c_0, main_v6, main_v7, main_v8, main_v9, main_v10, main_v11, main_v12, main_v13, main_cst, main_v14, main_v15, main_v16, main_v17, main_v18, main_v19, main_v20, main_v21, main_v22, main_call0_cst, main_call0_v0, main_v23]

abbrev ops2_W : List (Ref sig .tc) := [main_v24, main_v25, main_v26, main_v27, main_c_1, main_v28, main_v29, main_c_2, main_v30, main_v31, main_v32, main_v33, main_v34, main_v35, main_v36, main_v37, main_cst_3, main_v38, main_v39, main_v40, main_v41, main_v42, main_v43, main_v44, main_v45, main_v46, main_call1_cst, main_call1_v0, main_v47]

abbrev ops3_W : List (Ref sig .tc) := [main_v48, main_v49, main_v50, main_v51, main_c_4, main_v52, main_v53, main_c_5, main_v54, main_v55, main_v56, main_v57, main_v58, main_v59, main_v60, main_v61, main_cst_6, main_v62, main_v63, main_v64, main_v65, main_v66, main_v67, main_v68, main_v69, main_v70, main_call2_cst, main_call2_v0, main_v71]

abbrev ops4_W : List (Ref sig .tc) := [main_v72, main_v73, main_v74, main_v75, main_v76]

abbrev ops5_W : List (Ref sig .tc) := [main_call3_cst, main_call3_v0, main_call3_cst_0, main_call3_v1, main_call3_v2, main_call3_v3, main_call3_v4, main_call3_v5, main_call3_v6, main_call3_cst_1, main_call3_v7, main_call3_v8, main_call3_v9, main_call3_v10, main_v77]

theorem ops1_writes : (ops1 : List (HloOp τ sig (Elt F))).Forall fun op => op.writes ⊆ (ops1_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

theorem keep1 (G : Valuation τ sig (Elt F)) (r : Ref sig .tc) (h : r ∉ ops1_W) :
    after ops1 G (Proc.devRef .tc r) = G (Proc.devRef .tc r) :=
  after_of_writes_sub ops1 G ops1_writes h

theorem ops2_writes : (ops2 : List (HloOp τ sig (Elt F))).Forall fun op => op.writes ⊆ (ops2_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

theorem keep2 (G : Valuation τ sig (Elt F)) (r : Ref sig .tc) (h : r ∉ ops2_W) :
    after ops2 G (Proc.devRef .tc r) = G (Proc.devRef .tc r) :=
  after_of_writes_sub ops2 G ops2_writes h

theorem ops3_writes : (ops3 : List (HloOp τ sig (Elt F))).Forall fun op => op.writes ⊆ (ops3_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

theorem keep3 (G : Valuation τ sig (Elt F)) (r : Ref sig .tc) (h : r ∉ ops3_W) :
    after ops3 G (Proc.devRef .tc r) = G (Proc.devRef .tc r) :=
  after_of_writes_sub ops3 G ops3_writes h

theorem ops4_writes : (ops4 : List (HloOp τ sig (Elt F))).Forall fun op => op.writes ⊆ (ops4_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

theorem keep4 (G : Valuation τ sig (Elt F)) (r : Ref sig .tc) (h : r ∉ ops4_W) :
    after ops4 G (Proc.devRef .tc r) = G (Proc.devRef .tc r) :=
  after_of_writes_sub ops4 G ops4_writes h

theorem ops5_writes : (ops5 : List (HloOp τ sig (Elt F))).Forall fun op => op.writes ⊆ (ops5_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

theorem keep5 (G : Valuation τ sig (Elt F)) (r : Ref sig .tc) (h : r ∉ ops5_W) :
    after ops5 G (Proc.devRef .tc r) = G (Proc.devRef .tc r) :=
  after_of_writes_sub ops5 G ops5_writes h

theorem ofBuf_toBuf {T : BufTy} (x : TRef sig T) (v : T.Contents (Elt F)) : x.ofBuf (x.toBuf v) = v := by
  obtain ⟨r, rfl, _, _⟩ := x; rfl

def linG (X1 X2 X3 : (⟨S50000x128, .f32⟩ : BufTy).Contents (Elt F)) (Wlin : (⟨S384x40, .f32⟩ : BufTy).Contents (Elt F)) (blin : (⟨S40, .f32⟩ : BufTy).Contents (Elt F)) :
    (⟨S50000x40, .f32⟩ : BufTy).Contents (Elt F) :=
  addf
    (Host.dotGeneral dot_S50000x384_S384x40_S50000x40_1_0_0_1_n_n none
      (concatenate S50000x384 1 [⟨S50000x128, X1⟩, ⟨S50000x128, X2⟩, ⟨S50000x128, X3⟩]
        concatenates_S50000x128_S50000x128_S50000x128_S50000x384_d1 : (⟨S50000x384, .f32⟩ : BufTy).Contents (Elt F))
      Wlin)
    (broadcastInDim S50000x40 ![0, 1] bcast_S1x40_S50000x40_0_1 (broadcastInDim S1x40 ![1] bcast_S40_S1x40_1 blin))

def lsmShiftG (x : (⟨S50000x40, .f32⟩ : BufTy).Contents (Elt F)) : (⟨S50000x40, .f32⟩ : BufTy).Contents (Elt F) :=
  subf x
    (broadcastInDim S50000x40 ![0, 1] bcast_S50000x1_S50000x40_0_1
      (broadcastInDim S50000x1 ![0] bcast_S50000_S50000x1_0
        (maximumf
          (broadcastInDim S50000 ![] bcast_S_S50000 (constant S_ .f32 0xFF800000#32 : (⟨S_, .f32⟩ : BufTy).Contents (Elt F)))
          (Host.reduce FloatOps.maximumf x (constant S_ .f32 0xFF800000#32 : (⟨S_, .f32⟩ : BufTy).Contents (Elt F))
            reducesTo_S50000x40_S50000_d1 h_S_))))

def lsmG (x : (⟨S50000x40, .f32⟩ : BufTy).Contents (Elt F)) : (⟨S50000x40, .f32⟩ : BufTy).Contents (Elt F) :=
  subf (lsmShiftG x)
    (broadcastInDim S50000x40 ![0, 1] bcast_S50000x1_S50000x40_0_1
      (Host.log
        (broadcastInDim S50000x1 ![0] bcast_S50000_S50000x1_0
          (Host.reduceAdd (Host.exp (lsmShiftG x)) (constant S_ .f32 0x00000000#32 : (⟨S_, .f32⟩ : BufTy).Contents (Elt F))
            reducesTo_S50000x40_S50000_d1 h_S_))))

theorem stage1 (G : Valuation τ sig (Elt F)) :
    after ops1 G (Proc.devRef .tc main_v23)
      = ReadP.val_main_v23 (F := F) (G (Proc.devRef .tc main_arg0)) (G (Proc.devRef .tc main_arg1)) (G (Proc.devRef .tc main_arg2)) (G (Proc.devRef .tc main_arg3)) (G (Proc.devRef .tc main_arg4)) (G (Proc.devRef .tc main_arg5)) := by
  after_results_simp <;> rfl

theorem stage2 (G : Valuation τ sig (Elt F)) :
    after ops2 G (Proc.devRef .tc main_v47)
      = ReadP.val_main_v23 (F := F) (G (Proc.devRef .tc main_v23)) (G (Proc.devRef .tc main_arg1)) (G (Proc.devRef .tc main_arg2)) (G (Proc.devRef .tc main_arg6)) (G (Proc.devRef .tc main_arg7)) (G (Proc.devRef .tc main_arg8)) := by
  after_results_simp <;> rfl

theorem stage3 (G : Valuation τ sig (Elt F)) :
    after ops3 G (Proc.devRef .tc main_v71)
      = ReadP.val_main_v23 (F := F) (G (Proc.devRef .tc main_v47)) (G (Proc.devRef .tc main_arg1)) (G (Proc.devRef .tc main_arg2)) (G (Proc.devRef .tc main_arg9)) (G (Proc.devRef .tc main_arg10)) (G (Proc.devRef .tc main_arg11)) := by
  after_results_simp <;> rfl

theorem stage4 (G : Valuation τ sig (Elt F)) :
    after ops4 G (Proc.devRef .tc main_v76)
      = linG (G (Proc.devRef .tc main_v23)) (G (Proc.devRef .tc main_v47)) (G (Proc.devRef .tc main_v71)) (G (Proc.devRef .tc main_arg12)) (G (Proc.devRef .tc main_arg13)) := by
  after_results_simp <;> rfl

theorem stage5 (G : Valuation τ sig (Elt F)) :
    after ops5 G (Proc.devRef .tc main_v77) = lsmG (G (Proc.devRef .tc main_v76)) := by
  after_results
  simp only [ofBuf_toBuf]
  have hx : (TRef.of main_v76 rfl (by decide) rfl : TRef sig ⟨S50000x40, .f32⟩).ofBuf
      (G (Proc.devRef .tc main_v76)) = G (Proc.devRef .tc main_v76) := rfl
  rw [hx]
  unfold lsmG lsmShiftG
  rfl

theorem val47_nest (x0 : (⟨S50000x128, .f32⟩ : BufTy).Contents (Elt F)) (x1 : (⟨S2x600000, .i32⟩ : BufTy).Contents (Elt F)) (x2 : (⟨S600000, .f32⟩ : BufTy).Contents (Elt F)) (x3 x4 : (⟨S128x128, .f32⟩ : BufTy).Contents (Elt F)) (x5 : (⟨S128, .f32⟩ : BufTy).Contents (Elt F)) (x6 x7 : (⟨S128x128, .f32⟩ : BufTy).Contents (Elt F)) (x8 : (⟨S128, .f32⟩ : BufTy).Contents (Elt F)) :
    ReadP.val_main_v47 (F := F) x0 x1 x2 x3 x4 x5 x6 x7 x8
      = ReadP.val_main_v23 (F := F) (ReadP.val_main_v23 (F := F) x0 x1 x2 x3 x4 x5) x1 x2 x6 x7 x8 := rfl

theorem val71_nest (x0 : (⟨S50000x128, .f32⟩ : BufTy).Contents (Elt F)) (x1 : (⟨S2x600000, .i32⟩ : BufTy).Contents (Elt F)) (x2 : (⟨S600000, .f32⟩ : BufTy).Contents (Elt F)) (x3 x4 : (⟨S128x128, .f32⟩ : BufTy).Contents (Elt F)) (x5 : (⟨S128, .f32⟩ : BufTy).Contents (Elt F)) (x6 x7 : (⟨S128x128, .f32⟩ : BufTy).Contents (Elt F)) (x8 : (⟨S128, .f32⟩ : BufTy).Contents (Elt F)) (x9 x10 : (⟨S128x128, .f32⟩ : BufTy).Contents (Elt F)) (x11 : (⟨S128, .f32⟩ : BufTy).Contents (Elt F)) :
    ReadP.val_main_v71 (F := F) x0 x1 x2 x3 x4 x5 x6 x7 x8 x9 x10 x11
      = ReadP.val_main_v23 (F := F) (ReadP.val_main_v47 (F := F) x0 x1 x2 x3 x4 x5 x6 x7 x8) x1 x2 x9 x10 x11 := rfl

theorem val77_lsm (x0 : (⟨S50000x128, .f32⟩ : BufTy).Contents (Elt F)) (x1 : (⟨S2x600000, .i32⟩ : BufTy).Contents (Elt F)) (x2 : (⟨S600000, .f32⟩ : BufTy).Contents (Elt F)) (x3 x4 : (⟨S128x128, .f32⟩ : BufTy).Contents (Elt F)) (x5 : (⟨S128, .f32⟩ : BufTy).Contents (Elt F)) (x6 x7 : (⟨S128x128, .f32⟩ : BufTy).Contents (Elt F)) (x8 : (⟨S128, .f32⟩ : BufTy).Contents (Elt F)) (x9 x10 : (⟨S128x128, .f32⟩ : BufTy).Contents (Elt F)) (x11 : (⟨S128, .f32⟩ : BufTy).Contents (Elt F)) (x12 : (⟨S384x40, .f32⟩ : BufTy).Contents (Elt F)) (x13 : (⟨S40, .f32⟩ : BufTy).Contents (Elt F)) :
    ReadP.val_main_v77 (F := F) x0 x1 x2 x3 x4 x5 x6 x7 x8 x9 x10 x11 x12 x13
      = lsmG (linG (ReadP.val_main_v23 (F := F) x0 x1 x2 x3 x4 x5) (ReadP.val_main_v47 (F := F) x0 x1 x2 x3 x4 x5 x6 x7 x8)
          (ReadP.val_main_v71 (F := F) x0 x1 x2 x3 x4 x5 x6 x7 x8 x9 x10 x11) x12 x13) := rfl

theorem res_v77 (V : Valuation τ sig (Elt F)) :
    after ValueP.ops V (Proc.devRef .tc main_v77)
      = ReadP.val_main_v77 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [ops_split, StableHlo.after_append, StableHlo.after_append, StableHlo.after_append, StableHlo.after_append]
  rw [stage5, stage4, stage3,
    keep3 _ main_v23 (by decide), keep3 _ main_v47 (by decide), keep3 _ main_arg12 (by decide), keep3 _ main_arg13 (by decide),
    stage2,
    keep2 _ main_v23 (by decide), keep2 _ main_arg1 (by decide), keep2 _ main_arg2 (by decide), keep2 _ main_arg9 (by decide), keep2 _ main_arg10 (by decide), keep2 _ main_arg11 (by decide), keep2 _ main_arg12 (by decide), keep2 _ main_arg13 (by decide),
    stage1,
    keep1 _ main_arg1 (by decide), keep1 _ main_arg2 (by decide), keep1 _ main_arg6 (by decide), keep1 _ main_arg7 (by decide), keep1 _ main_arg8 (by decide), keep1 _ main_arg9 (by decide), keep1 _ main_arg10 (by decide), keep1 _ main_arg11 (by decide), keep1 _ main_arg12 (by decide), keep1 _ main_arg13 (by decide)]
  rw [val77_lsm, val71_nest, val47_nest]

theorem res_keep (V : Valuation τ sig (Elt F)) (r : Ref sig .tc) (h1 : r ∉ ops1_W) (h2 : r ∉ ops2_W) (h3 : r ∉ ops3_W)
    (h4 : r ∉ ops4_W) (h5 : r ∉ ops5_W) :
    after ValueP.ops V (Proc.devRef .tc r) = V (Proc.devRef .tc r) := by
  rw [ops_split, StableHlo.after_append, StableHlo.after_append, StableHlo.after_append, StableHlo.after_append,
    keep5 _ r h5, keep4 _ r h4, keep3 _ r h3, keep2 _ r h2, keep1 _ r h1]

set_option maxRecDepth 8192 in
set_option maxHeartbeats 42800000 in

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = ReadP.val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v77).trans (res_v77 (launchContents m c)),
      (h c main_arg0).trans (res_keep (launchContents m c) main_arg0 (by decide) (by decide) (by decide) (by decide) (by decide)),
      (h c main_arg1).trans (res_keep (launchContents m c) main_arg1 (by decide) (by decide) (by decide) (by decide) (by decide)),
      (h c main_arg2).trans (res_keep (launchContents m c) main_arg2 (by decide) (by decide) (by decide) (by decide) (by decide)),
      (h c main_arg3).trans (res_keep (launchContents m c) main_arg3 (by decide) (by decide) (by decide) (by decide) (by decide)),
      (h c main_arg4).trans (res_keep (launchContents m c) main_arg4 (by decide) (by decide) (by decide) (by decide) (by decide)),
      (h c main_arg5).trans (res_keep (launchContents m c) main_arg5 (by decide) (by decide) (by decide) (by decide) (by decide)),
      (h c main_arg6).trans (res_keep (launchContents m c) main_arg6 (by decide) (by decide) (by decide) (by decide) (by decide)),
      (h c main_arg7).trans (res_keep (launchContents m c) main_arg7 (by decide) (by decide) (by decide) (by decide) (by decide)),
      (h c main_arg8).trans (res_keep (launchContents m c) main_arg8 (by decide) (by decide) (by decide) (by decide) (by decide)),
      (h c main_arg9).trans (res_keep (launchContents m c) main_arg9 (by decide) (by decide) (by decide) (by decide) (by decide)),
      (h c main_arg10).trans (res_keep (launchContents m c) main_arg10 (by decide) (by decide) (by decide) (by decide) (by decide)),
      (h c main_arg11).trans (res_keep (launchContents m c) main_arg11 (by decide) (by decide) (by decide) (by decide) (by decide)),
      (h c main_arg12).trans (res_keep (launchContents m c) main_arg12 (by decide) (by decide) (by decide) (by decide) (by decide)),
      (h c main_arg13).trans (res_keep (launchContents m c) main_arg13 (by decide) (by decide) (by decide) (by decide) (by decide))⟩)
    (run_seq ValueP.scopedRefs_eq ValueP.scopedSems_eq defs main (fun _ => ValueP.ops) ValueP.main_eq (fun _ => ValueP.ops_sub) m ρ)

end Cert.ReferenceIdeal.RefRun

end
-- ==== Proof.lean ====
import proofs.«425541_j70411693850858_1_alg».proof.Defs
import proofs.«425541_j70411693850858_1_alg».proof.Proof.Gen.Kernel
import proofs.«425541_j70411693850858_1_alg».proof.Proof.Gen.KernelIdeal
import proofs.«425541_j70411693850858_1_alg».proof.Proof.Gen.ReferenceIdeal
import proofs.«425541_j70411693850858_1_alg».proof.Proof.Gen.Pre_finite_inputs
import proofs.«425541_j70411693850858_1_alg».proof.Proof.Main
import proofs.«425541_j70411693850858_1_alg».proof.Proof.Args
import proofs.«425541_j70411693850858_1_alg».proof.Proof.R0Body
import proofs.«425541_j70411693850858_1_alg».proof.Proof.R1Body
import proofs.«425541_j70411693850858_1_alg».proof.Proof.R2Body
import proofs.«425541_j70411693850858_1_alg».proof.Proof.R3Body
import proofs.«425541_j70411693850858_1_alg».proof.Proof.R4Body
import proofs.«425541_j70411693850858_1_alg».proof.Proof.R5Body
import proofs.«425541_j70411693850858_1_alg».proof.Proof.R6Body
import proofs.«425541_j70411693850858_1_alg».proof.Proof.R7Body
import proofs.«425541_j70411693850858_1_alg».proof.Proof.R8Body
import proofs.«425541_j70411693850858_1_alg».proof.Proof.KMain
import proofs.«425541_j70411693850858_1_alg».proof.Proof.KArgs
import proofs.«425541_j70411693850858_1_alg».proof.Proof.KR0Body
import proofs.«425541_j70411693850858_1_alg».proof.Proof.KR1Body
import proofs.«425541_j70411693850858_1_alg».proof.Proof.KR2Body
import proofs.«425541_j70411693850858_1_alg».proof.Proof.KR3Body
import proofs.«425541_j70411693850858_1_alg».proof.Proof.KR4Body
import proofs.«425541_j70411693850858_1_alg».proof.Proof.KR5Body
import proofs.«425541_j70411693850858_1_alg».proof.Proof.KR6Body
import proofs.«425541_j70411693850858_1_alg».proof.Proof.KR7Body
import proofs.«425541_j70411693850858_1_alg».proof.Proof.KR8Body
import proofs.«425541_j70411693850858_1_alg».proof.Proof.Join
import proofs.«425541_j70411693850858_1_alg».proof.Proof.RefRun

set_option maxRecDepth 16384

noncomputable section

namespace Cert.Proof

open Idealize.ShloMosaic Idealize.ShloMosaic.TcCoe Idealize.SL Idealize.SL.BI Idealize.SL.Sem
open Idealize.ShloMosaic.Pipeline (BodyObligation)

theorem ki_run {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => ∀ c : Dev Cert.KernelIdeal.nD,
      ∀ b ∈ Pipeline.ucRefs Cert.KernelIdeal.τ Cert.KernelIdeal.sig, r.2.mem (((c : Thread Cert.KernelIdeal.nD Cert.KernelIdeal.τ)).1, b) = Cert.KernelIdeal.Rg.W19 m c b) :=
  Cert.KernelIdeal.Rg.run_all m ρ
    (fun c => Cert.KernelIdeal.Rg.body_obligation0 (Cert.KernelIdeal.Rg.V3 m) c)
    (fun c => Cert.KernelIdeal.Rg.body_obligation1 (Cert.KernelIdeal.Rg.V4 m) c)
    (fun c => Cert.KernelIdeal.Rg.body_obligation2 (Cert.KernelIdeal.Rg.V6 m) c)
    (fun c => Cert.KernelIdeal.Rg.body_obligation3 (Cert.KernelIdeal.Rg.V8 m) c)
    (fun c => Cert.KernelIdeal.Rg.body_obligation4 (Cert.KernelIdeal.Rg.V9 m) c)
    (fun c => Cert.KernelIdeal.Rg.body_obligation5 (Cert.KernelIdeal.Rg.V11 m) c)
    (fun c => Cert.KernelIdeal.Rg.body_obligation6 (Cert.KernelIdeal.Rg.V13 m) c)
    (fun c => Cert.KernelIdeal.Rg.body_obligation7 (Cert.KernelIdeal.Rg.V14 m) c)
    (fun c => Cert.KernelIdeal.Rg.body_obligation8 (Cert.KernelIdeal.Rg.V16 m) c)
    (fun c => Cert.KernelIdeal.Rg.hout0 (Cert.KernelIdeal.Rg.V3 m) c)
    (fun c => Cert.KernelIdeal.Rg.hout1 (Cert.KernelIdeal.Rg.V4 m) c)
    (fun c => BI.Entails.refl _)
    (fun c => Cert.KernelIdeal.Rg.hout3 (Cert.KernelIdeal.Rg.V8 m) c)
    (fun c => Cert.KernelIdeal.Rg.hout4 (Cert.KernelIdeal.Rg.V9 m) c)
    (fun c => BI.Entails.refl _)
    (fun c => Cert.KernelIdeal.Rg.hout6 (Cert.KernelIdeal.Rg.V13 m) c)
    (fun c => Cert.KernelIdeal.Rg.hout7 (Cert.KernelIdeal.Rg.V14 m) c)
    (fun c => BI.Entails.refl _)

theorem k_run {F : FTy → Type} [FloatOps F] (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => ∀ c : Dev Cert.Kernel.nD,
      ∀ b ∈ Pipeline.ucRefs Cert.Kernel.τ Cert.Kernel.sig, r.2.mem (((c : Thread Cert.Kernel.nD Cert.Kernel.τ)).1, b) = Cert.Kernel.Rg.W19 m c b) :=
  Cert.Kernel.Rg.run_all m ρ
    (fun c => Cert.Kernel.Rg.body_obligation0 (Cert.Kernel.Rg.V3 m) c)
    (fun c => Cert.Kernel.Rg.body_obligation1 (Cert.Kernel.Rg.V4 m) c)
    (fun c => Cert.Kernel.Rg.body_obligation2 (Cert.Kernel.Rg.V6 m) c)
    (fun c => Cert.Kernel.Rg.body_obligation3 (Cert.Kernel.Rg.V8 m) c)
    (fun c => Cert.Kernel.Rg.body_obligation4 (Cert.Kernel.Rg.V9 m) c)
    (fun c => Cert.Kernel.Rg.body_obligation5 (Cert.Kernel.Rg.V11 m) c)
    (fun c => Cert.Kernel.Rg.body_obligation6 (Cert.Kernel.Rg.V13 m) c)
    (fun c => Cert.Kernel.Rg.body_obligation7 (Cert.Kernel.Rg.V14 m) c)
    (fun c => Cert.Kernel.Rg.body_obligation8 (Cert.Kernel.Rg.V16 m) c)
    (fun c => Cert.Kernel.Rg.hout0 (Cert.Kernel.Rg.V3 m) c)
    (fun c => Cert.Kernel.Rg.hout1 (Cert.Kernel.Rg.V4 m) c)
    (fun c => BI.Entails.refl _)
    (fun c => Cert.Kernel.Rg.hout3 (Cert.Kernel.Rg.V8 m) c)
    (fun c => Cert.Kernel.Rg.hout4 (Cert.Kernel.Rg.V9 m) c)
    (fun c => BI.Entails.refl _)
    (fun c => Cert.Kernel.Rg.hout6 (Cert.Kernel.Rg.V13 m) c)
    (fun c => Cert.Kernel.Rg.hout7 (Cert.Kernel.Rg.V14 m) c)
    (fun c => BI.Entails.refl _)

theorem frame_k [Cert.Kernel.Facts] [Cert.Pre_finite_inputs.Facts] : Cert.frame_Kernel := fun m ρ _ =>
  (θ_run Cert.Kernel.defs _ _).mono (fun r h c =>
    ⟨(h c _ (Cert.Kernel.Rg.mem_uc Cert.Kernel.main_arg0 (by decide))).trans (Cert.Kernel.Rg.W19_main_arg0 m c),
      (h c _ (Cert.Kernel.Rg.mem_uc Cert.Kernel.main_arg1 (by decide))).trans (Cert.Kernel.Rg.W19_main_arg1 m c),
      (h c _ (Cert.Kernel.Rg.mem_uc Cert.Kernel.main_arg2 (by decide))).trans (Cert.Kernel.Rg.W19_main_arg2 m c),
      (h c _ (Cert.Kernel.Rg.mem_uc Cert.Kernel.main_arg3 (by decide))).trans (Cert.Kernel.Rg.W19_main_arg3 m c),
      (h c _ (Cert.Kernel.Rg.mem_uc Cert.Kernel.main_arg4 (by decide))).trans (Cert.Kernel.Rg.W19_main_arg4 m c),
      (h c _ (Cert.Kernel.Rg.mem_uc Cert.Kernel.main_arg5 (by decide))).trans (Cert.Kernel.Rg.W19_main_arg5 m c),
      (h c _ (Cert.Kernel.Rg.mem_uc Cert.Kernel.main_arg6 (by decide))).trans (Cert.Kernel.Rg.W19_main_arg6 m c),
      (h c _ (Cert.Kernel.Rg.mem_uc Cert.Kernel.main_arg7 (by decide))).trans (Cert.Kernel.Rg.W19_main_arg7 m c),
      (h c _ (Cert.Kernel.Rg.mem_uc Cert.Kernel.main_arg8 (by decide))).trans (Cert.Kernel.Rg.W19_main_arg8 m c),
      (h c _ (Cert.Kernel.Rg.mem_uc Cert.Kernel.main_arg9 (by decide))).trans (Cert.Kernel.Rg.W19_main_arg9 m c),
      (h c _ (Cert.Kernel.Rg.mem_uc Cert.Kernel.main_arg10 (by decide))).trans (Cert.Kernel.Rg.W19_main_arg10 m c),
      (h c _ (Cert.Kernel.Rg.mem_uc Cert.Kernel.main_arg11 (by decide))).trans (Cert.Kernel.Rg.W19_main_arg11 m c),
      (h c _ (Cert.Kernel.Rg.mem_uc Cert.Kernel.main_arg12 (by decide))).trans (Cert.Kernel.Rg.W19_main_arg12 m c),
      (h c _ (Cert.Kernel.Rg.mem_uc Cert.Kernel.main_arg13 (by decide))).trans (Cert.Kernel.Rg.W19_main_arg13 m c)⟩) (k_run (F := Bits) m ρ)

theorem frame_ki [Cert.KernelIdeal.Facts] [Cert.Pre_finite_inputs.Facts] : Cert.frame_KernelIdeal := fun m ρ _ =>
  (θ_run Cert.KernelIdeal.defs _ _).mono (fun r h c =>
    ⟨(h c _ (Cert.KernelIdeal.Rg.mem_uc Cert.KernelIdeal.main_arg0 (by decide))).trans (Cert.KernelIdeal.Rg.W19_main_arg0 m c),
      (h c _ (Cert.KernelIdeal.Rg.mem_uc Cert.KernelIdeal.main_arg1 (by decide))).trans (Cert.KernelIdeal.Rg.W19_main_arg1 m c),
      (h c _ (Cert.KernelIdeal.Rg.mem_uc Cert.KernelIdeal.main_arg2 (by decide))).trans (Cert.KernelIdeal.Rg.W19_main_arg2 m c),
      (h c _ (Cert.KernelIdeal.Rg.mem_uc Cert.KernelIdeal.main_arg3 (by decide))).trans (Cert.KernelIdeal.Rg.W19_main_arg3 m c),
      (h c _ (Cert.KernelIdeal.Rg.mem_uc Cert.KernelIdeal.main_arg4 (by decide))).trans (Cert.KernelIdeal.Rg.W19_main_arg4 m c),
      (h c _ (Cert.KernelIdeal.Rg.mem_uc Cert.KernelIdeal.main_arg5 (by decide))).trans (Cert.KernelIdeal.Rg.W19_main_arg5 m c),
      (h c _ (Cert.KernelIdeal.Rg.mem_uc Cert.KernelIdeal.main_arg6 (by decide))).trans (Cert.KernelIdeal.Rg.W19_main_arg6 m c),
      (h c _ (Cert.KernelIdeal.Rg.mem_uc Cert.KernelIdeal.main_arg7 (by decide))).trans (Cert.KernelIdeal.Rg.W19_main_arg7 m c),
      (h c _ (Cert.KernelIdeal.Rg.mem_uc Cert.KernelIdeal.main_arg8 (by decide))).trans (Cert.KernelIdeal.Rg.W19_main_arg8 m c),
      (h c _ (Cert.KernelIdeal.Rg.mem_uc Cert.KernelIdeal.main_arg9 (by decide))).trans (Cert.KernelIdeal.Rg.W19_main_arg9 m c),
      (h c _ (Cert.KernelIdeal.Rg.mem_uc Cert.KernelIdeal.main_arg10 (by decide))).trans (Cert.KernelIdeal.Rg.W19_main_arg10 m c),
      (h c _ (Cert.KernelIdeal.Rg.mem_uc Cert.KernelIdeal.main_arg11 (by decide))).trans (Cert.KernelIdeal.Rg.W19_main_arg11 m c),
      (h c _ (Cert.KernelIdeal.Rg.mem_uc Cert.KernelIdeal.main_arg12 (by decide))).trans (Cert.KernelIdeal.Rg.W19_main_arg12 m c),
      (h c _ (Cert.KernelIdeal.Rg.mem_uc Cert.KernelIdeal.main_arg13 (by decide))).trans (Cert.KernelIdeal.Rg.W19_main_arg13 m c)⟩) (ki_run (F := Ideal) m ρ)

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.RefRun.run (F := Ideal) m ρ)

theorem algebraic [Cert.KernelIdeal.Facts] [Cert.ReferenceIdeal.Facts] [Cert.Pre_finite_inputs.Facts] : Cert.algebraic_KernelIdeal_ReferenceIdeal := by
  intro m ρ m' ρ' hpre hagree
  refine ⟨fun c => Cert.KernelIdeal.Rg.W19 m c (Proc.devRef .tc Cert.KernelIdeal.main_v46), ?_, ?_⟩
  · exact (θ_run Cert.KernelIdeal.defs _ _).mono (fun r h c =>
      ⟨h c _ (Cert.KernelIdeal.Rg.mem_uc Cert.KernelIdeal.main_v46 (by decide)),
      (h c _ (Cert.KernelIdeal.Rg.mem_uc Cert.KernelIdeal.main_arg0 (by decide))).trans (Cert.KernelIdeal.Rg.W19_main_arg0 m c),
      (h c _ (Cert.KernelIdeal.Rg.mem_uc Cert.KernelIdeal.main_arg1 (by decide))).trans (Cert.KernelIdeal.Rg.W19_main_arg1 m c),
      (h c _ (Cert.KernelIdeal.Rg.mem_uc Cert.KernelIdeal.main_arg2 (by decide))).trans (Cert.KernelIdeal.Rg.W19_main_arg2 m c),
      (h c _ (Cert.KernelIdeal.Rg.mem_uc Cert.KernelIdeal.main_arg3 (by decide))).trans (Cert.KernelIdeal.Rg.W19_main_arg3 m c),
      (h c _ (Cert.KernelIdeal.Rg.mem_uc Cert.KernelIdeal.main_arg4 (by decide))).trans (Cert.KernelIdeal.Rg.W19_main_arg4 m c),
      (h c _ (Cert.KernelIdeal.Rg.mem_uc Cert.KernelIdeal.main_arg5 (by decide))).trans (Cert.KernelIdeal.Rg.W19_main_arg5 m c),
      (h c _ (Cert.KernelIdeal.Rg.mem_uc Cert.KernelIdeal.main_arg6 (by decide))).trans (Cert.KernelIdeal.Rg.W19_main_arg6 m c),
      (h c _ (Cert.KernelIdeal.Rg.mem_uc Cert.KernelIdeal.main_arg7 (by decide))).trans (Cert.KernelIdeal.Rg.W19_main_arg7 m c),
      (h c _ (Cert.KernelIdeal.Rg.mem_uc Cert.KernelIdeal.main_arg8 (by decide))).trans (Cert.KernelIdeal.Rg.W19_main_arg8 m c),
      (h c _ (Cert.KernelIdeal.Rg.mem_uc Cert.KernelIdeal.main_arg9 (by decide))).trans (Cert.KernelIdeal.Rg.W19_main_arg9 m c),
      (h c _ (Cert.KernelIdeal.Rg.mem_uc Cert.KernelIdeal.main_arg10 (by decide))).trans (Cert.KernelIdeal.Rg.W19_main_arg10 m c),
      (h c _ (Cert.KernelIdeal.Rg.mem_uc Cert.KernelIdeal.main_arg11 (by decide))).trans (Cert.KernelIdeal.Rg.W19_main_arg11 m c),
      (h c _ (Cert.KernelIdeal.Rg.mem_uc Cert.KernelIdeal.main_arg12 (by decide))).trans (Cert.KernelIdeal.Rg.W19_main_arg12 m c),
      (h c _ (Cert.KernelIdeal.Rg.mem_uc Cert.KernelIdeal.main_arg13 (by decide))).trans (Cert.KernelIdeal.Rg.W19_main_arg13 m c)⟩) (ki_run (F := Ideal) m ρ)
  · refine (θ_run Cert.ReferenceIdeal.defs _ _).mono (fun r h c => ⟨(h c).1.trans ?_, (h c).2⟩) (Cert.ReferenceIdeal.RefRun.run (F := Ideal) m' ρ')
    obtain ⟨colN, hcol⟩ := Cert.Pre_finite_inputs.Decode.col_in_range (F := Ideal) _ _ _ _ _ _ _ _ _ _ _ _ _ _ (hpre c)
    obtain ⟨a0, a1, a2, a3, a4, a5, a6, a7, a8, a9, a10, a11, a12, a13⟩ := hagree c
    rw [a0, a1, a2, a3, a4, a5, a6, a7, a8, a9, a10, a11, a12, a13]
    exact (Cert.Join.result_join m c colN hcol).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
